-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65472x256 : Shape := ⟨2, ![65472, 256]⟩
abbrev S256x256 : Shape := ⟨2, ![256, 256]⟩
abbrev S256 : Shape := ⟨1, ![256]⟩
abbrev S1023x64 : Shape := ⟨2, ![1023, 64]⟩
abbrev S_ : Shape := ⟨0, ![]⟩

class Facts : Prop where
  bcast_S_S65472x256 : S_.BroadcastsInDim S65472x256 (![] : Fin 0 → Fin S65472x256.rank)
  reducesTo_S65472x256_S_d0_1 : S65472x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1023x64 : S_.BroadcastsInDim S1023x64 (![] : Fin 0 → Fin S1023x64.rank)
  reducesTo_S1023x64_S_d0_1 : S1023x64.ReducesTo [0, 1] S_

variable [Facts]

def fn_part1 {F : FTy → Type} [FloatOps F] (main_arg4 : FVec F S256 .f32) (main_arg5 : IVec S1023x64 32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S1023x64 32 := broadcastInDim S1023x64 ![] bcast_S_S1023x64 main_c_8
  let main_v25 : IVec S1023x64 1 := cmpi .sge main_arg5 main_v24
  let main_c_9 : IVec S_ 32 := constantI S_ 32 65472#32
  let main_v26 : IVec S1023x64 32 := broadcastInDim S1023x64 ![] bcast_S_S1023x64 main_c_9
  let main_v27 : IVec S1023x64 1 := cmpi .slt main_arg5 main_v26
  let main_v28 : IVec S1023x64 1 := andi main_v25 main_v27
  let main_c_10 : IVec S_ 1 := constantI S_ 1 1#1
  let main_v29 : IVec S_ 1 := (fun x v => Host.reduce IntOp.andi x v reducesTo_S1023x64_S_d0_1 h_S_) main_v28 main_c_10
  let main_v30 : IVec S_ 1 := andi main_v23 main_v29
  main_v30

def fn {F : FTy → Type} [FloatOps F] (main_arg0 : FVec F S65472x256 .f32) (main_arg1 : FVec F S256x256 .f32) (main_arg2 : FVec F S256 .f32) (main_arg3 : FVec F S256x256 .f32) (main_arg4 : FVec F S256 .f32) (main_arg5 : IVec S1023x64 32) : IVec S_ 1 :=
  let main_v0 : FVec F S65472x256 .f32 := Host.absf main_arg0
  let main_cst : FVec F S_ .f32 := constant S_ .f32 0x7F800000#32
  let main_v1 : FVec F S65472x256 .f32 := broadcastInDim S65472x256 ![] bcast_S_S65472x256 main_cst
  let main_v2 : IVec S65472x256 1 := cmpf .olt main_v0 main_v1
  let main_c : IVec S_ 1 := constantI S_ 1 1#1
  let main_v3 : IVec S_ 1 := (fun x v => Host.reduce IntOp.andi x v reducesTo_S65472x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S65472x256 : Shape := ⟨2, ![65472, 256]⟩
abbrev S256x256 : Shape := ⟨2, ![256, 256]⟩
abbrev S256 : Shape := ⟨1, ![256]⟩
abbrev S1023x64 : Shape := ⟨2, ![1023, 64]⟩
abbrev S1023 : Shape := ⟨1, ![1023]⟩
abbrev S65472 : Shape := ⟨1, ![65472]⟩
abbrev S65472x1x256 : Shape := ⟨3, ![65472, 1, 256]⟩
abbrev S1x1x256 : Shape := ⟨3, ![1, 1, 256]⟩
abbrev S1 : Shape := ⟨1, ![1]⟩
abbrev S2112x1x256 : Shape := ⟨3, ![2112, 1, 256]⟩
abbrev S2112x256 : Shape := ⟨2, ![2112, 256]⟩
abbrev S1x256 : Shape := ⟨2, ![1, 256]⟩
abbrev S1023x64x256 : Shape := ⟨3, ![1023, 64, 256]⟩
abbrev S512x64x256 : Shape := ⟨3, ![512, 64, 256]⟩
abbrev S256x64x256 : Shape := ⟨3, ![256, 64, 256]⟩
abbrev S64x64x256 : Shape := ⟨3, ![64, 64, 256]⟩
abbrev S32x64x256 : Shape := ⟨3, ![32, 64, 256]⟩
abbrev S4096x256 : Shape := ⟨2, ![4096, 256]⟩
abbrev S32x2x64x256 : Shape := ⟨4, ![32, 2, 64, 256]⟩
abbrev S32x1x64x256 : Shape := ⟨4, ![32, 1, 64, 256]⟩
abbrev S_ : Shape := ⟨0, ![]⟩
abbrev S128x64x256 : Shape := ⟨3, ![128, 64, 256]⟩
abbrev S16x64x256 : Shape := ⟨3, ![16, 64, 256]⟩
abbrev S2048x256 : Shape := ⟨2, ![2048, 256]⟩
abbrev S16x2x64x256 : Shape := ⟨4, ![16, 2, 64, 256]⟩
abbrev S16x1x64x256 : Shape := ⟨4, ![16, 1, 64, 256]⟩
abbrev S8x64x256 : Shape := ⟨3, ![8, 64, 256]⟩
abbrev S1024x256 : Shape := ⟨2, ![1024, 256]⟩
abbrev S8x2x64x256 : Shape := ⟨4, ![8, 2, 64, 256]⟩
abbrev S8x1x64x256 : Shape := ⟨4, ![8, 1, 64, 256]⟩
abbrev S4x64x256 : Shape := ⟨3, ![4, 64, 256]⟩
abbrev S512x256 : Shape := ⟨2, ![512, 256]⟩
abbrev S4x2x64x256 : Shape := ⟨4, ![4, 2, 64, 256]⟩
abbrev S4x1x64x256 : Shape := ⟨4, ![4, 1, 64, 256]⟩
abbrev S2x64x256 : Shape := ⟨3, ![2, 64, 256]⟩
abbrev S2x2x64x256 : Shape := ⟨4, ![2, 2, 64, 256]⟩
abbrev S2x1x64x256 : Shape := ⟨4, ![2, 1, 64, 256]⟩
abbrev S1x64x256 : Shape := ⟨3, ![1, 64, 256]⟩
abbrev S128x256 : Shape := ⟨2, ![128, 256]⟩
abbrev S1x2x64x256 : Shape := ⟨4, ![1, 2, 64, 256]⟩
abbrev S1x1x64x256 : Shape := ⟨4, ![1, 1, 64, 256]⟩
abbrev S64x256 : Shape := ⟨2, ![64, 256]⟩

abbrev nBuf : Space → Nat
  | .hbm => 77
  | .vmem => 70
  | .smem => 2
  | _ => 0

abbrev bufTy : (tb : Table) → Fin (tcTables nBuf tb) → BufTy
  | .hbm, ⟨0, _⟩ => ⟨S65472x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1023x64, .i32⟩
  | .hbm, ⟨6, _⟩ => ⟨S256x256, .f32⟩
  | .hbm, ⟨7, _⟩ => ⟨S256x256, .f32⟩
  | .hbm, ⟨8, _⟩ => ⟨S65472x1x256, .f32⟩
  | .hbm, ⟨9, _⟩ => ⟨S65472x1x256, .f32⟩
  | .hbm, ⟨10, _⟩ => ⟨S65472x1x256, .f32⟩
  | .hbm, ⟨11, _⟩ => ⟨S1023x64x256, .f32⟩
  | .hbm, ⟨12, _⟩ => ⟨S512x64x256, .f32⟩
  | .hbm, ⟨13, _⟩ => ⟨S256x64x256, .f32⟩
  | .hbm, ⟨14, _⟩ => ⟨S256x64x256, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1023x64x256, .f32⟩
  | .hbm, ⟨19, _⟩ => ⟨S256x64x256, .f32⟩
  | .hbm, ⟨20, _⟩ => ⟨S128x64x256, .f32⟩
  | .hbm, ⟨21, _⟩ => ⟨S128x64x256, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1023x64x256, .f32⟩
  | .hbm, ⟨26, _⟩ => ⟨S128x64x256, .f32⟩
  | .hbm, ⟨27, _⟩ => ⟨S64x64x256, .f32⟩
  | .hbm, ⟨28, _⟩ => ⟨S64x64x256, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1023x64x256, .f32⟩
  | .hbm, ⟨33, _⟩ => ⟨S64x64x256, .f32⟩
  | .hbm, ⟨34, _⟩ => ⟨S32x64x256, .f32⟩
  | .hbm, ⟨35, _⟩ => ⟨S32x64x256, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1023x64x256, .f32⟩
  | .hbm, ⟨40, _⟩ => ⟨S32x64x256, .f32⟩
  | .hbm, ⟨41, _⟩ => ⟨S16x64x256, .f32⟩
  | .hbm, ⟨42, _⟩ => ⟨S16x64x256, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1023x64x256, .f32⟩
  | .hbm, ⟨47, _⟩ => ⟨S16x64x256, .f32⟩
  | .hbm, ⟨48, _⟩ => ⟨S8x64x256, .f32⟩
  | .hbm, ⟨49, _⟩ => ⟨S8x64x256, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1023x64x256, .f32⟩
  | .hbm, ⟨54, _⟩ => ⟨S8x64x256, .f32⟩
  | .hbm, ⟨55, _⟩ => ⟨S4x64x256, .f32⟩
  | .hbm, ⟨56, _⟩ => ⟨S4x64x256, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1023x64x256, .f32⟩
  | .hbm, ⟨61, _⟩ => ⟨S4x64x256, .f32⟩
  | .hbm, ⟨62, _⟩ => ⟨S2x64x256, .f32⟩
  | .hbm, ⟨63, _⟩ => ⟨S2x64x256, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1023x64x256, .f32⟩
  | .hbm, ⟨68, _⟩ => ⟨S2x64x256, .f32⟩
  | .hbm, ⟨69, _⟩ => ⟨S1x64x256, .f32⟩
  | .hbm, ⟨70, _⟩ => ⟨S1x64x256, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1023x64x256, .f32⟩
  | .hbm, ⟨75, _⟩ => ⟨S1023x64x256, .f32⟩
  | .hbm, ⟨76, _⟩ => ⟨S64x256, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S2112x1x256, .f32⟩
  | .local _ .vmem, ⟨5, _⟩ => ⟨S2112x1x256, .f32⟩
  | .local _ .vmem, ⟨6, _⟩ => ⟨S256x256, .f32⟩
  | .local _ .vmem, ⟨7, _⟩ => ⟨S256, .f32⟩
  | .local _ .vmem, ⟨8, _⟩ => ⟨S2112x1x256, .f32⟩
  | .local _ .vmem, ⟨9, _⟩ => ⟨S2112x1x256, .f32⟩
  | .local _ .vmem, ⟨10, _⟩ => ⟨S64x64x256, .f32⟩
  | .local _ .vmem, ⟨11, _⟩ => ⟨S64x64x256, .f32⟩
  | .local _ .vmem, ⟨12, _⟩ => ⟨S32x64x256, .f32⟩
  | .local _ .vmem, ⟨13, _⟩ => ⟨S32x64x256, .f32⟩
  | .local _ .vmem, ⟨14, _⟩ => ⟨S256x256, .f32⟩
  | .local _ .vmem, ⟨15, _⟩ => ⟨S256, .f32⟩
  | .local _ .vmem, ⟨16, _⟩ => ⟨S32x64x256, .f32⟩
  | .local _ .vmem, ⟨17, _⟩ => ⟨S32x64x256, .f32⟩
  | .local _ .vmem, ⟨18, _⟩ => ⟨S64x64x256, .f32⟩
  | .local _ .vmem, ⟨19, _⟩ => ⟨S64x64x256, .f32⟩
  | .local _ .vmem, ⟨20, _⟩ => ⟨S32x64x256, .f32⟩
  | .local _ .vmem, ⟨21, _⟩ => ⟨S32x64x256, .f32⟩
  | .local _ .vmem, ⟨22, _⟩ => ⟨S256x256, .f32⟩
  | .local _ .vmem, ⟨23, _⟩ => ⟨S256, .f32⟩
  | .local _ .vmem, ⟨24, _⟩ => ⟨S32x64x256, .f32⟩
  | .local _ .vmem, ⟨25, _⟩ => ⟨S32x64x256, .f32⟩
  | .local _ .vmem, ⟨26, _⟩ => ⟨S64x64x256, .f32⟩
  | .local _ .vmem, ⟨27, _⟩ => ⟨S64x64x256, .f32⟩
  | .local _ .vmem, ⟨28, _⟩ => ⟨S32x64x256, .f32⟩
  | .local _ .vmem, ⟨29, _⟩ => ⟨S32x64x256, .f32⟩
  | .local _ .vmem, ⟨30, _⟩ => ⟨S256x256, .f32⟩
  | .local _ .vmem, ⟨31, _⟩ => ⟨S256, .f32⟩
  | .local _ .vmem, ⟨32, _⟩ => ⟨S32x64x256, .f32⟩
  | .local _ .vmem, ⟨33, _⟩ => ⟨S32x64x256, .f32⟩
  | .local _ .vmem, ⟨34, _⟩ => ⟨S64x64x256, .f32⟩
  | .local _ .vmem, ⟨35, _⟩ => ⟨S32x64x256, .f32⟩
  | .local _ .vmem, ⟨36, _⟩ => ⟨S256x256, .f32⟩
  | .local _ .vmem, ⟨37, _⟩ => ⟨S256, .f32⟩
  | .local _ .vmem, ⟨38, _⟩ => ⟨S32x64x256, .f32⟩
  | .local _ .vmem, ⟨39, _⟩ => ⟨S32x64x256, .f32⟩
  | .local _ .vmem, ⟨40, _⟩ => ⟨S16x64x256, .f32⟩
  | .local _ .vmem, ⟨41, _⟩ => ⟨S256x256, .f32⟩
  | .local _ .vmem, ⟨42, _⟩ => ⟨S256, .f32⟩
  | .local _ .vmem, ⟨43, _⟩ => ⟨S16x64x256, .f32⟩
  | .local _ .vmem, ⟨44, _⟩ => ⟨S16x64x256, .f32⟩
  | .local _ .vmem, ⟨45, _⟩ => ⟨S8x64x256, .f32⟩
  | .local _ .vmem, ⟨46, _⟩ => ⟨S256x256, .f32⟩
  | .local _ .vmem, ⟨47, _⟩ => ⟨S256, .f32⟩
  | .local _ .vmem, ⟨48, _⟩ => ⟨S8x64x256, .f32⟩
  | .local _ .vmem, ⟨49, _⟩ => ⟨S8x64x256, .f32⟩
  | .local _ .vmem, ⟨50, _⟩ => ⟨S4x64x256, .f32⟩
  | .local _ .vmem, ⟨51, _⟩ => ⟨S256x256, .f32⟩
  | .local _ .vmem, ⟨52, _⟩ => ⟨S256, .f32⟩
  | .local _ .vmem, ⟨53, _⟩ => ⟨S4x64x256, .f32⟩
  | .local _ .vmem, ⟨54, _⟩ => ⟨S4x64x256, .f32⟩
  | .local _ .vmem, ⟨55, _⟩ => ⟨S2x64x256, .f32⟩
  | .local _ .vmem, ⟨56, _⟩ => ⟨S256x256, .f32⟩
  | .local _ .vmem, ⟨57, _⟩ => ⟨S256, .f32⟩
  | .local _ .vmem, ⟨58, _⟩ => ⟨S2x64x256, .f32⟩
  | .local _ .vmem, ⟨59, _⟩ => ⟨S2x64x256, .f32⟩
  | .local _ .vmem, ⟨60, _⟩ => ⟨S1x64x256, .f32⟩
  | .local _ .vmem, ⟨61, _⟩ => ⟨S256x256, .f32⟩
  | .local _ .vmem, ⟨62, _⟩ => ⟨S256, .f32⟩
  | .local _ .vmem, ⟨63, _⟩ => ⟨S1x64x256, .f32⟩
  | .local _ .vmem, ⟨64, _⟩ => ⟨S1x64x256, .f32⟩
  | .local _ .vmem, ⟨65, _⟩ => ⟨S1x64x256, .f32⟩
  | .local _ .vmem, ⟨66, _⟩ => ⟨S1x64x256, .f32⟩
  | .local _ .vmem, ⟨67, _⟩ => ⟨S1x64x256, .f32⟩
  | .local _ .vmem, ⟨68, _⟩ => ⟨S64x256, .f32⟩
  | .local _ .vmem, ⟨69, _⟩ => ⟨S1x64x256, .f32⟩
  | .local _ .smem, ⟨0, _⟩ => ⟨S65472, .i32⟩
  | .local _ .smem, ⟨1, _⟩ => ⟨S1023, .i32⟩
  | _, _ => ⟨S65472x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_c_4 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_6 : Ref sig .tc := ⟨.hbm, 29, rfl⟩
abbrev main_c_7 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_9 : Ref sig .tc := ⟨.hbm, 36, rfl⟩
abbrev main_c_10 : Ref sig .tc := ⟨.hbm, 37, rfl⟩
abbrev main_c_11 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_12 : Ref sig .tc := ⟨.hbm, 43, rfl⟩
abbrev main_c_13 : Ref sig .tc := ⟨.hbm, 44, rfl⟩
abbrev main_c_14 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_15 : Ref sig .tc := ⟨.hbm, 50, rfl⟩
abbrev main_c_16 : Ref sig .tc := ⟨.hbm, 51, rfl⟩
abbrev main_c_17 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_18 : Ref sig .tc := ⟨.hbm, 57, rfl⟩
abbrev main_c_19 : Ref sig .tc := ⟨.hbm, 58, rfl⟩
abbrev main_c_20 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_21 : Ref sig .tc := ⟨.hbm, 64, rfl⟩
abbrev main_c_22 : Ref sig .tc := ⟨.hbm, 65, rfl⟩
abbrev main_c_23 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_24 : Ref sig .tc := ⟨.hbm, 71, rfl⟩
abbrev main_c_25 : Ref sig .tc := ⟨.hbm, 72, rfl⟩
abbrev main_c_26 : Ref sig .tc := ⟨.hbm, 73, rfl⟩
abbrev main_v42 : Ref sig .tc := ⟨.hbm, 74, rfl⟩
abbrev main_v43_0 : Ref sig .tc := ⟨.hbm, 75, rfl⟩
abbrev main_v43_1 : Ref sig .tc := ⟨.hbm, 76, rfl⟩
abbrev main_v0 : Ref sig .tc := ⟨.smem, 0, rfl⟩
abbrev main_c : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg4_0 : Ref sig .tc := ⟨.vmem, 43, rfl⟩
abbrev cc7_stg0_0 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc8_stg0_0 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc9_stg0_0 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc10_stg0_0 : Ref sig .tc := ⟨.vmem, 59, rfl⟩
abbrev cc10_stg1_0 : Ref sig .tc := ⟨.vmem, 60, rfl⟩
abbrev cc10_stg2_0 : Ref sig .tc := ⟨.vmem, 61, rfl⟩
abbrev cc10_stg3_0 : Ref sig .tc := ⟨.vmem, 62, rfl⟩
abbrev cc10_stg4_0 : Ref sig .tc := ⟨.vmem, 63, rfl⟩
abbrev cc11_stg0_0 : Ref sig .tc := ⟨.vmem, 64, rfl⟩
abbrev cc11_stg0_1 : Ref sig .tc := ⟨.vmem, 65, rfl⟩
abbrev cc11_stg1_0 : Ref sig .tc := ⟨.vmem, 66, rfl⟩
abbrev cc11_stg1_1 : Ref sig .tc := ⟨.vmem, 67, rfl⟩
abbrev cc11_stg2_0 : Ref sig .tc := ⟨.vmem, 68, rfl⟩
abbrev cc11_scratch0 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem1_0 : DmaSem sig := 35
abbrev cc5_sem2_0 : DmaSem sig := 36
abbrev cc5_sem3_0 : DmaSem sig := 37
abbrev cc5_sem4_0 : DmaSem sig := 38
abbrev cc6_sem0_0 : DmaSem sig := 39
abbrev cc6_sem1_0 : DmaSem sig := 40
abbrev cc6_sem2_0 : DmaSem sig := 41
abbrev cc6_sem3_0 : DmaSem sig := 42
abbrev cc6_sem4_0 : DmaSem sig := 43
abbrev cc7_sem0_0 : DmaSem sig := 44
abbrev cc7_sem1_0 : DmaSem sig := 45
abbrev cc7_sem2_0 : DmaSem sig := 46
abbrev cc7_sem3_0 : DmaSem sig := 47
abbrev cc7_sem4_0 : DmaSem sig := 48
abbrev cc8_sem0_0 : DmaSem sig := 49
abbrev cc8_sem1_0 : DmaSem sig := 50
abbrev cc8_sem2_0 : DmaSem sig := 51
abbrev cc8_sem3_0 : DmaSem sig := 52
abbrev cc8_sem4_0 : DmaSem sig := 53
abbrev cc9_sem0_0 : DmaSem sig := 54
abbrev cc9_sem1_0 : DmaSem sig := 55
abbrev cc9_sem2_0 : DmaSem sig := 56
abbrev cc9_sem3_0 : DmaSem sig := 57
abbrev cc9_sem4_0 : DmaSem sig := 58
abbrev cc10_sem0_0 : DmaSem sig := 59
abbrev cc10_sem1_0 : DmaSem sig := 60
abbrev cc10_sem2_0 : DmaSem sig := 61
abbrev cc10_sem3_0 : DmaSem sig := 62
abbrev cc10_sem4_0 : DmaSem sig := 63
abbrev cc11_sem0_0 : DmaSem sig := 64
abbrev cc11_sem0_1 : DmaSem sig := 65
abbrev cc11_sem1_0 : DmaSem sig := 66
abbrev cc11_sem1_1 : DmaSem sig := 67
abbrev cc11_sem2_0 : DmaSem sig := 68

abbrev nD : Nat := 1
abbrev τ : Topo := Topo.v7x

variable {F : FTy → Type} [FloatOps F]

abbrev grid0 : Pipeline.Grid := ⟨1, ![65472], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S65472.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65472) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![31], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2112x1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2112x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S32x64x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S64x64x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x64x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S32x64x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S64x64x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S32x64x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S32x64x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 1 → Memref sig .tc .vmem S64x64x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S32x64x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x64x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 1 → Memref sig .tc .vmem S32x64x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S16x64x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S16x64x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev grid7 : Pipeline.Grid := ⟨1, ![1], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 1 → Memref sig .tc .vmem S16x64x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S8x64x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S8x64x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 1 → Memref sig .tc .vmem S8x64x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S4x64x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S4x64x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev grid9 : Pipeline.Grid := ⟨1, ![1], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 1 → Memref sig .tc .vmem S4x64x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S2x64x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S2x64x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev grid10 : Pipeline.Grid := ⟨1, ![1], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_4 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 1 → Memref sig .tc .vmem S2x64x256 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S1x64x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S256x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev grid11 : Pipeline.Grid := ⟨1, ![1023], ![false]⟩

abbrev pre11 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S1023.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S1023) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1x64x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x64x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

class Facts₀ : Prop where
  shapeCasts_S1023x64_S65472 : S1023x64.ShapeCasts S65472
  transposes_S256x256_S256x256_1_0 : S256x256.Transposes [1, 0] S256x256
  shapeCasts_S65472x256_S65472x1x256 : S65472x256.ShapeCasts S65472x1x256
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  inb_S2112x1x256_S2112x1x256_0_0_0 : ∀ a, (![0, 0, 0] : Fin 3 → Nat) a + S2112x1x256.size a ≤ S2112x1x256.size a
  h_S2112x1x256 : 0 < S2112x1x256.numel
  shapeCasts_S2112x1x256_S2112x1x256 : S2112x1x256.ShapeCasts S2112x1x256
  shapeCasts_S2112x1x256_S2112x256 : S2112x1x256.ShapeCasts S2112x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2112x256 : S1x256.Broadcasts S2112x256
  shapeCasts_S2112x256_S2112x1x256 : S2112x256.ShapeCasts S2112x1x256
  shapeCasts_S65472x1x256_S1023x64x256 : S65472x1x256.ShapeCasts S1023x64x256
  slices_S1023x64x256_S512x64x256_511_0_0 : S1023x64x256.Slices ![511, 0, 0] S512x64x256
  slices_S1023x64x256_S256x64x256_255_0_0 : S1023x64x256.Slices ![255, 0, 0] S256x64x256
  inb_S64x64x256_S64x64x256_0_0_0 : ∀ a, (![0, 0, 0] : Fin 3 → Nat) a + S64x64x256.size a ≤ S64x64x256.size a
  h_S64x64x256 : 0 < S64x64x256.numel
  shapeCasts_S64x64x256_S64x64x256 : S64x64x256.ShapeCasts S64x64x256
  shapeCasts_S64x64x256_S4096x256 : S64x64x256.ShapeCasts S4096x256
  broadcasts_S1x256_S4096x256 : S1x256.Broadcasts S4096x256
  shapeCasts_S4096x256_S32x2x64x256 : S4096x256.ShapeCasts S32x2x64x256
  slices_S32x2x64x256_o0_0_0_0_S32x1x64x256 : S32x2x64x256.Slices ![0, 0, 0, 0] S32x1x64x256
  shapeCasts_S32x1x64x256_S32x64x256 : S32x1x64x256.ShapeCasts S32x64x256
  slices_S32x2x64x256_o0_1_0_0_S32x1x64x256 : S32x2x64x256.Slices ![0, 1, 0, 0] S32x1x64x256
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  updateFits_S1023x64x256_S256x64x256 : S1023x64x256.Slices (fun _ => 0) S256x64x256
  h_S_ : 0 < S_.numel
  slices_S1023x64x256_S128x64x256_127_0_0 : S1023x64x256.Slices ![127, 0, 0] S128x64x256
  updateFits_S1023x64x256_S128x64x256 : S1023x64x256.Slices (fun _ => 0) S128x64x256
  slices_S1023x64x256_S64x64x256_63_0_0 : S1023x64x256.Slices ![63, 0, 0] S64x64x256
  updateFits_S1023x64x256_S64x64x256 : S1023x64x256.Slices (fun _ => 0) S64x64x256
  slices_S1023x64x256_S32x64x256_31_0_0 : S1023x64x256.Slices ![31, 0, 0] S32x64x256
  updateFits_S1023x64x256_S32x64x256 : S1023x64x256.Slices (fun _ => 0) S32x64x256
  slices_S1023x64x256_S16x64x256_15_0_0 : S1023x64x256.Slices ![15, 0, 0] S16x64x256
  shapeCasts_S32x64x256_S2048x256 : S32x64x256.ShapeCasts S2048x256
  broadcasts_S1x256_S2048x256 : S1x256.Broadcasts S2048x256
  shapeCasts_S2048x256_S16x2x64x256 : S2048x256.ShapeCasts S16x2x64x256
  slices_S16x2x64x256_o0_0_0_0_S16x1x64x256 : S16x2x64x256.Slices ![0, 0, 0, 0] S16x1x64x256
  shapeCasts_S16x1x64x256_S16x64x256 : S16x1x64x256.ShapeCasts S16x64x256
  slices_S16x2x64x256_o0_1_0_0_S16x1x64x256 : S16x2x64x256.Slices ![0, 1, 0, 0] S16x1x64x256
  inb_S16x64x256_S16x64x256_0_0_0 : ∀ a, (![0, 0, 0] : Fin 3 → Nat) a + S16x64x256.size a ≤ S16x64x256.size a
  h_S16x64x256 : 0 < S16x64x256.numel
  shapeCasts_S16x64x256_S16x64x256 : S16x64x256.ShapeCasts S16x64x256
  updateFits_S1023x64x256_S16x64x256 : S1023x64x256.Slices (fun _ => 0) S16x64x256
  slices_S1023x64x256_S8x64x256_7_0_0 : S1023x64x256.Slices ![7, 0, 0] S8x64x256
  shapeCasts_S16x64x256_S1024x256 : S16x64x256.ShapeCasts S1024x256
  broadcasts_S1x256_S1024x256 : S1x256.Broadcasts S1024x256
  shapeCasts_S1024x256_S8x2x64x256 : S1024x256.ShapeCasts S8x2x64x256
  slices_S8x2x64x256_o0_0_0_0_S8x1x64x256 : S8x2x64x256.Slices ![0, 0, 0, 0] S8x1x64x256
  shapeCasts_S8x1x64x256_S8x64x256 : S8x1x64x256.ShapeCasts S8x64x256
  slices_S8x2x64x256_o0_1_0_0_S8x1x64x256 : S8x2x64x256.Slices ![0, 1, 0, 0] S8x1x64x256
  inb_S8x64x256_S8x64x256_0_0_0 : ∀ a, (![0, 0, 0] : Fin 3 → Nat) a + S8x64x256.size a ≤ S8x64x256.size a
  h_S8x64x256 : 0 < S8x64x256.numel
  shapeCasts_S8x64x256_S8x64x256 : S8x64x256.ShapeCasts S8x64x256
  updateFits_S1023x64x256_S8x64x256 : S1023x64x256.Slices (fun _ => 0) S8x64x256
  slices_S1023x64x256_S4x64x256_3_0_0 : S1023x64x256.Slices ![3, 0, 0] S4x64x256
  shapeCasts_S8x64x256_S512x256 : S8x64x256.ShapeCasts S512x256
  broadcasts_S1x256_S512x256 : S1x256.Broadcasts S512x256
  shapeCasts_S512x256_S4x2x64x256 : S512x256.ShapeCasts S4x2x64x256
  slices_S4x2x64x256_o0_0_0_0_S4x1x64x256 : S4x2x64x256.Slices ![0, 0, 0, 0] S4x1x64x256
  shapeCasts_S4x1x64x256_S4x64x256 : S4x1x64x256.ShapeCasts S4x64x256
  slices_S4x2x64x256_o0_1_0_0_S4x1x64x256 : S4x2x64x256.Slices ![0, 1, 0, 0] S4x1x64x256
  inb_S4x64x256_S4x64x256_0_0_0 : ∀ a, (![0, 0, 0] : Fin 3 → Nat) a + S4x64x256.size a ≤ S4x64x256.size a
  h_S4x64x256 : 0 < S4x64x256.numel
  shapeCasts_S4x64x256_S4x64x256 : S4x64x256.ShapeCasts S4x64x256
  updateFits_S1023x64x256_S4x64x256 : S1023x64x256.Slices (fun _ => 0) S4x64x256
  slices_S1023x64x256_S2x64x256_1_0_0 : S1023x64x256.Slices ![1, 0, 0] S2x64x256
  shapeCasts_S4x64x256_S256x256 : S4x64x256.ShapeCasts S256x256
  broadcasts_S1x256_S256x256 : S1x256.Broadcasts S256x256
  shapeCasts_S256x256_S2x2x64x256 : S256x256.ShapeCasts S2x2x64x256
  slices_S2x2x64x256_o0_0_0_0_S2x1x64x256 : S2x2x64x256.Slices ![0, 0, 0, 0] S2x1x64x256
  shapeCasts_S2x1x64x256_S2x64x256 : S2x1x64x256.ShapeCasts S2x64x256
  slices_S2x2x64x256_o0_1_0_0_S2x1x64x256 : S2x2x64x256.Slices ![0, 1, 0, 0] S2x1x64x256
  inb_S2x64x256_S2x64x256_0_0_0 : ∀ a, (![0, 0, 0] : Fin 3 → Nat) a + S2x64x256.size a ≤ S2x64x256.size a
  h_S2x64x256 : 0 < S2x64x256.numel
  shapeCasts_S2x64x256_S2x64x256 : S2x64x256.ShapeCasts S2x64x256
  updateFits_S1023x64x256_S2x64x256 : S1023x64x256.Slices (fun _ => 0) S2x64x256
  slices_S1023x64x256_S1x64x256_0_0_0 : S1023x64x256.Slices ![0, 0, 0] S1x64x256
  shapeCasts_S2x64x256_S128x256 : S2x64x256.ShapeCasts S128x256
  broadcasts_S1x256_S128x256 : S1x256.Broadcasts S128x256
  shapeCasts_S128x256_S1x2x64x256 : S128x256.ShapeCasts S1x2x64x256
  slices_S1x2x64x256_o0_0_0_0_S1x1x64x256 : S1x2x64x256.Slices ![0, 0, 0, 0] S1x1x64x256
  shapeCasts_S1x1x64x256_S1x64x256 : S1x1x64x256.ShapeCasts S1x64x256
  slices_S1x2x64x256_o0_1_0_0_S1x1x64x256 : S1x2x64x256.Slices ![0, 1, 0, 0] S1x1x64x256
  inb_S1x64x256_S1x64x256_0_0_0 : ∀ a, (![0, 0, 0] : Fin 3 → Nat) a + S1x64x256.size a ≤ S1x64x256.size a
  h_S1x64x256 : 0 < S1x64x256.numel
  shapeCasts_S1x64x256_S1x64x256 : S1x64x256.ShapeCasts S1x64x256
  updateFits_S1023x64x256_S1x64x256 : S1023x64x256.Slices (fun _ => 0) S1x64x256
  shapeCasts_S1x64x256_S64x256 : S1x64x256.ShapeCasts S64x256
  inb_S64x256_S64x256_0_0 : ∀ a, (![0, 0] : Fin 2 → Nat) a + S64x256.size a ≤ S64x256.size a
  h_S64x256 : 0 < S64x256.numel
  dot_S2112x256_S256x256_S2112x256_1_0_0_1_n_n_wf : DotDims.WF S2112x256 S256x256 S2112x256 [1] [0] [0] [1] [] []
  dot_S4096x256_S256x256_S4096x256_1_0_0_1_n_n_wf : DotDims.WF S4096x256 S256x256 S4096x256 [1] [0] [0] [1] [] []
  dot_S2048x256_S256x256_S2048x256_1_0_0_1_n_n_wf : DotDims.WF S2048x256 S256x256 S2048x256 [1] [0] [0] [1] [] []
  dot_S1024x256_S256x256_S1024x256_1_0_0_1_n_n_wf : DotDims.WF S1024x256 S256x256 S1024x256 [1] [0] [0] [1] [] []
  dot_S512x256_S256x256_S512x256_1_0_0_1_n_n_wf : DotDims.WF S512x256 S256x256 S512x256 [1] [0] [0] [1] [] []
  dot_S256x256_S256x256_S256x256_1_0_0_1_n_n_wf : DotDims.WF S256x256 S256x256 S256x256 [1] [0] [0] [1] [] []
  dot_S128x256_S256x256_S128x256_1_0_0_1_n_n_wf : DotDims.WF S128x256 S256x256 S128x256 [1] [0] [0] [1] [] []
  hrank0 : 0 < grid0.rank
  k0_off1_inb : ∀ i : grid0.Coords, ∀ a, (k0_off1 i) a + S1.size a ≤ S65472.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S65472x1x256.size a
  hwx0_1 : ∀ i : grid0.Coords, EltTy.bits .f32 = 32 ∨ (Rect.block (s := S65472x1x256) S1x1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2112x1x256.size a ≤ S65472x1x256.size a
  hwx1_0 : ∀ i : grid1.Coords, EltTy.bits .f32 = 32 ∨ (Rect.block (s := S65472x1x256) S2112x1x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2112x1x256.size a ≤ S65472x1x256.size a
  hwx1_3 : ∀ i : grid1.Coords, EltTy.bits .f32 = 32 ∨ (Rect.block (s := S65472x1x256) S2112x1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x64x256.size a ≤ S512x64x256.size a
  hwx2_0 : ∀ i : grid2.Coords, EltTy.bits .f32 = 32 ∨ (Rect.block (s := S512x64x256) S64x64x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x64x256.size a ≤ S256x64x256.size a
  hwx2_1 : ∀ i : grid2.Coords, EltTy.bits .f32 = 32 ∨ (Rect.block (s := S256x64x256) S32x64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S32x64x256.size a ≤ S256x64x256.size a
  hwx2_4 : ∀ i : grid2.Coords, EltTy.bits .f32 = 32 ∨ (Rect.block (s := S256x64x256) S32x64x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x64x256.size a ≤ S256x64x256.size a
  hwx3_0 : ∀ i : grid3.Coords, EltTy.bits .f32 = 32 ∨ (Rect.block (s := S256x64x256) S64x64x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S32x64x256.size a ≤ S128x64x256.size a
  hwx3_1 : ∀ i : grid3.Coords, EltTy.bits .f32 = 32 ∨ (Rect.block (s := S128x64x256) S32x64x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S32x64x256.size a ≤ S128x64x256.size a
  hwx3_4 : ∀ i : grid3.Coords, EltTy.bits .f32 = 32 ∨ (Rect.block (s := S128x64x256) S32x64x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x64x256.size a ≤ S128x64x256.size a
  hwx4_0 : ∀ i : grid4.Coords, EltTy.bits .f32 = 32 ∨ (Rect.block (s := S128x64x256) S64x64x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S32x64x256.size a ≤ S64x64x256.size a
  hwx4_1 : ∀ i : grid4.Coords, EltTy.bits .f32 = 32 ∨ (Rect.block (s := S64x64x256) S32x64x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S32x64x256.size a ≤ S64x64x256.size a
  hwx4_4 : ∀ i : grid4.Coords, EltTy.bits .f32 = 32 ∨ (Rect.block (s := S64x64x256) S32x64x256.size (cc4_transform_4 i) (hinb4_4 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x64x256.size a ≤ S64x64x256.size a
  hwx5_0 : ∀ i : grid5.Coords, EltTy.bits .f32 = 32 ∨ (Rect.block (s := S64x64x256) S64x64x256.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S32x64x256.size a ≤ S32x64x256.size a
  hwx5_1 : ∀ i : grid5.Coords, EltTy.bits .f32 = 32 ∨ (Rect.block (s := S32x64x256) S32x64x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_4 i = cc5_transform_4 i'
  hinb5_4 : ∀ (i : grid5.Coords) a, (cc5_transform_4 i a + 1) * S32x64x256.size a ≤ S32x64x256.size a
  hwx5_4 : ∀ i : grid5.Coords, EltTy.bits .f32 = 32 ∨ (Rect.block (s := S32x64x256) S32x64x256.size (cc5_transform_4 i) (hinb5_4 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S32x64x256.size a ≤ S32x64x256.size a
  hwx6_0 : ∀ i : grid6.Coords, EltTy.bits .f32 = 32 ∨ (Rect.block (s := S32x64x256) S32x64x256.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S16x64x256.size a ≤ S16x64x256.size a
  hwx6_1 : ∀ i : grid6.Coords, EltTy.bits .f32 = 32 ∨ (Rect.block (s := S16x64x256) S16x64x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256.size a ≤ S256.size a
  hwx6_3 : ∀ i : grid6.Coords, EltTy.bits .f32 = 32 ∨ (Rect.block (s := S256) S256.size (cc6_transform_3 i) (hinb6_3 i)).WholeWords (EltTy.packing .f32)
  hstage6_4 : ∀ j, (stage6_4 j).IsWhole
  nbuf6_4 : grid6.bufCount reads6_4 false = 1
  hreads6_4 : ∀ i i' : grid6.Coords, (∀ a, reads6_4 a = true → i a = i' a) → cc6_transform_4 i = cc6_transform_4 i'
  hinb6_4 : ∀ (i : grid6.Coords) a, (cc6_transform_4 i a + 1) * S16x64x256.size a ≤ S16x64x256.size a
  hwx6_4 : ∀ i : grid6.Coords, EltTy.bits .f32 = 32 ∨ (Rect.block (s := S16x64x256) S16x64x256.size (cc6_transform_4 i) (hinb6_4 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S16x64x256.size a ≤ S16x64x256.size a
  hwx7_0 : ∀ i : grid7.Coords, EltTy.bits .f32 = 32 ∨ (Rect.block (s := S16x64x256) S16x64x256.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S8x64x256.size a ≤ S8x64x256.size a
  hwx7_1 : ∀ i : grid7.Coords, EltTy.bits .f32 = 32 ∨ (Rect.block (s := S8x64x256) S8x64x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256.size a ≤ S256.size a
  hwx7_3 : ∀ i : grid7.Coords, EltTy.bits .f32 = 32 ∨ (Rect.block (s := S256) S256.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_4 i = cc7_transform_4 i'
  hinb7_4 : ∀ (i : grid7.Coords) a, (cc7_transform_4 i a + 1) * S8x64x256.size a ≤ S8x64x256.size a
  hwx7_4 : ∀ i : grid7.Coords, EltTy.bits .f32 = 32 ∨ (Rect.block (s := S8x64x256) S8x64x256.size (cc7_transform_4 i) (hinb7_4 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S8x64x256.size a ≤ S8x64x256.size a
  hwx8_0 : ∀ i : grid8.Coords, EltTy.bits .f32 = 32 ∨ (Rect.block (s := S8x64x256) S8x64x256.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S4x64x256.size a ≤ S4x64x256.size a
  hwx8_1 : ∀ i : grid8.Coords, EltTy.bits .f32 = 32 ∨ (Rect.block (s := S4x64x256) S4x64x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S256x256.size a
  hwx8_2 : ∀ i : grid8.Coords, EltTy.bits .f32 = 32 ∨ (Rect.block (s := S256x256) S256x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256.size a ≤ S256.size a
  hwx8_3 : ∀ i : grid8.Coords, EltTy.bits .f32 = 32 ∨ (Rect.block (s := S256) S256.size (cc8_transform_3 i) (hinb8_3 i)).WholeWords (EltTy.packing .f32)
  hstage8_4 : ∀ j, (stage8_4 j).IsWhole
  nbuf8_4 : grid8.bufCount reads8_4 false = 1
  hreads8_4 : ∀ i i' : grid8.Coords, (∀ a, reads8_4 a = true → i a = i' a) → cc8_transform_4 i = cc8_transform_4 i'
  hinb8_4 : ∀ (i : grid8.Coords) a, (cc8_transform_4 i a + 1) * S4x64x256.size a ≤ S4x64x256.size a
  hwx8_4 : ∀ i : grid8.Coords, EltTy.bits .f32 = 32 ∨ (Rect.block (s := S4x64x256) S4x64x256.size (cc8_transform_4 i) (hinb8_4 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S4x64x256.size a ≤ S4x64x256.size a
  hwx9_0 : ∀ i : grid9.Coords, EltTy.bits .f32 = 32 ∨ (Rect.block (s := S4x64x256) S4x64x256.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S2x64x256.size a ≤ S2x64x256.size a
  hwx9_1 : ∀ i : grid9.Coords, EltTy.bits .f32 = 32 ∨ (Rect.block (s := S2x64x256) S2x64x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .f32 = 32 ∨ (Rect.block (s := S256x256) S256x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256.size a ≤ S256.size a
  hwx9_3 : ∀ i : grid9.Coords, EltTy.bits .f32 = 32 ∨ (Rect.block (s := S256) S256.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S2x64x256.size a ≤ S2x64x256.size a
  hwx9_4 : ∀ i : grid9.Coords, EltTy.bits .f32 = 32 ∨ (Rect.block (s := S2x64x256) S2x64x256.size (cc9_transform_4 i) (hinb9_4 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S2x64x256.size a ≤ S2x64x256.size a
  hwx10_0 : ∀ i : grid10.Coords, EltTy.bits .f32 = 32 ∨ (Rect.block (s := S2x64x256) S2x64x256.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S1x64x256.size a ≤ S1x64x256.size a
  hwx10_1 : ∀ i : grid10.Coords, EltTy.bits .f32 = 32 ∨ (Rect.block (s := S1x64x256) S1x64x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x256.size a ≤ S256x256.size a
  hwx10_2 : ∀ i : grid10.Coords, EltTy.bits .f32 = 32 ∨ (Rect.block (s := S256x256) S256x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256.size a ≤ S256.size a
  hwx10_3 : ∀ i : grid10.Coords, EltTy.bits .f32 = 32 ∨ (Rect.block (s := S256) S256.size (cc10_transform_3 i) (hinb10_3 i)).WholeWords (EltTy.packing .f32)
  hstage10_4 : ∀ j, (stage10_4 j).IsWhole
  nbuf10_4 : grid10.bufCount reads10_4 false = 1
  hreads10_4 : ∀ i i' : grid10.Coords, (∀ a, reads10_4 a = true → i a = i' a) → cc10_transform_4 i = cc10_transform_4 i'
  hinb10_4 : ∀ (i : grid10.Coords) a, (cc10_transform_4 i a + 1) * S1x64x256.size a ≤ S1x64x256.size a
  hwx10_4 : ∀ i : grid10.Coords, EltTy.bits .f32 = 32 ∨ (Rect.block (s := S1x64x256) S1x64x256.size (cc10_transform_4 i) (hinb10_4 i)).WholeWords (EltTy.packing .f32)
  hrank11 : 0 < grid11.rank
  k11_off1_inb : ∀ i : grid11.Coords, ∀ a, (k11_off1 i) a + S1.size a ≤ S1023.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x64x256.size a ≤ S1023x64x256.size a
  hwx11_1 : ∀ i : grid11.Coords, EltTy.bits .f32 = 32 ∨ (Rect.block (s := S1023x64x256) S1x64x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x256.size a ≤ S64x256.size a
  hwx11_2 : ∀ i : grid11.Coords, EltTy.bits .f32 = 32 ∨ (Rect.block (s := S64x256) S64x256.size (cc11_transform_2 i) (hinb11_2 i)).WholeWords (EltTy.packing .f32)

variable [Facts₀]

def dot_S2112x256_S256x256_S2112x256_1_0_0_1_n_n : DotDims S2112x256 S256x256 S2112x256 where
  lhsContracting := [1]
  rhsContracting := [0]
  lhsNonContracting := [0]
  rhsNonContracting := [1]
  lhsBatch := []
  rhsBatch := []
  wf := dot_S2112x256_S256x256_S2112x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev spec0_0 : Pipeline.WinSpec sig grid0.rank :=
  Pipeline.WinSpec.ofSpec (Memref.whole main_v3) S1x1x256.size reads0_0 false false 2 stage0_0 sem0_0 nbuf0_0 hstage0_0

abbrev spec0_1 : Pipeline.WinSpec sig grid0.rank :=
  Pipeline.WinSpec.ofSpec (Memref.whole main_v4) S1x1x256.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S65472x1x256.size a), EltTy.bits .f32 = 32 ∨ (Rect.block (s := S65472x1x256) S1x1x256.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev win1_0 : Pipeline.Window sig grid1 :=
  Pipeline.Window.ofSpec (Memref.whole main_v4) S2112x1x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2112x1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S64x64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S32x64x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S32x64x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v11) S64x64x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S32x64x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S32x64x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v15) S64x64x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S32x64x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg4) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v17) S32x64x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v19) S64x64x256.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v20) S32x64x256.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v2) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg4) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v21) S32x64x256.size cc5_transform_4 reads5_4 true false 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v23) S32x64x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v24) S16x64x256.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg4) S256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v25) S16x64x256.size cc6_transform_4 reads6_4 true false 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v27) S16x64x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v28) S8x64x256.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v2) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg4) S256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v29) S8x64x256.size cc7_transform_4 reads7_4 true false 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v31) S8x64x256.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v32) S4x64x256.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v2) S256x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg4) S256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v33) S4x64x256.size cc8_transform_4 reads8_4 true false 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v35) S4x64x256.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v36) S2x64x256.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v2) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg4) S256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v37) S2x64x256.size cc9_transform_4 reads9_4 true false 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v39) S2x64x256.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v40) S1x64x256.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v2) S256x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg4) S256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v41) S1x64x256.size cc10_transform_4 reads10_4 true false 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev spec11_0 : Pipeline.WinSpec sig grid11.rank :=
  Pipeline.WinSpec.ofSpec (Memref.whole main_v42) S1x64x256.size reads11_0 false false 2 stage11_0 sem11_0 nbuf11_0 hstage11_0

abbrev spec11_1 : Pipeline.WinSpec sig grid11.rank :=
  Pipeline.WinSpec.ofSpec (Memref.whole main_v43_0) S1x64x256.size reads11_1 true false 2 stage11_1 sem11_1 nbuf11_1 hstage11_1

abbrev spec11_2 : Pipeline.WinSpec sig grid11.rank :=
  Pipeline.WinSpec.ofSpec (Memref.whole main_v43_1) S64x256.size reads11_2 true true 1 stage11_2 sem11_2 nbuf11_2 hstage11_2

abbrev spec11 : Fin 3 → Pipeline.WinSpec sig grid11.rank := fun | 0 => spec11_0 | 1 => spec11_1 | 2 => spec11_2 | ⟨_ + 3, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | ⟨_ + 3, h⟩ => absurd h (Nat.not_lt.2 (Nat.le_add_left _ _))
abbrev ix11 (pf : pre11.Contents (Elt F)) : (w : Fin 3) → grid11.Coords → Fin (spec11 w).shape.rank → Nat := fun | 0 => cc11_transform_0 k11_off1_inb numel1_S1 pf | 1 => cc11_transform_1 | 2 => cc11_transform_2 | ⟨_ + 3, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 | 2 => hreads11_2 | ⟨_ + 3, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x64x256.size a ≤ S1023x64x256.size a), EltTy.bits .f32 = 32 ∨ (Rect.block (s := S1023x64x256) S1x64x256.size (cc11_transform_0 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok i).elim fun h _ => h a | 1 => hinb11_1 | 2 => hinb11_2 | ⟨_ + 3, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok i).elim fun _ h => h | 1 => hwx11_1 | 2 => hwx11_2 | ⟨_ + 3, h⟩ => absurd h (Nat.not_lt.2 (Nat.le_add_left _ _))

class Facts : Prop extends Facts₀ where
  harr0 : ∀ w, (spec0 w).arr.IsWhole
  halias2_4 : Pipeline.Aliased win2 1 4
  halias3_4 : Pipeline.Aliased win3 1 4
  halias4_4 : Pipeline.Aliased win4 1 4
  halias5_4 : Pipeline.Aliased win5 1 4
  halias6_4 : Pipeline.Aliased win6 1 4
  halias7_4 : Pipeline.Aliased win7 1 4
  halias8_4 : Pipeline.Aliased win8 1 4
  halias9_4 : Pipeline.Aliased win9 1 4
  halias10_4 : Pipeline.Aliased win10 1 4
  harr11 : ∀ w, (spec11 w).arr.IsWhole

variable [Facts]
-- ==== ReferenceIdeal.lean ====
abbrev S65472x256 : Shape := ⟨2, ![65472, 256]⟩
abbrev S256x256 : Shape := ⟨2, ![256, 256]⟩
abbrev S256 : Shape := ⟨1, ![256]⟩
abbrev S1023x64 : Shape := ⟨2, ![1023, 64]⟩
abbrev S1023 : Shape := ⟨1, ![1023]⟩
abbrev S_ : Shape := ⟨0, ![]⟩
abbrev S1023x64x1 : Shape := ⟨3, ![1023, 64, 1]⟩
abbrev S1023x64x256 : Shape := ⟨3, ![1023, 64, 256]⟩
abbrev S1x1x256 : Shape := ⟨3, ![1, 1, 256]⟩
abbrev S512x64x256 : Shape := ⟨3, ![512, 64, 256]⟩
abbrev S256x2x64x256 : Shape := ⟨4, ![256, 2, 64, 256]⟩
abbrev S256x64x256 : Shape := ⟨3, ![256, 64, 256]⟩
abbrev S1 : Shape := ⟨1, ![1]⟩
abbrev S128x2x64x256 : Shape := ⟨4, ![128, 2, 64, 256]⟩
abbrev S128x64x256 : Shape := ⟨3, ![128, 64, 256]⟩
abbrev S64x2x64x256 : Shape := ⟨4, ![64, 2, 64, 256]⟩
abbrev S64x64x256 : Shape := ⟨3, ![64, 64, 256]⟩
abbrev S32x2x64x256 : Shape := ⟨4, ![32, 2, 64, 256]⟩
abbrev S32x64x256 : Shape := ⟨3, ![32, 64, 256]⟩
abbrev S16x2x64x256 : Shape := ⟨4, ![16, 2, 64, 256]⟩
abbrev S16x64x256 : Shape := ⟨3, ![16, 64, 256]⟩
abbrev S8x2x64x256 : Shape := ⟨4, ![8, 2, 64, 256]⟩
abbrev S8x64x256 : Shape := ⟨3, ![8, 64, 256]⟩
abbrev S4x2x64x256 : Shape := ⟨4, ![4, 2, 64, 256]⟩
abbrev S4x64x256 : Shape := ⟨3, ![4, 64, 256]⟩
abbrev S2x2x64x256 : Shape := ⟨4, ![2, 2, 64, 256]⟩
abbrev S2x64x256 : Shape := ⟨3, ![2, 64, 256]⟩
abbrev S1x2x64x256 : Shape := ⟨4, ![1, 2, 64, 256]⟩
abbrev S1x64x256 : Shape := ⟨3, ![1, 64, 256]⟩
abbrev S1023x1 : Shape := ⟨2, ![1023, 1]⟩
abbrev S64x256 : Shape := ⟨2, ![64, 256]⟩

abbrev nBuf : Space → Nat
  | .hbm => 131
  | .vmem => 0
  | .smem => 0
  | _ => 0

abbrev hbmTy0_0 (i : Nat) : BufTy := match i % 128 with
  | 0 => ⟨S65472x256, .f32⟩
  | 1 => ⟨S256x256, .f32⟩
  | 2 => ⟨S256, .f32⟩
  | 3 => ⟨S256x256, .f32⟩
  | 4 => ⟨S256, .f32⟩
  | 5 => ⟨S1023x64, .i32⟩
  | 6 => ⟨S1023, .i32⟩
  | 7 => ⟨S1023, .i1⟩
  | 8 => ⟨S_, .i32⟩
  | 9 => ⟨S1023x64, .i32⟩
  | 10 => ⟨S1023x64, .i1⟩
  | 11 => ⟨S_, .i32⟩
  | 12 => ⟨S1023x64, .i32⟩
  | 13 => ⟨S1023x64, .i32⟩
  | 14 => ⟨S1023x64, .i32⟩
  | 15 => ⟨S1023x64x1, .i32⟩
  | 16 => ⟨S1023x64x256, .f32⟩
  | 17 => ⟨S1023x64x256, .f32⟩
  | 18 => ⟨S1x1x256, .f32⟩
  | 19 => ⟨S1023x64x256, .f32⟩
  | 20 => ⟨S1023x64x256, .f32⟩
  | 21 => ⟨S512x64x256, .f32⟩
  | 22 => ⟨S512x64x256, .f32⟩
  | 23 => ⟨S1x1x256, .f32⟩
  | 24 => ⟨S512x64x256, .f32⟩
  | 25 => ⟨S512x64x256, .f32⟩
  | 26 => ⟨S256x2x64x256, .f32⟩
  | 27 => ⟨S_, .f32⟩
  | 28 => ⟨S256x64x256, .f32⟩
  | 29 => ⟨S_, .i32⟩
  | 30 => ⟨S1, .i32⟩
  | 31 => ⟨S1023x64x256, .f32⟩
  | 32 => ⟨S256x64x256, .f32⟩
  | 33 => ⟨S256x64x256, .f32⟩
  | 34 => ⟨S1x1x256, .f32⟩
  | 35 => ⟨S256x64x256, .f32⟩
  | 36 => ⟨S256x64x256, .f32⟩
  | 37 => ⟨S128x2x64x256, .f32⟩
  | 38 => ⟨S_, .f32⟩
  | 39 => ⟨S128x64x256, .f32⟩
  | 40 => ⟨S_, .i32⟩
  | 41 => ⟨S1, .i32⟩
  | 42 => ⟨S1023x64x256, .f32⟩
  | 43 => ⟨S128x64x256, .f32⟩
  | 44 => ⟨S128x64x256, .f32⟩
  | 45 => ⟨S1x1x256, .f32⟩
  | 46 => ⟨S128x64x256, .f32⟩
  | 47 => ⟨S128x64x256, .f32⟩
  | 48 => ⟨S64x2x64x256, .f32⟩
  | 49 => ⟨S_, .f32⟩
  | 50 => ⟨S64x64x256, .f32⟩
  | 51 => ⟨S_, .i32⟩
  | 52 => ⟨S1, .i32⟩
  | 53 => ⟨S1023x64x256, .f32⟩
  | 54 => ⟨S64x64x256, .f32⟩
  | 55 => ⟨S64x64x256, .f32⟩
  | 56 => ⟨S1x1x256, .f32⟩
  | 57 => ⟨S64x64x256, .f32⟩
  | 58 => ⟨S64x64x256, .f32⟩
  | 59 => ⟨S32x2x64x256, .f32⟩
  | 60 => ⟨S_, .f32⟩
  | 61 => ⟨S32x64x256, .f32⟩
  | 62 => ⟨S_, .i32⟩
  | 63 => ⟨S1, .i32⟩
  | 64 => ⟨S1023x64x256, .f32⟩
  | 65 => ⟨S32x64x256, .f32⟩
  | 66 => ⟨S32x64x256, .f32⟩
  | 67 => ⟨S1x1x256, .f32⟩
  | 68 => ⟨S32x64x256, .f32⟩
  | 69 => ⟨S32x64x256, .f32⟩
  | 70 => ⟨S16x2x64x256, .f32⟩
  | 71 => ⟨S_, .f32⟩
  | 72 => ⟨S16x64x256, .f32⟩
  | 73 => ⟨S_, .i32⟩
  | 74 => ⟨S1, .i32⟩
  | 75 => ⟨S1023x64x256, .f32⟩
  | 76 => ⟨S16x64x256, .f32⟩
  | 77 => ⟨S16x64x256, .f32⟩
  | 78 => ⟨S1x1x256, .f32⟩
  | 79 => ⟨S16x64x256, .f32⟩
  | 80 => ⟨S16x64x256, .f32⟩
  | 81 => ⟨S8x2x64x256, .f32⟩
  | 82 => ⟨S_, .f32⟩
  | 83 => ⟨S8x64x256, .f32⟩
  | 84 => ⟨S_, .i32⟩
  | 85 => ⟨S1, .i32⟩
  | 86 => ⟨S1023x64x256, .f32⟩
  | 87 => ⟨S8x64x256, .f32⟩
  | 88 => ⟨S8x64x256, .f32⟩
  | 89 => ⟨S1x1x256, .f32⟩
  | 90 => ⟨S8x64x256, .f32⟩
  | 91 => ⟨S8x64x256, .f32⟩
  | 92 => ⟨S4x2x64x256, .f32⟩
  | 93 => ⟨S_, .f32⟩
  | 94 => ⟨S4x64x256, .f32⟩
  | 95 => ⟨S_, .i32⟩
  | 96 => ⟨S1, .i32⟩
  | 97 => ⟨S1023x64x256, .f32⟩
  | 98 => ⟨S4x64x256, .f32⟩
  | 99 => ⟨S4x64x256, .f32⟩
  | 100 => ⟨S1x1x256, .f32⟩
  | 101 => ⟨S4x64x256, .f32⟩
  | 102 => ⟨S4x64x256, .f32⟩
  | 103 => ⟨S2x2x64x256, .f32⟩
  | 104 => ⟨S_, .f32⟩
  | 105 => ⟨S2x64x256, .f32⟩
  | 106 => ⟨S_, .i32⟩
  | 107 => ⟨S1, .i32⟩
  | 108 => ⟨S1023x64x256, .f32⟩
  | 109 => ⟨S2x64x256, .f32⟩
  | 110 => ⟨S2x64x256, .f32⟩
  | 111 => ⟨S1x1x256, .f32⟩
  | 112 => ⟨S2x64x256, .f32⟩
  | 113 => ⟨S2x64x256, .f32⟩
  | 114 => ⟨S1x2x64x256, .f32⟩
  | 115 => ⟨S_, .f32⟩
  | 116 => ⟨S1x64x256, .f32⟩
  | 117 => ⟨S_, .i32⟩
  | 118 => ⟨S1, .i32⟩
  | 119 => ⟨S1023x64x256, .f32⟩
  | 120 => ⟨S_, .i32⟩
  | 121 => ⟨S1023, .i32⟩
  | 122 => ⟨S1023, .i32⟩
  | 123 => ⟨S1023, .i32⟩
  | 124 => ⟨S1023x1, .i32⟩
  | 125 => ⟨S1023x64x256, .f32⟩
  | 126 => ⟨S_, .f32⟩
  | 127 => ⟨S1023x64x256, .f32⟩
  | _ => ⟨S65472x256, .f32⟩

abbrev hbmTy0_1 (i : Nat) : BufTy := match i % 128 with
  | 0 => ⟨S1023x64x256, .f32⟩
  | 1 => ⟨S_, .f32⟩
  | 2 => ⟨S64x256, .f32⟩
  | _ => ⟨S65472x256, .f32⟩

abbrev hbmTy (i : Nat) : BufTy := match i / 128 with
  | 0 => hbmTy0_0 i
  | 1 => hbmTy0_1 i
  | _ => ⟨S65472x256, .f32⟩

abbrev bufTy : (tb : Table) → Fin (tcTables nBuf tb) → BufTy
  | .hbm, ⟨i, _⟩ => hbmTy i
  | _, _ => ⟨S65472x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_c_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_c_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_c_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_c_19 : Ref sig .tc := ⟨.hbm, 117, rfl⟩
abbrev main_v90 : Ref sig .tc := ⟨.hbm, 118, rfl⟩
abbrev main_v91 : Ref sig .tc := ⟨.hbm, 119, rfl⟩
abbrev main_c_20 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_call0_cst : Ref sig .tc := ⟨.hbm, 126, rfl⟩
abbrev main_call0_v0 : Ref sig .tc := ⟨.hbm, 127, rfl⟩
abbrev main_v97 : Ref sig .tc := ⟨.hbm, 128, rfl⟩
abbrev main_cst_21 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  bcast_S_S1023x64 : S_.BroadcastsInDim S1023x64 (![] : Fin 0 → Fin S1023x64.rank)
  bcast_S1023x64_S1023x64x1_0_1 : S1023x64.BroadcastsInDim S1023x64x1 (![0, 1] : Fin 2 → Fin S1023x64x1.rank)
  bcast_S256_S1x1x256_2 : S256.BroadcastsInDim S1x1x256 (![2] : Fin 1 → Fin S1x1x256.rank)
  bcast_S1x1x256_S1023x64x256_0_1_2 : S1x1x256.BroadcastsInDim S1023x64x256 (![0, 1, 2] : Fin 3 → Fin S1023x64x256.rank)
  slices_S1023x64x256_S512x64x256_511_0_0 : S1023x64x256.Slices ![511, 0, 0] S512x64x256
  bcast_S1x1x256_S512x64x256_0_1_2 : S1x1x256.BroadcastsInDim S512x64x256 (![0, 1, 2] : Fin 3 → Fin S512x64x256.rank)
  shapeCasts_S512x64x256_S256x2x64x256 : S512x64x256.ShapeCasts S256x2x64x256
  reducesTo_S256x2x64x256_S256x64x256_d1 : S256x2x64x256.ReducesTo [1] S256x64x256
  h_S_ : 0 < S_.numel
  bcast_S_S1 : S_.BroadcastsInDim S1 (![] : Fin 0 → Fin S1.rank)
  slices_S1023x64x256_S256x64x256_255_0_0 : S1023x64x256.Slices ![255, 0, 0] S256x64x256
  bcast_S1x1x256_S256x64x256_0_1_2 : S1x1x256.BroadcastsInDim S256x64x256 (![0, 1, 2] : Fin 3 → Fin S256x64x256.rank)
  shapeCasts_S256x64x256_S128x2x64x256 : S256x64x256.ShapeCasts S128x2x64x256
  reducesTo_S128x2x64x256_S128x64x256_d1 : S128x2x64x256.ReducesTo [1] S128x64x256
  slices_S1023x64x256_S128x64x256_127_0_0 : S1023x64x256.Slices ![127, 0, 0] S128x64x256
  bcast_S1x1x256_S128x64x256_0_1_2 : S1x1x256.BroadcastsInDim S128x64x256 (![0, 1, 2] : Fin 3 → Fin S128x64x256.rank)
  shapeCasts_S128x64x256_S64x2x64x256 : S128x64x256.ShapeCasts S64x2x64x256
  reducesTo_S64x2x64x256_S64x64x256_d1 : S64x2x64x256.ReducesTo [1] S64x64x256
  slices_S1023x64x256_S64x64x256_63_0_0 : S1023x64x256.Slices ![63, 0, 0] S64x64x256
  bcast_S1x1x256_S64x64x256_0_1_2 : S1x1x256.BroadcastsInDim S64x64x256 (![0, 1, 2] : Fin 3 → Fin S64x64x256.rank)
  shapeCasts_S64x64x256_S32x2x64x256 : S64x64x256.ShapeCasts S32x2x64x256
  reducesTo_S32x2x64x256_S32x64x256_d1 : S32x2x64x256.ReducesTo [1] S32x64x256
  slices_S1023x64x256_S32x64x256_31_0_0 : S1023x64x256.Slices ![31, 0, 0] S32x64x256
  bcast_S1x1x256_S32x64x256_0_1_2 : S1x1x256.BroadcastsInDim S32x64x256 (![0, 1, 2] : Fin 3 → Fin S32x64x256.rank)
  shapeCasts_S32x64x256_S16x2x64x256 : S32x64x256.ShapeCasts S16x2x64x256
  reducesTo_S16x2x64x256_S16x64x256_d1 : S16x2x64x256.ReducesTo [1] S16x64x256
  slices_S1023x64x256_S16x64x256_15_0_0 : S1023x64x256.Slices ![15, 0, 0] S16x64x256
  bcast_S1x1x256_S16x64x256_0_1_2 : S1x1x256.BroadcastsInDim S16x64x256 (![0, 1, 2] : Fin 3 → Fin S16x64x256.rank)
  shapeCasts_S16x64x256_S8x2x64x256 : S16x64x256.ShapeCasts S8x2x64x256
  reducesTo_S8x2x64x256_S8x64x256_d1 : S8x2x64x256.ReducesTo [1] S8x64x256
  slices_S1023x64x256_S8x64x256_7_0_0 : S1023x64x256.Slices ![7, 0, 0] S8x64x256
  bcast_S1x1x256_S8x64x256_0_1_2 : S1x1x256.BroadcastsInDim S8x64x256 (![0, 1, 2] : Fin 3 → Fin S8x64x256.rank)
  shapeCasts_S8x64x256_S4x2x64x256 : S8x64x256.ShapeCasts S4x2x64x256
  reducesTo_S4x2x64x256_S4x64x256_d1 : S4x2x64x256.ReducesTo [1] S4x64x256
  slices_S1023x64x256_S4x64x256_3_0_0 : S1023x64x256.Slices ![3, 0, 0] S4x64x256
  bcast_S1x1x256_S4x64x256_0_1_2 : S1x1x256.BroadcastsInDim S4x64x256 (![0, 1, 2] : Fin 3 → Fin S4x64x256.rank)
  shapeCasts_S4x64x256_S2x2x64x256 : S4x64x256.ShapeCasts S2x2x64x256
  reducesTo_S2x2x64x256_S2x64x256_d1 : S2x2x64x256.ReducesTo [1] S2x64x256
  slices_S1023x64x256_S2x64x256_1_0_0 : S1023x64x256.Slices ![1, 0, 0] S2x64x256
  bcast_S1x1x256_S2x64x256_0_1_2 : S1x1x256.BroadcastsInDim S2x64x256 (![0, 1, 2] : Fin 3 → Fin S2x64x256.rank)
  shapeCasts_S2x64x256_S1x2x64x256 : S2x64x256.ShapeCasts S1x2x64x256
  reducesTo_S1x2x64x256_S1x64x256_d1 : S1x2x64x256.ReducesTo [1] S1x64x256
  bcast_S_S1023 : S_.BroadcastsInDim S1023 (![] : Fin 0 → Fin S1023.rank)
  bcast_S1023_S1023x1_0 : S1023.BroadcastsInDim S1023x1 (![0] : Fin 1 → Fin S1023x1.rank)
  bcast_S_S1023x64x256 : S_.BroadcastsInDim S1023x64x256 (![] : Fin 0 → Fin S1023x64x256.rank)
  reducesTo_S1023x64x256_S64x256_d0 : S1023x64x256.ReducesTo [0] S64x256
  gather_S65472x256_S1023x64x1_S1023x64x256_2_0_n_n_0_2_1256_wf : GatherDims.WF S65472x256 S1023x64x1 S1023x64x256 [2] [0] [] [0] [] 2 ![1, 256]
  dot_S1023x64x256_S256x256_S1023x64x256_2_1_01_0_n_n_wf : DotDims.WF S1023x64x256 S256x256 S1023x64x256 [2] [1] [0, 1] [0] [] []
  dot_S512x64x256_S256x256_S512x64x256_2_1_01_0_n_n_wf : DotDims.WF S512x64x256 S256x256 S512x64x256 [2] [1] [0, 1] [0] [] []
  scatter_S1023x64x256_S1_S256x64x256_012_n_0_0_wf : ScatterDims.WF S1023x64x256 S1 S256x64x256 [0, 1, 2] [] [0] 0
  dot_S256x64x256_S256x256_S256x64x256_2_1_01_0_n_n_wf : DotDims.WF S256x64x256 S256x256 S256x64x256 [2] [1] [0, 1] [0] [] []
  scatter_S1023x64x256_S1_S128x64x256_012_n_0_0_wf : ScatterDims.WF S1023x64x256 S1 S128x64x256 [0, 1, 2] [] [0] 0
  dot_S128x64x256_S256x256_S128x64x256_2_1_01_0_n_n_wf : DotDims.WF S128x64x256 S256x256 S128x64x256 [2] [1] [0, 1] [0] [] []
  scatter_S1023x64x256_S1_S64x64x256_012_n_0_0_wf : ScatterDims.WF S1023x64x256 S1 S64x64x256 [0, 1, 2] [] [0] 0
  dot_S64x64x256_S256x256_S64x64x256_2_1_01_0_n_n_wf : DotDims.WF S64x64x256 S256x256 S64x64x256 [2] [1] [0, 1] [0] [] []
  scatter_S1023x64x256_S1_S32x64x256_012_n_0_0_wf : ScatterDims.WF S1023x64x256 S1 S32x64x256 [0, 1, 2] [] [0] 0
  dot_S32x64x256_S256x256_S32x64x256_2_1_01_0_n_n_wf : DotDims.WF S32x64x256 S256x256 S32x64x256 [2] [1] [0, 1] [0] [] []
  scatter_S1023x64x256_S1_S16x64x256_012_n_0_0_wf : ScatterDims.WF S1023x64x256 S1 S16x64x256 [0, 1, 2] [] [0] 0
  dot_S16x64x256_S256x256_S16x64x256_2_1_01_0_n_n_wf : DotDims.WF S16x64x256 S256x256 S16x64x256 [2] [1] [0, 1] [0] [] []
  scatter_S1023x64x256_S1_S8x64x256_012_n_0_0_wf : ScatterDims.WF S1023x64x256 S1 S8x64x256 [0, 1, 2] [] [0] 0
  dot_S8x64x256_S256x256_S8x64x256_2_1_01_0_n_n_wf : DotDims.WF S8x64x256 S256x256 S8x64x256 [2] [1] [0, 1] [0] [] []
  scatter_S1023x64x256_S1_S4x64x256_012_n_0_0_wf : ScatterDims.WF S1023x64x256 S1 S4x64x256 [0, 1, 2] [] [0] 0
  dot_S4x64x256_S256x256_S4x64x256_2_1_01_0_n_n_wf : DotDims.WF S4x64x256 S256x256 S4x64x256 [2] [1] [0, 1] [0] [] []
  scatter_S1023x64x256_S1_S2x64x256_012_n_0_0_wf : ScatterDims.WF S1023x64x256 S1 S2x64x256 [0, 1, 2] [] [0] 0
  dot_S2x64x256_S256x256_S2x64x256_2_1_01_0_n_n_wf : DotDims.WF S2x64x256 S256x256 S2x64x256 [2] [1] [0, 1] [0] [] []
  scatter_S1023x64x256_S1_S1x64x256_012_n_0_0_wf : ScatterDims.WF S1023x64x256 S1 S1x64x256 [0, 1, 2] [] [0] 0
  gather_S1023x64x256_S1023x1_S1023x64x256_12_0_n_n_0_1_164256_wf : GatherDims.WF S1023x64x256 S1023x1 S1023x64x256 [1, 2] [0] [] [0] [] 1 ![1, 64, 256]

variable [Facts₀]

def gather_S65472x256_S1023x64x1_S1023x64x256_2_0_n_n_0_2_1256 : GatherDims S65472x256 S1023x64x1 S1023x64x256 where
  offsetDims := [2]
  collapsedSliceDims := [0]
  operandBatchingDims := []
  startIndicesBatchingDims := []
  startIndexMap := [0]
  indexVectorDim := 2
  sliceSizes := ![1, 256]
  wf := gather_S65472x256_S1023x64x1_S1023x64x256_2_0_n_n_0_2_1256_wf
def dot_S1023x64x256_S256x256_S1023x64x256_2_1_01_0_n_n : DotDims S1023x64x256 S256x256 S1023x64x256 where
  lhsContracting := [2]
  rhsContracting := [1]
  lhsNonContracting := [0, 1]
  rhsNonContracting := [0]
  lhsBatch := []
  rhsBatch := []
  wf := dot_S1023x64x256_S256x256_S1023x64x256_2_1_01_0_n_n_wf
def dot_S512x64x256_S256x256_S512x64x256_2_1_01_0_n_n : DotDims S512x64x256 S256x256 S512x64x256 where
  lhsContracting := [2]
  rhsContracting := [1]
  lhsNonContracting := [0, 1]
  rhsNonContracting := [0]
  lhsBatch := []
  rhsBatch := []
  wf := dot_S512x64x256_S256x256_S512x64x256_2_1_01_0_n_n_wf
def scatter_S1023x64x256_S1_S256x64x256_012_n_0_0 : ScatterDims S1023x64x256 S1 S256x64x256 where
  updateWindowDims := [0, 1, 2]
  insertedWindowDims := []
  scatterDimsToOperandDims := [0]
  indexVectorDim := 0
  wf := scatter_S1023x64x256_S1_S256x64x256_012_n_0_0_wf
def dot_S256x64x256_S256x256_S256x64x256_2_1_01_0_n_n : DotDims S256x64x256 S256x256 S256x64x256 where
  lhsContracting := [2]
  rhsContracting := [1]
  lhsNonContracting := [0, 1]
  rhsNonContracting := [0]
  lhsBatch := []
  rhsBatch := []
  wf := dot_S256x64x256_S256x256_S256x64x256_2_1_01_0_n_n_wf
def scatter_S1023x64x256_S1_S128x64x256_012_n_0_0 : ScatterDims S1023x64x256 S1 S128x64x256 where
  updateWindowDims := [0, 1, 2]
  insertedWindowDims := []
  scatterDimsToOperandDims := [0]
  indexVectorDim := 0
  wf := scatter_S1023x64x256_S1_S128x64x256_012_n_0_0_wf
def dot_S128x64x256_S256x256_S128x64x256_2_1_01_0_n_n : DotDims S128x64x256 S256x256 S128x64x256 where
  lhsContracting := [2]
  rhsContracting := [1]
  lhsNonContracting := [0, 1]
  rhsNonContracting := [0]
  lhsBatch := []
  rhsBatch := []
  wf := dot_S128x64x256_S256x256_S128x64x256_2_1_01_0_n_n_wf
def scatter_S1023x64x256_S1_S64x64x256_012_n_0_0 : ScatterDims S1023x64x256 S1 S64x64x256 where
  updateWindowDims := [0, 1, 2]
  insertedWindowDims := []
  scatterDimsToOperandDims := [0]
  indexVectorDim := 0
  wf := scatter_S1023x64x256_S1_S64x64x256_012_n_0_0_wf
def dot_S64x64x256_S256x256_S64x64x256_2_1_01_0_n_n : DotDims S64x64x256 S256x256 S64x64x256 where
  lhsContracting := [2]
  rhsContracting := [1]
  lhsNonContracting := [0, 1]
  rhsNonContracting := [0]
  lhsBatch := []
  rhsBatch := []
  wf := dot_S64x64x256_S256x256_S64x64x256_2_1_01_0_n_n_wf
def scatter_S1023x64x256_S1_S32x64x256_012_n_0_0 : ScatterDims S1023x64x256 S1 S32x64x256 where
  updateWindowDims := [0, 1, 2]
  insertedWindowDims := []
  scatterDimsToOperandDims := [0]
  indexVectorDim := 0
  wf := scatter_S1023x64x256_S1_S32x64x256_012_n_0_0_wf
def dot_S32x64x256_S256x256_S32x64x256_2_1_01_0_n_n : DotDims S32x64x256 S256x256 S32x64x256 where
  lhsContracting := [2]
  rhsContracting := [1]
  lhsNonContracting := [0, 1]
  rhsNonContracting := [0]
  lhsBatch := []
  rhsBatch := []
  wf := dot_S32x64x256_S256x256_S32x64x256_2_1_01_0_n_n_wf
def scatter_S1023x64x256_S1_S16x64x256_012_n_0_0 : ScatterDims S1023x64x256 S1 S16x64x256 where
  updateWindowDims := [0, 1, 2]
  insertedWindowDims := []
  scatterDimsToOperandDims := [0]
  indexVectorDim := 0
  wf := scatter_S1023x64x256_S1_S16x64x256_012_n_0_0_wf
def dot_S16x64x256_S256x256_S16x64x256_2_1_01_0_n_n : DotDims S16x64x256 S256x256 S16x64x256 where
  lhsContracting := [2]
  rhsContracting := [1]
  lhsNonContracting := [0, 1]
  rhsNonContracting := [0]
  lhsBatch := []
  rhsBatch := []
  wf := dot_S16x64x256_S256x256_S16x64x256_2_1_01_0_n_n_wf
def scatter_S1023x64x256_S1_S8x64x256_012_n_0_0 : ScatterDims S1023x64x256 S1 S8x64x256 where
  updateWindowDims := [0, 1, 2]
  insertedWindowDims := []
  scatterDimsToOperandDims := [0]
  indexVectorDim := 0
  wf := scatter_S1023x64x256_S1_S8x64x256_012_n_0_0_wf
def dot_S8x64x256_S256x256_S8x64x256_2_1_01_0_n_n : DotDims S8x64x256 S256x256 S8x64x256 where
  lhsContracting := [2]
  rhsContracting := [1]
  lhsNonContracting := [0, 1]
  rhsNonContracting := [0]
  lhsBatch := []
  rhsBatch := []
  wf := dot_S8x64x256_S256x256_S8x64x256_2_1_01_0_n_n_wf
def scatter_S1023x64x256_S1_S4x64x256_012_n_0_0 : ScatterDims S1023x64x256 S1 S4x64x256 where
  updateWindowDims := [0, 1, 2]
  insertedWindowDims := []
  scatterDimsToOperandDims := [0]
  indexVectorDim := 0
  wf := scatter_S1023x64x256_S1_S4x64x256_012_n_0_0_wf
def dot_S4x64x256_S256x256_S4x64x256_2_1_01_0_n_n : DotDims S4x64x256 S256x256 S4x64x256 where
  lhsContracting := [2]
  rhsContracting := [1]
  lhsNonContracting := [0, 1]
  rhsNonContracting := [0]
  lhsBatch := []
  rhsBatch := []
  wf := dot_S4x64x256_S256x256_S4x64x256_2_1_01_0_n_n_wf
def scatter_S1023x64x256_S1_S2x64x256_012_n_0_0 : ScatterDims S1023x64x256 S1 S2x64x256 where
  updateWindowDims := [0, 1, 2]
  insertedWindowDims := []
  scatterDimsToOperandDims := [0]
  indexVectorDim := 0
  wf := scatter_S1023x64x256_S1_S2x64x256_012_n_0_0_wf
def dot_S2x64x256_S256x256_S2x64x256_2_1_01_0_n_n : DotDims S2x64x256 S256x256 S2x64x256 where
  lhsContracting := [2]
  rhsContracting := [1]
  lhsNonContracting := [0, 1]
  rhsNonContracting := [0]
  lhsBatch := []
  rhsBatch := []
  wf := dot_S2x64x256_S256x256_S2x64x256_2_1_01_0_n_n_wf
def scatter_S1023x64x256_S1_S1x64x256_012_n_0_0 : ScatterDims S1023x64x256 S1 S1x64x256 where
  updateWindowDims := [0, 1, 2]
  insertedWindowDims := []
  scatterDimsToOperandDims := [0]
  indexVectorDim := 0
  wf := scatter_S1023x64x256_S1_S1x64x256_012_n_0_0_wf
def gather_S1023x64x256_S1023x1_S1023x64x256_12_0_n_n_0_1_164256 : GatherDims S1023x64x256 S1023x1 S1023x64x256 where
  offsetDims := [1, 2]
  collapsedSliceDims := [0]
  operandBatchingDims := []
  startIndicesBatchingDims := []
  startIndexMap := [0]
  indexVectorDim := 1
  sliceSizes := ![1, 64, 256]
  wf := gather_S1023x64x256_S1023x1_S1023x64x256_12_0_n_n_0_1_164256_wf

class Facts : Prop extends Facts₀ where

variable [Facts]
-- ==== Proof.K.Reg0.lean ====
import proofs.«418389_j13280038879631_2_alg».proof.Proof.Gen.Kernel.Launch
import proofs.«418389_j13280038879631_2_alg».proof.Proof.Gen.Kernel.Skeleton
import proofs.«418389_j13280038879631_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (a : (pcfg0 (F := F)).Adm) (c : Dev nD) (t : Fin (cfg0 a).N)

abbrev st0_0 := ((cfg0 a).win 0).stage ((cfg0 a).slots t 0)
abbrev st0_1 := ((cfg0 a).win 1).stage ((cfg0 a).slots t 1)

abbrev bodyAt0 : Prog (TpuEff nD τ sig (Elt F) Λ₀ .tc) PUnit :=
  cc0_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

def iblk0 (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

abbrev r0_0 : Rect S1x1x256 := Rect.unit (s := S1x1x256) ![0, 0, 0] S1x1x256.size inb_S1x1x256_S1x1x256_0_0_0

def out0_1 (x0 : Vec F S1x1x256 .f32) : Vec F S1x1x256 .f32 :=
  View.canon [⟨r0_0, k0_pay1 (View.ld x0 r0_0)⟩]

set_option maxHeartbeats 1000000 in
theorem sound_kernel0 (E : Set ℕ) (i : grid0.Coords) (arg1 : Memref sig .tc .smem S65472 .i32) (harg1 : arg1.IsWhole)
    (arg2 : Memref sig .tc .vmem S1x1x256 .f32) (harg2 : arg2.IsWhole) (arg3 : Memref sig .tc .vmem S1x1x256 .f32) (harg3 : arg3.IsWhole)
    (x0 : Vec F S1x1x256 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0_kernel i arg1 harg1 arg2 harg2 arg3 harg3) K := by
  simp only [cc0_kernel_eq_skeleton]; unfold cc0_kernel_skel owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S1x1x256.size (by rfl))

def dat0 : Dat τ (Elt F) Unit ℕ (UR sig nD τ) ℕ (cfg0 a) c where
  A w := V c (Pipeline.arrRef spec0 w)
  after w t := match w with
    | ⟨0, _⟩ => iblk0 V a c 0 t
    | ⟨1, _⟩ => out0_1 (iblk0 V a c 0 t)
  Φ _ := iprop(Pipeline.ΦA spec0 c ∗ Pipeline.prefHeld pre0 c (fun _ => fullShare) a.1)
  q _ := fullShare
  owed _ := 0

theorem A_eq0 (w : Fin (cfg0 a).W) : (dat0 V a c).A w = V c (Pipeline.arrRef spec0 w) := rfl

theorem after0_0 : (dat0 V a c).after (0 : Fin 2) t = iblk0 V a c 0 t := by dsimp only [dat0]
theorem after0_1 : (dat0 V a c).after 1 t = out0_1 (iblk0 V a c 0 t) := by dsimp only [dat0]; rfl

theorem before0_0 (d) : (dat0 V a c).before (0 : Fin 2) t d = iblk0 V a c 0 t :=
  (dat0 V a c).before_in_eq_fetched 0 rfl (fun _ => rfl) (fun _ _ _ => rfl) (fun _ => rfl) t d

theorem body_obligation0 : BodyObligation (dat0 (F := F) V a c) (defs₀ (F := F)) Variants.none () Set.univ := fun t => by
  rw [bigSep_W0, bigSep_W0]
  simp only [before0_0]
  show _ ⊢ wp frame _ _ (bodyAt0 a t) _
  rewrite [show (dat0 V a c).Φ t.succ = (dat0 V a c).Φ t.castSucc from rfl,
    show (dat0 V a c).owesAt () t.succ = (dat0 V a c).owesAt () t.castSucc from rfl, after0_0,
    show (dat0 V a c).after (1 : Fin 2) t = _ from after0_1 V a c t]
  iintro ⟨HΦ, Ho, ⟨%d0, H0⟩, ⟨%d1, H1⟩⟩
  iapply (sound_kernel0 c Set.univ _ _ _ _ _ _ _ (iblk0 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem hin0 :
    (iprop((∃ r, prngReg c r) ∗ Pipeline.prefHeld pre0 c (fun _ => fullShare) a.1 ∗ Pipeline.scopedRest spec0 c) : sProp 𝕄) ⊢ (dat0 V a c).Φ 0 := by
  rewrite [show (dat0 V a c).Φ 0 = iprop(Pipeline.ΦA spec0 c ∗ Pipeline.prefHeld pre0 c (fun _ => fullShare) a.1) from rfl]
  unfold Pipeline.ΦA
  iintro ⟨Hr, Hp, Hs⟩
  iframe

theorem hout0 :
    (dat0 V a c).Φ (Fin.last (cfg0 a).N) ⊢ (iprop(((∃ r, prngReg c r) ∗ Pipeline.prefHeld pre0 c (fun _ => fullShare) a.1) ∗ Pipeline.scopedRest spec0 c) : sProp 𝕄) := by
  rewrite [show (dat0 V a c).Φ (Fin.last (cfg0 a).N) = iprop(Pipeline.ΦA spec0 c ∗ Pipeline.prefHeld pre0 c (fun _ => fullShare) a.1) from rfl]
  unfold Pipeline.ΦA
  iintro ⟨⟨Hs, Hr⟩, Hp⟩
  iframe

end Cert.Kernel.Hand

end
-- ==== Proof.K.Val0.lean ====
import proofs.«418389_j13280038879631_2_alg».proof.Proof.K.Reg0
import proofs.«418389_j13280038879631_2_alg».proof.Proof.Gen.Kernel.Regions

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

abbrev W0 : Dev nD → Valuation τ sig (Elt F) := fun c b => m (c, b)

abbrev Wen0 : Dev nD → Valuation τ sig (Elt F) := fun c => StableHlo.after hostOps0 (W0 m c)

abbrev Ven0 : (c : Dev nD) → (b : Ref sig .tc) → Buf (Elt F) ((c : Thread nD τ).loc b) := fun c b => Wen0 m c b

theorem Wen0_keep (c : Dev nD) (b : Ref sig .tc) (h : b ∉ hostOps0_W) : Wen0 m c b = W0 m c b :=
  StableHlo.after_of_writes_sub hostOps0 _ hostOps0_writes h

def tbl0 : pre0.Contents (Elt F) := fun k => Ven0 m (0 : Dev nD) (pre0.ref k)

theorem Ven0_pre (c : Dev nD) (k : Fin pre0.K) : Ven0 m c (pre0.ref k) = tbl0 m k := by
  obtain rfl : c = 0 := Subsingleton.elim _ _
  rfl

abbrev Ok0 : Prop := ok0 (F := F) (tbl0 m)

variable (hO : Ok0 m)

abbrev adm0 : (pcfg0 (F := F)).Adm := ⟨tbl0 m, hO⟩

def Wex0 (c : Dev nD) : Valuation τ sig (Elt F) :=
  Pipeline.withArrays spec0 c (Wen0 m c) fun w => (dat0 (Ven0 m) (adm0 m hO) c).arrAt w (cfg0 (adm0 m hO)).N
theorem Wex0_arr (c : Dev nD) (w : Fin (cfg0 (adm0 m hO)).W) :
    Wex0 m hO c (Proc.devRef .tc (Pipeline.arrRef spec0 w)) = (dat0 (Ven0 m) (adm0 m hO) c).arrAt w (cfg0 (adm0 m hO)).N :=
  Pipeline.withArrays_arr spec0 (launch0 (F := F)).win.arr_inj c _ _ w
theorem Wex0_of_ne (c : Dev nD) (b : Ref sig .tc) (hb : ∀ w, Pipeline.arrRef spec0 w ≠ b) :
    Wex0 m hO c (Proc.devRef .tc b) = Wen0 m c (Proc.devRef .tc b) :=
  Pipeline.withArrays_of_ne spec0 c _ _ b hb

end Cert.Kernel.Hand

end
-- ==== Proof.K.Reg1.lean ====
import proofs.«418389_j13280038879631_2_alg».proof.Proof.Gen.Kernel.Launch
import proofs.«418389_j13280038879631_2_alg».proof.Proof.Gen.Kernel.Skeleton
import proofs.«418389_j13280038879631_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2112x1x256 := Rect.unit (s := S2112x1x256) ![0, 0, 0] S2112x1x256.size inb_S2112x1x256_S2112x1x256_0_0_0
abbrev r1_1 : Rect S256x256 := Rect.unit (s := S256x256) ![0, 0] S256x256.size inb_S256x256_S256x256_0_0
abbrev r1_2 : Rect S256 := Rect.unit (s := S256) ![0] S256.size inb_S256_S256_0

def out1_3 (x0 : Vec F S2112x1x256 .f32) (x1 : Vec F S256x256 .f32) (x2 : Vec F S256 .f32) : Vec F S2112x1x256 .f32 :=
  View.canon [⟨r1_0, k1_pay1 (View.ld x0 r1_0) (View.ld x1 r1_1) (View.ld x2 r1_2)⟩]

set_option maxHeartbeats 1000000 in
theorem sound_kernel1 (E : Set ℕ) (i : grid1.Coords) (arg1 : Memref sig .tc .vmem S2112x1x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2112x1x256 .f32) (harg4 : arg4.IsWhole)
    (x0 : Vec F S2112x1x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2112x1x256.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = out1_3 (iblk1 V c 0 t) (iblk1 V c 1 t) (iblk1 V c 2 t) := by dsimp only [dat1]

theorem before1_0 (d) : (dat1 V c).before 0 t d = iblk1 V c 0 t :=
  (dat1 V c).before_in_eq_fetched 0 rfl (fun _ => rfl) (fun _ _ _ => rfl) (fun _ => rfl) t d
theorem before1_1 (d) : (dat1 V c).before 1 t d = iblk1 V c 1 t :=
  (dat1 V c).before_in_eq_fetched 1 rfl (fun _ => rfl) (fun _ _ _ => rfl) (fun _ => rfl) t d
theorem before1_2 (d) : (dat1 V c).before 2 t d = iblk1 V c 2 t :=
  (dat1 V c).before_in_eq_fetched 2 rfl (fun _ => rfl) (fun _ _ _ => rfl) (fun _ => rfl) t d

theorem body_obligation1 : BodyObligation (dat1 (F := F) V c) (defs₀ (F := F)) Variants.none () Set.univ := fun t => by
  rw [bigSep_W1, bigSep_W1]
  simp only [before1_0, before1_1, before1_2]
  show _ ⊢ wp frame _ _ (bodyAt1 t) _
  rewrite [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem off1_zero3 : (![0, 0, 0] : Fin 3 → Nat) = fun _ => 0 := by decide
theorem off1_zero2 : (![0, 0] : Fin 2 → Nat) = fun _ => 0 := by decide
theorem off1_zero1 : (![0] : Fin 1 → Nat) = fun _ => 0 := by decide

theorem out1_3_eq (x0 : Vec F S2112x1x256 .f32) (x1 : Vec F S256x256 .f32) (x2 : Vec F S256 .f32) :
    out1_3 x0 x1 x2 = k1_pay1 x0 x1 x2 := by
  unfold out1_3
  rw [View.canon_unit_zero off1_zero3]
  simp only [View.ld_unit_zero (S := S2112x1x256) off1_zero3, View.ld_unit_zero (S := S256x256) off1_zero2, View.ld_unit_zero (S := S256) off1_zero1]

end Cert.Kernel.Hand

end
-- ==== Proof.K.Val1.lean ====
import proofs.«418389_j13280038879631_2_alg».proof.Proof.K.Val0
import proofs.«418389_j13280038879631_2_alg».proof.Proof.K.Reg1

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen1 : Dev nD → Valuation τ sig (Elt F) := fun c => Wex0 m hO c
abbrev Ven1 : (c : Dev nD) → (b : Ref sig .tc) → Buf (Elt F) ((c : Thread nD τ).loc b) := fun c b => Wen1 m hO c b

def Wex1 (c : Dev nD) : Valuation τ sig (Elt F) :=
  Pipeline.withArrays spec1 c (Wen1 m hO c) fun w => (dat1 (Ven1 m hO) c).arrAt w cfg1.N
theorem Wex1_arr (c : Dev nD) (w : Fin cfg1.W) :
    Wex1 m hO c (Proc.devRef .tc (Pipeline.arrRef spec1 w)) = (dat1 (Ven1 m hO) c).arrAt w cfg1.N :=
  Pipeline.withArrays_arr spec1 (launch1 (F := F)).win.arr_inj c _ _ w
theorem Wex1_of_ne (c : Dev nD) (b : Ref sig .tc) (hb : ∀ w, Pipeline.arrRef spec1 w ≠ b) :
    Wex1 m hO c (Proc.devRef .tc b) = Wen1 m hO c (Proc.devRef .tc b) :=
  Pipeline.withArrays_of_ne spec1 c _ _ b hb

theorem Wex1_in (c : Dev nD) (w : Fin cfg1.W) (hin : (cfg1.win w).isOut = false) :
    Wex1 m hO c (Proc.devRef .tc (Pipeline.arrRef spec1 w)) = Ven1 m hO c (Pipeline.arrRef spec1 w) :=
  (Wex1_arr m hO c w).trans ((dat1 (Ven1 m hO) c).arrAt_in w hin _)

end Cert.Kernel.Hand

end
-- ==== Proof.K.RegLib.lean ====
import proofs.«418389_j13280038879631_2_alg».proof.Proof.Gen.Kernel.Launch
import proofs.«418389_j13280038879631_2_alg».proof.Proof.Gen.Kernel.Skeleton
import proofs.«418389_j13280038879631_2_alg».proof.Proof.Gen.Kernel.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon _ _ _ fun _ => ⟨_, List.mem_singleton_self _, View.mem_set_unit_zero h inb _⟩).trans (View.canon_unit_zero h inb w)

theorem readAt_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := View.ld_unit_zero h inb _

def Triple5 {s1 s2 s3 s4 s5 : Shape} (c : Dev nD) (E : Set ℕ) (prog : Prog (TpuEff nD τ sig (Elt F) Λ₀ .tc) PUnit)
    (a1 : Memref sig .tc .vmem s1 .f32) (a2 : Memref sig .tc .vmem s2 .f32) (a3 : Memref sig .tc .vmem s3 .f32)
    (a4 : Memref sig .tc .vmem s4 .f32) (a5 : Memref sig .tc .vmem s5 .f32)
    (x0 : Vec F s1 .f32) (x1 : Vec F s2 .f32) (x2 : Vec F s3 .f32) (x3 : Vec F s4 .f32) (y : Vec F s5 .f32) : Prop :=
  ∀ K : PUnit → sProp (MT nD τ sig Unit (Elt F) ℕ (UR sig nD τ) ℕ),
    iprop(owns c.tc a1 fullShare x0 ∗ owns c.tc a2 fullShare x1 ∗ owns c.tc a3 fullShare x2 ∗ owns c.tc a4 fullShare x3
        ∗ (∃ d, owns c.tc a5 fullShare d)
        ∗ (iprop(owns c.tc a1 fullShare x0 ∗ owns c.tc a2 fullShare x1 ∗ owns c.tc a3 fullShare x2 ∗ owns c.tc a4 fullShare x3
            ∗ owns c.tc a5 fullShare y) -∗ K ⟨⟩))
      ⊢ wp frame (wpE (defs₀ (F := F)) Variants.none c none) E prog K

theorem body5 {s1 s2 s3 s4 s5 : Shape} {c : Dev nD} {E : Set ℕ} {prog : Prog (TpuEff nD τ sig (Elt F) Λ₀ .tc) PUnit}
    {a1 : Memref sig .tc .vmem s1 .f32} {a2 : Memref sig .tc .vmem s2 .f32} {a3 : Memref sig .tc .vmem s3 .f32}
    {a4 : Memref sig .tc .vmem s4 .f32} {a5 : Memref sig .tc .vmem s5 .f32}
    {x0 : Vec F s1 .f32} {x1 : Vec F s2 .f32} {x2 : Vec F s3 .f32} {x3 : Vec F s4 .f32} {y : Vec F s5 .f32}
    (h : Triple5 c E prog a1 a2 a3 a4 a5 x0 x1 x2 x3 y) (P Q : sProp (MT nD τ sig Unit (Elt F) ℕ (UR sig nD τ) ℕ))
    {D0 D1 D2 D3 D4 : Type} (b : D4 → Vec F s5 .f32) :
    iprop(P ∗ Q ∗ (∃ _d : D0, owns c.tc a1 fullShare x0) ∗ (∃ _d : D1, owns c.tc a2 fullShare x1) ∗ (∃ _d : D2, owns c.tc a3 fullShare x2)
        ∗ (∃ _d : D3, owns c.tc a4 fullShare x3) ∗ (∃ d : D4, owns c.tc a5 fullShare (b d)))
      ⊢ wp frame (wpE (defs₀ (F := F)) Variants.none c none) E prog fun _ =>
        iprop(P ∗ Q ∗ owns c.tc a1 fullShare x0 ∗ owns c.tc a2 fullShare x1 ∗ owns c.tc a3 fullShare x2 ∗ owns c.tc a4 fullShare x3
          ∗ owns c.tc a5 fullShare y) := by
  iintro ⟨HP, HQ, ⟨%d0, H0⟩, ⟨%d1, H1⟩, ⟨%d2, H2⟩, ⟨%d3, H3⟩, ⟨%d4, H4⟩⟩
  iapply (h _)
  iframe H0 H1 H2 H3
  isplitl [H4]; · iexists _; iexact H4
  iintro ⟨H0, H1, H2, H3, H4⟩
  iframe

end Cert.Kernel.Hand

end
-- ==== Proof.K.Reg2.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def out2_4 (x0 : Vec F S64x64x256 .f32) (x1 : Vec F S32x64x256 .f32) (x2 : Vec F S256x256 .f32) (x3 : Vec F S256 .f32) : Vec F S32x64x256 .f32 :=
  k2_pay1 x0 x2 x3 x1

theorem out2_4_eq (x0 : Vec F S64x64x256 .f32) x1 x2 x3 : out2_4 x0 x1 x2 x3 = k2_pay1 x0 x2 x3 x1 := rfl

theorem sound_kernel2 (c : Dev nD) E i arg1 harg1 arg2 harg2 arg3 harg3 arg4 harg4 arg5 harg5 x0 x1 x2 x3 :
    Triple5 (F := F) c E (cc2_kernel i arg1 harg1 arg2 harg2 arg3 harg3 arg4 harg4 arg5 harg5) arg1 arg2 arg3 arg4 arg5 x0 x1 x2 x3
      (out2_4 x0 x1 x2 x3) := fun K => by
  simp only [cc2_kernel_eq_skeleton]; unfold cc2_kernel_skel owns out2_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = out2_4 (iblk2 V c 0 t) (iblk2 V c 1 t) (iblk2 V c 2 t) (iblk2 V c 3 t) := by dsimp only [dat2]

theorem before2 (c : Dev nD) (t : Fin cfg2.N) : ∀ w : Fin cfg2.W, w ≠ 4 → ∀ d, (dat2 V c).before w t d = (dat2 V c).after w t
  | 4, h, _ => absurd rfl h
  | 0, _, d | 1, _, d | 2, _, d | 3, _, d => ((dat2 V c).before_in_eq_fetched _ rfl (fun _ => rfl) (fun _ _ _ => rfl)
    (fun _ => by dsimp only [dat2]; rfl) t d).trans (by dsimp only [dat2]; rfl)

theorem body_obligation2 (c : Dev nD) : BodyObligation (dat2 V c) defs₀ Variants.none () Set.univ := fun t => by
  rw [bigSep_W2, bigSep_W2]
  simp only [before2 V c t 0 (by decide), before2 V c t 1 (by decide), before2 V c t 2 (by decide), before2 V c t 3 (by decide)]
  dsimp only [dat2, Dat.owesAt, Dat.bound]
  exact body5 (sound_kernel2 c Set.univ (grid2.coords t) _ (hstage2_0 _) _ (hstage2_1 _) _ (hstage2_2 _) _ (hstage2_3 _) _ (hstage2_4 _)
    (iblk2 V c 0 t) (iblk2 V c 1 t) (iblk2 V c 2 t) (iblk2 V c 3 t)) _ _ _

end Cert.Kernel.Hand

end
-- ==== Proof.K.Val2.lean ====
import proofs.«418389_j13280038879631_2_alg».proof.Proof.K.Val1
import proofs.«418389_j13280038879631_2_alg».proof.Proof.K.Reg2

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen2 : Dev nD → Valuation τ sig (Elt F) := fun c => StableHlo.after hostOps2 (Wex1 m hO c)
abbrev Ven2 : (c : Dev nD) → (b : Ref sig .tc) → Buf (Elt F) ((c : Thread nD τ).loc b) := fun c b => Wen2 m hO c b

theorem Wen2_keep (c : Dev nD) (b : Ref sig .tc) (h : b ∉ hostOps2_W) : Wen2 m hO c b = Wex1 m hO c b :=
  StableHlo.after_of_writes_sub hostOps2 _ hostOps2_writes h

def Wex2 (c : Dev nD) : Valuation τ sig (Elt F) :=
  Pipeline.withArrays spec2 c (Wen2 m hO c) fun w => (dat2 (Ven2 m hO) c).arrAt w cfg2.N
theorem Wex2_arr (c : Dev nD) (w : Fin cfg2.W) :
    Wex2 m hO c (Proc.devRef .tc (Pipeline.arrRef spec2 w)) = (dat2 (Ven2 m hO) c).arrAt w cfg2.N :=
  Pipeline.withArrays_arr spec2 (launch2 (F := F)).win.arr_inj c _ _ w
theorem Wex2_of_ne (c : Dev nD) (b : Ref sig .tc) (hb : ∀ w, Pipeline.arrRef spec2 w ≠ b) :
    Wex2 m hO c (Proc.devRef .tc b) = Wen2 m hO c (Proc.devRef .tc b) :=
  Pipeline.withArrays_of_ne spec2 c _ _ b hb
theorem Wex2_in (c : Dev nD) (w : Fin cfg2.W) (hin : (cfg2.win w).isOut = false) :
    Wex2 m hO c (Proc.devRef .tc (Pipeline.arrRef spec2 w)) = Ven2 m hO c (Pipeline.arrRef spec2 w) :=
  (Wex2_arr m hO c w).trans ((dat2 (Ven2 m hO) c).arrAt_in w hin _)

end Cert.Kernel.Hand

end
-- ==== Proof.K.Reg3.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable def out3_4 (x0 : Vec F S64x64x256 .f32) (x1 : Vec F S32x64x256 .f32) (x2 : Vec F S256x256 .f32) (x3 : Vec F S256 .f32) : Vec F S32x64x256 .f32 :=
  k3_pay1 x0 x2 x3 x1

theorem out3_4_eq (x0 : Vec F S64x64x256 .f32) x1 x2 x3 : out3_4 x0 x1 x2 x3 = k3_pay1 x0 x2 x3 x1 := rfl

theorem sound_kernel3 (c : Dev nD) E i arg1 harg1 arg2 harg2 arg3 harg3 arg4 harg4 arg5 harg5 x0 x1 x2 x3 :
    Triple5 (F := F) c E (cc3_kernel i arg1 harg1 arg2 harg2 arg3 harg3 arg4 harg4 arg5 harg5) arg1 arg2 arg3 arg4 arg5 x0 x1 x2 x3
      (out3_4 x0 x1 x2 x3) := fun K => by
  simp only [cc3_kernel_eq_skeleton]; unfold cc3_kernel_skel owns out3_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = out3_4 (iblk3 V c 0 t) (iblk3 V c 1 t) (iblk3 V c 2 t) (iblk3 V c 3 t) := by dsimp only [dat3]

theorem before3 (c : Dev nD) (t : Fin cfg3.N) : ∀ w : Fin cfg3.W, w ≠ 4 → ∀ d, (dat3 V c).before w t d = (dat3 V c).after w t
  | 4, h, _ => absurd rfl h
  | 0, _, d | 1, _, d | 2, _, d | 3, _, d => ((dat3 V c).before_in_eq_fetched _ rfl (fun _ => rfl) (fun _ _ _ => rfl)
    (fun _ => by dsimp only [dat3]; rfl) t d).trans (by dsimp only [dat3]; rfl)

theorem body_obligation3 (c : Dev nD) : BodyObligation (dat3 V c) defs₀ Variants.none () Set.univ := fun t => by
  rw [bigSep_W3, bigSep_W3]
  simp only [before3 V c t 0 (by decide), before3 V c t 1 (by decide), before3 V c t 2 (by decide), before3 V c t 3 (by decide)]
  dsimp only [dat3, Dat.owesAt, Dat.bound]
  exact body5 (sound_kernel3 c Set.univ (grid3.coords t) _ (hstage3_0 _) _ (hstage3_1 _) _ (hstage3_2 _) _ (hstage3_3 _) _ (hstage3_4 _)
    (iblk3 V c 0 t) (iblk3 V c 1 t) (iblk3 V c 2 t) (iblk3 V c 3 t)) _ _ _

end Cert.Kernel.Hand

end
-- ==== Proof.K.Val3.lean ====
import proofs.«418389_j13280038879631_2_alg».proof.Proof.K.Val2
import proofs.«418389_j13280038879631_2_alg».proof.Proof.K.Reg3

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen3 : Dev nD → Valuation τ sig (Elt F) := fun c => StableHlo.after hostOps3 (Wex2 m hO c)
abbrev Ven3 : (c : Dev nD) → (b : Ref sig .tc) → Buf (Elt F) ((c : Thread nD τ).loc b) := fun c b => Wen3 m hO c b

theorem Wen3_keep (c : Dev nD) (b : Ref sig .tc) (h : b ∉ hostOps3_W) : Wen3 m hO c b = Wex2 m hO c b :=
  StableHlo.after_of_writes_sub hostOps3 _ hostOps3_writes h

def Wex3 (c : Dev nD) : Valuation τ sig (Elt F) :=
  Pipeline.withArrays spec3 c (Wen3 m hO c) fun w => (dat3 (Ven3 m hO) c).arrAt w cfg3.N
theorem Wex3_arr (c : Dev nD) (w : Fin cfg3.W) :
    Wex3 m hO c (Proc.devRef .tc (Pipeline.arrRef spec3 w)) = (dat3 (Ven3 m hO) c).arrAt w cfg3.N :=
  Pipeline.withArrays_arr spec3 (launch3 (F := F)).win.arr_inj c _ _ w
theorem Wex3_of_ne (c : Dev nD) (b : Ref sig .tc) (hb : ∀ w, Pipeline.arrRef spec3 w ≠ b) :
    Wex3 m hO c (Proc.devRef .tc b) = Wen3 m hO c (Proc.devRef .tc b) :=
  Pipeline.withArrays_of_ne spec3 c _ _ b hb
theorem Wex3_in (c : Dev nD) (w : Fin cfg3.W) (hin : (cfg3.win w).isOut = false) :
    Wex3 m hO c (Proc.devRef .tc (Pipeline.arrRef spec3 w)) = Ven3 m hO c (Pipeline.arrRef spec3 w) :=
  (Wex3_arr m hO c w).trans ((dat3 (Ven3 m hO) c).arrAt_in w hin _)

end Cert.Kernel.Hand

end
-- ==== Proof.K.Reg4.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def out4_4 (x0 : Vec F S64x64x256 .f32) (x1 : Vec F S32x64x256 .f32) (x2 : Vec F S256x256 .f32) (x3 : Vec F S256 .f32) : Vec F S32x64x256 .f32 :=
  k4_pay1 x0 x2 x3 x1

theorem out4_4_eq (x0 : Vec F S64x64x256 .f32) x1 x2 x3 : out4_4 x0 x1 x2 x3 = k4_pay1 x0 x2 x3 x1 := rfl

theorem sound_kernel4 (c : Dev nD) E i arg1 harg1 arg2 harg2 arg3 harg3 arg4 harg4 arg5 harg5 x0 x1 x2 x3 :
    Triple5 (F := F) c E (cc4_kernel i arg1 harg1 arg2 harg2 arg3 harg3 arg4 harg4 arg5 harg5) arg1 arg2 arg3 arg4 arg5 x0 x1 x2 x3
      (out4_4 x0 x1 x2 x3) := fun K => by
  simp only [cc4_kernel_eq_skeleton]; unfold cc4_kernel_skel owns out4_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = out4_4 (iblk4 V c 0 t) (iblk4 V c 1 t) (iblk4 V c 2 t) (iblk4 V c 3 t) := by dsimp only [dat4]

theorem before4 (c : Dev nD) (t : Fin cfg4.N) : ∀ w : Fin cfg4.W, w ≠ 4 → ∀ d, (dat4 V c).before w t d = (dat4 V c).after w t
  | 4, h, _ => absurd rfl h
  | 0, _, d | 1, _, d | 2, _, d | 3, _, d => ((dat4 V c).before_in_eq_fetched _ rfl (fun _ => rfl) (fun _ _ _ => rfl)
    (fun _ => by dsimp only [dat4]; rfl) t d).trans (by dsimp only [dat4]; rfl)

theorem body_obligation4 (c : Dev nD) : BodyObligation (dat4 V c) defs₀ Variants.none () Set.univ := fun t => by
  rw [bigSep_W4, bigSep_W4]
  simp only [before4 V c t 0 (by decide), before4 V c t 1 (by decide), before4 V c t 2 (by decide), before4 V c t 3 (by decide)]
  dsimp only [dat4, Dat.owesAt, Dat.bound]
  exact body5 (sound_kernel4 c Set.univ (grid4.coords t) _ (hstage4_0 _) _ (hstage4_1 _) _ (hstage4_2 _) _ (hstage4_3 _) _ (hstage4_4 _)
    (iblk4 V c 0 t) (iblk4 V c 1 t) (iblk4 V c 2 t) (iblk4 V c 3 t)) _ _ _

end Cert.Kernel.Hand

end
-- ==== Proof.K.Val4.lean ====
import proofs.«418389_j13280038879631_2_alg».proof.Proof.K.Val3
import proofs.«418389_j13280038879631_2_alg».proof.Proof.K.Reg4

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen4 : Dev nD → Valuation τ sig (Elt F) := fun c => StableHlo.after hostOps4 (Wex3 m hO c)
abbrev Ven4 : (c : Dev nD) → (b : Ref sig .tc) → Buf (Elt F) ((c : Thread nD τ).loc b) := fun c b => Wen4 m hO c b

theorem Wen4_keep (c : Dev nD) (b : Ref sig .tc) (h : b ∉ hostOps4_W) : Wen4 m hO c b = Wex3 m hO c b :=
  StableHlo.after_of_writes_sub hostOps4 _ hostOps4_writes h

def Wex4 (c : Dev nD) : Valuation τ sig (Elt F) :=
  Pipeline.withArrays spec4 c (Wen4 m hO c) fun w => (dat4 (Ven4 m hO) c).arrAt w cfg4.N
theorem Wex4_arr (c : Dev nD) (w : Fin cfg4.W) :
    Wex4 m hO c (Proc.devRef .tc (Pipeline.arrRef spec4 w)) = (dat4 (Ven4 m hO) c).arrAt w cfg4.N :=
  Pipeline.withArrays_arr spec4 (launch4 (F := F)).win.arr_inj c _ _ w
theorem Wex4_of_ne (c : Dev nD) (b : Ref sig .tc) (hb : ∀ w, Pipeline.arrRef spec4 w ≠ b) :
    Wex4 m hO c (Proc.devRef .tc b) = Wen4 m hO c (Proc.devRef .tc b) :=
  Pipeline.withArrays_of_ne spec4 c _ _ b hb
theorem Wex4_in (c : Dev nD) (w : Fin cfg4.W) (hin : (cfg4.win w).isOut = false) :
    Wex4 m hO c (Proc.devRef .tc (Pipeline.arrRef spec4 w)) = Ven4 m hO c (Pipeline.arrRef spec4 w) :=
  (Wex4_arr m hO c w).trans ((dat4 (Ven4 m hO) c).arrAt_in w hin _)

end Cert.Kernel.Hand

end
-- ==== Proof.K.Reg5.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable def out5_4 (x0 : Vec F S64x64x256 .f32) (x1 : Vec F S32x64x256 .f32) (x2 : Vec F S256x256 .f32) (x3 : Vec F S256 .f32) : Vec F S32x64x256 .f32 :=
  k5_pay1 x0 x2 x3 x1

theorem out5_4_eq (x0 : Vec F S64x64x256 .f32) x1 x2 x3 : out5_4 x0 x1 x2 x3 = k5_pay1 x0 x2 x3 x1 := rfl

theorem sound_kernel5 (c : Dev nD) E i arg1 harg1 arg2 harg2 arg3 harg3 arg4 harg4 arg5 harg5 x0 x1 x2 x3 :
    Triple5 (F := F) c E (cc5_kernel i arg1 harg1 arg2 harg2 arg3 harg3 arg4 harg4 arg5 harg5) arg1 arg2 arg3 arg4 arg5 x0 x1 x2 x3
      (out5_4 x0 x1 x2 x3) := fun K => by
  simp only [cc5_kernel_eq_skeleton]; unfold cc5_kernel_skel owns out5_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = out5_4 (iblk5 V c 0 t) (iblk5 V c 1 t) (iblk5 V c 2 t) (iblk5 V c 3 t) := by dsimp only [dat5]

theorem before5 (c : Dev nD) (t : Fin cfg5.N) : ∀ w : Fin cfg5.W, w ≠ 4 → ∀ d, (dat5 V c).before w t d = (dat5 V c).after w t
  | 4, h, _ => absurd rfl h
  | 0, _, d | 1, _, d | 2, _, d | 3, _, d => ((dat5 V c).before_in_eq_fetched _ rfl (fun _ => rfl) (fun _ _ _ => rfl)
    (fun _ => by dsimp only [dat5]; rfl) t d).trans (by dsimp only [dat5]; rfl)

theorem body_obligation5 (c : Dev nD) : BodyObligation (dat5 V c) defs₀ Variants.none () Set.univ := fun t => by
  rw [bigSep_W5, bigSep_W5]
  simp only [before5 V c t 0 (by decide), before5 V c t 1 (by decide), before5 V c t 2 (by decide), before5 V c t 3 (by decide)]
  dsimp only [dat5, Dat.owesAt, Dat.bound]
  exact body5 (sound_kernel5 c Set.univ (grid5.coords t) _ (hstage5_0 _) _ (hstage5_1 _) _ (hstage5_2 _) _ (hstage5_3 _) _ (hstage5_4 _)
    (iblk5 V c 0 t) (iblk5 V c 1 t) (iblk5 V c 2 t) (iblk5 V c 3 t)) _ _ _

end Cert.Kernel.Hand

end
-- ==== Proof.K.Val5.lean ====
import proofs.«418389_j13280038879631_2_alg».proof.Proof.K.Val4
import proofs.«418389_j13280038879631_2_alg».proof.Proof.K.Reg5

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen5 : Dev nD → Valuation τ sig (Elt F) := fun c => StableHlo.after hostOps5 (Wex4 m hO c)
abbrev Ven5 : (c : Dev nD) → (b : Ref sig .tc) → Buf (Elt F) ((c : Thread nD τ).loc b) := fun c b => Wen5 m hO c b

theorem Wen5_keep (c : Dev nD) (b : Ref sig .tc) (h : b ∉ hostOps5_W) : Wen5 m hO c b = Wex4 m hO c b :=
  StableHlo.after_of_writes_sub hostOps5 _ hostOps5_writes h

def Wex5 (c : Dev nD) : Valuation τ sig (Elt F) :=
  Pipeline.withArrays spec5 c (Wen5 m hO c) fun w => (dat5 (Ven5 m hO) c).arrAt w cfg5.N
theorem Wex5_arr (c : Dev nD) (w : Fin cfg5.W) :
    Wex5 m hO c (Proc.devRef .tc (Pipeline.arrRef spec5 w)) = (dat5 (Ven5 m hO) c).arrAt w cfg5.N :=
  Pipeline.withArrays_arr spec5 (launch5 (F := F)).win.arr_inj c _ _ w
theorem Wex5_of_ne (c : Dev nD) (b : Ref sig .tc) (hb : ∀ w, Pipeline.arrRef spec5 w ≠ b) :
    Wex5 m hO c (Proc.devRef .tc b) = Wen5 m hO c (Proc.devRef .tc b) :=
  Pipeline.withArrays_of_ne spec5 c _ _ b hb
theorem Wex5_in (c : Dev nD) (w : Fin cfg5.W) (hin : (cfg5.win w).isOut = false) :
    Wex5 m hO c (Proc.devRef .tc (Pipeline.arrRef spec5 w)) = Ven5 m hO c (Pipeline.arrRef spec5 w) :=
  (Wex5_arr m hO c w).trans ((dat5 (Ven5 m hO) c).arrAt_in w hin _)

end Cert.Kernel.Hand

end
-- ==== Proof.K.Reg6.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

noncomputable def out6_4 (x0 : Vec F S32x64x256 .f32) (x1 : Vec F S16x64x256 .f32) (x2 : Vec F S256x256 .f32) (x3 : Vec F S256 .f32) : Vec F S16x64x256 .f32 :=
  k6_pay1 x0 x2 x3 x1

theorem out6_4_eq (x0 : Vec F S32x64x256 .f32) x1 x2 x3 : out6_4 x0 x1 x2 x3 = k6_pay1 x0 x2 x3 x1 := rfl

theorem sound_kernel6 (c : Dev nD) E i arg1 harg1 arg2 harg2 arg3 harg3 arg4 harg4 arg5 harg5 x0 x1 x2 x3 :
    Triple5 (F := F) c E (cc6_kernel i arg1 harg1 arg2 harg2 arg3 harg3 arg4 harg4 arg5 harg5) arg1 arg2 arg3 arg4 arg5 x0 x1 x2 x3
      (out6_4 x0 x1 x2 x3) := fun K => by
  simp only [cc6_kernel_eq_skeleton]; unfold cc6_kernel_skel owns out6_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = out6_4 (iblk6 V c 0 t) (iblk6 V c 1 t) (iblk6 V c 2 t) (iblk6 V c 3 t) := by dsimp only [dat6]

theorem before6 (c : Dev nD) (t : Fin cfg6.N) : ∀ w : Fin cfg6.W, w ≠ 4 → ∀ d, (dat6 V c).before w t d = (dat6 V c).after w t
  | 4, h, _ => absurd rfl h
  | 0, _, d | 1, _, d | 2, _, d | 3, _, d => ((dat6 V c).before_in_eq_fetched _ rfl (fun _ => rfl) (fun _ _ _ => rfl)
    (fun _ => by dsimp only [dat6]; rfl) t d).trans (by dsimp only [dat6]; rfl)

theorem body_obligation6 (c : Dev nD) : BodyObligation (dat6 V c) defs₀ Variants.none () Set.univ := fun t => by
  rw [bigSep_W6, bigSep_W6]
  simp only [before6 V c t 0 (by decide), before6 V c t 1 (by decide), before6 V c t 2 (by decide), before6 V c t 3 (by decide)]
  dsimp only [dat6, Dat.owesAt, Dat.bound]
  exact body5 (sound_kernel6 c Set.univ (grid6.coords t) _ (hstage6_0 _) _ (hstage6_1 _) _ (hstage6_2 _) _ (hstage6_3 _) _ (hstage6_4 _)
    (iblk6 V c 0 t) (iblk6 V c 1 t) (iblk6 V c 2 t) (iblk6 V c 3 t)) _ _ _

end Cert.Kernel.Hand

end
-- ==== Proof.K.Val6.lean ====
import proofs.«418389_j13280038879631_2_alg».proof.Proof.K.Val5
import proofs.«418389_j13280038879631_2_alg».proof.Proof.K.Reg6

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen6 : Dev nD → Valuation τ sig (Elt F) := fun c => StableHlo.after hostOps6 (Wex5 m hO c)
abbrev Ven6 : (c : Dev nD) → (b : Ref sig .tc) → Buf (Elt F) ((c : Thread nD τ).loc b) := fun c b => Wen6 m hO c b

theorem Wen6_keep (c : Dev nD) (b : Ref sig .tc) (h : b ∉ hostOps6_W) : Wen6 m hO c b = Wex5 m hO c b :=
  StableHlo.after_of_writes_sub hostOps6 _ hostOps6_writes h

def Wex6 (c : Dev nD) : Valuation τ sig (Elt F) :=
  Pipeline.withArrays spec6 c (Wen6 m hO c) fun w => (dat6 (Ven6 m hO) c).arrAt w cfg6.N
theorem Wex6_arr (c : Dev nD) (w : Fin cfg6.W) :
    Wex6 m hO c (Proc.devRef .tc (Pipeline.arrRef spec6 w)) = (dat6 (Ven6 m hO) c).arrAt w cfg6.N :=
  Pipeline.withArrays_arr spec6 (launch6 (F := F)).win.arr_inj c _ _ w
theorem Wex6_of_ne (c : Dev nD) (b : Ref sig .tc) (hb : ∀ w, Pipeline.arrRef spec6 w ≠ b) :
    Wex6 m hO c (Proc.devRef .tc b) = Wen6 m hO c (Proc.devRef .tc b) :=
  Pipeline.withArrays_of_ne spec6 c _ _ b hb
theorem Wex6_in (c : Dev nD) (w : Fin cfg6.W) (hin : (cfg6.win w).isOut = false) :
    Wex6 m hO c (Proc.devRef .tc (Pipeline.arrRef spec6 w)) = Ven6 m hO c (Pipeline.arrRef spec6 w) :=
  (Wex6_arr m hO c w).trans ((dat6 (Ven6 m hO) c).arrAt_in w hin _)

end Cert.Kernel.Hand

end
-- ==== Proof.K.Reg7.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

noncomputable def out7_4 (x0 : Vec F S16x64x256 .f32) (x1 : Vec F S8x64x256 .f32) (x2 : Vec F S256x256 .f32) (x3 : Vec F S256 .f32) : Vec F S8x64x256 .f32 :=
  k7_pay1 x0 x2 x3 x1

theorem out7_4_eq (x0 : Vec F S16x64x256 .f32) x1 x2 x3 : out7_4 x0 x1 x2 x3 = k7_pay1 x0 x2 x3 x1 := rfl

theorem sound_kernel7 (c : Dev nD) E i arg1 harg1 arg2 harg2 arg3 harg3 arg4 harg4 arg5 harg5 x0 x1 x2 x3 :
    Triple5 (F := F) c E (cc7_kernel i arg1 harg1 arg2 harg2 arg3 harg3 arg4 harg4 arg5 harg5) arg1 arg2 arg3 arg4 arg5 x0 x1 x2 x3
      (out7_4 x0 x1 x2 x3) := fun K => by
  simp only [cc7_kernel_eq_skeleton]; unfold cc7_kernel_skel owns out7_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_4 (c : Dev nD) (t : Fin cfg7.N) :
    (dat7 V c).after 4 t = out7_4 (iblk7 V c 0 t) (iblk7 V c 1 t) (iblk7 V c 2 t) (iblk7 V c 3 t) := by dsimp only [dat7]

theorem before7 (c : Dev nD) (t : Fin cfg7.N) : ∀ w : Fin cfg7.W, w ≠ 4 → ∀ d, (dat7 V c).before w t d = (dat7 V c).after w t
  | 4, h, _ => absurd rfl h
  | 0, _, d | 1, _, d | 2, _, d | 3, _, d => ((dat7 V c).before_in_eq_fetched _ rfl (fun _ => rfl) (fun _ _ _ => rfl)
    (fun _ => by dsimp only [dat7]; rfl) t d).trans (by dsimp only [dat7]; rfl)

theorem body_obligation7 (c : Dev nD) : BodyObligation (dat7 V c) defs₀ Variants.none () Set.univ := fun t => by
  rw [bigSep_W7, bigSep_W7]
  simp only [before7 V c t 0 (by decide), before7 V c t 1 (by decide), before7 V c t 2 (by decide), before7 V c t 3 (by decide)]
  dsimp only [dat7, Dat.owesAt, Dat.bound]
  exact body5 (sound_kernel7 c Set.univ (grid7.coords t) _ (hstage7_0 _) _ (hstage7_1 _) _ (hstage7_2 _) _ (hstage7_3 _) _ (hstage7_4 _)
    (iblk7 V c 0 t) (iblk7 V c 1 t) (iblk7 V c 2 t) (iblk7 V c 3 t)) _ _ _

end Cert.Kernel.Hand

end
-- ==== Proof.K.Val7.lean ====
import proofs.«418389_j13280038879631_2_alg».proof.Proof.K.Val6
import proofs.«418389_j13280038879631_2_alg».proof.Proof.K.Reg7

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen7 : Dev nD → Valuation τ sig (Elt F) := fun c => StableHlo.after hostOps7 (Wex6 m hO c)
abbrev Ven7 : (c : Dev nD) → (b : Ref sig .tc) → Buf (Elt F) ((c : Thread nD τ).loc b) := fun c b => Wen7 m hO c b

theorem Wen7_keep (c : Dev nD) (b : Ref sig .tc) (h : b ∉ hostOps7_W) : Wen7 m hO c b = Wex6 m hO c b :=
  StableHlo.after_of_writes_sub hostOps7 _ hostOps7_writes h

def Wex7 (c : Dev nD) : Valuation τ sig (Elt F) :=
  Pipeline.withArrays spec7 c (Wen7 m hO c) fun w => (dat7 (Ven7 m hO) c).arrAt w cfg7.N
theorem Wex7_arr (c : Dev nD) (w : Fin cfg7.W) :
    Wex7 m hO c (Proc.devRef .tc (Pipeline.arrRef spec7 w)) = (dat7 (Ven7 m hO) c).arrAt w cfg7.N :=
  Pipeline.withArrays_arr spec7 (launch7 (F := F)).win.arr_inj c _ _ w
theorem Wex7_of_ne (c : Dev nD) (b : Ref sig .tc) (hb : ∀ w, Pipeline.arrRef spec7 w ≠ b) :
    Wex7 m hO c (Proc.devRef .tc b) = Wen7 m hO c (Proc.devRef .tc b) :=
  Pipeline.withArrays_of_ne spec7 c _ _ b hb
theorem Wex7_in (c : Dev nD) (w : Fin cfg7.W) (hin : (cfg7.win w).isOut = false) :
    Wex7 m hO c (Proc.devRef .tc (Pipeline.arrRef spec7 w)) = Ven7 m hO c (Pipeline.arrRef spec7 w) :=
  (Wex7_arr m hO c w).trans ((dat7 (Ven7 m hO) c).arrAt_in w hin _)

end Cert.Kernel.Hand

end
-- ==== Proof.K.Reg8.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def out8_4 (x0 : Vec F S8x64x256 .f32) (x1 : Vec F S4x64x256 .f32) (x2 : Vec F S256x256 .f32) (x3 : Vec F S256 .f32) : Vec F S4x64x256 .f32 :=
  k8_pay1 x0 x2 x3 x1

theorem out8_4_eq (x0 : Vec F S8x64x256 .f32) x1 x2 x3 : out8_4 x0 x1 x2 x3 = k8_pay1 x0 x2 x3 x1 := rfl

theorem sound_kernel8 (c : Dev nD) E i arg1 harg1 arg2 harg2 arg3 harg3 arg4 harg4 arg5 harg5 x0 x1 x2 x3 :
    Triple5 (F := F) c E (cc8_kernel i arg1 harg1 arg2 harg2 arg3 harg3 arg4 harg4 arg5 harg5) arg1 arg2 arg3 arg4 arg5 x0 x1 x2 x3
      (out8_4 x0 x1 x2 x3) := fun K => by
  simp only [cc8_kernel_eq_skeleton]; unfold cc8_kernel_skel owns out8_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := rfl

theorem after8_4 (c : Dev nD) (t : Fin cfg8.N) :
    (dat8 V c).after 4 t = out8_4 (iblk8 V c 0 t) (iblk8 V c 1 t) (iblk8 V c 2 t) (iblk8 V c 3 t) := by dsimp only [dat8]

theorem before8 (c : Dev nD) (t : Fin cfg8.N) : ∀ w : Fin cfg8.W, w ≠ 4 → ∀ d, (dat8 V c).before w t d = (dat8 V c).after w t
  | 4, h, _ => absurd rfl h
  | 0, _, d | 1, _, d | 2, _, d | 3, _, d => ((dat8 V c).before_in_eq_fetched _ rfl (fun _ => rfl) (fun _ _ _ => rfl)
    (fun _ => by dsimp only [dat8]; rfl) t d).trans (by dsimp only [dat8]; rfl)

theorem body_obligation8 (c : Dev nD) : BodyObligation (dat8 V c) defs₀ Variants.none () Set.univ := fun t => by
  rw [bigSep_W8, bigSep_W8]
  simp only [before8 V c t 0 (by decide), before8 V c t 1 (by decide), before8 V c t 2 (by decide), before8 V c t 3 (by decide)]
  dsimp only [dat8, Dat.owesAt, Dat.bound]
  exact body5 (sound_kernel8 c Set.univ (grid8.coords t) _ (hstage8_0 _) _ (hstage8_1 _) _ (hstage8_2 _) _ (hstage8_3 _) _ (hstage8_4 _)
    (iblk8 V c 0 t) (iblk8 V c 1 t) (iblk8 V c 2 t) (iblk8 V c 3 t)) _ _ _

end Cert.Kernel.Hand

end
-- ==== Proof.K.Val8.lean ====
import proofs.«418389_j13280038879631_2_alg».proof.Proof.K.Val7
import proofs.«418389_j13280038879631_2_alg».proof.Proof.K.Reg8

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen8 : Dev nD → Valuation τ sig (Elt F) := fun c => StableHlo.after hostOps8 (Wex7 m hO c)
abbrev Ven8 : (c : Dev nD) → (b : Ref sig .tc) → Buf (Elt F) ((c : Thread nD τ).loc b) := fun c b => Wen8 m hO c b

theorem Wen8_keep (c : Dev nD) (b : Ref sig .tc) (h : b ∉ hostOps8_W) : Wen8 m hO c b = Wex7 m hO c b :=
  StableHlo.after_of_writes_sub hostOps8 _ hostOps8_writes h

def Wex8 (c : Dev nD) : Valuation τ sig (Elt F) :=
  Pipeline.withArrays spec8 c (Wen8 m hO c) fun w => (dat8 (Ven8 m hO) c).arrAt w cfg8.N
theorem Wex8_arr (c : Dev nD) (w : Fin cfg8.W) :
    Wex8 m hO c (Proc.devRef .tc (Pipeline.arrRef spec8 w)) = (dat8 (Ven8 m hO) c).arrAt w cfg8.N :=
  Pipeline.withArrays_arr spec8 (launch8 (F := F)).win.arr_inj c _ _ w
theorem Wex8_of_ne (c : Dev nD) (b : Ref sig .tc) (hb : ∀ w, Pipeline.arrRef spec8 w ≠ b) :
    Wex8 m hO c (Proc.devRef .tc b) = Wen8 m hO c (Proc.devRef .tc b) :=
  Pipeline.withArrays_of_ne spec8 c _ _ b hb
theorem Wex8_in (c : Dev nD) (w : Fin cfg8.W) (hin : (cfg8.win w).isOut = false) :
    Wex8 m hO c (Proc.devRef .tc (Pipeline.arrRef spec8 w)) = Ven8 m hO c (Pipeline.arrRef spec8 w) :=
  (Wex8_arr m hO c w).trans ((dat8 (Ven8 m hO) c).arrAt_in w hin _)

end Cert.Kernel.Hand

end
-- ==== Proof.K.Reg9.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

noncomputable def out9_4 (x0 : Vec F S4x64x256 .f32) (x1 : Vec F S2x64x256 .f32) (x2 : Vec F S256x256 .f32) (x3 : Vec F S256 .f32) : Vec F S2x64x256 .f32 :=
  k9_pay1 x0 x2 x3 x1

theorem out9_4_eq (x0 : Vec F S4x64x256 .f32) x1 x2 x3 : out9_4 x0 x1 x2 x3 = k9_pay1 x0 x2 x3 x1 := rfl

theorem sound_kernel9 (c : Dev nD) E i arg1 harg1 arg2 harg2 arg3 harg3 arg4 harg4 arg5 harg5 x0 x1 x2 x3 :
    Triple5 (F := F) c E (cc9_kernel i arg1 harg1 arg2 harg2 arg3 harg3 arg4 harg4 arg5 harg5) arg1 arg2 arg3 arg4 arg5 x0 x1 x2 x3
      (out9_4 x0 x1 x2 x3) := fun K => by
  simp only [cc9_kernel_eq_skeleton]; unfold cc9_kernel_skel owns out9_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := rfl

theorem after9_4 (c : Dev nD) (t : Fin cfg9.N) :
    (dat9 V c).after 4 t = out9_4 (iblk9 V c 0 t) (iblk9 V c 1 t) (iblk9 V c 2 t) (iblk9 V c 3 t) := by dsimp only [dat9]

theorem before9 (c : Dev nD) (t : Fin cfg9.N) : ∀ w : Fin cfg9.W, w ≠ 4 → ∀ d, (dat9 V c).before w t d = (dat9 V c).after w t
  | 4, h, _ => absurd rfl h
  | 0, _, d | 1, _, d | 2, _, d | 3, _, d => ((dat9 V c).before_in_eq_fetched _ rfl (fun _ => rfl) (fun _ _ _ => rfl)
    (fun _ => by dsimp only [dat9]; rfl) t d).trans (by dsimp only [dat9]; rfl)

theorem body_obligation9 (c : Dev nD) : BodyObligation (dat9 V c) defs₀ Variants.none () Set.univ := fun t => by
  rw [bigSep_W9, bigSep_W9]
  simp only [before9 V c t 0 (by decide), before9 V c t 1 (by decide), before9 V c t 2 (by decide), before9 V c t 3 (by decide)]
  dsimp only [dat9, Dat.owesAt, Dat.bound]
  exact body5 (sound_kernel9 c Set.univ (grid9.coords t) _ (hstage9_0 _) _ (hstage9_1 _) _ (hstage9_2 _) _ (hstage9_3 _) _ (hstage9_4 _)
    (iblk9 V c 0 t) (iblk9 V c 1 t) (iblk9 V c 2 t) (iblk9 V c 3 t)) _ _ _

end Cert.Kernel.Hand

end
-- ==== Proof.K.Val9.lean ====
import proofs.«418389_j13280038879631_2_alg».proof.Proof.K.Val8
import proofs.«418389_j13280038879631_2_alg».proof.Proof.K.Reg9

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen9 : Dev nD → Valuation τ sig (Elt F) := fun c => StableHlo.after hostOps9 (Wex8 m hO c)
abbrev Ven9 : (c : Dev nD) → (b : Ref sig .tc) → Buf (Elt F) ((c : Thread nD τ).loc b) := fun c b => Wen9 m hO c b

theorem Wen9_keep (c : Dev nD) (b : Ref sig .tc) (h : b ∉ hostOps9_W) : Wen9 m hO c b = Wex8 m hO c b :=
  StableHlo.after_of_writes_sub hostOps9 _ hostOps9_writes h

def Wex9 (c : Dev nD) : Valuation τ sig (Elt F) :=
  Pipeline.withArrays spec9 c (Wen9 m hO c) fun w => (dat9 (Ven9 m hO) c).arrAt w cfg9.N
theorem Wex9_arr (c : Dev nD) (w : Fin cfg9.W) :
    Wex9 m hO c (Proc.devRef .tc (Pipeline.arrRef spec9 w)) = (dat9 (Ven9 m hO) c).arrAt w cfg9.N :=
  Pipeline.withArrays_arr spec9 (launch9 (F := F)).win.arr_inj c _ _ w
theorem Wex9_of_ne (c : Dev nD) (b : Ref sig .tc) (hb : ∀ w, Pipeline.arrRef spec9 w ≠ b) :
    Wex9 m hO c (Proc.devRef .tc b) = Wen9 m hO c (Proc.devRef .tc b) :=
  Pipeline.withArrays_of_ne spec9 c _ _ b hb
theorem Wex9_in (c : Dev nD) (w : Fin cfg9.W) (hin : (cfg9.win w).isOut = false) :
    Wex9 m hO c (Proc.devRef .tc (Pipeline.arrRef spec9 w)) = Ven9 m hO c (Pipeline.arrRef spec9 w) :=
  (Wex9_arr m hO c w).trans ((dat9 (Ven9 m hO) c).arrAt_in w hin _)

end Cert.Kernel.Hand

end
-- ==== Proof.K.Reg10.lean ====
import proofs.«418389_j13280038879631_2_alg».proof.Proof.K.RegLib

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

noncomputable def out10_4 (x0 : Vec F S2x64x256 .f32) (x1 : Vec F S1x64x256 .f32) (x2 : Vec F S256x256 .f32) (x3 : Vec F S256 .f32) : Vec F S1x64x256 .f32 :=
  k10_pay1 x0 x2 x3 x1

theorem out10_4_eq (x0 : Vec F S2x64x256 .f32) x1 x2 x3 : out10_4 x0 x1 x2 x3 = k10_pay1 x0 x2 x3 x1 := rfl

theorem sound_kernel10 (c : Dev nD) E i arg1 harg1 arg2 harg2 arg3 harg3 arg4 harg4 arg5 harg5 x0 x1 x2 x3 :
    Triple5 (F := F) c E (cc10_kernel i arg1 harg1 arg2 harg2 arg3 harg3 arg4 harg4 arg5 harg5) arg1 arg2 arg3 arg4 arg5 x0 x1 x2 x3
      (out10_4 x0 x1 x2 x3) := fun K => by
  simp only [cc10_kernel_eq_skeleton]; unfold cc10_kernel_skel owns out10_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := rfl

theorem after10_4 (c : Dev nD) (t : Fin cfg10.N) :
    (dat10 V c).after 4 t = out10_4 (iblk10 V c 0 t) (iblk10 V c 1 t) (iblk10 V c 2 t) (iblk10 V c 3 t) := by dsimp only [dat10]

theorem before10 (c : Dev nD) (t : Fin cfg10.N) : ∀ w : Fin cfg10.W, w ≠ 4 → ∀ d, (dat10 V c).before w t d = (dat10 V c).after w t
  | 4, h, _ => absurd rfl h
  | 0, _, d | 1, _, d | 2, _, d | 3, _, d => ((dat10 V c).before_in_eq_fetched _ rfl (fun _ => rfl) (fun _ _ _ => rfl)
    (fun _ => by dsimp only [dat10]; rfl) t d).trans (by dsimp only [dat10]; rfl)

theorem body_obligation10 (c : Dev nD) : BodyObligation (dat10 V c) defs₀ Variants.none () Set.univ := fun t => by
  rw [bigSep_W10, bigSep_W10]
  simp only [before10 V c t 0 (by decide), before10 V c t 1 (by decide), before10 V c t 2 (by decide), before10 V c t 3 (by decide)]
  dsimp only [dat10, Dat.owesAt, Dat.bound]
  exact body5 (sound_kernel10 c Set.univ (grid10.coords t) _ (hstage10_0 _) _ (hstage10_1 _) _ (hstage10_2 _) _ (hstage10_3 _) _ (hstage10_4 _)
    (iblk10 V c 0 t) (iblk10 V c 1 t) (iblk10 V c 2 t) (iblk10 V c 3 t)) _ _ _

end Cert.Kernel.Hand

end
-- ==== Proof.K.Val10.lean ====
import proofs.«418389_j13280038879631_2_alg».proof.Proof.K.Val9
import proofs.«418389_j13280038879631_2_alg».proof.Proof.K.Reg10

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen10 : Dev nD → Valuation τ sig (Elt F) := fun c => StableHlo.after hostOps10 (Wex9 m hO c)
abbrev Ven10 : (c : Dev nD) → (b : Ref sig .tc) → Buf (Elt F) ((c : Thread nD τ).loc b) := fun c b => Wen10 m hO c b

theorem Wen10_keep (c : Dev nD) (b : Ref sig .tc) (h : b ∉ hostOps10_W) : Wen10 m hO c b = Wex9 m hO c b :=
  StableHlo.after_of_writes_sub hostOps10 _ hostOps10_writes h

def Wex10 (c : Dev nD) : Valuation τ sig (Elt F) :=
  Pipeline.withArrays spec10 c (Wen10 m hO c) fun w => (dat10 (Ven10 m hO) c).arrAt w cfg10.N
theorem Wex10_arr (c : Dev nD) (w : Fin cfg10.W) :
    Wex10 m hO c (Proc.devRef .tc (Pipeline.arrRef spec10 w)) = (dat10 (Ven10 m hO) c).arrAt w cfg10.N :=
  Pipeline.withArrays_arr spec10 (launch10 (F := F)).win.arr_inj c _ _ w
theorem Wex10_of_ne (c : Dev nD) (b : Ref sig .tc) (hb : ∀ w, Pipeline.arrRef spec10 w ≠ b) :
    Wex10 m hO c (Proc.devRef .tc b) = Wen10 m hO c (Proc.devRef .tc b) :=
  Pipeline.withArrays_of_ne spec10 c _ _ b hb
theorem Wex10_in (c : Dev nD) (w : Fin cfg10.W) (hin : (cfg10.win w).isOut = false) :
    Wex10 m hO c (Proc.devRef .tc (Pipeline.arrRef spec10 w)) = Ven10 m hO c (Pipeline.arrRef spec10 w) :=
  (Wex10_arr m hO c w).trans ((dat10 (Ven10 m hO) c).arrAt_in w hin _)

end Cert.Kernel.Hand

end
-- ==== Proof.K.Reg11.lean ====
import proofs.«418389_j13280038879631_2_alg».proof.Proof.Gen.Kernel.Launch
import proofs.«418389_j13280038879631_2_alg».proof.Proof.Gen.Kernel.Skeleton
import proofs.«418389_j13280038879631_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg11 (F := F)).Adm) (V : (c : Dev nD) → (b : Ref sig .tc) → Buf (Elt F) ((c : Thread nD τ).loc b))
  (c : Dev nD) (t : Fin (cfg11 a).N)

abbrev st11_0 : Memref sig .tc .vmem S1x64x256 .f32 := spec11_0.stage ((cfg11 a).slots t 0)
abbrev st11_1 : Memref sig .tc .vmem S1x64x256 .f32 := spec11_1.stage ((cfg11 a).slots t 1)
abbrev st11_2 : Memref sig .tc .vmem S64x256 .f32 := spec11_2.stage ((cfg11 a).slots t 2)
abbrev sc11 : Memref sig .tc .vmem S1x64x256 .f32 := Memref.whole cc11_scratch0

abbrev bodyAt11 : Prog (TpuEff nD τ sig (Elt F) Λ₀ .tc) PUnit :=
  cc11_kernel (grid11.coords t) (Memref.whole main_c) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))
    (Memref.whole cc11_scratch0) (Memref.isWhole_whole _)

def iblk11 (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

abbrev cond11 (i : grid11.Coords) : Prop :=
  (Scalar.cmpi .ne (Scalar.extui (Scalar.cmpi .eq (BitVec.ofNat 32 (i 0).val) 0#32)) 0#32) = 1#1

set_option maxHeartbeats 400000 in
theorem hcond11 : ∀ t : Fin grid11.N, cond11 (grid11.coords t) ↔ t.val = 0 := by decide +kernel

theorem hz3_11 : (![0, 0, 0] : Fin 3 → Nat) = fun _ => 0 := by decide
theorem hz2_11 : (![0, 0] : Fin 2 → Nat) = fun _ => 0 := by decide

-- the newest piece's rectangle is the whole shape, so it covers every index
theorem read_writes_cons_whole11 {sg : RefSig} {κ : Kind} {sp : Space} {S : Shape} {e : EltTy}
    (v : View sg κ sp S e) (f : v.ty.Contents (Elt F)) {off : Fin S.rank → Nat} (h : off = fun _ => 0)
    (inb : ∀ i, off i + S.size i ≤ S.size i) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

section
variable (E : Set ℕ) (i : grid11.Coords)
    (arg1 : Memref sig .tc .smem S1023 .i32) (harg1 : arg1.IsWhole)
    (arg2 : Memref sig .tc .vmem S1x64x256 .f32) (harg2 : arg2.IsWhole)
    (arg3 : Memref sig .tc .vmem S1x64x256 .f32) (harg3 : arg3.IsWhole)
    (arg4 : Memref sig .tc .vmem S64x256 .f32) (harg4 : arg4.IsWhole)
    (arg5 : Memref sig .tc .vmem S1x64x256 .f32) (harg5 : arg5.IsWhole)
    (x0 xs : Vec F S1x64x256 .f32)

set_option maxHeartbeats 2000000 in
theorem sound_kernel11_first (hi : cond11 i) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (k11_pay2 x0)
            ∗ owns (c : Thread nD τ) arg4 fullShare (k11_pay4 (k11_pay3 x0 k11_pay1))
            ∗ owns (c : Thread nD τ) arg5 fullShare (k11_pay3 x0 k11_pay1)) -∗ K ⟨⟩))
      ⊢ wp frame (wpE (defs₀ (F := F)) Variants.none c none) E (cc11_kernel i arg1 harg1 arg2 harg2 arg3 harg3 arg4 harg4 arg5 harg5) K := by
  simp only [cc11_kernel_eq_skeleton]; unfold cc11_kernel_skel owns
  iintro ⟨⟨%f0, %hf0, H0⟩, ⟨%d1, %f1, -, H1⟩, ⟨%d2, %f2, -, H2⟩, ⟨%d3, %f3, -, H3⟩, Hk⟩
  subst hf0
  sl_exec (disch := first | exact hi)
  sl_step
  iapply Hk
  isplitl [H0]
  · iexists f0; isplitr; · ipureintro; rfl
    iexact H0
  isplitl [H1]
  · iexists _; isplitr
    swap; · iexact H1
    ipureintro
    rw [read_writes_cons_whole11 _ _ hz3_11, View.readAt_eq_ld, View.ld_unit_zero hz3_11]
  isplitl [H2]
  · iexists _; isplitr
    swap; · iexact H2
    ipureintro
    sl_unfold_words
    rw [read_writes_cons_whole11 _ _ hz2_11, View.readCov_cons_toLoadRect, View.readCov_cons_toLoadRect,
      View.readAt_eq_ld, View.ld_unit_zero hz3_11]
  · iexists _; isplitr
    swap; · iexact H3
    ipureintro
    sl_unfold_words
    rw [read_writes_cons_whole11 _ _ hz3_11, View.readCov_cons_toLoadRect, View.readAt_eq_ld, View.ld_unit_zero hz3_11]

set_option maxHeartbeats 2000000 in
theorem sound_kernel11_next (hi : ¬cond11 i) (K : PUnit → sProp 𝕄) :
    iprop(owns (c : Thread nD τ) arg2 fullShare x0 ∗ (∃ d, owns (c : Thread nD τ) arg3 fullShare d)
        ∗ (∃ d, owns (c : Thread nD τ) arg4 fullShare d) ∗ owns (c : Thread nD τ) arg5 fullShare xs
        ∗ (iprop(owns (c : Thread nD τ) arg2 fullShare x0 ∗ owns (c : Thread nD τ) arg3 fullShare (k11_pay2 x0)
            ∗ owns (c : Thread nD τ) arg4 fullShare (k11_pay4 (k11_pay3 x0 xs))
            ∗ owns (c : Thread nD τ) arg5 fullShare (k11_pay3 x0 xs)) -∗ K ⟨⟩))
      ⊢ wp frame (wpE (defs₀ (F := F)) Variants.none c none) E (cc11_kernel i arg1 harg1 arg2 harg2 arg3 harg3 arg4 harg4 arg5 harg5) K := by
  simp only [cc11_kernel_eq_skeleton]; unfold cc11_kernel_skel owns
  iintro ⟨⟨%f0, %hf0, H0⟩, ⟨%d1, %f1, -, H1⟩, ⟨%d2, %f2, -, H2⟩, ⟨%f3, %hf3, H3⟩, Hk⟩
  subst hf0 hf3
  sl_exec (disch := first | exact hi)
  sl_step
  iapply Hk
  isplitl [H0]
  · iexists f0; isplitr; · ipureintro; rfl
    iexact H0
  isplitl [H1]
  · iexists _; isplitr
    swap; · iexact H1
    ipureintro
    rw [read_writes_cons_whole11 _ _ hz3_11, View.readAt_eq_ld, View.ld_unit_zero hz3_11]
  isplitl [H2]
  · iexists _; isplitr
    swap; · iexact H2
    ipureintro
    sl_unfold_words
    rw [read_writes_cons_whole11 _ _ hz2_11, View.readCov_cons_toLoadRect, View.readAt_eq_ld, View.ld_unit_zero hz3_11,
      View.readAt_eq_ld, View.ld_unit_zero hz3_11]
  · iexists _; isplitr
    swap; · iexact H3
    ipureintro
    sl_unfold_words
    rw [read_writes_cons_whole11 _ _ hz3_11, View.readAt_eq_ld, View.ld_unit_zero hz3_11,
      View.readAt_eq_ld, View.ld_unit_zero hz3_11]

end

def x11 (n : ℕ) : Vec F S1x64x256 .f32 :=
  if h : n < (cfg11 a).N then iblk11 a V c 0 ⟨n, h⟩ else k11_pay1

theorem x11_val : x11 a V c t.val = iblk11 a V c 0 t := dif_pos t.isLt

def acc11 : ℕ → Vec F S1x64x256 .f32
  | 0 => k11_pay3 (x11 a V c 0) k11_pay1
  | n + 1 => k11_pay3 (x11 a V c (n + 1)) (acc11 n)

theorem acc11_zero : acc11 a V c 0 = k11_pay3 (x11 a V c 0) k11_pay1 := rfl
theorem acc11_succ (n : ℕ) : acc11 a V c (n + 1) = k11_pay3 (x11 a V c (n + 1)) (acc11 a V c n) := rfl

theorem acc11_first (hz : t.val = 0) : acc11 a V c t.val = k11_pay3 (iblk11 a V c 0 t) k11_pay1 := by
  rw [← x11_val a V c t, hz]; rfl

theorem acc11_next (hz : t.val ≠ 0) : acc11 a V c t.val = k11_pay3 (iblk11 a V c 0 t) (acc11 a V c (t.val - 1)) := by
  rw [← x11_val a V c t]
  obtain ⟨k, hk⟩ := Nat.exists_eq_succ_of_ne_zero hz
  rw [hk]; rfl

def scr11 : ℕ → sProp 𝕄
  | 0 => iprop(∃ d, owns (c : Thread nD τ) sc11 fullShare d)
  | n + 1 => owns (c : Thread nD τ) sc11 fullShare (acc11 a V c n)

theorem scr11_zero (n : ℕ) (hz : n = 0) :
    scr11 a V c n = iprop(∃ d, owns (c : Thread nD τ) sc11 fullShare d) := by subst hz; rfl

theorem scr11_pos (n : ℕ) (hz : n ≠ 0) :
    scr11 a V c n = owns (c : Thread nD τ) sc11 fullShare (acc11 a V c (n - 1)) := by
  cases n with
  | zero => exact absurd rfl hz
  | succ n => rfl

def Phi11 (n : ℕ) : sProp 𝕄 :=
  iprop(Pipeline.scopedRestBut spec11 c [cc11_scratch0] ∗ (∃ r, prngReg c r)
    ∗ Pipeline.prefHeld pre11 c (fun _ => fullShare) a.1 ∗ scr11 a V c n)

def dat11 : Dat τ (Elt F) Unit ℕ (UR sig nD τ) ℕ (cfg11 a) c where
  A w := V c (Pipeline.arrRef spec11 w)
  after w t := match w with
    | ⟨0, _⟩ => iblk11 a V c 0 t
    | ⟨1, _⟩ => k11_pay2 (iblk11 a V c 0 t)
    | ⟨2, _⟩ => k11_pay4 (acc11 a V c t.val)
  Φ t := Phi11 a V c t.val
  q _ := fullShare
  owed _ := 0

theorem A_eq11 (w : Fin (cfg11 a).W) : (dat11 a V c).A w = V c (Pipeline.arrRef spec11 w) := rfl

theorem after11_0 : (dat11 a V c).after (0 : Fin 3) t = iblk11 a V c 0 t := by dsimp only [dat11]
theorem after11_1 : (dat11 a V c).after 1 t = k11_pay2 (iblk11 a V c 0 t) := by dsimp only [dat11]; rfl
theorem after11_2 : (dat11 a V c).after 2 t = k11_pay4 (acc11 a V c t.val) := by dsimp only [dat11]; rfl

theorem before11_0 (d) : (dat11 a V c).before (0 : Fin 3) t d = iblk11 a V c 0 t :=
  (dat11 a V c).before_in_eq_fetched 0 rfl (fun _ => rfl) (fun _ _ _ => rfl) (fun _ => rfl) t d

set_option maxHeartbeats 1000000 in
theorem body_obligation11 : BodyObligation (dat11 (F := F) a V c) (defs₀ (F := F)) Variants.none () Set.univ := fun t => by
  rw [bigSep_W11, bigSep_W11]
  simp only [before11_0]
  show _ ⊢ wp frame _ _ (bodyAt11 a t) _
  rw [show (dat11 a V c).Φ t.succ = Phi11 a V c (t.val + 1) from rfl,
    show (dat11 a V c).Φ t.castSucc = Phi11 a V c t.val from rfl,
    show (dat11 a V c).owesAt () t.succ = (dat11 a V c).owesAt () t.castSucc from rfl,
    after11_0, show (dat11 a V c).after (1 : Fin 3) t = _ from after11_1 a V c t,
    show (dat11 a V c).after (2 : Fin 3) t = _ from after11_2 a V c t]
  unfold Phi11
  rw [show scr11 a V c (t.val + 1) = owns (c : Thread nD τ) sc11 fullShare (acc11 a V c t.val) from rfl]
  by_cases hz : t.val = 0
  on_goal 1 =>
    rw [scr11_zero a V c _ hz, acc11_first a V c t hz]
    iintro ⟨⟨HR, Hg, HT, HS⟩, Ho, ⟨%d0, H0⟩, ⟨%d1, H1⟩, ⟨%d2, H2⟩⟩
    iapply (sound_kernel11_first c Set.univ (grid11.coords t) _ _ _ _ _ _ _ _ _ _ (iblk11 a V c 0 t) ((hcond11 t).mpr hz) _)
  on_goal 2 =>
    rw [scr11_pos a V c _ hz, acc11_next a V c t hz]
    iintro ⟨⟨HR, Hg, HT, HS⟩, Ho, ⟨%d0, H0⟩, ⟨%d1, H1⟩, ⟨%d2, H2⟩⟩
    iapply (sound_kernel11_next c Set.univ (grid11.coords t) _ _ _ _ _ _ _ _ _ _ (iblk11 a V c 0 t) (acc11 a V c (t.val - 1)) (fun h => hz ((hcond11 t).mp h)) _)
  all_goals
    isplitl [H0]; · iexact H0
    isplitl [H1]; · iexists _; iexact H1
    isplitl [H2]; · iexists _; iexact H2
    isplitl [HS]; · iexact HS
    iintro ⟨H0, H1, H2, HS⟩
    iframe

theorem scopedRest11_eq :
    (Pipeline.scopedRest spec11 c : sProp 𝕄)
      = iprop(iprop((∃ d, owns (c : Thread nD τ) sc11 fullShare d)) ∗ Pipeline.scopedRestBut spec11 c [cc11_scratch0]) := by
  rw [scopedRest11_split]; simp only [sc11, owns_whole]; try rfl

theorem hin11 :
    iprop((∃ r, prngReg c r) ∗ Pipeline.prefHeld pre11 c (fun _ => fullShare) a.1 ∗ Pipeline.scopedRest spec11 c)
      ⊢ (dat11 a V c).Φ 0 := by
  rw [show (dat11 a V c).Φ 0 = Phi11 a V c 0 from rfl, scopedRest11_eq]
  unfold Phi11
  rw [scr11_zero a V c 0 rfl]
  iintro ⟨Hg, HT, HS, HR⟩
  iframe

theorem hout11 :
    (dat11 a V c).Φ (Fin.last (cfg11 a).N)
      ⊢ iprop(((∃ r, prngReg c r) ∗ Pipeline.prefHeld pre11 c (fun _ => fullShare) a.1) ∗ Pipeline.scopedRest spec11 c) := by
  rw [show (dat11 a V c).Φ (Fin.last (cfg11 a).N) = Phi11 a V c (cfg11 a).N from rfl, scopedRest11_eq]
  unfold Phi11
  rw [scr11_pos a V c _ (show (cfg11 a).N ≠ 0 from by rw [show (cfg11 a).N = 1023 from N_11]; decide)]
  iintro ⟨HR, Hg, HT, HS⟩
  iframe Hg HT HR
  iexists _; iexact HS

end Cert.Kernel.Hand

end
-- ==== Proof.K.Val11.lean ====
import proofs.«418389_j13280038879631_2_alg».proof.Proof.K.Val10
import proofs.«418389_j13280038879631_2_alg».proof.Proof.K.Reg11

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m)

abbrev Wen11 : Dev nD → Valuation τ sig (Elt F) := fun c => StableHlo.after hostOps11 (Wex10 m hO c)
abbrev Ven11 : (c : Dev nD) → (b : Ref sig .tc) → Buf (Elt F) ((c : Thread nD τ).loc b) := fun c b => Wen11 m hO c b

theorem Wen11_keep (c : Dev nD) (b : Ref sig .tc) (h : b ∉ hostOps11_W) : Wen11 m hO c b = Wex10 m hO c b :=
  StableHlo.after_of_writes_sub hostOps11 _ hostOps11_writes h

def tbl11 : pre11.Contents (Elt F) := fun k => Ven11 m hO (0 : Dev nD) (pre11.ref k)

theorem Ven11_pre (c : Dev nD) (k : Fin pre11.K) : Ven11 m hO c (pre11.ref k) = tbl11 m hO k := by
  obtain rfl : c = 0 := Subsingleton.elim _ _
  rfl

abbrev Ok11 : Prop := ok11 (F := F) (tbl11 m hO)

variable (h11 : Ok11 m hO)

abbrev adm11 : (pcfg11 (F := F)).Adm := ⟨tbl11 m hO, h11⟩

def Wex11 (c : Dev nD) : Valuation τ sig (Elt F) :=
  Pipeline.withArrays spec11 c (Wen11 m hO c) fun w => (dat11 (adm11 m hO h11) (Ven11 m hO) c).arrAt w (cfg11 (adm11 m hO h11)).N
theorem Wex11_arr (c : Dev nD) (w : Fin (cfg11 (adm11 m hO h11)).W) :
    Wex11 m hO h11 c (Proc.devRef .tc (Pipeline.arrRef spec11 w)) = (dat11 (adm11 m hO h11) (Ven11 m hO) c).arrAt w (cfg11 (adm11 m hO h11)).N :=
  Pipeline.withArrays_arr spec11 (launch11 (F := F)).win.arr_inj c _ _ w
theorem Wex11_of_ne (c : Dev nD) (b : Ref sig .tc) (hb : ∀ w, Pipeline.arrRef spec11 w ≠ b) :
    Wex11 m hO h11 c (Proc.devRef .tc b) = Wen11 m hO c (Proc.devRef .tc b) :=
  Pipeline.withArrays_of_ne spec11 c _ _ b hb

end Cert.Kernel.Hand

end
-- ==== Proof.K.Data.lean ====
import proofs.«418389_j13280038879631_2_alg».proof.Proof.K.Val11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

abbrev adm : (p : Fin 12) → (pcfgs (F := F) p).Adm
  | ⟨0, _⟩ => adm0 m hO
  | ⟨1, _⟩ => cfg1.toPCfg_adm
  | ⟨2, _⟩ => cfg2.toPCfg_adm
  | ⟨3, _⟩ => cfg3.toPCfg_adm
  | ⟨4, _⟩ => cfg4.toPCfg_adm
  | ⟨5, _⟩ => cfg5.toPCfg_adm
  | ⟨6, _⟩ => cfg6.toPCfg_adm
  | ⟨7, _⟩ => cfg7.toPCfg_adm
  | ⟨8, _⟩ => cfg8.toPCfg_adm
  | ⟨9, _⟩ => cfg9.toPCfg_adm
  | ⟨10, _⟩ => cfg10.toPCfg_adm
  | ⟨11, _⟩ => adm11 m hO h11

def pdats : (p : Fin 12) → (c : Dev nD) → Dat τ (Elt F) Unit ℕ (UR sig nD τ) ℕ (Pipeline.pin (pcfgs (F := F)) (adm m hO h11) p) c
  | ⟨0, _⟩ => fun c => dat0 (Ven0 m) (adm0 m hO) c
  | ⟨1, _⟩ => fun c => dat1 (Ven1 m hO) c
  | ⟨2, _⟩ => fun c => dat2 (Ven2 m hO) c
  | ⟨3, _⟩ => fun c => dat3 (Ven3 m hO) c
  | ⟨4, _⟩ => fun c => dat4 (Ven4 m hO) c
  | ⟨5, _⟩ => fun c => dat5 (Ven5 m hO) c
  | ⟨6, _⟩ => fun c => dat6 (Ven6 m hO) c
  | ⟨7, _⟩ => fun c => dat7 (Ven7 m hO) c
  | ⟨8, _⟩ => fun c => dat8 (Ven8 m hO) c
  | ⟨9, _⟩ => fun c => dat9 (Ven9 m hO) c
  | ⟨10, _⟩ => fun c => dat10 (Ven10 m hO) c
  | ⟨11, _⟩ => fun c => dat11 (adm11 m hO h11) (Ven11 m hO) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (Wex11 m hO h11 c) ∗ ∃ r, prngReg c r)

end Cert.Kernel.Hand

end
-- ==== Proof.K.Seg0.lean ====
import proofs.«418389_j13280038879631_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

theorem rest0_split (c : Dev nD) :
    (Pipeline.unscopedRest (Ix := Unit) (Name := ℕ) (U := UR sig nD τ) (Lvl := ℕ) (Pipeline.pin (pcfgs (F := F)) (adm m hO h11) 0).spec c (Ven0 m c) : sProp 𝕄)
      = iprop(Pipeline.prefHeld pre0 c (fun _ => fullShare) (tbl0 m) ∗ Pipeline.unscopedRestP pre0 spec0 c (Ven0 m c)) := by
  have h := Pipeline.unscopedRest_split (Ix := Unit) (Name := ℕ) (U := UR sig nD τ) (Lvl := ℕ) (Val := Elt F) preFacts0 c (Ven0 m c)
  rw [show (fun k => Ven0 m c (pre0.ref k)) = tbl0 m from funext fun k => Ven0_pre m c k] at h
  exact h

set_option backward.isDefEq.respectTransparency.types false in
def reg0 : Pipeline.RegionSeg (pcfgs (F := F)) (adm m hO h11) (pdats m hO h11) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ven0 m) (adm0 m hO) c).loose
  hwaits := Pipeline.hwaits_of_owed_zero _ _ _ _ L lv 0 fun _ _ => rfl
  pre c := iprop(StableHlo.held (c : Thread nD τ) (Pipeline.ucRefs τ sig) (Wen0 m c) ∗ R c)
  post c := iprop(StableHlo.held (c : Thread nD τ) (Pipeline.ucRefs τ sig) (Wex0 m hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 m))
  Z c := Pipeline.unscopedRestP (Ix := Unit) (Name := ℕ) (U := UR sig nD τ) (Lvl := ℕ) pre0 spec0 c (Ven0 m c)
  hentry c := by
    rw [Pipeline.ownSems0_none]
    have hsplit := Pipeline.arrays_of_unscopedBufs (p := 0) (pcfgs (F := F)) (adm m hO h11) (pdats m hO h11) (launch0 (F := F)).win (launch0 (F := F)).arr_whole c
      ((pdats m hO h11 0 c).share_full fun _ => rfl) (Ven0 m c) fun _ => rfl
    rw [Pipeline.unscopedBufs_held, rest0_split m hO h11 c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (Ven0 m) (adm0 m hO) c
  hout c := by
    rw [Pipeline.ownSems0_none]
    refine (hout0 (Ven0 m) (adm0 m hO) c).trans ?_
    iintro ⟨HY, Hr⟩
    isplitl [HY]; · iexact HY
    isplitr; · iempintro
    iexact Hr
  hexit c := by
    have hjoin := Pipeline.unscopedBufs_of_arrays (p := 0) (pcfgs (F := F)) (adm m hO h11) (Ix := Unit) (Name := ℕ) (U := UR sig nD τ) (Lvl := ℕ)
      (launch0 (F := F)).win (launch0 (F := F)).arr_whole c (pdats m hO h11) ((pdats m hO h11 0 c).share_full fun _ => rfl)
      (Ven0 m c) (fun b => Wex0 m hO c b) ((pdats m hO h11 0 c).arrAt · (cfg0 (adm0 m hO)).N) (fun w => (Wex0_arr m hO c w).symm)
      fun b hb => Wex0_of_ne m hO c b fun w e => hb (Finset.mem_image.mpr ⟨w, Finset.mem_univ _, e⟩)
    rw [Pipeline.unscopedBufs_held, rest0_split m hO h11 c] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

end Cert.Kernel.Hand

end
-- ==== Proof.K.SegLib.lean ====
import proofs.«418389_j13280038879631_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

theorem prefHeld_none (pre : Pipeline.Prefetch sig) (h : pre.K = 0) (c : Dev nD) (q) (V : pre.Contents (Elt F)) :
    (Pipeline.prefHeld (Ix := Unit) (Name := ℕ) (U := UR sig nD τ) (Lvl := ℕ) pre c q V : sProp 𝕄) = BI.emp := by
  haveI : IsEmpty (Fin pre.K) := by rw [h]; infer_instance
  unfold Pipeline.prefHeld
  rw [Finset.univ_eq_empty, BI.bigSep_empty]

def regOf (p : Fin 12) (la : Pipeline.PLaunchFacts (nD := nD) (τ := τ) (pcfgs (F := F)) p)
    (Wen Wex : Dev nD → Valuation τ sig (Elt F))
    (hb : ∀ c, BodyObligation (pdats m hO h11 p c) (defs₀ (F := F)) 𝒱₀ () Set.univ)
    (hK : (pcfgs (F := F) p).pre.K = 0)
    (hd : ∀ c, ((pdats m hO h11 p c).Φ = fun _ => Pipeline.ΦA (Pipeline.pin (pcfgs (F := F)) (adm m hO h11) p).spec c)
      ∧ ((pdats m hO h11 p c).q = fun _ => fullShare) ∧ ((pdats m hO h11 p c).owed = fun _ => 0)
      ∧ ((pdats m hO h11 p c).recorded = fun _ => Set.univ)
      ∧ (pdats m hO h11 p c).A = fun w => Wen c (Proc.devRef .tc (Pipeline.arrRef (Pipeline.pin (pcfgs (F := F)) (adm m hO h11) p).spec w)))
    (harr : ∀ c w, Wex c (Proc.devRef .tc (Pipeline.arrRef (Pipeline.pin (pcfgs (F := F)) (adm m hO h11) p).spec w)) = (pdats m hO h11 p c).arrAt w (Pipeline.pin (pcfgs (F := F)) (adm m hO h11) p).N)
    (hne : ∀ c (b : Ref sig .tc), (∀ w, Pipeline.arrRef (Pipeline.pin (pcfgs (F := F)) (adm m hO h11) p).spec w ≠ b) → Wex c (Proc.devRef .tc b) = Wen c (Proc.devRef .tc b)) :
    Pipeline.RegionSeg (pcfgs (F := F)) (adm m hO h11) (pdats m hO h11) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => congrFun (hd c).2.2.1
  pre c := iprop(StableHlo.held (c : Thread nD τ) (Pipeline.ucRefs τ sig) (Wen c) ∗ R c)
  post c := iprop(StableHlo.held (c : Thread nD τ) (Pipeline.ucRefs τ sig) (Wex c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) (adm m hO h11) p).spec c fun b => Wen c b
  hentry c := by
    obtain ⟨-, hq, h0, hr, hA⟩ := hd c
    rw [Pipeline.ownSems0_none, prefHeld_none _ hK]
    have hsplit := Pipeline.arrays_of_unscopedBufs (p := p) (pcfgs (F := F)) (adm m hO h11) (pdats m hO h11) la.win la.arr_whole c
      ((pdats m hO h11 p c).share_full (congrFun hq)) (fun b => Wen c b) (congrFun hA)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [(hd c).1]; unfold Pipeline.ΦA
    iintro ⟨Hp, -, Hr⟩
    isplitl [Hr]; · iexact Hr
    iexact Hp
  hout c := by
    rw [Pipeline.ownSems0_none, (hd c).1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) (adm m hO h11) (Ix := Unit) (Name := ℕ) (U := UR sig nD τ) (Lvl := ℕ)
      la.win la.arr_whole c (pdats m hO h11) ((pdats m hO h11 p c).share_full (congrFun (hd c).2.1))
      (fun b => Wen c b) (fun b => Wex c b) ((pdats m hO h11 p c).arrAt · (Pipeline.pin (pcfgs (F := F)) (adm m hO h11) p).N)
      (fun w => (harr c w).symm) fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.2.1]
    icases HO with ⟨%W, -, HO⟩; iexists W; iexact HO

end Cert.Kernel.Hand

end
-- ==== Proof.K.Seg1.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg1 : Pipeline.RegionSeg (pcfgs (F := F)) (adm m hO h11) (pdats m hO h11) () defs₀ 𝒱₀ L lv 1 :=
  regOf m hO h11 1 launch1 (Wen1 m hO) (Wex1 m hO) (body_obligation1 (Ven1 m hO)) rfl
    (fun _ => ⟨rfl, rfl, rfl, rfl, rfl⟩) (Wex1_arr m hO) (Wex1_of_ne m hO)

end Cert.Kernel.Hand

end
-- ==== Proof.K.Seg2.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg2 : Pipeline.RegionSeg (pcfgs (F := F)) (adm m hO h11) (pdats m hO h11) () defs₀ 𝒱₀ L lv 2 :=
  regOf m hO h11 2 launch2 (Wen2 m hO) (Wex2 m hO) (body_obligation2 (Ven2 m hO)) rfl
    (fun _ => ⟨rfl, rfl, rfl, rfl, rfl⟩) (Wex2_arr m hO) (Wex2_of_ne m hO)

end Cert.Kernel.Hand

end
-- ==== Proof.K.Seg3.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg3 : Pipeline.RegionSeg (pcfgs (F := F)) (adm m hO h11) (pdats m hO h11) () defs₀ 𝒱₀ L lv 3 :=
  regOf m hO h11 3 launch3 (Wen3 m hO) (Wex3 m hO) (body_obligation3 (Ven3 m hO)) rfl
    (fun _ => ⟨rfl, rfl, rfl, rfl, rfl⟩) (Wex3_arr m hO) (Wex3_of_ne m hO)

end Cert.Kernel.Hand

end
-- ==== Proof.K.Seg4.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg4 : Pipeline.RegionSeg (pcfgs (F := F)) (adm m hO h11) (pdats m hO h11) () defs₀ 𝒱₀ L lv 4 :=
  regOf m hO h11 4 launch4 (Wen4 m hO) (Wex4 m hO) (body_obligation4 (Ven4 m hO)) rfl
    (fun _ => ⟨rfl, rfl, rfl, rfl, rfl⟩) (Wex4_arr m hO) (Wex4_of_ne m hO)

end Cert.Kernel.Hand

end
-- ==== Proof.K.Seg5.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg5 : Pipeline.RegionSeg (pcfgs (F := F)) (adm m hO h11) (pdats m hO h11) () defs₀ 𝒱₀ L lv 5 :=
  regOf m hO h11 5 launch5 (Wen5 m hO) (Wex5 m hO) (body_obligation5 (Ven5 m hO)) rfl
    (fun _ => ⟨rfl, rfl, rfl, rfl, rfl⟩) (Wex5_arr m hO) (Wex5_of_ne m hO)

end Cert.Kernel.Hand

end
-- ==== Proof.K.Seg6.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg6 : Pipeline.RegionSeg (pcfgs (F := F)) (adm m hO h11) (pdats m hO h11) () defs₀ 𝒱₀ L lv 6 :=
  regOf m hO h11 6 launch6 (Wen6 m hO) (Wex6 m hO) (body_obligation6 (Ven6 m hO)) rfl
    (fun _ => ⟨rfl, rfl, rfl, rfl, rfl⟩) (Wex6_arr m hO) (Wex6_of_ne m hO)

end Cert.Kernel.Hand

end
-- ==== Proof.K.Seg7.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg7 : Pipeline.RegionSeg (pcfgs (F := F)) (adm m hO h11) (pdats m hO h11) () defs₀ 𝒱₀ L lv 7 :=
  regOf m hO h11 7 launch7 (Wen7 m hO) (Wex7 m hO) (body_obligation7 (Ven7 m hO)) rfl
    (fun _ => ⟨rfl, rfl, rfl, rfl, rfl⟩) (Wex7_arr m hO) (Wex7_of_ne m hO)

end Cert.Kernel.Hand

end
-- ==== Proof.K.Seg8.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg8 : Pipeline.RegionSeg (pcfgs (F := F)) (adm m hO h11) (pdats m hO h11) () defs₀ 𝒱₀ L lv 8 :=
  regOf m hO h11 8 launch8 (Wen8 m hO) (Wex8 m hO) (body_obligation8 (Ven8 m hO)) rfl
    (fun _ => ⟨rfl, rfl, rfl, rfl, rfl⟩) (Wex8_arr m hO) (Wex8_of_ne m hO)

end Cert.Kernel.Hand

end
-- ==== Proof.K.Seg9.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg9 : Pipeline.RegionSeg (pcfgs (F := F)) (adm m hO h11) (pdats m hO h11) () defs₀ 𝒱₀ L lv 9 :=
  regOf m hO h11 9 launch9 (Wen9 m hO) (Wex9 m hO) (body_obligation9 (Ven9 m hO)) rfl
    (fun _ => ⟨rfl, rfl, rfl, rfl, rfl⟩) (Wex9_arr m hO) (Wex9_of_ne m hO)

end Cert.Kernel.Hand

end
-- ==== Proof.K.Seg10.lean ====
import proofs.«418389_j13280038879631_2_alg».proof.Proof.K.SegLib

set_option maxRecDepth 16384

noncomputable section

namespace Cert.Kernel.Hand

open Cert.Kernel Cert.Kernel.Gen Idealize.ShloMosaic

variable {F : FTy → Type} [FloatOps F]

variable (m : (ℓ : Loc nD τ sig) → Buf (Elt F) ℓ) (hO : Ok0 m) (h11 : Ok11 m hO)

def reg10 : Pipeline.RegionSeg (pcfgs (F := F)) (adm m hO h11) (pdats m hO h11) () defs₀ 𝒱₀ L lv 10 :=
  regOf m hO h11 10 launch10 (Wen10 m hO) (Wex10 m hO) (body_obligation10 (Ven10 m hO)) rfl
    (fun _ => ⟨rfl, rfl, rfl, rfl, rfl⟩) (Wex10_arr m hO) (Wex10_of_ne m hO)

end Cert.Kernel.Hand

end
-- ==== Proof.K.Seg11.lean ====
import proofs.«418389_j13280038879631_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

theorem rest11_split (c : Dev nD) :
    (Pipeline.unscopedRest (Ix := Unit) (Name := ℕ) (U := UR sig nD τ) (Lvl := ℕ) (Pipeline.pin (pcfgs (F := F)) (adm m hO h11) 11).spec c (Ven11 m hO c) : sProp 𝕄)
      = iprop(Pipeline.prefHeld pre11 c (fun _ => fullShare) (tbl11 m hO) ∗ Pipeline.unscopedRestP pre11 spec11 c (Ven11 m hO c)) := by
  have h := Pipeline.unscopedRest_split (Ix := Unit) (Name := ℕ) (U := UR sig nD τ) (Lvl := ℕ) (Val := Elt F) preFacts11 c (Ven11 m hO c)
  rw [show (fun k => Ven11 m hO c (pre11.ref k)) = tbl11 m hO from funext fun k => Ven11_pre m hO c k] at h
  exact h

set_option backward.isDefEq.respectTransparency.types false in
def reg11 : Pipeline.RegionSeg (pcfgs (F := F)) (adm m hO h11) (pdats m hO h11) () defs₀ 𝒱₀ L lv 11 where
  win := (launch11 (F := F)).win.to₀
  block_pos := (launch11 (F := F)).block_pos
  stage_whole := (launch11 (F := F)).stage_whole
  K := PEmpty
  osem k := k.elim
  ho := Pipeline.OwnSemFacts.none _
  hbody c := (body_obligation11 (adm11 m hO h11) (Ven11 m hO) c).loose
  hwaits := Pipeline.hwaits_of_owed_zero _ _ _ _ L lv 11 fun _ _ => rfl
  pre c := iprop(StableHlo.held (c : Thread nD τ) (Pipeline.ucRefs τ sig) (Wen11 m hO c) ∗ R c)
  post c := iprop(Tₙ m hO h11 c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre11 c (fun _ => fullShare) (tbl11 m hO))
  Z c := Pipeline.unscopedRestP (Ix := Unit) (Name := ℕ) (U := UR sig nD τ) (Lvl := ℕ) pre11 spec11 c (Ven11 m hO c)
  hentry c := by
    rw [Pipeline.ownSems0_none]
    have hsplit := Pipeline.arrays_of_unscopedBufs (p := 11) (pcfgs (F := F)) (adm m hO h11) (pdats m hO h11) (launch11 (F := F)).win (launch11 (F := F)).arr_whole c
      ((pdats m hO h11 11 c).share_full fun _ => rfl) (Ven11 m hO c) fun _ => rfl
    rw [Pipeline.unscopedBufs_held, rest11_split m hO h11 c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin11 (adm11 m hO h11) (Ven11 m hO) c
  hout c := by
    rw [Pipeline.ownSems0_none]
    refine (hout11 (adm11 m hO h11) (Ven11 m hO) c).trans ?_
    iintro ⟨HY, Hr⟩
    isplitl [HY]; · iexact HY
    isplitr; · iempintro
    iexact Hr
  hexit c := by
    have hjoin := Pipeline.unscopedBufs_of_arrays (p := 11) (pcfgs (F := F)) (adm m hO h11) (Ix := Unit) (Name := ℕ) (U := UR sig nD τ) (Lvl := ℕ)
      (launch11 (F := F)).win (launch11 (F := F)).arr_whole c (pdats m hO h11) ((pdats m hO h11 11 c).share_full fun _ => rfl)
      (Ven11 m hO c) (fun b => Wex11 m hO h11 c b) ((pdats m hO h11 11 c).arrAt · (cfg11 (adm11 m hO h11)).N) (fun w => (Wex11_arr m hO h11 c w).symm)
      fun b hb => Wex11_of_ne m hO h11 c b fun w e => hb (Finset.mem_image.mpr ⟨w, Finset.mem_univ _, e⟩)
    rw [Pipeline.unscopedBufs_held, rest11_split m hO h11 c] at hjoin
    iintro ⟨Ha, HO, ⟨HY, Ht⟩, Hrest⟩
    imodintro
    isplitl [Ha Hrest Ht HY]
    · isplitl [Ha Hrest Ht]
      · iapply hjoin; isplitl [Ha]; · iexact Ha
        isplitl [Ht]; · iexact Ht
        iexact Hrest
      iexact HY
    unfold Pipeline.Dat.owesAt Pipeline.owesWithin
    icases HO with ⟨%W, -, HO⟩; iexists W; iexact HO

end Cert.Kernel.Hand

end
-- ==== Proof.K.Main.lean ====
import proofs.«418389_j13280038879631_2_alg».proof.Proof.K.Seg0
import proofs.«418389_j13280038879631_2_alg».proof.Proof.K.Seg1
import proofs.«418389_j13280038879631_2_alg».proof.Proof.K.Seg2
import proofs.«418389_j13280038879631_2_alg».proof.Proof.K.Seg3
import proofs.«418389_j13280038879631_2_alg».proof.Proof.K.Seg4
import proofs.«418389_j13280038879631_2_alg».proof.Proof.K.Seg5
import proofs.«418389_j13280038879631_2_alg».proof.Proof.K.Seg6
import proofs.«418389_j13280038879631_2_alg».proof.Proof.K.Seg7
import proofs.«418389_j13280038879631_2_alg».proof.Proof.K.Seg8
import proofs.«418389_j13280038879631_2_alg».proof.Proof.K.Seg9
import proofs.«418389_j13280038879631_2_alg».proof.Proof.K.Seg10
import proofs.«418389_j13280038879631_2_alg».proof.Proof.K.Seg11
import proofs.«418389_j13280038879631_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok0 m) (h11 : Ok11 m hO)

abbrev segs : List (Pipeline.Seg (pcfgs (F := F)) (adm m hO h11) (pdats m hO h11) () defs₀ 𝒱₀ L lv) :=
  [ .host (hseg hostOps0 hostOps0_sub hostOps0_fresh (W0 m)),
    .region (reg0 m hO h11),
    .region (reg1 m hO h11),
    .host (hseg hostOps2 hostOps2_sub hostOps2_fresh (Wex1 m hO)),
    .region (reg2 m hO h11),
    .host (hseg hostOps3 hostOps3_sub hostOps3_fresh (Wex2 m hO)),
    .region (reg3 m hO h11),
    .host (hseg hostOps4 hostOps4_sub hostOps4_fresh (Wex3 m hO)),
    .region (reg4 m hO h11),
    .host (hseg hostOps5 hostOps5_sub hostOps5_fresh (Wex4 m hO)),
    .region (reg5 m hO h11),
    .host (hseg hostOps6 hostOps6_sub hostOps6_fresh (Wex5 m hO)),
    .region (reg6 m hO h11),
    .host (hseg hostOps7 hostOps7_sub hostOps7_fresh (Wex6 m hO)),
    .region (reg7 m hO h11),
    .host (hseg hostOps8 hostOps8_sub hostOps8_fresh (Wex7 m hO)),
    .region (reg8 m hO h11),
    .host (hseg hostOps9 hostOps9_sub hostOps9_fresh (Wex8 m hO)),
    .region (reg9 m hO h11),
    .host (hseg hostOps10 hostOps10_sub hostOps10_fresh (Wex9 m hO)),
    .region (reg10 m hO h11),
    .host (hseg hostOps11 hostOps11_sub hostOps11_fresh (Wex10 m hO)),
    .region (reg11 m hO h11) ]

theorem main_run (c : Dev nD) : main (F := F) c = Pipeline.Seg.run (segs m hO h11) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wex11 m hO h11 c b) :=
  Pipeline.θ_run_regions_kit (pcfgs (F := F)) (adm m hO h11) (pdats m hO h11) () (cellOf_inj (adm m hO h11)) emb₁ defs₀ 𝒱₀ L lv m ρ main (segs m hO h11)
    (fun c Q => by rw [main_run m hO h11 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO h11)) (cellOf_inj (adm m hO h11))) (Pipeline.launchToks (Pipeline.pin (pcfgs (F := F)) (adm m hO h11)) (cellOf_inj (adm m hO h11))))
    (hu₀ := by
      iintro Hu; imodintro
      isplitl [Hu]
      · iapply (show (ownU (initOf (Pipeline.cells (Pipeline.pin (pcfgs (F := F)) (adm m hO h11)) (cellOf_inj (adm m hO h11))) (Pipeline.launchToks (Pipeline.pin (pcfgs (F := F)) (adm m hO h11)) (cellOf_inj (adm m hO h11)))) : sProp 𝕄)
            ⊢ BI.own (emb₁ (initOf (Pipeline.cells (Pipeline.pin (pcfgs (F := F)) (adm m hO h11)) (cellOf_inj (adm m hO h11))) (Pipeline.launchToks (Pipeline.pin (pcfgs (F := F)) (adm m hO h11)) (cellOf_inj (adm m hO h11))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO h11)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wex11 m hO h11 c b)
    (hfin := fun c s' => by
      iintro ⟨⟨Hh, -⟩, HSI⟩
      unfold StableHlo.held
      imodintro
      iapply (pointsTo_read_all (Pipeline.ucRefs τ sig) (fun b => (((c : Thread nD τ)).1, b)) (Wex11 m hO h11 c) s')
      isplitl [Hh] <;> iassumption)
    (hQ := fun s h c => h c)

end Cert.Kernel.Hand

end
-- ==== Proof.K.Keep.lean ====
import proofs.«418389_j13280038879631_2_alg».proof.Proof.K.Val11

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hO : Ok0 m) (h11 : Ok11 m hO)

theorem keep_mid (c : Dev nD) (b : Ref sig .tc)
    (h : ((∀ w, Pipeline.arrRef spec10 w ≠ b) ∧ b ∉ hostOps10_W) ∧
      ((∀ w, Pipeline.arrRef spec9 w ≠ b) ∧ b ∉ hostOps9_W) ∧
      ((∀ w, Pipeline.arrRef spec8 w ≠ b) ∧ b ∉ hostOps8_W) ∧
      ((∀ w, Pipeline.arrRef spec7 w ≠ b) ∧ b ∉ hostOps7_W) ∧
      ((∀ w, Pipeline.arrRef spec6 w ≠ b) ∧ b ∉ hostOps6_W) ∧
      ((∀ w, Pipeline.arrRef spec5 w ≠ b) ∧ b ∉ hostOps5_W) ∧
      ((∀ w, Pipeline.arrRef spec4 w ≠ b) ∧ b ∉ hostOps4_W) ∧
      ((∀ w, Pipeline.arrRef spec3 w ≠ b) ∧ b ∉ hostOps3_W) ∧
      ((∀ w, Pipeline.arrRef spec2 w ≠ b) ∧ b ∉ hostOps2_W)) :
    Wex10 m hO c (Proc.devRef .tc b) = Wex1 m hO c (Proc.devRef .tc b) := by
  obtain ⟨⟨a10, k10⟩, ⟨a9, k9⟩, ⟨a8, k8⟩, ⟨a7, k7⟩, ⟨a6, k6⟩, ⟨a5, k5⟩, ⟨a4, k4⟩, ⟨a3, k3⟩, ⟨a2, k2⟩⟩ := h
  exact (Wex10_of_ne m hO c b a10).trans <| (Wen10_keep m hO c b k10).trans <|
    (Wex9_of_ne m hO c b a9).trans <| (Wen9_keep m hO c b k9).trans <|
    (Wex8_of_ne m hO c b a8).trans <| (Wen8_keep m hO c b k8).trans <|
    (Wex7_of_ne m hO c b a7).trans <| (Wen7_keep m hO c b k7).trans <|
    (Wex6_of_ne m hO c b a6).trans <| (Wen6_keep m hO c b k6).trans <|
    (Wex5_of_ne m hO c b a5).trans <| (Wen5_keep m hO c b k5).trans <|
    (Wex4_of_ne m hO c b a4).trans <| (Wen4_keep m hO c b k4).trans <|
    (Wex3_of_ne m hO c b a3).trans <| (Wen3_keep m hO c b k3).trans <|
    (Wex2_of_ne m hO c b a2).trans <| (Wen2_keep m hO c b k2)

theorem keep_arg0 (c : Dev nD) : Wex11 m hO h11 c (Proc.devRef .tc main_arg0) = m (c, Proc.devRef .tc main_arg0) :=
  (Wex11_of_ne m hO h11 c main_arg0 (by decide)).trans <|
  (Wen11_keep m hO c main_arg0 (by decide)).trans <|
  (keep_mid m hO c main_arg0 (by decide)).trans <|
  (Wex1_of_ne m hO c main_arg0 (by decide)).trans <|
  (Wex0_of_ne m hO c main_arg0 (by decide)).trans <|
  Wen0_keep m c main_arg0 (by decide)

theorem keep_arg1 (c : Dev nD) : Wex11 m hO h11 c (Proc.devRef .tc main_arg1) = m (c, Proc.devRef .tc main_arg1) :=
  (Wex11_of_ne m hO h11 c main_arg1 (by decide)).trans <|
  (Wen11_keep m hO c main_arg1 (by decide)).trans <|
  (keep_mid m hO c main_arg1 (by decide)).trans <|
  (Wex1_of_ne m hO c main_arg1 (by decide)).trans <|
  (Wex0_of_ne m hO c main_arg1 (by decide)).trans <|
  Wen0_keep m c main_arg1 (by decide)

theorem keep_arg2 (c : Dev nD) : Wex11 m hO h11 c (Proc.devRef .tc main_arg2) = m (c, Proc.devRef .tc main_arg2) :=
  (Wex11_of_ne m hO h11 c main_arg2 (by decide)).trans <|
  (Wen11_keep m hO c main_arg2 (by decide)).trans <|
  (keep_mid m hO c main_arg2 (by decide)).trans <|
  (Wex1_in m hO c 2 rfl).trans <|
  (Wex0_of_ne m hO c main_arg2 (by decide)).trans <|
  Wen0_keep m c main_arg2 (by decide)

theorem keep_arg3 (c : Dev nD) : Wex11 m hO h11 c (Proc.devRef .tc main_arg3) = m (c, Proc.devRef .tc main_arg3) :=
  (Wex11_of_ne m hO h11 c main_arg3 (by decide)).trans <|
  (Wen11_keep m hO c main_arg3 (by decide)).trans <|
  (keep_mid m hO c main_arg3 (by decide)).trans <|
  (Wex1_of_ne m hO c main_arg3 (by decide)).trans <|
  (Wex0_of_ne m hO c main_arg3 (by decide)).trans <|
  Wen0_keep m c main_arg3 (by decide)

theorem keep_arg4 (c : Dev nD) : Wex11 m hO h11 c (Proc.devRef .tc main_arg4) = m (c, Proc.devRef .tc main_arg4) :=
  (Wex11_of_ne m hO h11 c main_arg4 (by decide)).trans <|
  (Wen11_keep m hO c main_arg4 (by decide)).trans <|
  (Wex10_in m hO c 3 rfl).trans <|
  (Wen10_keep m hO c main_arg4 (by decide)).trans <|
  (Wex9_in m hO c 3 rfl).trans <|
  (Wen9_keep m hO c main_arg4 (by decide)).trans <|
  (Wex8_in m hO c 3 rfl).trans <|
  (Wen8_keep m hO c main_arg4 (by decide)).trans <|
  (Wex7_in m hO c 3 rfl).trans <|
  (Wen7_keep m hO c main_arg4 (by decide)).trans <|
  (Wex6_in m hO c 3 rfl).trans <|
  (Wen6_keep m hO c main_arg4 (by decide)).trans <|
  (Wex5_in m hO c 3 rfl).trans <|
  (Wen5_keep m hO c main_arg4 (by decide)).trans <|
  (Wex4_in m hO c 3 rfl).trans <|
  (Wen4_keep m hO c main_arg4 (by decide)).trans <|
  (Wex3_in m hO c 3 rfl).trans <|
  (Wen3_keep m hO c main_arg4 (by decide)).trans <|
  (Wex2_in m hO c 3 rfl).trans <|
  (Wen2_keep m hO c main_arg4 (by decide)).trans <|
  (Wex1_of_ne m hO c main_arg4 (by decide)).trans <|
  (Wex0_of_ne m hO c main_arg4 (by decide)).trans <|
  Wen0_keep m c main_arg4 (by decide)

theorem keep_arg5 (c : Dev nD) : Wex11 m hO h11 c (Proc.devRef .tc main_arg5) = m (c, Proc.devRef .tc main_arg5) :=
  (Wex11_of_ne m hO h11 c main_arg5 (by decide)).trans <|
  (Wen11_keep m hO c main_arg5 (by decide)).trans <|
  (keep_mid m hO c main_arg5 (by decide)).trans <|
  (Wex1_of_ne m hO c main_arg5 (by decide)).trans <|
  (Wex0_of_ne m hO c main_arg5 (by decide)).trans <|
  Wen0_keep m c main_arg5 (by decide)

theorem keep_c (c : Dev nD) : Wen11 m hO c (Proc.devRef .tc main_c) = Wen0 m c (Proc.devRef .tc main_c) :=
  (Wen11_keep m hO c main_c (by decide)).trans <|
  (keep_mid m hO c main_c (by decide)).trans <|
  (Wex1_of_ne m hO c main_c (by decide)).trans <|
  Wex0_of_ne m hO c main_c (by decide)

end Cert.Kernel.Hand

end
-- ==== Proof.K.TableFacts.lean ====
import proofs.«418389_j13280038879631_2_alg».proof.Proof.Gen.Kernel.Launch
import Idealize.ShloMosaic.Lib.StableHlo.Run
import Idealize.ShloMosaic.Lib.ValueIdx
import Idealize.ShloMosaic.Lib.Pipeline.Value

set_option maxRecDepth 1108

noncomputable section

namespace Cert.Kernel.Hand

open Cert.Kernel Cert.Kernel.Gen
open Idealize.ShloMosaic Idealize.ShloMosaic.TcCoe
open Idealize.SL Idealize.SL.Sem

variable {F : FTy → Type} [FloatOps F]

theorem ok0_of_lt (pf : pre0.Contents (Elt F)) (h : ∀ j : S65472.Idx, (pf 0 j).toNat < 65472) : ok0 (F := F) pf := by
  intro i
  refine ⟨?_, Or.inl rfl⟩
  intro a
  have hw := h ((Rect.unit (s := S65472) ![(Scalar.indexCast (BitVec.ofNat 32 (i 0).val)).toNat] S1.size (Facts₀.k0_off1_inb i)).emb
    (Shape.Idx.first (Facts₀.numel1_S1.symm ▸ Nat.one_pos)))
  match a with
  | ⟨0, _⟩ => exact (Nat.mul_one _).le.trans hw
  | ⟨1, _⟩ => show (0 + 1) * 1 ≤ 1; omega
  | ⟨2, _⟩ => show (0 + 1) * 256 ≤ 256; omega

theorem ok11_of_lt (pf : pre11.Contents (Elt F)) (h : ∀ j : S1023.Idx, (pf 0 j).toNat < 1023) : ok11 (F := F) pf := by
  intro i
  refine ⟨?_, Or.inl rfl⟩
  intro a
  have hw := h ((Rect.unit (s := S1023) ![(Scalar.indexCast (BitVec.ofNat 32 (i 0).val)).toNat] S1.size (Facts₀.k11_off1_inb i)).emb
    (Shape.Idx.first (Facts₀.numel1_S1.symm ▸ Nat.one_pos)))
  match a with
  | ⟨0, _⟩ => exact (Nat.mul_one _).le.trans hw
  | ⟨1, _⟩ => show (0 + 1) * 64 ≤ 64; omega
  | ⟨2, _⟩ => show (0 + 1) * 256 ≤ 256; omega

theorem lit0_lt : ∀ i : Fin 1023, (lit0 i).toNat < 1023 := by decide

theorem pos_lt (j : S65472.Idx) : (j 0).val < 65472 := (j 0).isLt

open Idealize.ShloMosaic.ValueIdx in

theorem hostOps0_v0 (W : Valuation τ sig (Elt F)) (j : S65472.Idx) :
    StableHlo.after hostOps0 W (Proc.devRef .tc main_v0) j
      = W (Proc.devRef .tc main_arg5) (ix2 (n0 := 1023) (n1 := 64) ⟨(j 0).val / 64, by have h := pos_lt j; show _ < 1023; omega⟩
          ⟨(j 0).val % 64, Nat.mod_lt _ (by omega)⟩) := by
  have e : StableHlo.after hostOps0 W (Proc.devRef .tc main_v0)
      = shapeCast S65472 (W (Proc.devRef .tc main_arg5)) Facts₀.shapeCasts_S1023x64_S65472 := by
    after_results
    rfl
  rw [e]
  refine shapeCast_apply (s := S1023x64) (t := S65472) _ _ j _ ?_
  rw [Shape.rowMajor_val_two, Shape.rowMajor_val_one]
  show (j 0).val / 64 * 64 + (j 0).val % 64 = (j 0).val
  omega

theorem hostOps0_c (W : Valuation τ sig (Elt F)) :
    StableHlo.after hostOps0 W (Proc.devRef .tc main_c) = fun i => lit0 (S1023.rowMajor i) := by
  after_results
  rfl

end Cert.Kernel.Hand

end
-- ==== Proof.K.Oks.lean ====
import proofs.«418389_j13280038879631_2_alg».proof.Proof.K.Keep
import proofs.«418389_j13280038879631_2_alg».proof.Proof.K.TableFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx in

theorem ok0_of_ids (h : ∀ i : S1023x64.Idx, (m ((0 : Dev nD), Proc.devRef .tc main_arg5) i).toNat < 65472) : Ok0 m :=
  ok0_of_lt (tbl0 m) fun j =>
    lt_of_eq_of_lt (congrArg BitVec.toNat (hostOps0_v0 (W0 m (0 : Dev nD)) j)) (h _)

theorem tbl11_eq (hO : Ok0 m) : tbl11 m hO 0 = fun i => lit0 (S1023.rowMajor i) :=
  (keep_c m hO (0 : Dev nD)).trans (hostOps0_c (W0 m (0 : Dev nD)))

theorem ok11_holds (hO : Ok0 m) : Ok11 m hO :=
  ok11_of_lt (tbl11 m hO) fun j =>
    lt_of_eq_of_lt (congrArg BitVec.toNat (congrFun (tbl11_eq m hO) j)) (lit0_lt _)

end Cert.Kernel.Hand

end
-- ==== Proof.K.Frame.lean ====
import proofs.«418389_j13280038879631_2_alg».proof.Proof.K.Main
import proofs.«418389_j13280038879631_2_alg».proof.Proof.K.Oks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_vals (hids : ∀ i : S1023x64.Idx, (m ((0 : Dev nD), Proc.devRef .tc main_arg5) i).toNat < 65472) :
    θ_run defs (onTc (τ := τ) (main (F := F))) ⟨m, fun _ => 0, ρ⟩ (fun r => ∀ c : Dev nD,
      r.2.mem ((c.tc : Thread nD τ).loc main_v43_0) = Wex11 m (ok0_of_ids m hids) (ok11_holds m (ok0_of_ids m hids)) c (Proc.devRef .tc main_v43_0)
      ∧ r.2.mem ((c.tc : Thread nD τ).loc main_v43_1) = Wex11 m (ok0_of_ids m hids) (ok11_holds m (ok0_of_ids m hids)) c (Proc.devRef .tc main_v43_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v43_0 (by decide)), h c _ (mem_uc main_v43_1 (by decide)),
     (h c _ (mem_uc main_arg0 (by decide))).trans (keep_arg0 m (ok0_of_ids m hids) (ok11_holds m (ok0_of_ids m hids)) c),
     (h c _ (mem_uc main_arg1 (by decide))).trans (keep_arg1 m (ok0_of_ids m hids) (ok11_holds m (ok0_of_ids m hids)) c),
     (h c _ (mem_uc main_arg2 (by decide))).trans (keep_arg2 m (ok0_of_ids m hids) (ok11_holds m (ok0_of_ids m hids)) c),
     (h c _ (mem_uc main_arg3 (by decide))).trans (keep_arg3 m (ok0_of_ids m hids) (ok11_holds m (ok0_of_ids m hids)) c),
     (h c _ (mem_uc main_arg4 (by decide))).trans (keep_arg4 m (ok0_of_ids m hids) (ok11_holds m (ok0_of_ids m hids)) c),
     (h c _ (mem_uc main_arg5 (by decide))).trans (keep_arg5 m (ok0_of_ids m hids) (ok11_holds m (ok0_of_ids m hids)) c)⟩)
    (run_all m ρ (ok0_of_ids m hids) (ok11_holds m (ok0_of_ids m hids)))

theorem frame_of_ids (hids : ∀ i : S1023x64.Idx, (m ((0 : Dev nD), Proc.devRef .tc main_arg5) i).toNat < 65472) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2.2) (run_vals m ρ hids)

end Cert.Kernel.Hand

end
-- ==== Proof.KI.Reg0.lean ====
import proofs.«418389_j13280038879631_2_alg».proof.Proof.Gen.KernelIdeal.Launch
import proofs.«418389_j13280038879631_2_alg».proof.Proof.Gen.KernelIdeal.Skeleton
import proofs.«418389_j13280038879631_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (a : (pcfg0 (F := F)).Adm) (c : Dev nD) (t : Fin (cfg0 a).N)

abbrev st0_0 := ((cfg0 a).win 0).stage ((cfg0 a).slots t 0)
abbrev st0_1 := ((cfg0 a).win 1).stage ((cfg0 a).slots t 1)

abbrev bodyAt0 : Prog (TpuEff nD τ sig (Elt F) Λ₀ .tc) PUnit :=
  cc0_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

def iblk0 (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

abbrev r0_0 : Rect S1x1x256 := Rect.unit (s := S1x1x256) ![0, 0, 0] S1x1x256.size inb_S1x1x256_S1x1x256_0_0_0

def out0_1 (x0 : Vec F S1x1x256 .f32) : Vec F S1x1x256 .f32 :=
  View.canon [⟨r0_0, k0_pay1 (View.ld x0 r0_0)⟩]

set_option maxHeartbeats 1000000 in
theorem sound_kernel0 (E : Set ℕ) (i : grid0.Coords) (arg1 : Memref sig .tc .smem S65472 .i32) (harg1 : arg1.IsWhole)
    (arg2 : Memref sig .tc .vmem S1x1x256 .f32) (harg2 : arg2.IsWhole) (arg3 : Memref sig .tc .vmem S1x1x256 .f32) (harg3 : arg3.IsWhole)
    (x0 : Vec F S1x1x256 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0_kernel i arg1 harg1 arg2 harg2 arg3 harg3) K := by
  simp only [cc0_kernel_eq_skeleton]; unfold cc0_kernel_skel owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S1x1x256.size (by rfl))

def dat0 : Dat τ (Elt F) Unit ℕ (UR sig nD τ) ℕ (cfg0 a) c where
  A w := V c (Pipeline.arrRef spec0 w)
  after w t := match w with
    | ⟨0, _⟩ => iblk0 V a c 0 t
    | ⟨1, _⟩ => out0_1 (iblk0 V a c 0 t)
  Φ _ := iprop(Pipeline.ΦA spec0 c ∗ Pipeline.prefHeld pre0 c (fun _ => fullShare) a.1)
  q _ := fullShare
  owed _ := 0

theorem A_eq0 (w : Fin (cfg0 a).W) : (dat0 V a c).A w = V c (Pipeline.arrRef spec0 w) := rfl

theorem after0_0 : (dat0 V a c).after (0 : Fin 2) t = iblk0 V a c 0 t := by dsimp only [dat0]
theorem after0_1 : (dat0 V a c).after 1 t = out0_1 (iblk0 V a c 0 t) := by dsimp only [dat0]; rfl

theorem before0_0 (d) : (dat0 V a c).before (0 : Fin 2) t d = iblk0 V a c 0 t :=
  (dat0 V a c).before_in_eq_fetched 0 rfl (fun _ => rfl) (fun _ _ _ => rfl) (fun _ => rfl) t d

theorem body_obligation0 : BodyObligation (dat0 (F := F) V a c) (defs₀ (F := F)) Variants.none () Set.univ := fun t => by
  rw [bigSep_W0, bigSep_W0]
  simp only [before0_0]
  show _ ⊢ wp frame _ _ (bodyAt0 a t) _
  rewrite [show (dat0 V a c).Φ t.succ = (dat0 V a c).Φ t.castSucc from rfl,
    show (dat0 V a c).owesAt () t.succ = (dat0 V a c).owesAt () t.castSucc from rfl, after0_0,
    show (dat0 V a c).after (1 : Fin 2) t = _ from after0_1 V a c t]
  iintro ⟨HΦ, Ho, ⟨%d0, H0⟩, ⟨%d1, H1⟩⟩
  iapply (sound_kernel0 c Set.univ _ _ _ _ _ _ _ (iblk0 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem hin0 :
    (iprop((∃ r, prngReg c r) ∗ Pipeline.prefHeld pre0 c (fun _ => fullShare) a.1 ∗ Pipeline.scopedRest spec0 c) : sProp 𝕄) ⊢ (dat0 V a c).Φ 0 := by
  rewrite [show (dat0 V a c).Φ 0 = iprop(Pipeline.ΦA spec0 c ∗ Pipeline.prefHeld pre0 c (fun _ => fullShare) a.1) from rfl]
  unfold Pipeline.ΦA
  iintro ⟨Hr, Hp, Hs⟩
  iframe

theorem hout0 :
    (dat0 V a c).Φ (Fin.last (cfg0 a).N) ⊢ (iprop(((∃ r, prngReg c r) ∗ Pipeline.prefHeld pre0 c (fun _ => fullShare) a.1) ∗ Pipeline.scopedRest spec0 c) : sProp 𝕄) := by
  rewrite [show (dat0 V a c).Φ (Fin.last (cfg0 a).N) = iprop(Pipeline.ΦA spec0 c ∗ Pipeline.prefHeld pre0 c (fun _ => fullShare) a.1) from rfl]
  unfold Pipeline.ΦA
  iintro ⟨⟨Hs, Hr⟩, Hp⟩
  iframe

end Cert.KernelIdeal.Hand

end
-- ==== Proof.KI.Val0.lean ====
import proofs.«418389_j13280038879631_2_alg».proof.Proof.KI.Reg0
import proofs.«418389_j13280038879631_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev W0 : Dev nD → Valuation τ sig (Elt F) := fun c b => m (c, b)

abbrev Wen0 : Dev nD → Valuation τ sig (Elt F) := fun c => StableHlo.after hostOps0 (W0 m c)

abbrev Ven0 : (c : Dev nD) → (b : Ref sig .tc) → Buf (Elt F) ((c : Thread nD τ).loc b) := fun c b => Wen0 m c b

theorem Wen0_keep (c : Dev nD) (b : Ref sig .tc) (h : b ∉ hostOps0_W) : Wen0 m c b = W0 m c b :=
  StableHlo.after_of_writes_sub hostOps0 _ hostOps0_writes h

def tbl0 : pre0.Contents (Elt F) := fun k => Ven0 m (0 : Dev nD) (pre0.ref k)

theorem Ven0_pre (c : Dev nD) (k : Fin pre0.K) : Ven0 m c (pre0.ref k) = tbl0 m k := by
  obtain rfl : c = 0 := Subsingleton.elim _ _
  rfl

abbrev Ok0 : Prop := ok0 (F := F) (tbl0 m)

variable (hO : Ok0 m)

abbrev adm0 : (pcfg0 (F := F)).Adm := ⟨tbl0 m, hO⟩

def Wex0 (c : Dev nD) : Valuation τ sig (Elt F) :=
  Pipeline.withArrays spec0 c (Wen0 m c) fun w => (dat0 (Ven0 m) (adm0 m hO) c).arrAt w (cfg0 (adm0 m hO)).N
theorem Wex0_arr (c : Dev nD) (w : Fin (cfg0 (adm0 m hO)).W) :
    Wex0 m hO c (Proc.devRef .tc (Pipeline.arrRef spec0 w)) = (dat0 (Ven0 m) (adm0 m hO) c).arrAt w (cfg0 (adm0 m hO)).N :=
  Pipeline.withArrays_arr spec0 (launch0 (F := F)).win.arr_inj c _ _ w
theorem Wex0_of_ne (c : Dev nD) (b : Ref sig .tc) (hb : ∀ w, Pipeline.arrRef spec0 w ≠ b) :
    Wex0 m hO c (Proc.devRef .tc b) = Wen0 m c (Proc.devRef .tc b) :=
  Pipeline.withArrays_of_ne spec0 c _ _ b hb

end Cert.KernelIdeal.Hand

end
-- ==== Proof.KI.Reg1.lean ====
import proofs.«418389_j13280038879631_2_alg».proof.Proof.Gen.KernelIdeal.Launch
import proofs.«418389_j13280038879631_2_alg».proof.Proof.Gen.KernelIdeal.Skeleton
import proofs.«418389_j13280038879631_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2112x1x256 := Rect.unit (s := S2112x1x256) ![0, 0, 0] S2112x1x256.size inb_S2112x1x256_S2112x1x256_0_0_0
abbrev r1_1 : Rect S256x256 := Rect.unit (s := S256x256) ![0, 0] S256x256.size inb_S256x256_S256x256_0_0
abbrev r1_2 : Rect S256 := Rect.unit (s := S256) ![0] S256.size inb_S256_S256_0

def out1_3 (x0 : Vec F S2112x1x256 .f32) (x1 : Vec F S256x256 .f32) (x2 : Vec F S256 .f32) : Vec F S2112x1x256 .f32 :=
  View.canon [⟨r1_0, k1_pay1 (View.ld x0 r1_0) (View.ld x1 r1_1) (View.ld x2 r1_2)⟩]

set_option maxHeartbeats 1000000 in
theorem sound_kernel1 (E : Set ℕ) (i : grid1.Coords) (arg1 : Memref sig .tc .vmem S2112x1x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2112x1x256 .f32) (harg4 : arg4.IsWhole)
    (x0 : Vec F S2112x1x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2112x1x256.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = out1_3 (iblk1 V c 0 t) (iblk1 V c 1 t) (iblk1 V c 2 t) := by dsimp only [dat1]

theorem before1_0 (d) : (dat1 V c).before 0 t d = iblk1 V c 0 t :=
  (dat1 V c).before_in_eq_fetched 0 rfl (fun _ => rfl) (fun _ _ _ => rfl) (fun _ => rfl) t d
theorem before1_1 (d) : (dat1 V c).before 1 t d = iblk1 V c 1 t :=
  (dat1 V c).before_in_eq_fetched 1 rfl (fun _ => rfl) (fun _ _ _ => rfl) (fun _ => rfl) t d
theorem before1_2 (d) : (dat1 V c).before 2 t d = iblk1 V c 2 t :=
  (dat1 V c).before_in_eq_fetched 2 rfl (fun _ => rfl) (fun _ _ _ => rfl) (fun _ => rfl) t d

theorem body_obligation1 : BodyObligation (dat1 (F := F) V c) (defs₀ (F := F)) Variants.none () Set.univ := fun t => by
  rw [bigSep_W1, bigSep_W1]
  simp only [before1_0, before1_1, before1_2]
  show _ ⊢ wp frame _ _ (bodyAt1 t) _
  rewrite [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem off1_zero3 : (![0, 0, 0] : Fin 3 → Nat) = fun _ => 0 := by decide
theorem off1_zero2 : (![0, 0] : Fin 2 → Nat) = fun _ => 0 := by decide
theorem off1_zero1 : (![0] : Fin 1 → Nat) = fun _ => 0 := by decide

theorem out1_3_eq (x0 : Vec F S2112x1x256 .f32) (x1 : Vec F S256x256 .f32) (x2 : Vec F S256 .f32) :
    out1_3 x0 x1 x2 = k1_pay1 x0 x1 x2 := by
  unfold out1_3
  rw [View.canon_unit_zero off1_zero3]
  simp only [View.ld_unit_zero (S := S2112x1x256) off1_zero3, View.ld_unit_zero (S := S256x256) off1_zero2, View.ld_unit_zero (S := S256) off1_zero1]

end Cert.KernelIdeal.Hand

end
-- ==== Proof.KI.Val1.lean ====
import proofs.«418389_j13280038879631_2_alg».proof.Proof.KI.Val0
import proofs.«418389_j13280038879631_2_alg».proof.Proof.KI.Reg1

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen1 : Dev nD → Valuation τ sig (Elt F) := fun c => Wex0 m hO c
abbrev Ven1 : (c : Dev nD) → (b : Ref sig .tc) → Buf (Elt F) ((c : Thread nD τ).loc b) := fun c b => Wen1 m hO c b

def Wex1 (c : Dev nD) : Valuation τ sig (Elt F) :=
  Pipeline.withArrays spec1 c (Wen1 m hO c) fun w => (dat1 (Ven1 m hO) c).arrAt w cfg1.N
theorem Wex1_arr (c : Dev nD) (w : Fin cfg1.W) :
    Wex1 m hO c (Proc.devRef .tc (Pipeline.arrRef spec1 w)) = (dat1 (Ven1 m hO) c).arrAt w cfg1.N :=
  Pipeline.withArrays_arr spec1 (launch1 (F := F)).win.arr_inj c _ _ w
theorem Wex1_of_ne (c : Dev nD) (b : Ref sig .tc) (hb : ∀ w, Pipeline.arrRef spec1 w ≠ b) :
    Wex1 m hO c (Proc.devRef .tc b) = Wen1 m hO c (Proc.devRef .tc b) :=
  Pipeline.withArrays_of_ne spec1 c _ _ b hb

theorem Wex1_in (c : Dev nD) (w : Fin cfg1.W) (hin : (cfg1.win w).isOut = false) :
    Wex1 m hO c (Proc.devRef .tc (Pipeline.arrRef spec1 w)) = Ven1 m hO c (Pipeline.arrRef spec1 w) :=
  (Wex1_arr m hO c w).trans ((dat1 (Ven1 m hO) c).arrAt_in w hin _)

end Cert.KernelIdeal.Hand

end
-- ==== Proof.KI.RegLib.lean ====
import proofs.«418389_j13280038879631_2_alg».proof.Proof.Gen.KernelIdeal.Launch
import proofs.«418389_j13280038879631_2_alg».proof.Proof.Gen.KernelIdeal.Skeleton
import proofs.«418389_j13280038879631_2_alg».proof.Proof.Gen.KernelIdeal.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon _ _ _ fun _ => ⟨_, List.mem_singleton_self _, View.mem_set_unit_zero h inb _⟩).trans (View.canon_unit_zero h inb w)

theorem readAt_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := View.ld_unit_zero h inb _

def Triple5 {s1 s2 s3 s4 s5 : Shape} (c : Dev nD) (E : Set ℕ) (prog : Prog (TpuEff nD τ sig (Elt F) Λ₀ .tc) PUnit)
    (a1 : Memref sig .tc .vmem s1 .f32) (a2 : Memref sig .tc .vmem s2 .f32) (a3 : Memref sig .tc .vmem s3 .f32)
    (a4 : Memref sig .tc .vmem s4 .f32) (a5 : Memref sig .tc .vmem s5 .f32)
    (x0 : Vec F s1 .f32) (x1 : Vec F s2 .f32) (x2 : Vec F s3 .f32) (x3 : Vec F s4 .f32) (y : Vec F s5 .f32) : Prop :=
  ∀ K : PUnit → sProp (MT nD τ sig Unit (Elt F) ℕ (UR sig nD τ) ℕ),
    iprop(owns c.tc a1 fullShare x0 ∗ owns c.tc a2 fullShare x1 ∗ owns c.tc a3 fullShare x2 ∗ owns c.tc a4 fullShare x3
        ∗ (∃ d, owns c.tc a5 fullShare d)
        ∗ (iprop(owns c.tc a1 fullShare x0 ∗ owns c.tc a2 fullShare x1 ∗ owns c.tc a3 fullShare x2 ∗ owns c.tc a4 fullShare x3
            ∗ owns c.tc a5 fullShare y) -∗ K ⟨⟩))
      ⊢ wp frame (wpE (defs₀ (F := F)) Variants.none c none) E prog K

theorem body5 {s1 s2 s3 s4 s5 : Shape} {c : Dev nD} {E : Set ℕ} {prog : Prog (TpuEff nD τ sig (Elt F) Λ₀ .tc) PUnit}
    {a1 : Memref sig .tc .vmem s1 .f32} {a2 : Memref sig .tc .vmem s2 .f32} {a3 : Memref sig .tc .vmem s3 .f32}
    {a4 : Memref sig .tc .vmem s4 .f32} {a5 : Memref sig .tc .vmem s5 .f32}
    {x0 : Vec F s1 .f32} {x1 : Vec F s2 .f32} {x2 : Vec F s3 .f32} {x3 : Vec F s4 .f32} {y : Vec F s5 .f32}
    (h : Triple5 c E prog a1 a2 a3 a4 a5 x0 x1 x2 x3 y) (P Q : sProp (MT nD τ sig Unit (Elt F) ℕ (UR sig nD τ) ℕ))
    {D0 D1 D2 D3 D4 : Type} (b : D4 → Vec F s5 .f32) :
    iprop(P ∗ Q ∗ (∃ _d : D0, owns c.tc a1 fullShare x0) ∗ (∃ _d : D1, owns c.tc a2 fullShare x1) ∗ (∃ _d : D2, owns c.tc a3 fullShare x2)
        ∗ (∃ _d : D3, owns c.tc a4 fullShare x3) ∗ (∃ d : D4, owns c.tc a5 fullShare (b d)))
      ⊢ wp frame (wpE (defs₀ (F := F)) Variants.none c none) E prog fun _ =>
        iprop(P ∗ Q ∗ owns c.tc a1 fullShare x0 ∗ owns c.tc a2 fullShare x1 ∗ owns c.tc a3 fullShare x2 ∗ owns c.tc a4 fullShare x3
          ∗ owns c.tc a5 fullShare y) := by
  iintro ⟨HP, HQ, ⟨%d0, H0⟩, ⟨%d1, H1⟩, ⟨%d2, H2⟩, ⟨%d3, H3⟩, ⟨%d4, H4⟩⟩
  iapply (h _)
  iframe H0 H1 H2 H3
  isplitl [H4]; · iexists _; iexact H4
  iintro ⟨H0, H1, H2, H3, H4⟩
  iframe

end Cert.KernelIdeal.Hand

end
-- ==== Proof.KI.Reg2.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def out2_4 (x0 : Vec F S64x64x256 .f32) (x1 : Vec F S32x64x256 .f32) (x2 : Vec F S256x256 .f32) (x3 : Vec F S256 .f32) : Vec F S32x64x256 .f32 :=
  k2_pay1 x0 x2 x3 x1

theorem out2_4_eq (x0 : Vec F S64x64x256 .f32) x1 x2 x3 : out2_4 x0 x1 x2 x3 = k2_pay1 x0 x2 x3 x1 := rfl

theorem sound_kernel2 (c : Dev nD) E i arg1 harg1 arg2 harg2 arg3 harg3 arg4 harg4 arg5 harg5 x0 x1 x2 x3 :
    Triple5 (F := F) c E (cc2_kernel i arg1 harg1 arg2 harg2 arg3 harg3 arg4 harg4 arg5 harg5) arg1 arg2 arg3 arg4 arg5 x0 x1 x2 x3
      (out2_4 x0 x1 x2 x3) := fun K => by
  simp only [cc2_kernel_eq_skeleton]; unfold cc2_kernel_skel owns out2_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = out2_4 (iblk2 V c 0 t) (iblk2 V c 1 t) (iblk2 V c 2 t) (iblk2 V c 3 t) := by dsimp only [dat2]

theorem before2 (c : Dev nD) (t : Fin cfg2.N) : ∀ w : Fin cfg2.W, w ≠ 4 → ∀ d, (dat2 V c).before w t d = (dat2 V c).after w t
  | 4, h, _ => absurd rfl h
  | 0, _, d | 1, _, d | 2, _, d | 3, _, d => ((dat2 V c).before_in_eq_fetched _ rfl (fun _ => rfl) (fun _ _ _ => rfl)
    (fun _ => by dsimp only [dat2]; rfl) t d).trans (by dsimp only [dat2]; rfl)

theorem body_obligation2 (c : Dev nD) : BodyObligation (dat2 V c) defs₀ Variants.none () Set.univ := fun t => by
  rw [bigSep_W2, bigSep_W2]
  simp only [before2 V c t 0 (by decide), before2 V c t 1 (by decide), before2 V c t 2 (by decide), before2 V c t 3 (by decide)]
  dsimp only [dat2, Dat.owesAt, Dat.bound]
  exact body5 (sound_kernel2 c Set.univ (grid2.coords t) _ (hstage2_0 _) _ (hstage2_1 _) _ (hstage2_2 _) _ (hstage2_3 _) _ (hstage2_4 _)
    (iblk2 V c 0 t) (iblk2 V c 1 t) (iblk2 V c 2 t) (iblk2 V c 3 t)) _ _ _

end Cert.KernelIdeal.Hand

end
-- ==== Proof.KI.Val2.lean ====
import proofs.«418389_j13280038879631_2_alg».proof.Proof.KI.Val1
import proofs.«418389_j13280038879631_2_alg».proof.Proof.KI.Reg2

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen2 : Dev nD → Valuation τ sig (Elt F) := fun c => StableHlo.after hostOps2 (Wex1 m hO c)
abbrev Ven2 : (c : Dev nD) → (b : Ref sig .tc) → Buf (Elt F) ((c : Thread nD τ).loc b) := fun c b => Wen2 m hO c b

theorem Wen2_keep (c : Dev nD) (b : Ref sig .tc) (h : b ∉ hostOps2_W) : Wen2 m hO c b = Wex1 m hO c b :=
  StableHlo.after_of_writes_sub hostOps2 _ hostOps2_writes h

def Wex2 (c : Dev nD) : Valuation τ sig (Elt F) :=
  Pipeline.withArrays spec2 c (Wen2 m hO c) fun w => (dat2 (Ven2 m hO) c).arrAt w cfg2.N
theorem Wex2_arr (c : Dev nD) (w : Fin cfg2.W) :
    Wex2 m hO c (Proc.devRef .tc (Pipeline.arrRef spec2 w)) = (dat2 (Ven2 m hO) c).arrAt w cfg2.N :=
  Pipeline.withArrays_arr spec2 (launch2 (F := F)).win.arr_inj c _ _ w
theorem Wex2_of_ne (c : Dev nD) (b : Ref sig .tc) (hb : ∀ w, Pipeline.arrRef spec2 w ≠ b) :
    Wex2 m hO c (Proc.devRef .tc b) = Wen2 m hO c (Proc.devRef .tc b) :=
  Pipeline.withArrays_of_ne spec2 c _ _ b hb
theorem Wex2_in (c : Dev nD) (w : Fin cfg2.W) (hin : (cfg2.win w).isOut = false) :
    Wex2 m hO c (Proc.devRef .tc (Pipeline.arrRef spec2 w)) = Ven2 m hO c (Pipeline.arrRef spec2 w) :=
  (Wex2_arr m hO c w).trans ((dat2 (Ven2 m hO) c).arrAt_in w hin _)

end Cert.KernelIdeal.Hand

end
-- ==== Proof.KI.Reg3.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable def out3_4 (x0 : Vec F S64x64x256 .f32) (x1 : Vec F S32x64x256 .f32) (x2 : Vec F S256x256 .f32) (x3 : Vec F S256 .f32) : Vec F S32x64x256 .f32 :=
  k3_pay1 x0 x2 x3 x1

theorem out3_4_eq (x0 : Vec F S64x64x256 .f32) x1 x2 x3 : out3_4 x0 x1 x2 x3 = k3_pay1 x0 x2 x3 x1 := rfl

theorem sound_kernel3 (c : Dev nD) E i arg1 harg1 arg2 harg2 arg3 harg3 arg4 harg4 arg5 harg5 x0 x1 x2 x3 :
    Triple5 (F := F) c E (cc3_kernel i arg1 harg1 arg2 harg2 arg3 harg3 arg4 harg4 arg5 harg5) arg1 arg2 arg3 arg4 arg5 x0 x1 x2 x3
      (out3_4 x0 x1 x2 x3) := fun K => by
  simp only [cc3_kernel_eq_skeleton]; unfold cc3_kernel_skel owns out3_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = out3_4 (iblk3 V c 0 t) (iblk3 V c 1 t) (iblk3 V c 2 t) (iblk3 V c 3 t) := by dsimp only [dat3]

theorem before3 (c : Dev nD) (t : Fin cfg3.N) : ∀ w : Fin cfg3.W, w ≠ 4 → ∀ d, (dat3 V c).before w t d = (dat3 V c).after w t
  | 4, h, _ => absurd rfl h
  | 0, _, d | 1, _, d | 2, _, d | 3, _, d => ((dat3 V c).before_in_eq_fetched _ rfl (fun _ => rfl) (fun _ _ _ => rfl)
    (fun _ => by dsimp only [dat3]; rfl) t d).trans (by dsimp only [dat3]; rfl)

theorem body_obligation3 (c : Dev nD) : BodyObligation (dat3 V c) defs₀ Variants.none () Set.univ := fun t => by
  rw [bigSep_W3, bigSep_W3]
  simp only [before3 V c t 0 (by decide), before3 V c t 1 (by decide), before3 V c t 2 (by decide), before3 V c t 3 (by decide)]
  dsimp only [dat3, Dat.owesAt, Dat.bound]
  exact body5 (sound_kernel3 c Set.univ (grid3.coords t) _ (hstage3_0 _) _ (hstage3_1 _) _ (hstage3_2 _) _ (hstage3_3 _) _ (hstage3_4 _)
    (iblk3 V c 0 t) (iblk3 V c 1 t) (iblk3 V c 2 t) (iblk3 V c 3 t)) _ _ _

end Cert.KernelIdeal.Hand

end
-- ==== Proof.KI.Val3.lean ====
import proofs.«418389_j13280038879631_2_alg».proof.Proof.KI.Val2
import proofs.«418389_j13280038879631_2_alg».proof.Proof.KI.Reg3

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen3 : Dev nD → Valuation τ sig (Elt F) := fun c => StableHlo.after hostOps3 (Wex2 m hO c)
abbrev Ven3 : (c : Dev nD) → (b : Ref sig .tc) → Buf (Elt F) ((c : Thread nD τ).loc b) := fun c b => Wen3 m hO c b

theorem Wen3_keep (c : Dev nD) (b : Ref sig .tc) (h : b ∉ hostOps3_W) : Wen3 m hO c b = Wex2 m hO c b :=
  StableHlo.after_of_writes_sub hostOps3 _ hostOps3_writes h

def Wex3 (c : Dev nD) : Valuation τ sig (Elt F) :=
  Pipeline.withArrays spec3 c (Wen3 m hO c) fun w => (dat3 (Ven3 m hO) c).arrAt w cfg3.N
theorem Wex3_arr (c : Dev nD) (w : Fin cfg3.W) :
    Wex3 m hO c (Proc.devRef .tc (Pipeline.arrRef spec3 w)) = (dat3 (Ven3 m hO) c).arrAt w cfg3.N :=
  Pipeline.withArrays_arr spec3 (launch3 (F := F)).win.arr_inj c _ _ w
theorem Wex3_of_ne (c : Dev nD) (b : Ref sig .tc) (hb : ∀ w, Pipeline.arrRef spec3 w ≠ b) :
    Wex3 m hO c (Proc.devRef .tc b) = Wen3 m hO c (Proc.devRef .tc b) :=
  Pipeline.withArrays_of_ne spec3 c _ _ b hb
theorem Wex3_in (c : Dev nD) (w : Fin cfg3.W) (hin : (cfg3.win w).isOut = false) :
    Wex3 m hO c (Proc.devRef .tc (Pipeline.arrRef spec3 w)) = Ven3 m hO c (Pipeline.arrRef spec3 w) :=
  (Wex3_arr m hO c w).trans ((dat3 (Ven3 m hO) c).arrAt_in w hin _)

end Cert.KernelIdeal.Hand

end
-- ==== Proof.KI.Reg4.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def out4_4 (x0 : Vec F S64x64x256 .f32) (x1 : Vec F S32x64x256 .f32) (x2 : Vec F S256x256 .f32) (x3 : Vec F S256 .f32) : Vec F S32x64x256 .f32 :=
  k4_pay1 x0 x2 x3 x1

theorem out4_4_eq (x0 : Vec F S64x64x256 .f32) x1 x2 x3 : out4_4 x0 x1 x2 x3 = k4_pay1 x0 x2 x3 x1 := rfl

theorem sound_kernel4 (c : Dev nD) E i arg1 harg1 arg2 harg2 arg3 harg3 arg4 harg4 arg5 harg5 x0 x1 x2 x3 :
    Triple5 (F := F) c E (cc4_kernel i arg1 harg1 arg2 harg2 arg3 harg3 arg4 harg4 arg5 harg5) arg1 arg2 arg3 arg4 arg5 x0 x1 x2 x3
      (out4_4 x0 x1 x2 x3) := fun K => by
  simp only [cc4_kernel_eq_skeleton]; unfold cc4_kernel_skel owns out4_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = out4_4 (iblk4 V c 0 t) (iblk4 V c 1 t) (iblk4 V c 2 t) (iblk4 V c 3 t) := by dsimp only [dat4]

theorem before4 (c : Dev nD) (t : Fin cfg4.N) : ∀ w : Fin cfg4.W, w ≠ 4 → ∀ d, (dat4 V c).before w t d = (dat4 V c).after w t
  | 4, h, _ => absurd rfl h
  | 0, _, d | 1, _, d | 2, _, d | 3, _, d => ((dat4 V c).before_in_eq_fetched _ rfl (fun _ => rfl) (fun _ _ _ => rfl)
    (fun _ => by dsimp only [dat4]; rfl) t d).trans (by dsimp only [dat4]; rfl)

theorem body_obligation4 (c : Dev nD) : BodyObligation (dat4 V c) defs₀ Variants.none () Set.univ := fun t => by
  rw [bigSep_W4, bigSep_W4]
  simp only [before4 V c t 0 (by decide), before4 V c t 1 (by decide), before4 V c t 2 (by decide), before4 V c t 3 (by decide)]
  dsimp only [dat4, Dat.owesAt, Dat.bound]
  exact body5 (sound_kernel4 c Set.univ (grid4.coords t) _ (hstage4_0 _) _ (hstage4_1 _) _ (hstage4_2 _) _ (hstage4_3 _) _ (hstage4_4 _)
    (iblk4 V c 0 t) (iblk4 V c 1 t) (iblk4 V c 2 t) (iblk4 V c 3 t)) _ _ _

end Cert.KernelIdeal.Hand

end
-- ==== Proof.KI.Val4.lean ====
import proofs.«418389_j13280038879631_2_alg».proof.Proof.KI.Val3
import proofs.«418389_j13280038879631_2_alg».proof.Proof.KI.Reg4

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen4 : Dev nD → Valuation τ sig (Elt F) := fun c => StableHlo.after hostOps4 (Wex3 m hO c)
abbrev Ven4 : (c : Dev nD) → (b : Ref sig .tc) → Buf (Elt F) ((c : Thread nD τ).loc b) := fun c b => Wen4 m hO c b

theorem Wen4_keep (c : Dev nD) (b : Ref sig .tc) (h : b ∉ hostOps4_W) : Wen4 m hO c b = Wex3 m hO c b :=
  StableHlo.after_of_writes_sub hostOps4 _ hostOps4_writes h

def Wex4 (c : Dev nD) : Valuation τ sig (Elt F) :=
  Pipeline.withArrays spec4 c (Wen4 m hO c) fun w => (dat4 (Ven4 m hO) c).arrAt w cfg4.N
theorem Wex4_arr (c : Dev nD) (w : Fin cfg4.W) :
    Wex4 m hO c (Proc.devRef .tc (Pipeline.arrRef spec4 w)) = (dat4 (Ven4 m hO) c).arrAt w cfg4.N :=
  Pipeline.withArrays_arr spec4 (launch4 (F := F)).win.arr_inj c _ _ w
theorem Wex4_of_ne (c : Dev nD) (b : Ref sig .tc) (hb : ∀ w, Pipeline.arrRef spec4 w ≠ b) :
    Wex4 m hO c (Proc.devRef .tc b) = Wen4 m hO c (Proc.devRef .tc b) :=
  Pipeline.withArrays_of_ne spec4 c _ _ b hb
theorem Wex4_in (c : Dev nD) (w : Fin cfg4.W) (hin : (cfg4.win w).isOut = false) :
    Wex4 m hO c (Proc.devRef .tc (Pipeline.arrRef spec4 w)) = Ven4 m hO c (Pipeline.arrRef spec4 w) :=
  (Wex4_arr m hO c w).trans ((dat4 (Ven4 m hO) c).arrAt_in w hin _)

end Cert.KernelIdeal.Hand

end
-- ==== Proof.KI.Reg5.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable def out5_4 (x0 : Vec F S64x64x256 .f32) (x1 : Vec F S32x64x256 .f32) (x2 : Vec F S256x256 .f32) (x3 : Vec F S256 .f32) : Vec F S32x64x256 .f32 :=
  k5_pay1 x0 x2 x3 x1

theorem out5_4_eq (x0 : Vec F S64x64x256 .f32) x1 x2 x3 : out5_4 x0 x1 x2 x3 = k5_pay1 x0 x2 x3 x1 := rfl

theorem sound_kernel5 (c : Dev nD) E i arg1 harg1 arg2 harg2 arg3 harg3 arg4 harg4 arg5 harg5 x0 x1 x2 x3 :
    Triple5 (F := F) c E (cc5_kernel i arg1 harg1 arg2 harg2 arg3 harg3 arg4 harg4 arg5 harg5) arg1 arg2 arg3 arg4 arg5 x0 x1 x2 x3
      (out5_4 x0 x1 x2 x3) := fun K => by
  simp only [cc5_kernel_eq_skeleton]; unfold cc5_kernel_skel owns out5_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = out5_4 (iblk5 V c 0 t) (iblk5 V c 1 t) (iblk5 V c 2 t) (iblk5 V c 3 t) := by dsimp only [dat5]

theorem before5 (c : Dev nD) (t : Fin cfg5.N) : ∀ w : Fin cfg5.W, w ≠ 4 → ∀ d, (dat5 V c).before w t d = (dat5 V c).after w t
  | 4, h, _ => absurd rfl h
  | 0, _, d | 1, _, d | 2, _, d | 3, _, d => ((dat5 V c).before_in_eq_fetched _ rfl (fun _ => rfl) (fun _ _ _ => rfl)
    (fun _ => by dsimp only [dat5]; rfl) t d).trans (by dsimp only [dat5]; rfl)

theorem body_obligation5 (c : Dev nD) : BodyObligation (dat5 V c) defs₀ Variants.none () Set.univ := fun t => by
  rw [bigSep_W5, bigSep_W5]
  simp only [before5 V c t 0 (by decide), before5 V c t 1 (by decide), before5 V c t 2 (by decide), before5 V c t 3 (by decide)]
  dsimp only [dat5, Dat.owesAt, Dat.bound]
  exact body5 (sound_kernel5 c Set.univ (grid5.coords t) _ (hstage5_0 _) _ (hstage5_1 _) _ (hstage5_2 _) _ (hstage5_3 _) _ (hstage5_4 _)
    (iblk5 V c 0 t) (iblk5 V c 1 t) (iblk5 V c 2 t) (iblk5 V c 3 t)) _ _ _

end Cert.KernelIdeal.Hand

end
-- ==== Proof.KI.Val5.lean ====
import proofs.«418389_j13280038879631_2_alg».proof.Proof.KI.Val4
import proofs.«418389_j13280038879631_2_alg».proof.Proof.KI.Reg5

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen5 : Dev nD → Valuation τ sig (Elt F) := fun c => StableHlo.after hostOps5 (Wex4 m hO c)
abbrev Ven5 : (c : Dev nD) → (b : Ref sig .tc) → Buf (Elt F) ((c : Thread nD τ).loc b) := fun c b => Wen5 m hO c b

theorem Wen5_keep (c : Dev nD) (b : Ref sig .tc) (h : b ∉ hostOps5_W) : Wen5 m hO c b = Wex4 m hO c b :=
  StableHlo.after_of_writes_sub hostOps5 _ hostOps5_writes h

def Wex5 (c : Dev nD) : Valuation τ sig (Elt F) :=
  Pipeline.withArrays spec5 c (Wen5 m hO c) fun w => (dat5 (Ven5 m hO) c).arrAt w cfg5.N
theorem Wex5_arr (c : Dev nD) (w : Fin cfg5.W) :
    Wex5 m hO c (Proc.devRef .tc (Pipeline.arrRef spec5 w)) = (dat5 (Ven5 m hO) c).arrAt w cfg5.N :=
  Pipeline.withArrays_arr spec5 (launch5 (F := F)).win.arr_inj c _ _ w
theorem Wex5_of_ne (c : Dev nD) (b : Ref sig .tc) (hb : ∀ w, Pipeline.arrRef spec5 w ≠ b) :
    Wex5 m hO c (Proc.devRef .tc b) = Wen5 m hO c (Proc.devRef .tc b) :=
  Pipeline.withArrays_of_ne spec5 c _ _ b hb
theorem Wex5_in (c : Dev nD) (w : Fin cfg5.W) (hin : (cfg5.win w).isOut = false) :
    Wex5 m hO c (Proc.devRef .tc (Pipeline.arrRef spec5 w)) = Ven5 m hO c (Pipeline.arrRef spec5 w) :=
  (Wex5_arr m hO c w).trans ((dat5 (Ven5 m hO) c).arrAt_in w hin _)

end Cert.KernelIdeal.Hand

end
-- ==== Proof.KI.Reg6.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

noncomputable def out6_4 (x0 : Vec F S32x64x256 .f32) (x1 : Vec F S16x64x256 .f32) (x2 : Vec F S256x256 .f32) (x3 : Vec F S256 .f32) : Vec F S16x64x256 .f32 :=
  k6_pay1 x0 x2 x3 x1

theorem out6_4_eq (x0 : Vec F S32x64x256 .f32) x1 x2 x3 : out6_4 x0 x1 x2 x3 = k6_pay1 x0 x2 x3 x1 := rfl

theorem sound_kernel6 (c : Dev nD) E i arg1 harg1 arg2 harg2 arg3 harg3 arg4 harg4 arg5 harg5 x0 x1 x2 x3 :
    Triple5 (F := F) c E (cc6_kernel i arg1 harg1 arg2 harg2 arg3 harg3 arg4 harg4 arg5 harg5) arg1 arg2 arg3 arg4 arg5 x0 x1 x2 x3
      (out6_4 x0 x1 x2 x3) := fun K => by
  simp only [cc6_kernel_eq_skeleton]; unfold cc6_kernel_skel owns out6_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = out6_4 (iblk6 V c 0 t) (iblk6 V c 1 t) (iblk6 V c 2 t) (iblk6 V c 3 t) := by dsimp only [dat6]

theorem before6 (c : Dev nD) (t : Fin cfg6.N) : ∀ w : Fin cfg6.W, w ≠ 4 → ∀ d, (dat6 V c).before w t d = (dat6 V c).after w t
  | 4, h, _ => absurd rfl h
  | 0, _, d | 1, _, d | 2, _, d | 3, _, d => ((dat6 V c).before_in_eq_fetched _ rfl (fun _ => rfl) (fun _ _ _ => rfl)
    (fun _ => by dsimp only [dat6]; rfl) t d).trans (by dsimp only [dat6]; rfl)

theorem body_obligation6 (c : Dev nD) : BodyObligation (dat6 V c) defs₀ Variants.none () Set.univ := fun t => by
  rw [bigSep_W6, bigSep_W6]
  simp only [before6 V c t 0 (by decide), before6 V c t 1 (by decide), before6 V c t 2 (by decide), before6 V c t 3 (by decide)]
  dsimp only [dat6, Dat.owesAt, Dat.bound]
  exact body5 (sound_kernel6 c Set.univ (grid6.coords t) _ (hstage6_0 _) _ (hstage6_1 _) _ (hstage6_2 _) _ (hstage6_3 _) _ (hstage6_4 _)
    (iblk6 V c 0 t) (iblk6 V c 1 t) (iblk6 V c 2 t) (iblk6 V c 3 t)) _ _ _

end Cert.KernelIdeal.Hand

end
-- ==== Proof.KI.Val6.lean ====
import proofs.«418389_j13280038879631_2_alg».proof.Proof.KI.Val5
import proofs.«418389_j13280038879631_2_alg».proof.Proof.KI.Reg6

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen6 : Dev nD → Valuation τ sig (Elt F) := fun c => StableHlo.after hostOps6 (Wex5 m hO c)
abbrev Ven6 : (c : Dev nD) → (b : Ref sig .tc) → Buf (Elt F) ((c : Thread nD τ).loc b) := fun c b => Wen6 m hO c b

theorem Wen6_keep (c : Dev nD) (b : Ref sig .tc) (h : b ∉ hostOps6_W) : Wen6 m hO c b = Wex5 m hO c b :=
  StableHlo.after_of_writes_sub hostOps6 _ hostOps6_writes h

def Wex6 (c : Dev nD) : Valuation τ sig (Elt F) :=
  Pipeline.withArrays spec6 c (Wen6 m hO c) fun w => (dat6 (Ven6 m hO) c).arrAt w cfg6.N
theorem Wex6_arr (c : Dev nD) (w : Fin cfg6.W) :
    Wex6 m hO c (Proc.devRef .tc (Pipeline.arrRef spec6 w)) = (dat6 (Ven6 m hO) c).arrAt w cfg6.N :=
  Pipeline.withArrays_arr spec6 (launch6 (F := F)).win.arr_inj c _ _ w
theorem Wex6_of_ne (c : Dev nD) (b : Ref sig .tc) (hb : ∀ w, Pipeline.arrRef spec6 w ≠ b) :
    Wex6 m hO c (Proc.devRef .tc b) = Wen6 m hO c (Proc.devRef .tc b) :=
  Pipeline.withArrays_of_ne spec6 c _ _ b hb
theorem Wex6_in (c : Dev nD) (w : Fin cfg6.W) (hin : (cfg6.win w).isOut = false) :
    Wex6 m hO c (Proc.devRef .tc (Pipeline.arrRef spec6 w)) = Ven6 m hO c (Pipeline.arrRef spec6 w) :=
  (Wex6_arr m hO c w).trans ((dat6 (Ven6 m hO) c).arrAt_in w hin _)

end Cert.KernelIdeal.Hand

end
-- ==== Proof.KI.Reg7.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

noncomputable def out7_4 (x0 : Vec F S16x64x256 .f32) (x1 : Vec F S8x64x256 .f32) (x2 : Vec F S256x256 .f32) (x3 : Vec F S256 .f32) : Vec F S8x64x256 .f32 :=
  k7_pay1 x0 x2 x3 x1

theorem out7_4_eq (x0 : Vec F S16x64x256 .f32) x1 x2 x3 : out7_4 x0 x1 x2 x3 = k7_pay1 x0 x2 x3 x1 := rfl

theorem sound_kernel7 (c : Dev nD) E i arg1 harg1 arg2 harg2 arg3 harg3 arg4 harg4 arg5 harg5 x0 x1 x2 x3 :
    Triple5 (F := F) c E (cc7_kernel i arg1 harg1 arg2 harg2 arg3 harg3 arg4 harg4 arg5 harg5) arg1 arg2 arg3 arg4 arg5 x0 x1 x2 x3
      (out7_4 x0 x1 x2 x3) := fun K => by
  simp only [cc7_kernel_eq_skeleton]; unfold cc7_kernel_skel owns out7_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_4 (c : Dev nD) (t : Fin cfg7.N) :
    (dat7 V c).after 4 t = out7_4 (iblk7 V c 0 t) (iblk7 V c 1 t) (iblk7 V c 2 t) (iblk7 V c 3 t) := by dsimp only [dat7]

theorem before7 (c : Dev nD) (t : Fin cfg7.N) : ∀ w : Fin cfg7.W, w ≠ 4 → ∀ d, (dat7 V c).before w t d = (dat7 V c).after w t
  | 4, h, _ => absurd rfl h
  | 0, _, d | 1, _, d | 2, _, d | 3, _, d => ((dat7 V c).before_in_eq_fetched _ rfl (fun _ => rfl) (fun _ _ _ => rfl)
    (fun _ => by dsimp only [dat7]; rfl) t d).trans (by dsimp only [dat7]; rfl)

theorem body_obligation7 (c : Dev nD) : BodyObligation (dat7 V c) defs₀ Variants.none () Set.univ := fun t => by
  rw [bigSep_W7, bigSep_W7]
  simp only [before7 V c t 0 (by decide), before7 V c t 1 (by decide), before7 V c t 2 (by decide), before7 V c t 3 (by decide)]
  dsimp only [dat7, Dat.owesAt, Dat.bound]
  exact body5 (sound_kernel7 c Set.univ (grid7.coords t) _ (hstage7_0 _) _ (hstage7_1 _) _ (hstage7_2 _) _ (hstage7_3 _) _ (hstage7_4 _)
    (iblk7 V c 0 t) (iblk7 V c 1 t) (iblk7 V c 2 t) (iblk7 V c 3 t)) _ _ _

end Cert.KernelIdeal.Hand

end
-- ==== Proof.KI.Val7.lean ====
import proofs.«418389_j13280038879631_2_alg».proof.Proof.KI.Val6
import proofs.«418389_j13280038879631_2_alg».proof.Proof.KI.Reg7

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen7 : Dev nD → Valuation τ sig (Elt F) := fun c => StableHlo.after hostOps7 (Wex6 m hO c)
abbrev Ven7 : (c : Dev nD) → (b : Ref sig .tc) → Buf (Elt F) ((c : Thread nD τ).loc b) := fun c b => Wen7 m hO c b

theorem Wen7_keep (c : Dev nD) (b : Ref sig .tc) (h : b ∉ hostOps7_W) : Wen7 m hO c b = Wex6 m hO c b :=
  StableHlo.after_of_writes_sub hostOps7 _ hostOps7_writes h

def Wex7 (c : Dev nD) : Valuation τ sig (Elt F) :=
  Pipeline.withArrays spec7 c (Wen7 m hO c) fun w => (dat7 (Ven7 m hO) c).arrAt w cfg7.N
theorem Wex7_arr (c : Dev nD) (w : Fin cfg7.W) :
    Wex7 m hO c (Proc.devRef .tc (Pipeline.arrRef spec7 w)) = (dat7 (Ven7 m hO) c).arrAt w cfg7.N :=
  Pipeline.withArrays_arr spec7 (launch7 (F := F)).win.arr_inj c _ _ w
theorem Wex7_of_ne (c : Dev nD) (b : Ref sig .tc) (hb : ∀ w, Pipeline.arrRef spec7 w ≠ b) :
    Wex7 m hO c (Proc.devRef .tc b) = Wen7 m hO c (Proc.devRef .tc b) :=
  Pipeline.withArrays_of_ne spec7 c _ _ b hb
theorem Wex7_in (c : Dev nD) (w : Fin cfg7.W) (hin : (cfg7.win w).isOut = false) :
    Wex7 m hO c (Proc.devRef .tc (Pipeline.arrRef spec7 w)) = Ven7 m hO c (Pipeline.arrRef spec7 w) :=
  (Wex7_arr m hO c w).trans ((dat7 (Ven7 m hO) c).arrAt_in w hin _)

end Cert.KernelIdeal.Hand

end
-- ==== Proof.KI.Reg8.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def out8_4 (x0 : Vec F S8x64x256 .f32) (x1 : Vec F S4x64x256 .f32) (x2 : Vec F S256x256 .f32) (x3 : Vec F S256 .f32) : Vec F S4x64x256 .f32 :=
  k8_pay1 x0 x2 x3 x1

theorem out8_4_eq (x0 : Vec F S8x64x256 .f32) x1 x2 x3 : out8_4 x0 x1 x2 x3 = k8_pay1 x0 x2 x3 x1 := rfl

theorem sound_kernel8 (c : Dev nD) E i arg1 harg1 arg2 harg2 arg3 harg3 arg4 harg4 arg5 harg5 x0 x1 x2 x3 :
    Triple5 (F := F) c E (cc8_kernel i arg1 harg1 arg2 harg2 arg3 harg3 arg4 harg4 arg5 harg5) arg1 arg2 arg3 arg4 arg5 x0 x1 x2 x3
      (out8_4 x0 x1 x2 x3) := fun K => by
  simp only [cc8_kernel_eq_skeleton]; unfold cc8_kernel_skel owns out8_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := rfl

theorem after8_4 (c : Dev nD) (t : Fin cfg8.N) :
    (dat8 V c).after 4 t = out8_4 (iblk8 V c 0 t) (iblk8 V c 1 t) (iblk8 V c 2 t) (iblk8 V c 3 t) := by dsimp only [dat8]

theorem before8 (c : Dev nD) (t : Fin cfg8.N) : ∀ w : Fin cfg8.W, w ≠ 4 → ∀ d, (dat8 V c).before w t d = (dat8 V c).after w t
  | 4, h, _ => absurd rfl h
  | 0, _, d | 1, _, d | 2, _, d | 3, _, d => ((dat8 V c).before_in_eq_fetched _ rfl (fun _ => rfl) (fun _ _ _ => rfl)
    (fun _ => by dsimp only [dat8]; rfl) t d).trans (by dsimp only [dat8]; rfl)

theorem body_obligation8 (c : Dev nD) : BodyObligation (dat8 V c) defs₀ Variants.none () Set.univ := fun t => by
  rw [bigSep_W8, bigSep_W8]
  simp only [before8 V c t 0 (by decide), before8 V c t 1 (by decide), before8 V c t 2 (by decide), before8 V c t 3 (by decide)]
  dsimp only [dat8, Dat.owesAt, Dat.bound]
  exact body5 (sound_kernel8 c Set.univ (grid8.coords t) _ (hstage8_0 _) _ (hstage8_1 _) _ (hstage8_2 _) _ (hstage8_3 _) _ (hstage8_4 _)
    (iblk8 V c 0 t) (iblk8 V c 1 t) (iblk8 V c 2 t) (iblk8 V c 3 t)) _ _ _

end Cert.KernelIdeal.Hand

end
-- ==== Proof.KI.Val8.lean ====
import proofs.«418389_j13280038879631_2_alg».proof.Proof.KI.Val7
import proofs.«418389_j13280038879631_2_alg».proof.Proof.KI.Reg8

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen8 : Dev nD → Valuation τ sig (Elt F) := fun c => StableHlo.after hostOps8 (Wex7 m hO c)
abbrev Ven8 : (c : Dev nD) → (b : Ref sig .tc) → Buf (Elt F) ((c : Thread nD τ).loc b) := fun c b => Wen8 m hO c b

theorem Wen8_keep (c : Dev nD) (b : Ref sig .tc) (h : b ∉ hostOps8_W) : Wen8 m hO c b = Wex7 m hO c b :=
  StableHlo.after_of_writes_sub hostOps8 _ hostOps8_writes h

def Wex8 (c : Dev nD) : Valuation τ sig (Elt F) :=
  Pipeline.withArrays spec8 c (Wen8 m hO c) fun w => (dat8 (Ven8 m hO) c).arrAt w cfg8.N
theorem Wex8_arr (c : Dev nD) (w : Fin cfg8.W) :
    Wex8 m hO c (Proc.devRef .tc (Pipeline.arrRef spec8 w)) = (dat8 (Ven8 m hO) c).arrAt w cfg8.N :=
  Pipeline.withArrays_arr spec8 (launch8 (F := F)).win.arr_inj c _ _ w
theorem Wex8_of_ne (c : Dev nD) (b : Ref sig .tc) (hb : ∀ w, Pipeline.arrRef spec8 w ≠ b) :
    Wex8 m hO c (Proc.devRef .tc b) = Wen8 m hO c (Proc.devRef .tc b) :=
  Pipeline.withArrays_of_ne spec8 c _ _ b hb
theorem Wex8_in (c : Dev nD) (w : Fin cfg8.W) (hin : (cfg8.win w).isOut = false) :
    Wex8 m hO c (Proc.devRef .tc (Pipeline.arrRef spec8 w)) = Ven8 m hO c (Pipeline.arrRef spec8 w) :=
  (Wex8_arr m hO c w).trans ((dat8 (Ven8 m hO) c).arrAt_in w hin _)

end Cert.KernelIdeal.Hand

end
-- ==== Proof.KI.Reg9.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

noncomputable def out9_4 (x0 : Vec F S4x64x256 .f32) (x1 : Vec F S2x64x256 .f32) (x2 : Vec F S256x256 .f32) (x3 : Vec F S256 .f32) : Vec F S2x64x256 .f32 :=
  k9_pay1 x0 x2 x3 x1

theorem out9_4_eq (x0 : Vec F S4x64x256 .f32) x1 x2 x3 : out9_4 x0 x1 x2 x3 = k9_pay1 x0 x2 x3 x1 := rfl

theorem sound_kernel9 (c : Dev nD) E i arg1 harg1 arg2 harg2 arg3 harg3 arg4 harg4 arg5 harg5 x0 x1 x2 x3 :
    Triple5 (F := F) c E (cc9_kernel i arg1 harg1 arg2 harg2 arg3 harg3 arg4 harg4 arg5 harg5) arg1 arg2 arg3 arg4 arg5 x0 x1 x2 x3
      (out9_4 x0 x1 x2 x3) := fun K => by
  simp only [cc9_kernel_eq_skeleton]; unfold cc9_kernel_skel owns out9_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := rfl

theorem after9_4 (c : Dev nD) (t : Fin cfg9.N) :
    (dat9 V c).after 4 t = out9_4 (iblk9 V c 0 t) (iblk9 V c 1 t) (iblk9 V c 2 t) (iblk9 V c 3 t) := by dsimp only [dat9]

theorem before9 (c : Dev nD) (t : Fin cfg9.N) : ∀ w : Fin cfg9.W, w ≠ 4 → ∀ d, (dat9 V c).before w t d = (dat9 V c).after w t
  | 4, h, _ => absurd rfl h
  | 0, _, d | 1, _, d | 2, _, d | 3, _, d => ((dat9 V c).before_in_eq_fetched _ rfl (fun _ => rfl) (fun _ _ _ => rfl)
    (fun _ => by dsimp only [dat9]; rfl) t d).trans (by dsimp only [dat9]; rfl)

theorem body_obligation9 (c : Dev nD) : BodyObligation (dat9 V c) defs₀ Variants.none () Set.univ := fun t => by
  rw [bigSep_W9, bigSep_W9]
  simp only [before9 V c t 0 (by decide), before9 V c t 1 (by decide), before9 V c t 2 (by decide), before9 V c t 3 (by decide)]
  dsimp only [dat9, Dat.owesAt, Dat.bound]
  exact body5 (sound_kernel9 c Set.univ (grid9.coords t) _ (hstage9_0 _) _ (hstage9_1 _) _ (hstage9_2 _) _ (hstage9_3 _) _ (hstage9_4 _)
    (iblk9 V c 0 t) (iblk9 V c 1 t) (iblk9 V c 2 t) (iblk9 V c 3 t)) _ _ _

end Cert.KernelIdeal.Hand

end
-- ==== Proof.KI.Val9.lean ====
import proofs.«418389_j13280038879631_2_alg».proof.Proof.KI.Val8
import proofs.«418389_j13280038879631_2_alg».proof.Proof.KI.Reg9

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen9 : Dev nD → Valuation τ sig (Elt F) := fun c => StableHlo.after hostOps9 (Wex8 m hO c)
abbrev Ven9 : (c : Dev nD) → (b : Ref sig .tc) → Buf (Elt F) ((c : Thread nD τ).loc b) := fun c b => Wen9 m hO c b

theorem Wen9_keep (c : Dev nD) (b : Ref sig .tc) (h : b ∉ hostOps9_W) : Wen9 m hO c b = Wex8 m hO c b :=
  StableHlo.after_of_writes_sub hostOps9 _ hostOps9_writes h

def Wex9 (c : Dev nD) : Valuation τ sig (Elt F) :=
  Pipeline.withArrays spec9 c (Wen9 m hO c) fun w => (dat9 (Ven9 m hO) c).arrAt w cfg9.N
theorem Wex9_arr (c : Dev nD) (w : Fin cfg9.W) :
    Wex9 m hO c (Proc.devRef .tc (Pipeline.arrRef spec9 w)) = (dat9 (Ven9 m hO) c).arrAt w cfg9.N :=
  Pipeline.withArrays_arr spec9 (launch9 (F := F)).win.arr_inj c _ _ w
theorem Wex9_of_ne (c : Dev nD) (b : Ref sig .tc) (hb : ∀ w, Pipeline.arrRef spec9 w ≠ b) :
    Wex9 m hO c (Proc.devRef .tc b) = Wen9 m hO c (Proc.devRef .tc b) :=
  Pipeline.withArrays_of_ne spec9 c _ _ b hb
theorem Wex9_in (c : Dev nD) (w : Fin cfg9.W) (hin : (cfg9.win w).isOut = false) :
    Wex9 m hO c (Proc.devRef .tc (Pipeline.arrRef spec9 w)) = Ven9 m hO c (Pipeline.arrRef spec9 w) :=
  (Wex9_arr m hO c w).trans ((dat9 (Ven9 m hO) c).arrAt_in w hin _)

end Cert.KernelIdeal.Hand

end
-- ==== Proof.KI.Reg10.lean ====
import proofs.«418389_j13280038879631_2_alg».proof.Proof.KI.RegLib

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

noncomputable def out10_4 (x0 : Vec F S2x64x256 .f32) (x1 : Vec F S1x64x256 .f32) (x2 : Vec F S256x256 .f32) (x3 : Vec F S256 .f32) : Vec F S1x64x256 .f32 :=
  k10_pay1 x0 x2 x3 x1

theorem out10_4_eq (x0 : Vec F S2x64x256 .f32) x1 x2 x3 : out10_4 x0 x1 x2 x3 = k10_pay1 x0 x2 x3 x1 := rfl

theorem sound_kernel10 (c : Dev nD) E i arg1 harg1 arg2 harg2 arg3 harg3 arg4 harg4 arg5 harg5 x0 x1 x2 x3 :
    Triple5 (F := F) c E (cc10_kernel i arg1 harg1 arg2 harg2 arg3 harg3 arg4 harg4 arg5 harg5) arg1 arg2 arg3 arg4 arg5 x0 x1 x2 x3
      (out10_4 x0 x1 x2 x3) := fun K => by
  simp only [cc10_kernel_eq_skeleton]; unfold cc10_kernel_skel owns out10_4
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  refine (read_store_whole _ _ (by decide) _ _).trans ?_
  congr 1 <;> exact readAt_whole _ _ (by decide) _

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := rfl

theorem after10_4 (c : Dev nD) (t : Fin cfg10.N) :
    (dat10 V c).after 4 t = out10_4 (iblk10 V c 0 t) (iblk10 V c 1 t) (iblk10 V c 2 t) (iblk10 V c 3 t) := by dsimp only [dat10]

theorem before10 (c : Dev nD) (t : Fin cfg10.N) : ∀ w : Fin cfg10.W, w ≠ 4 → ∀ d, (dat10 V c).before w t d = (dat10 V c).after w t
  | 4, h, _ => absurd rfl h
  | 0, _, d | 1, _, d | 2, _, d | 3, _, d => ((dat10 V c).before_in_eq_fetched _ rfl (fun _ => rfl) (fun _ _ _ => rfl)
    (fun _ => by dsimp only [dat10]; rfl) t d).trans (by dsimp only [dat10]; rfl)

theorem body_obligation10 (c : Dev nD) : BodyObligation (dat10 V c) defs₀ Variants.none () Set.univ := fun t => by
  rw [bigSep_W10, bigSep_W10]
  simp only [before10 V c t 0 (by decide), before10 V c t 1 (by decide), before10 V c t 2 (by decide), before10 V c t 3 (by decide)]
  dsimp only [dat10, Dat.owesAt, Dat.bound]
  exact body5 (sound_kernel10 c Set.univ (grid10.coords t) _ (hstage10_0 _) _ (hstage10_1 _) _ (hstage10_2 _) _ (hstage10_3 _) _ (hstage10_4 _)
    (iblk10 V c 0 t) (iblk10 V c 1 t) (iblk10 V c 2 t) (iblk10 V c 3 t)) _ _ _

end Cert.KernelIdeal.Hand

end
-- ==== Proof.KI.Val10.lean ====
import proofs.«418389_j13280038879631_2_alg».proof.Proof.KI.Val9
import proofs.«418389_j13280038879631_2_alg».proof.Proof.KI.Reg10

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen10 : Dev nD → Valuation τ sig (Elt F) := fun c => StableHlo.after hostOps10 (Wex9 m hO c)
abbrev Ven10 : (c : Dev nD) → (b : Ref sig .tc) → Buf (Elt F) ((c : Thread nD τ).loc b) := fun c b => Wen10 m hO c b

theorem Wen10_keep (c : Dev nD) (b : Ref sig .tc) (h : b ∉ hostOps10_W) : Wen10 m hO c b = Wex9 m hO c b :=
  StableHlo.after_of_writes_sub hostOps10 _ hostOps10_writes h

def Wex10 (c : Dev nD) : Valuation τ sig (Elt F) :=
  Pipeline.withArrays spec10 c (Wen10 m hO c) fun w => (dat10 (Ven10 m hO) c).arrAt w cfg10.N
theorem Wex10_arr (c : Dev nD) (w : Fin cfg10.W) :
    Wex10 m hO c (Proc.devRef .tc (Pipeline.arrRef spec10 w)) = (dat10 (Ven10 m hO) c).arrAt w cfg10.N :=
  Pipeline.withArrays_arr spec10 (launch10 (F := F)).win.arr_inj c _ _ w
theorem Wex10_of_ne (c : Dev nD) (b : Ref sig .tc) (hb : ∀ w, Pipeline.arrRef spec10 w ≠ b) :
    Wex10 m hO c (Proc.devRef .tc b) = Wen10 m hO c (Proc.devRef .tc b) :=
  Pipeline.withArrays_of_ne spec10 c _ _ b hb
theorem Wex10_in (c : Dev nD) (w : Fin cfg10.W) (hin : (cfg10.win w).isOut = false) :
    Wex10 m hO c (Proc.devRef .tc (Pipeline.arrRef spec10 w)) = Ven10 m hO c (Pipeline.arrRef spec10 w) :=
  (Wex10_arr m hO c w).trans ((dat10 (Ven10 m hO) c).arrAt_in w hin _)

end Cert.KernelIdeal.Hand

end
-- ==== Proof.KI.Reg11.lean ====
import proofs.«418389_j13280038879631_2_alg».proof.Proof.Gen.KernelIdeal.Launch
import proofs.«418389_j13280038879631_2_alg».proof.Proof.Gen.KernelIdeal.Skeleton
import proofs.«418389_j13280038879631_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg11 (F := F)).Adm) (V : (c : Dev nD) → (b : Ref sig .tc) → Buf (Elt F) ((c : Thread nD τ).loc b))
  (c : Dev nD) (t : Fin (cfg11 a).N)

abbrev st11_0 : Memref sig .tc .vmem S1x64x256 .f32 := spec11_0.stage ((cfg11 a).slots t 0)
abbrev st11_1 : Memref sig .tc .vmem S1x64x256 .f32 := spec11_1.stage ((cfg11 a).slots t 1)
abbrev st11_2 : Memref sig .tc .vmem S64x256 .f32 := spec11_2.stage ((cfg11 a).slots t 2)
abbrev sc11 : Memref sig .tc .vmem S1x64x256 .f32 := Memref.whole cc11_scratch0

abbrev bodyAt11 : Prog (TpuEff nD τ sig (Elt F) Λ₀ .tc) PUnit :=
  cc11_kernel (grid11.coords t) (Memref.whole main_c) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))
    (Memref.whole cc11_scratch0) (Memref.isWhole_whole _)

def iblk11 (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

abbrev cond11 (i : grid11.Coords) : Prop :=
  (Scalar.cmpi .ne (Scalar.extui (Scalar.cmpi .eq (BitVec.ofNat 32 (i 0).val) 0#32)) 0#32) = 1#1

set_option maxHeartbeats 400000 in
theorem hcond11 : ∀ t : Fin grid11.N, cond11 (grid11.coords t) ↔ t.val = 0 := by decide +kernel

theorem hz3_11 : (![0, 0, 0] : Fin 3 → Nat) = fun _ => 0 := by decide
theorem hz2_11 : (![0, 0] : Fin 2 → Nat) = fun _ => 0 := by decide

-- the newest piece's rectangle is the whole shape, so it covers every index
theorem read_writes_cons_whole11 {sg : RefSig} {κ : Kind} {sp : Space} {S : Shape} {e : EltTy}
    (v : View sg κ sp S e) (f : v.ty.Contents (Elt F)) {off : Fin S.rank → Nat} (h : off = fun _ => 0)
    (inb : ∀ i, off i + S.size i ≤ S.size i) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

section
variable (E : Set ℕ) (i : grid11.Coords)
    (arg1 : Memref sig .tc .smem S1023 .i32) (harg1 : arg1.IsWhole)
    (arg2 : Memref sig .tc .vmem S1x64x256 .f32) (harg2 : arg2.IsWhole)
    (arg3 : Memref sig .tc .vmem S1x64x256 .f32) (harg3 : arg3.IsWhole)
    (arg4 : Memref sig .tc .vmem S64x256 .f32) (harg4 : arg4.IsWhole)
    (arg5 : Memref sig .tc .vmem S1x64x256 .f32) (harg5 : arg5.IsWhole)
    (x0 xs : Vec F S1x64x256 .f32)

set_option maxHeartbeats 2000000 in
theorem sound_kernel11_first (hi : cond11 i) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (k11_pay2 x0)
            ∗ owns (c : Thread nD τ) arg4 fullShare (k11_pay4 (k11_pay3 x0 k11_pay1))
            ∗ owns (c : Thread nD τ) arg5 fullShare (k11_pay3 x0 k11_pay1)) -∗ K ⟨⟩))
      ⊢ wp frame (wpE (defs₀ (F := F)) Variants.none c none) E (cc11_kernel i arg1 harg1 arg2 harg2 arg3 harg3 arg4 harg4 arg5 harg5) K := by
  simp only [cc11_kernel_eq_skeleton]; unfold cc11_kernel_skel owns
  iintro ⟨⟨%f0, %hf0, H0⟩, ⟨%d1, %f1, -, H1⟩, ⟨%d2, %f2, -, H2⟩, ⟨%d3, %f3, -, H3⟩, Hk⟩
  subst hf0
  sl_exec (disch := first | exact hi)
  sl_step
  iapply Hk
  isplitl [H0]
  · iexists f0; isplitr; · ipureintro; rfl
    iexact H0
  isplitl [H1]
  · iexists _; isplitr
    swap; · iexact H1
    ipureintro
    rw [read_writes_cons_whole11 _ _ hz3_11, View.readAt_eq_ld, View.ld_unit_zero hz3_11]
  isplitl [H2]
  · iexists _; isplitr
    swap; · iexact H2
    ipureintro
    sl_unfold_words
    rw [read_writes_cons_whole11 _ _ hz2_11, View.readCov_cons_toLoadRect, View.readCov_cons_toLoadRect,
      View.readAt_eq_ld, View.ld_unit_zero hz3_11]
  · iexists _; isplitr
    swap; · iexact H3
    ipureintro
    sl_unfold_words
    rw [read_writes_cons_whole11 _ _ hz3_11, View.readCov_cons_toLoadRect, View.readAt_eq_ld, View.ld_unit_zero hz3_11]

set_option maxHeartbeats 2000000 in
theorem sound_kernel11_next (hi : ¬cond11 i) (K : PUnit → sProp 𝕄) :
    iprop(owns (c : Thread nD τ) arg2 fullShare x0 ∗ (∃ d, owns (c : Thread nD τ) arg3 fullShare d)
        ∗ (∃ d, owns (c : Thread nD τ) arg4 fullShare d) ∗ owns (c : Thread nD τ) arg5 fullShare xs
        ∗ (iprop(owns (c : Thread nD τ) arg2 fullShare x0 ∗ owns (c : Thread nD τ) arg3 fullShare (k11_pay2 x0)
            ∗ owns (c : Thread nD τ) arg4 fullShare (k11_pay4 (k11_pay3 x0 xs))
            ∗ owns (c : Thread nD τ) arg5 fullShare (k11_pay3 x0 xs)) -∗ K ⟨⟩))
      ⊢ wp frame (wpE (defs₀ (F := F)) Variants.none c none) E (cc11_kernel i arg1 harg1 arg2 harg2 arg3 harg3 arg4 harg4 arg5 harg5) K := by
  simp only [cc11_kernel_eq_skeleton]; unfold cc11_kernel_skel owns
  iintro ⟨⟨%f0, %hf0, H0⟩, ⟨%d1, %f1, -, H1⟩, ⟨%d2, %f2, -, H2⟩, ⟨%f3, %hf3, H3⟩, Hk⟩
  subst hf0 hf3
  sl_exec (disch := first | exact hi)
  sl_step
  iapply Hk
  isplitl [H0]
  · iexists f0; isplitr; · ipureintro; rfl
    iexact H0
  isplitl [H1]
  · iexists _; isplitr
    swap; · iexact H1
    ipureintro
    rw [read_writes_cons_whole11 _ _ hz3_11, View.readAt_eq_ld, View.ld_unit_zero hz3_11]
  isplitl [H2]
  · iexists _; isplitr
    swap; · iexact H2
    ipureintro
    sl_unfold_words
    rw [read_writes_cons_whole11 _ _ hz2_11, View.readCov_cons_toLoadRect, View.readAt_eq_ld, View.ld_unit_zero hz3_11,
      View.readAt_eq_ld, View.ld_unit_zero hz3_11]
  · iexists _; isplitr
    swap; · iexact H3
    ipureintro
    sl_unfold_words
    rw [read_writes_cons_whole11 _ _ hz3_11, View.readAt_eq_ld, View.ld_unit_zero hz3_11,
      View.readAt_eq_ld, View.ld_unit_zero hz3_11]

end

def x11 (n : ℕ) : Vec F S1x64x256 .f32 :=
  if h : n < (cfg11 a).N then iblk11 a V c 0 ⟨n, h⟩ else k11_pay1

theorem x11_val : x11 a V c t.val = iblk11 a V c 0 t := dif_pos t.isLt

def acc11 : ℕ → Vec F S1x64x256 .f32
  | 0 => k11_pay3 (x11 a V c 0) k11_pay1
  | n + 1 => k11_pay3 (x11 a V c (n + 1)) (acc11 n)

theorem acc11_zero : acc11 a V c 0 = k11_pay3 (x11 a V c 0) k11_pay1 := rfl
theorem acc11_succ (n : ℕ) : acc11 a V c (n + 1) = k11_pay3 (x11 a V c (n + 1)) (acc11 a V c n) := rfl

theorem acc11_first (hz : t.val = 0) : acc11 a V c t.val = k11_pay3 (iblk11 a V c 0 t) k11_pay1 := by
  rw [← x11_val a V c t, hz]; rfl

theorem acc11_next (hz : t.val ≠ 0) : acc11 a V c t.val = k11_pay3 (iblk11 a V c 0 t) (acc11 a V c (t.val - 1)) := by
  rw [← x11_val a V c t]
  obtain ⟨k, hk⟩ := Nat.exists_eq_succ_of_ne_zero hz
  rw [hk]; rfl

def scr11 : ℕ → sProp 𝕄
  | 0 => iprop(∃ d, owns (c : Thread nD τ) sc11 fullShare d)
  | n + 1 => owns (c : Thread nD τ) sc11 fullShare (acc11 a V c n)

theorem scr11_zero (n : ℕ) (hz : n = 0) :
    scr11 a V c n = iprop(∃ d, owns (c : Thread nD τ) sc11 fullShare d) := by subst hz; rfl

theorem scr11_pos (n : ℕ) (hz : n ≠ 0) :
    scr11 a V c n = owns (c : Thread nD τ) sc11 fullShare (acc11 a V c (n - 1)) := by
  cases n with
  | zero => exact absurd rfl hz
  | succ n => rfl

def Phi11 (n : ℕ) : sProp 𝕄 :=
  iprop(Pipeline.scopedRestBut spec11 c [cc11_scratch0] ∗ (∃ r, prngReg c r)
    ∗ Pipeline.prefHeld pre11 c (fun _ => fullShare) a.1 ∗ scr11 a V c n)

def dat11 : Dat τ (Elt F) Unit ℕ (UR sig nD τ) ℕ (cfg11 a) c where
  A w := V c (Pipeline.arrRef spec11 w)
  after w t := match w with
    | ⟨0, _⟩ => iblk11 a V c 0 t
    | ⟨1, _⟩ => k11_pay2 (iblk11 a V c 0 t)
    | ⟨2, _⟩ => k11_pay4 (acc11 a V c t.val)
  Φ t := Phi11 a V c t.val
  q _ := fullShare
  owed _ := 0

theorem A_eq11 (w : Fin (cfg11 a).W) : (dat11 a V c).A w = V c (Pipeline.arrRef spec11 w) := rfl

theorem after11_0 : (dat11 a V c).after (0 : Fin 3) t = iblk11 a V c 0 t := by dsimp only [dat11]
theorem after11_1 : (dat11 a V c).after 1 t = k11_pay2 (iblk11 a V c 0 t) := by dsimp only [dat11]; rfl
theorem after11_2 : (dat11 a V c).after 2 t = k11_pay4 (acc11 a V c t.val) := by dsimp only [dat11]; rfl

theorem before11_0 (d) : (dat11 a V c).before (0 : Fin 3) t d = iblk11 a V c 0 t :=
  (dat11 a V c).before_in_eq_fetched 0 rfl (fun _ => rfl) (fun _ _ _ => rfl) (fun _ => rfl) t d

set_option maxHeartbeats 1000000 in
theorem body_obligation11 : BodyObligation (dat11 (F := F) a V c) (defs₀ (F := F)) Variants.none () Set.univ := fun t => by
  rw [bigSep_W11, bigSep_W11]
  simp only [before11_0]
  show _ ⊢ wp frame _ _ (bodyAt11 a t) _
  rw [show (dat11 a V c).Φ t.succ = Phi11 a V c (t.val + 1) from rfl,
    show (dat11 a V c).Φ t.castSucc = Phi11 a V c t.val from rfl,
    show (dat11 a V c).owesAt () t.succ = (dat11 a V c).owesAt () t.castSucc from rfl,
    after11_0, show (dat11 a V c).after (1 : Fin 3) t = _ from after11_1 a V c t,
    show (dat11 a V c).after (2 : Fin 3) t = _ from after11_2 a V c t]
  unfold Phi11
  rw [show scr11 a V c (t.val + 1) = owns (c : Thread nD τ) sc11 fullShare (acc11 a V c t.val) from rfl]
  by_cases hz : t.val = 0
  on_goal 1 =>
    rw [scr11_zero a V c _ hz, acc11_first a V c t hz]
    iintro ⟨⟨HR, Hg, HT, HS⟩, Ho, ⟨%d0, H0⟩, ⟨%d1, H1⟩, ⟨%d2, H2⟩⟩
    iapply (sound_kernel11_first c Set.univ (grid11.coords t) _ _ _ _ _ _ _ _ _ _ (iblk11 a V c 0 t) ((hcond11 t).mpr hz) _)
  on_goal 2 =>
    rw [scr11_pos a V c _ hz, acc11_next a V c t hz]
    iintro ⟨⟨HR, Hg, HT, HS⟩, Ho, ⟨%d0, H0⟩, ⟨%d1, H1⟩, ⟨%d2, H2⟩⟩
    iapply (sound_kernel11_next c Set.univ (grid11.coords t) _ _ _ _ _ _ _ _ _ _ (iblk11 a V c 0 t) (acc11 a V c (t.val - 1)) (fun h => hz ((hcond11 t).mp h)) _)
  all_goals
    isplitl [H0]; · iexact H0
    isplitl [H1]; · iexists _; iexact H1
    isplitl [H2]; · iexists _; iexact H2
    isplitl [HS]; · iexact HS
    iintro ⟨H0, H1, H2, HS⟩
    iframe

theorem scopedRest11_eq :
    (Pipeline.scopedRest spec11 c : sProp 𝕄)
      = iprop(iprop((∃ d, owns (c : Thread nD τ) sc11 fullShare d)) ∗ Pipeline.scopedRestBut spec11 c [cc11_scratch0]) := by
  rw [scopedRest11_split]; simp only [sc11, owns_whole]; try rfl

theorem hin11 :
    iprop((∃ r, prngReg c r) ∗ Pipeline.prefHeld pre11 c (fun _ => fullShare) a.1 ∗ Pipeline.scopedRest spec11 c)
      ⊢ (dat11 a V c).Φ 0 := by
  rw [show (dat11 a V c).Φ 0 = Phi11 a V c 0 from rfl, scopedRest11_eq]
  unfold Phi11
  rw [scr11_zero a V c 0 rfl]
  iintro ⟨Hg, HT, HS, HR⟩
  iframe

theorem hout11 :
    (dat11 a V c).Φ (Fin.last (cfg11 a).N)
      ⊢ iprop(((∃ r, prngReg c r) ∗ Pipeline.prefHeld pre11 c (fun _ => fullShare) a.1) ∗ Pipeline.scopedRest spec11 c) := by
  rw [show (dat11 a V c).Φ (Fin.last (cfg11 a).N) = Phi11 a V c (cfg11 a).N from rfl, scopedRest11_eq]
  unfold Phi11
  rw [scr11_pos a V c _ (show (cfg11 a).N ≠ 0 from by rw [show (cfg11 a).N = 1023 from N_11]; decide)]
  iintro ⟨HR, Hg, HT, HS⟩
  iframe Hg HT HR
  iexists _; iexact HS

end Cert.KernelIdeal.Hand

end
-- ==== Proof.KI.Val11.lean ====
import proofs.«418389_j13280038879631_2_alg».proof.Proof.KI.Val10
import proofs.«418389_j13280038879631_2_alg».proof.Proof.KI.Reg11

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m)

abbrev Wen11 : Dev nD → Valuation τ sig (Elt F) := fun c => StableHlo.after hostOps11 (Wex10 m hO c)
abbrev Ven11 : (c : Dev nD) → (b : Ref sig .tc) → Buf (Elt F) ((c : Thread nD τ).loc b) := fun c b => Wen11 m hO c b

theorem Wen11_keep (c : Dev nD) (b : Ref sig .tc) (h : b ∉ hostOps11_W) : Wen11 m hO c b = Wex10 m hO c b :=
  StableHlo.after_of_writes_sub hostOps11 _ hostOps11_writes h

def tbl11 : pre11.Contents (Elt F) := fun k => Ven11 m hO (0 : Dev nD) (pre11.ref k)

theorem Ven11_pre (c : Dev nD) (k : Fin pre11.K) : Ven11 m hO c (pre11.ref k) = tbl11 m hO k := by
  obtain rfl : c = 0 := Subsingleton.elim _ _
  rfl

abbrev Ok11 : Prop := ok11 (F := F) (tbl11 m hO)

variable (h11 : Ok11 m hO)

abbrev adm11 : (pcfg11 (F := F)).Adm := ⟨tbl11 m hO, h11⟩

def Wex11 (c : Dev nD) : Valuation τ sig (Elt F) :=
  Pipeline.withArrays spec11 c (Wen11 m hO c) fun w => (dat11 (adm11 m hO h11) (Ven11 m hO) c).arrAt w (cfg11 (adm11 m hO h11)).N
theorem Wex11_arr (c : Dev nD) (w : Fin (cfg11 (adm11 m hO h11)).W) :
    Wex11 m hO h11 c (Proc.devRef .tc (Pipeline.arrRef spec11 w)) = (dat11 (adm11 m hO h11) (Ven11 m hO) c).arrAt w (cfg11 (adm11 m hO h11)).N :=
  Pipeline.withArrays_arr spec11 (launch11 (F := F)).win.arr_inj c _ _ w
theorem Wex11_of_ne (c : Dev nD) (b : Ref sig .tc) (hb : ∀ w, Pipeline.arrRef spec11 w ≠ b) :
    Wex11 m hO h11 c (Proc.devRef .tc b) = Wen11 m hO c (Proc.devRef .tc b) :=
  Pipeline.withArrays_of_ne spec11 c _ _ b hb

end Cert.KernelIdeal.Hand

end
-- ==== Proof.KI.Data.lean ====
import proofs.«418389_j13280038879631_2_alg».proof.Proof.KI.Val11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

abbrev adm : (p : Fin 12) → (pcfgs (F := F) p).Adm
  | ⟨0, _⟩ => adm0 m hO
  | ⟨1, _⟩ => cfg1.toPCfg_adm
  | ⟨2, _⟩ => cfg2.toPCfg_adm
  | ⟨3, _⟩ => cfg3.toPCfg_adm
  | ⟨4, _⟩ => cfg4.toPCfg_adm
  | ⟨5, _⟩ => cfg5.toPCfg_adm
  | ⟨6, _⟩ => cfg6.toPCfg_adm
  | ⟨7, _⟩ => cfg7.toPCfg_adm
  | ⟨8, _⟩ => cfg8.toPCfg_adm
  | ⟨9, _⟩ => cfg9.toPCfg_adm
  | ⟨10, _⟩ => cfg10.toPCfg_adm
  | ⟨11, _⟩ => adm11 m hO h11

def pdats : (p : Fin 12) → (c : Dev nD) → Dat τ (Elt F) Unit ℕ (UR sig nD τ) ℕ (Pipeline.pin (pcfgs (F := F)) (adm m hO h11) p) c
  | ⟨0, _⟩ => fun c => dat0 (Ven0 m) (adm0 m hO) c
  | ⟨1, _⟩ => fun c => dat1 (Ven1 m hO) c
  | ⟨2, _⟩ => fun c => dat2 (Ven2 m hO) c
  | ⟨3, _⟩ => fun c => dat3 (Ven3 m hO) c
  | ⟨4, _⟩ => fun c => dat4 (Ven4 m hO) c
  | ⟨5, _⟩ => fun c => dat5 (Ven5 m hO) c
  | ⟨6, _⟩ => fun c => dat6 (Ven6 m hO) c
  | ⟨7, _⟩ => fun c => dat7 (Ven7 m hO) c
  | ⟨8, _⟩ => fun c => dat8 (Ven8 m hO) c
  | ⟨9, _⟩ => fun c => dat9 (Ven9 m hO) c
  | ⟨10, _⟩ => fun c => dat10 (Ven10 m hO) c
  | ⟨11, _⟩ => fun c => dat11 (adm11 m hO h11) (Ven11 m hO) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (Wex11 m hO h11 c) ∗ ∃ r, prngReg c r)

end Cert.KernelIdeal.Hand

end
-- ==== Proof.KI.Seg0.lean ====
import proofs.«418389_j13280038879631_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

theorem rest0_split (c : Dev nD) :
    (Pipeline.unscopedRest (Ix := Unit) (Name := ℕ) (U := UR sig nD τ) (Lvl := ℕ) (Pipeline.pin (pcfgs (F := F)) (adm m hO h11) 0).spec c (Ven0 m c) : sProp 𝕄)
      = iprop(Pipeline.prefHeld pre0 c (fun _ => fullShare) (tbl0 m) ∗ Pipeline.unscopedRestP pre0 spec0 c (Ven0 m c)) := by
  have h := Pipeline.unscopedRest_split (Ix := Unit) (Name := ℕ) (U := UR sig nD τ) (Lvl := ℕ) (Val := Elt F) preFacts0 c (Ven0 m c)
  rw [show (fun k => Ven0 m c (pre0.ref k)) = tbl0 m from funext fun k => Ven0_pre m c k] at h
  exact h

set_option backward.isDefEq.respectTransparency.types false in
def reg0 : Pipeline.RegionSeg (pcfgs (F := F)) (adm m hO h11) (pdats m hO h11) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ven0 m) (adm0 m hO) c).loose
  hwaits := Pipeline.hwaits_of_owed_zero _ _ _ _ L lv 0 fun _ _ => rfl
  pre c := iprop(StableHlo.held (c : Thread nD τ) (Pipeline.ucRefs τ sig) (Wen0 m c) ∗ R c)
  post c := iprop(StableHlo.held (c : Thread nD τ) (Pipeline.ucRefs τ sig) (Wex0 m hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 m))
  Z c := Pipeline.unscopedRestP (Ix := Unit) (Name := ℕ) (U := UR sig nD τ) (Lvl := ℕ) pre0 spec0 c (Ven0 m c)
  hentry c := by
    rw [Pipeline.ownSems0_none]
    have hsplit := Pipeline.arrays_of_unscopedBufs (p := 0) (pcfgs (F := F)) (adm m hO h11) (pdats m hO h11) (launch0 (F := F)).win (launch0 (F := F)).arr_whole c
      ((pdats m hO h11 0 c).share_full fun _ => rfl) (Ven0 m c) fun _ => rfl
    rw [Pipeline.unscopedBufs_held, rest0_split m hO h11 c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (Ven0 m) (adm0 m hO) c
  hout c := by
    rw [Pipeline.ownSems0_none]
    refine (hout0 (Ven0 m) (adm0 m hO) c).trans ?_
    iintro ⟨HY, Hr⟩
    isplitl [HY]; · iexact HY
    isplitr; · iempintro
    iexact Hr
  hexit c := by
    have hjoin := Pipeline.unscopedBufs_of_arrays (p := 0) (pcfgs (F := F)) (adm m hO h11) (Ix := Unit) (Name := ℕ) (U := UR sig nD τ) (Lvl := ℕ)
      (launch0 (F := F)).win (launch0 (F := F)).arr_whole c (pdats m hO h11) ((pdats m hO h11 0 c).share_full fun _ => rfl)
      (Ven0 m c) (fun b => Wex0 m hO c b) ((pdats m hO h11 0 c).arrAt · (cfg0 (adm0 m hO)).N) (fun w => (Wex0_arr m hO c w).symm)
      fun b hb => Wex0_of_ne m hO c b fun w e => hb (Finset.mem_image.mpr ⟨w, Finset.mem_univ _, e⟩)
    rw [Pipeline.unscopedBufs_held, rest0_split m hO h11 c] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

end Cert.KernelIdeal.Hand

end
-- ==== Proof.KI.SegLib.lean ====
import proofs.«418389_j13280038879631_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

theorem prefHeld_none (pre : Pipeline.Prefetch sig) (h : pre.K = 0) (c : Dev nD) (q) (V : pre.Contents (Elt F)) :
    (Pipeline.prefHeld (Ix := Unit) (Name := ℕ) (U := UR sig nD τ) (Lvl := ℕ) pre c q V : sProp 𝕄) = BI.emp := by
  haveI : IsEmpty (Fin pre.K) := by rw [h]; infer_instance
  unfold Pipeline.prefHeld
  rw [Finset.univ_eq_empty, BI.bigSep_empty]

def regOf (p : Fin 12) (la : Pipeline.PLaunchFacts (nD := nD) (τ := τ) (pcfgs (F := F)) p)
    (Wen Wex : Dev nD → Valuation τ sig (Elt F))
    (hb : ∀ c, BodyObligation (pdats m hO h11 p c) (defs₀ (F := F)) 𝒱₀ () Set.univ)
    (hK : (pcfgs (F := F) p).pre.K = 0)
    (hd : ∀ c, ((pdats m hO h11 p c).Φ = fun _ => Pipeline.ΦA (Pipeline.pin (pcfgs (F := F)) (adm m hO h11) p).spec c)
      ∧ ((pdats m hO h11 p c).q = fun _ => fullShare) ∧ ((pdats m hO h11 p c).owed = fun _ => 0)
      ∧ ((pdats m hO h11 p c).recorded = fun _ => Set.univ)
      ∧ (pdats m hO h11 p c).A = fun w => Wen c (Proc.devRef .tc (Pipeline.arrRef (Pipeline.pin (pcfgs (F := F)) (adm m hO h11) p).spec w)))
    (harr : ∀ c w, Wex c (Proc.devRef .tc (Pipeline.arrRef (Pipeline.pin (pcfgs (F := F)) (adm m hO h11) p).spec w)) = (pdats m hO h11 p c).arrAt w (Pipeline.pin (pcfgs (F := F)) (adm m hO h11) p).N)
    (hne : ∀ c (b : Ref sig .tc), (∀ w, Pipeline.arrRef (Pipeline.pin (pcfgs (F := F)) (adm m hO h11) p).spec w ≠ b) → Wex c (Proc.devRef .tc b) = Wen c (Proc.devRef .tc b)) :
    Pipeline.RegionSeg (pcfgs (F := F)) (adm m hO h11) (pdats m hO h11) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => congrFun (hd c).2.2.1
  pre c := iprop(StableHlo.held (c : Thread nD τ) (Pipeline.ucRefs τ sig) (Wen c) ∗ R c)
  post c := iprop(StableHlo.held (c : Thread nD τ) (Pipeline.ucRefs τ sig) (Wex c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) (adm m hO h11) p).spec c fun b => Wen c b
  hentry c := by
    obtain ⟨-, hq, h0, hr, hA⟩ := hd c
    rw [Pipeline.ownSems0_none, prefHeld_none _ hK]
    have hsplit := Pipeline.arrays_of_unscopedBufs (p := p) (pcfgs (F := F)) (adm m hO h11) (pdats m hO h11) la.win la.arr_whole c
      ((pdats m hO h11 p c).share_full (congrFun hq)) (fun b => Wen c b) (congrFun hA)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [(hd c).1]; unfold Pipeline.ΦA
    iintro ⟨Hp, -, Hr⟩
    isplitl [Hr]; · iexact Hr
    iexact Hp
  hout c := by
    rw [Pipeline.ownSems0_none, (hd c).1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) (adm m hO h11) (Ix := Unit) (Name := ℕ) (U := UR sig nD τ) (Lvl := ℕ)
      la.win la.arr_whole c (pdats m hO h11) ((pdats m hO h11 p c).share_full (congrFun (hd c).2.1))
      (fun b => Wen c b) (fun b => Wex c b) ((pdats m hO h11 p c).arrAt · (Pipeline.pin (pcfgs (F := F)) (adm m hO h11) p).N)
      (fun w => (harr c w).symm) fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.2.1]
    icases HO with ⟨%W, -, HO⟩; iexists W; iexact HO

end Cert.KernelIdeal.Hand

end
-- ==== Proof.KI.Seg1.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg1 : Pipeline.RegionSeg (pcfgs (F := F)) (adm m hO h11) (pdats m hO h11) () defs₀ 𝒱₀ L lv 1 :=
  regOf m hO h11 1 launch1 (Wen1 m hO) (Wex1 m hO) (body_obligation1 (Ven1 m hO)) rfl
    (fun _ => ⟨rfl, rfl, rfl, rfl, rfl⟩) (Wex1_arr m hO) (Wex1_of_ne m hO)

end Cert.KernelIdeal.Hand

end
-- ==== Proof.KI.Seg2.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg2 : Pipeline.RegionSeg (pcfgs (F := F)) (adm m hO h11) (pdats m hO h11) () defs₀ 𝒱₀ L lv 2 :=
  regOf m hO h11 2 launch2 (Wen2 m hO) (Wex2 m hO) (body_obligation2 (Ven2 m hO)) rfl
    (fun _ => ⟨rfl, rfl, rfl, rfl, rfl⟩) (Wex2_arr m hO) (Wex2_of_ne m hO)

end Cert.KernelIdeal.Hand

end
-- ==== Proof.KI.Seg3.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg3 : Pipeline.RegionSeg (pcfgs (F := F)) (adm m hO h11) (pdats m hO h11) () defs₀ 𝒱₀ L lv 3 :=
  regOf m hO h11 3 launch3 (Wen3 m hO) (Wex3 m hO) (body_obligation3 (Ven3 m hO)) rfl
    (fun _ => ⟨rfl, rfl, rfl, rfl, rfl⟩) (Wex3_arr m hO) (Wex3_of_ne m hO)

end Cert.KernelIdeal.Hand

end
-- ==== Proof.KI.Seg4.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg4 : Pipeline.RegionSeg (pcfgs (F := F)) (adm m hO h11) (pdats m hO h11) () defs₀ 𝒱₀ L lv 4 :=
  regOf m hO h11 4 launch4 (Wen4 m hO) (Wex4 m hO) (body_obligation4 (Ven4 m hO)) rfl
    (fun _ => ⟨rfl, rfl, rfl, rfl, rfl⟩) (Wex4_arr m hO) (Wex4_of_ne m hO)

end Cert.KernelIdeal.Hand

end
-- ==== Proof.KI.Seg5.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg5 : Pipeline.RegionSeg (pcfgs (F := F)) (adm m hO h11) (pdats m hO h11) () defs₀ 𝒱₀ L lv 5 :=
  regOf m hO h11 5 launch5 (Wen5 m hO) (Wex5 m hO) (body_obligation5 (Ven5 m hO)) rfl
    (fun _ => ⟨rfl, rfl, rfl, rfl, rfl⟩) (Wex5_arr m hO) (Wex5_of_ne m hO)

end Cert.KernelIdeal.Hand

end
-- ==== Proof.KI.Seg6.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg6 : Pipeline.RegionSeg (pcfgs (F := F)) (adm m hO h11) (pdats m hO h11) () defs₀ 𝒱₀ L lv 6 :=
  regOf m hO h11 6 launch6 (Wen6 m hO) (Wex6 m hO) (body_obligation6 (Ven6 m hO)) rfl
    (fun _ => ⟨rfl, rfl, rfl, rfl, rfl⟩) (Wex6_arr m hO) (Wex6_of_ne m hO)

end Cert.KernelIdeal.Hand

end
-- ==== Proof.KI.Seg7.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg7 : Pipeline.RegionSeg (pcfgs (F := F)) (adm m hO h11) (pdats m hO h11) () defs₀ 𝒱₀ L lv 7 :=
  regOf m hO h11 7 launch7 (Wen7 m hO) (Wex7 m hO) (body_obligation7 (Ven7 m hO)) rfl
    (fun _ => ⟨rfl, rfl, rfl, rfl, rfl⟩) (Wex7_arr m hO) (Wex7_of_ne m hO)

end Cert.KernelIdeal.Hand

end
-- ==== Proof.KI.Seg8.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg8 : Pipeline.RegionSeg (pcfgs (F := F)) (adm m hO h11) (pdats m hO h11) () defs₀ 𝒱₀ L lv 8 :=
  regOf m hO h11 8 launch8 (Wen8 m hO) (Wex8 m hO) (body_obligation8 (Ven8 m hO)) rfl
    (fun _ => ⟨rfl, rfl, rfl, rfl, rfl⟩) (Wex8_arr m hO) (Wex8_of_ne m hO)

end Cert.KernelIdeal.Hand

end
-- ==== Proof.KI.Seg9.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg9 : Pipeline.RegionSeg (pcfgs (F := F)) (adm m hO h11) (pdats m hO h11) () defs₀ 𝒱₀ L lv 9 :=
  regOf m hO h11 9 launch9 (Wen9 m hO) (Wex9 m hO) (body_obligation9 (Ven9 m hO)) rfl
    (fun _ => ⟨rfl, rfl, rfl, rfl, rfl⟩) (Wex9_arr m hO) (Wex9_of_ne m hO)

end Cert.KernelIdeal.Hand

end
-- ==== Proof.KI.Seg10.lean ====
import proofs.«418389_j13280038879631_2_alg».proof.Proof.KI.SegLib

set_option maxRecDepth 16384

noncomputable section

namespace Cert.KernelIdeal.Hand

open Cert.KernelIdeal Cert.KernelIdeal.Gen Idealize.ShloMosaic

variable {F : FTy → Type} [FloatOps F]

variable (m : (ℓ : Loc nD τ sig) → Buf (Elt F) ℓ) (hO : Ok0 m) (h11 : Ok11 m hO)

def reg10 : Pipeline.RegionSeg (pcfgs (F := F)) (adm m hO h11) (pdats m hO h11) () defs₀ 𝒱₀ L lv 10 :=
  regOf m hO h11 10 launch10 (Wen10 m hO) (Wex10 m hO) (body_obligation10 (Ven10 m hO)) rfl
    (fun _ => ⟨rfl, rfl, rfl, rfl, rfl⟩) (Wex10_arr m hO) (Wex10_of_ne m hO)

end Cert.KernelIdeal.Hand

end
-- ==== Proof.KI.Seg11.lean ====
import proofs.«418389_j13280038879631_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok0 m) (h11 : Ok11 m hO)

theorem rest11_split (c : Dev nD) :
    (Pipeline.unscopedRest (Ix := Unit) (Name := ℕ) (U := UR sig nD τ) (Lvl := ℕ) (Pipeline.pin (pcfgs (F := F)) (adm m hO h11) 11).spec c (Ven11 m hO c) : sProp 𝕄)
      = iprop(Pipeline.prefHeld pre11 c (fun _ => fullShare) (tbl11 m hO) ∗ Pipeline.unscopedRestP pre11 spec11 c (Ven11 m hO c)) := by
  have h := Pipeline.unscopedRest_split (Ix := Unit) (Name := ℕ) (U := UR sig nD τ) (Lvl := ℕ) (Val := Elt F) preFacts11 c (Ven11 m hO c)
  rw [show (fun k => Ven11 m hO c (pre11.ref k)) = tbl11 m hO from funext fun k => Ven11_pre m hO c k] at h
  exact h

set_option backward.isDefEq.respectTransparency.types false in
def reg11 : Pipeline.RegionSeg (pcfgs (F := F)) (adm m hO h11) (pdats m hO h11) () defs₀ 𝒱₀ L lv 11 where
  win := (launch11 (F := F)).win.to₀
  block_pos := (launch11 (F := F)).block_pos
  stage_whole := (launch11 (F := F)).stage_whole
  K := PEmpty
  osem k := k.elim
  ho := Pipeline.OwnSemFacts.none _
  hbody c := (body_obligation11 (adm11 m hO h11) (Ven11 m hO) c).loose
  hwaits := Pipeline.hwaits_of_owed_zero _ _ _ _ L lv 11 fun _ _ => rfl
  pre c := iprop(StableHlo.held (c : Thread nD τ) (Pipeline.ucRefs τ sig) (Wen11 m hO c) ∗ R c)
  post c := iprop(Tₙ m hO h11 c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre11 c (fun _ => fullShare) (tbl11 m hO))
  Z c := Pipeline.unscopedRestP (Ix := Unit) (Name := ℕ) (U := UR sig nD τ) (Lvl := ℕ) pre11 spec11 c (Ven11 m hO c)
  hentry c := by
    rw [Pipeline.ownSems0_none]
    have hsplit := Pipeline.arrays_of_unscopedBufs (p := 11) (pcfgs (F := F)) (adm m hO h11) (pdats m hO h11) (launch11 (F := F)).win (launch11 (F := F)).arr_whole c
      ((pdats m hO h11 11 c).share_full fun _ => rfl) (Ven11 m hO c) fun _ => rfl
    rw [Pipeline.unscopedBufs_held, rest11_split m hO h11 c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin11 (adm11 m hO h11) (Ven11 m hO) c
  hout c := by
    rw [Pipeline.ownSems0_none]
    refine (hout11 (adm11 m hO h11) (Ven11 m hO) c).trans ?_
    iintro ⟨HY, Hr⟩
    isplitl [HY]; · iexact HY
    isplitr; · iempintro
    iexact Hr
  hexit c := by
    have hjoin := Pipeline.unscopedBufs_of_arrays (p := 11) (pcfgs (F := F)) (adm m hO h11) (Ix := Unit) (Name := ℕ) (U := UR sig nD τ) (Lvl := ℕ)
      (launch11 (F := F)).win (launch11 (F := F)).arr_whole c (pdats m hO h11) ((pdats m hO h11 11 c).share_full fun _ => rfl)
      (Ven11 m hO c) (fun b => Wex11 m hO h11 c b) ((pdats m hO h11 11 c).arrAt · (cfg11 (adm11 m hO h11)).N) (fun w => (Wex11_arr m hO h11 c w).symm)
      fun b hb => Wex11_of_ne m hO h11 c b fun w e => hb (Finset.mem_image.mpr ⟨w, Finset.mem_univ _, e⟩)
    rw [Pipeline.unscopedBufs_held, rest11_split m hO h11 c] at hjoin
    iintro ⟨Ha, HO, ⟨HY, Ht⟩, Hrest⟩
    imodintro
    isplitl [Ha Hrest Ht HY]
    · isplitl [Ha Hrest Ht]
      · iapply hjoin; isplitl [Ha]; · iexact Ha
        isplitl [Ht]; · iexact Ht
        iexact Hrest
      iexact HY
    unfold Pipeline.Dat.owesAt Pipeline.owesWithin
    icases HO with ⟨%W, -, HO⟩; iexists W; iexact HO

end Cert.KernelIdeal.Hand

end
-- ==== Proof.KI.Main.lean ====
import proofs.«418389_j13280038879631_2_alg».proof.Proof.KI.Seg0
import proofs.«418389_j13280038879631_2_alg».proof.Proof.KI.Seg1
import proofs.«418389_j13280038879631_2_alg».proof.Proof.KI.Seg2
import proofs.«418389_j13280038879631_2_alg».proof.Proof.KI.Seg3
import proofs.«418389_j13280038879631_2_alg».proof.Proof.KI.Seg4
import proofs.«418389_j13280038879631_2_alg».proof.Proof.KI.Seg5
import proofs.«418389_j13280038879631_2_alg».proof.Proof.KI.Seg6
import proofs.«418389_j13280038879631_2_alg».proof.Proof.KI.Seg7
import proofs.«418389_j13280038879631_2_alg».proof.Proof.KI.Seg8
import proofs.«418389_j13280038879631_2_alg».proof.Proof.KI.Seg9
import proofs.«418389_j13280038879631_2_alg».proof.Proof.KI.Seg10
import proofs.«418389_j13280038879631_2_alg».proof.Proof.KI.Seg11
import proofs.«418389_j13280038879631_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok0 m) (h11 : Ok11 m hO)

abbrev segs : List (Pipeline.Seg (pcfgs (F := F)) (adm m hO h11) (pdats m hO h11) () defs₀ 𝒱₀ L lv) :=
  [ .host (hseg hostOps0 hostOps0_sub hostOps0_fresh (W0 m)),
    .region (reg0 m hO h11),
    .region (reg1 m hO h11),
    .host (hseg hostOps2 hostOps2_sub hostOps2_fresh (Wex1 m hO)),
    .region (reg2 m hO h11),
    .host (hseg hostOps3 hostOps3_sub hostOps3_fresh (Wex2 m hO)),
    .region (reg3 m hO h11),
    .host (hseg hostOps4 hostOps4_sub hostOps4_fresh (Wex3 m hO)),
    .region (reg4 m hO h11),
    .host (hseg hostOps5 hostOps5_sub hostOps5_fresh (Wex4 m hO)),
    .region (reg5 m hO h11),
    .host (hseg hostOps6 hostOps6_sub hostOps6_fresh (Wex5 m hO)),
    .region (reg6 m hO h11),
    .host (hseg hostOps7 hostOps7_sub hostOps7_fresh (Wex6 m hO)),
    .region (reg7 m hO h11),
    .host (hseg hostOps8 hostOps8_sub hostOps8_fresh (Wex7 m hO)),
    .region (reg8 m hO h11),
    .host (hseg hostOps9 hostOps9_sub hostOps9_fresh (Wex8 m hO)),
    .region (reg9 m hO h11),
    .host (hseg hostOps10 hostOps10_sub hostOps10_fresh (Wex9 m hO)),
    .region (reg10 m hO h11),
    .host (hseg hostOps11 hostOps11_sub hostOps11_fresh (Wex10 m hO)),
    .region (reg11 m hO h11) ]

theorem main_run (c : Dev nD) : main (F := F) c = Pipeline.Seg.run (segs m hO h11) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wex11 m hO h11 c b) :=
  Pipeline.θ_run_regions_kit (pcfgs (F := F)) (adm m hO h11) (pdats m hO h11) () (cellOf_inj (adm m hO h11)) emb₁ defs₀ 𝒱₀ L lv m ρ main (segs m hO h11)
    (fun c Q => by rw [main_run m hO h11 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO h11)) (cellOf_inj (adm m hO h11))) (Pipeline.launchToks (Pipeline.pin (pcfgs (F := F)) (adm m hO h11)) (cellOf_inj (adm m hO h11))))
    (hu₀ := by
      iintro Hu; imodintro
      isplitl [Hu]
      · iapply (show (ownU (initOf (Pipeline.cells (Pipeline.pin (pcfgs (F := F)) (adm m hO h11)) (cellOf_inj (adm m hO h11))) (Pipeline.launchToks (Pipeline.pin (pcfgs (F := F)) (adm m hO h11)) (cellOf_inj (adm m hO h11)))) : sProp 𝕄)
            ⊢ BI.own (emb₁ (initOf (Pipeline.cells (Pipeline.pin (pcfgs (F := F)) (adm m hO h11)) (cellOf_inj (adm m hO h11))) (Pipeline.launchToks (Pipeline.pin (pcfgs (F := F)) (adm m hO h11)) (cellOf_inj (adm m hO h11))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO h11)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wex11 m hO h11 c b)
    (hfin := fun c s' => by
      iintro ⟨⟨Hh, -⟩, HSI⟩
      unfold StableHlo.held
      imodintro
      iapply (pointsTo_read_all (Pipeline.ucRefs τ sig) (fun b => (((c : Thread nD τ)).1, b)) (Wex11 m hO h11 c) s')
      isplitl [Hh] <;> iassumption)
    (hQ := fun s h c => h c)

end Cert.KernelIdeal.Hand

end
-- ==== Proof.KI.Keep.lean ====
import proofs.«418389_j13280038879631_2_alg».proof.Proof.KI.Val11

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (hO : Ok0 m) (h11 : Ok11 m hO)

theorem keep_mid (c : Dev nD) (b : Ref sig .tc)
    (h : ((∀ w, Pipeline.arrRef spec10 w ≠ b) ∧ b ∉ hostOps10_W) ∧
      ((∀ w, Pipeline.arrRef spec9 w ≠ b) ∧ b ∉ hostOps9_W) ∧
      ((∀ w, Pipeline.arrRef spec8 w ≠ b) ∧ b ∉ hostOps8_W) ∧
      ((∀ w, Pipeline.arrRef spec7 w ≠ b) ∧ b ∉ hostOps7_W) ∧
      ((∀ w, Pipeline.arrRef spec6 w ≠ b) ∧ b ∉ hostOps6_W) ∧
      ((∀ w, Pipeline.arrRef spec5 w ≠ b) ∧ b ∉ hostOps5_W) ∧
      ((∀ w, Pipeline.arrRef spec4 w ≠ b) ∧ b ∉ hostOps4_W) ∧
      ((∀ w, Pipeline.arrRef spec3 w ≠ b) ∧ b ∉ hostOps3_W) ∧
      ((∀ w, Pipeline.arrRef spec2 w ≠ b) ∧ b ∉ hostOps2_W)) :
    Wex10 m hO c (Proc.devRef .tc b) = Wex1 m hO c (Proc.devRef .tc b) := by
  obtain ⟨⟨a10, k10⟩, ⟨a9, k9⟩, ⟨a8, k8⟩, ⟨a7, k7⟩, ⟨a6, k6⟩, ⟨a5, k5⟩, ⟨a4, k4⟩, ⟨a3, k3⟩, ⟨a2, k2⟩⟩ := h
  exact (Wex10_of_ne m hO c b a10).trans <| (Wen10_keep m hO c b k10).trans <|
    (Wex9_of_ne m hO c b a9).trans <| (Wen9_keep m hO c b k9).trans <|
    (Wex8_of_ne m hO c b a8).trans <| (Wen8_keep m hO c b k8).trans <|
    (Wex7_of_ne m hO c b a7).trans <| (Wen7_keep m hO c b k7).trans <|
    (Wex6_of_ne m hO c b a6).trans <| (Wen6_keep m hO c b k6).trans <|
    (Wex5_of_ne m hO c b a5).trans <| (Wen5_keep m hO c b k5).trans <|
    (Wex4_of_ne m hO c b a4).trans <| (Wen4_keep m hO c b k4).trans <|
    (Wex3_of_ne m hO c b a3).trans <| (Wen3_keep m hO c b k3).trans <|
    (Wex2_of_ne m hO c b a2).trans <| (Wen2_keep m hO c b k2)

theorem keep_arg0 (c : Dev nD) : Wex11 m hO h11 c (Proc.devRef .tc main_arg0) = m (c, Proc.devRef .tc main_arg0) :=
  (Wex11_of_ne m hO h11 c main_arg0 (by decide)).trans <|
  (Wen11_keep m hO c main_arg0 (by decide)).trans <|
  (keep_mid m hO c main_arg0 (by decide)).trans <|
  (Wex1_of_ne m hO c main_arg0 (by decide)).trans <|
  (Wex0_of_ne m hO c main_arg0 (by decide)).trans <|
  Wen0_keep m c main_arg0 (by decide)

theorem keep_arg1 (c : Dev nD) : Wex11 m hO h11 c (Proc.devRef .tc main_arg1) = m (c, Proc.devRef .tc main_arg1) :=
  (Wex11_of_ne m hO h11 c main_arg1 (by decide)).trans <|
  (Wen11_keep m hO c main_arg1 (by decide)).trans <|
  (keep_mid m hO c main_arg1 (by decide)).trans <|
  (Wex1_of_ne m hO c main_arg1 (by decide)).trans <|
  (Wex0_of_ne m hO c main_arg1 (by decide)).trans <|
  Wen0_keep m c main_arg1 (by decide)

theorem keep_arg2 (c : Dev nD) : Wex11 m hO h11 c (Proc.devRef .tc main_arg2) = m (c, Proc.devRef .tc main_arg2) :=
  (Wex11_of_ne m hO h11 c main_arg2 (by decide)).trans <|
  (Wen11_keep m hO c main_arg2 (by decide)).trans <|
  (keep_mid m hO c main_arg2 (by decide)).trans <|
  (Wex1_in m hO c 2 rfl).trans <|
  (Wex0_of_ne m hO c main_arg2 (by decide)).trans <|
  Wen0_keep m c main_arg2 (by decide)

theorem keep_arg3 (c : Dev nD) : Wex11 m hO h11 c (Proc.devRef .tc main_arg3) = m (c, Proc.devRef .tc main_arg3) :=
  (Wex11_of_ne m hO h11 c main_arg3 (by decide)).trans <|
  (Wen11_keep m hO c main_arg3 (by decide)).trans <|
  (keep_mid m hO c main_arg3 (by decide)).trans <|
  (Wex1_of_ne m hO c main_arg3 (by decide)).trans <|
  (Wex0_of_ne m hO c main_arg3 (by decide)).trans <|
  Wen0_keep m c main_arg3 (by decide)

theorem keep_arg4 (c : Dev nD) : Wex11 m hO h11 c (Proc.devRef .tc main_arg4) = m (c, Proc.devRef .tc main_arg4) :=
  (Wex11_of_ne m hO h11 c main_arg4 (by decide)).trans <|
  (Wen11_keep m hO c main_arg4 (by decide)).trans <|
  (Wex10_in m hO c 3 rfl).trans <|
  (Wen10_keep m hO c main_arg4 (by decide)).trans <|
  (Wex9_in m hO c 3 rfl).trans <|
  (Wen9_keep m hO c main_arg4 (by decide)).trans <|
  (Wex8_in m hO c 3 rfl).trans <|
  (Wen8_keep m hO c main_arg4 (by decide)).trans <|
  (Wex7_in m hO c 3 rfl).trans <|
  (Wen7_keep m hO c main_arg4 (by decide)).trans <|
  (Wex6_in m hO c 3 rfl).trans <|
  (Wen6_keep m hO c main_arg4 (by decide)).trans <|
  (Wex5_in m hO c 3 rfl).trans <|
  (Wen5_keep m hO c main_arg4 (by decide)).trans <|
  (Wex4_in m hO c 3 rfl).trans <|
  (Wen4_keep m hO c main_arg4 (by decide)).trans <|
  (Wex3_in m hO c 3 rfl).trans <|
  (Wen3_keep m hO c main_arg4 (by decide)).trans <|
  (Wex2_in m hO c 3 rfl).trans <|
  (Wen2_keep m hO c main_arg4 (by decide)).trans <|
  (Wex1_of_ne m hO c main_arg4 (by decide)).trans <|
  (Wex0_of_ne m hO c main_arg4 (by decide)).trans <|
  Wen0_keep m c main_arg4 (by decide)

theorem keep_arg5 (c : Dev nD) : Wex11 m hO h11 c (Proc.devRef .tc main_arg5) = m (c, Proc.devRef .tc main_arg5) :=
  (Wex11_of_ne m hO h11 c main_arg5 (by decide)).trans <|
  (Wen11_keep m hO c main_arg5 (by decide)).trans <|
  (keep_mid m hO c main_arg5 (by decide)).trans <|
  (Wex1_of_ne m hO c main_arg5 (by decide)).trans <|
  (Wex0_of_ne m hO c main_arg5 (by decide)).trans <|
  Wen0_keep m c main_arg5 (by decide)

theorem keep_c (c : Dev nD) : Wen11 m hO c (Proc.devRef .tc main_c) = Wen0 m c (Proc.devRef .tc main_c) :=
  (Wen11_keep m hO c main_c (by decide)).trans <|
  (keep_mid m hO c main_c (by decide)).trans <|
  (Wex1_of_ne m hO c main_c (by decide)).trans <|
  Wex0_of_ne m hO c main_c (by decide)

end Cert.KernelIdeal.Hand

end
-- ==== Proof.KI.TableFacts.lean ====
import proofs.«418389_j13280038879631_2_alg».proof.Proof.Gen.KernelIdeal.Launch
import Idealize.ShloMosaic.Lib.StableHlo.Run
import Idealize.ShloMosaic.Lib.ValueIdx
import Idealize.ShloMosaic.Lib.Pipeline.Value

set_option maxRecDepth 1108

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

theorem ok0_of_lt (pf : pre0.Contents (Elt F)) (h : ∀ j : S65472.Idx, (pf 0 j).toNat < 65472) : ok0 (F := F) pf := by
  intro i
  refine ⟨?_, Or.inl rfl⟩
  intro a
  have hw := h ((Rect.unit (s := S65472) ![(Scalar.indexCast (BitVec.ofNat 32 (i 0).val)).toNat] S1.size (Facts₀.k0_off1_inb i)).emb
    (Shape.Idx.first (Facts₀.numel1_S1.symm ▸ Nat.one_pos)))
  match a with
  | ⟨0, _⟩ => exact (Nat.mul_one _).le.trans hw
  | ⟨1, _⟩ => show (0 + 1) * 1 ≤ 1; omega
  | ⟨2, _⟩ => show (0 + 1) * 256 ≤ 256; omega

theorem ok11_of_lt (pf : pre11.Contents (Elt F)) (h : ∀ j : S1023.Idx, (pf 0 j).toNat < 1023) : ok11 (F := F) pf := by
  intro i
  refine ⟨?_, Or.inl rfl⟩
  intro a
  have hw := h ((Rect.unit (s := S1023) ![(Scalar.indexCast (BitVec.ofNat 32 (i 0).val)).toNat] S1.size (Facts₀.k11_off1_inb i)).emb
    (Shape.Idx.first (Facts₀.numel1_S1.symm ▸ Nat.one_pos)))
  match a with
  | ⟨0, _⟩ => exact (Nat.mul_one _).le.trans hw
  | ⟨1, _⟩ => show (0 + 1) * 64 ≤ 64; omega
  | ⟨2, _⟩ => show (0 + 1) * 256 ≤ 256; omega

theorem lit0_lt : ∀ i : Fin 1023, (lit0 i).toNat < 1023 := by decide

theorem pos_lt (j : S65472.Idx) : (j 0).val < 65472 := (j 0).isLt

open Idealize.ShloMosaic.ValueIdx in

theorem hostOps0_v0 (W : Valuation τ sig (Elt F)) (j : S65472.Idx) :
    StableHlo.after hostOps0 W (Proc.devRef .tc main_v0) j
      = W (Proc.devRef .tc main_arg5) (ix2 (n0 := 1023) (n1 := 64) ⟨(j 0).val / 64, by have h := pos_lt j; show _ < 1023; omega⟩
          ⟨(j 0).val % 64, Nat.mod_lt _ (by omega)⟩) := by
  have e : StableHlo.after hostOps0 W (Proc.devRef .tc main_v0)
      = shapeCast S65472 (W (Proc.devRef .tc main_arg5)) Facts₀.shapeCasts_S1023x64_S65472 := by
    after_results
    rfl
  rw [e]
  refine shapeCast_apply (s := S1023x64) (t := S65472) _ _ j _ ?_
  rw [Shape.rowMajor_val_two, Shape.rowMajor_val_one]
  show (j 0).val / 64 * 64 + (j 0).val % 64 = (j 0).val
  omega

theorem hostOps0_c (W : Valuation τ sig (Elt F)) :
    StableHlo.after hostOps0 W (Proc.devRef .tc main_c) = fun i => lit0 (S1023.rowMajor i) := by
  after_results
  rfl

end Cert.KernelIdeal.Hand

end
-- ==== Proof.KI.Oks.lean ====
import proofs.«418389_j13280038879631_2_alg».proof.Proof.KI.Keep
import proofs.«418389_j13280038879631_2_alg».proof.Proof.KI.TableFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx in

theorem ok0_of_ids (h : ∀ i : S1023x64.Idx, (m ((0 : Dev nD), Proc.devRef .tc main_arg5) i).toNat < 65472) : Ok0 m :=
  ok0_of_lt (tbl0 m) fun j =>
    lt_of_eq_of_lt (congrArg BitVec.toNat (hostOps0_v0 (W0 m (0 : Dev nD)) j)) (h _)

theorem tbl11_eq (hO : Ok0 m) : tbl11 m hO 0 = fun i => lit0 (S1023.rowMajor i) :=
  (keep_c m hO (0 : Dev nD)).trans (hostOps0_c (W0 m (0 : Dev nD)))

theorem ok11_holds (hO : Ok0 m) : Ok11 m hO :=
  ok11_of_lt (tbl11 m hO) fun j =>
    lt_of_eq_of_lt (congrArg BitVec.toNat (congrFun (tbl11_eq m hO) j)) (lit0_lt _)

end Cert.KernelIdeal.Hand

end
-- ==== Proof.KI.Frame.lean ====
import proofs.«418389_j13280038879631_2_alg».proof.Proof.KI.Main
import proofs.«418389_j13280038879631_2_alg».proof.Proof.KI.Oks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_vals (hids : ∀ i : S1023x64.Idx, (m ((0 : Dev nD), Proc.devRef .tc main_arg5) i).toNat < 65472) :
    θ_run defs (onTc (τ := τ) (main (F := F))) ⟨m, fun _ => 0, ρ⟩ (fun r => ∀ c : Dev nD,
      r.2.mem ((c.tc : Thread nD τ).loc main_v43_0) = Wex11 m (ok0_of_ids m hids) (ok11_holds m (ok0_of_ids m hids)) c (Proc.devRef .tc main_v43_0)
      ∧ r.2.mem ((c.tc : Thread nD τ).loc main_v43_1) = Wex11 m (ok0_of_ids m hids) (ok11_holds m (ok0_of_ids m hids)) c (Proc.devRef .tc main_v43_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v43_0 (by decide)), h c _ (mem_uc main_v43_1 (by decide)),
     (h c _ (mem_uc main_arg0 (by decide))).trans (keep_arg0 m (ok0_of_ids m hids) (ok11_holds m (ok0_of_ids m hids)) c),
     (h c _ (mem_uc main_arg1 (by decide))).trans (keep_arg1 m (ok0_of_ids m hids) (ok11_holds m (ok0_of_ids m hids)) c),
     (h c _ (mem_uc main_arg2 (by decide))).trans (keep_arg2 m (ok0_of_ids m hids) (ok11_holds m (ok0_of_ids m hids)) c),
     (h c _ (mem_uc main_arg3 (by decide))).trans (keep_arg3 m (ok0_of_ids m hids) (ok11_holds m (ok0_of_ids m hids)) c),
     (h c _ (mem_uc main_arg4 (by decide))).trans (keep_arg4 m (ok0_of_ids m hids) (ok11_holds m (ok0_of_ids m hids)) c),
     (h c _ (mem_uc main_arg5 (by decide))).trans (keep_arg5 m (ok0_of_ids m hids) (ok11_holds m (ok0_of_ids m hids)) c)⟩)
    (run_all m ρ (ok0_of_ids m hids) (ok11_holds m (ok0_of_ids m hids)))

theorem frame_of_ids (hids : ∀ i : S1023x64.Idx, (m ((0 : Dev nD), Proc.devRef .tc main_arg5) i).toNat < 65472) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2.2) (run_vals m ρ hids)

end Cert.KernelIdeal.Hand

end
-- ==== Proof.KI.IdsRange.lean ====
import proofs.«418389_j13280038879631_2_alg».proof.Pre_finite_inputs
import proofs.«418389_j13280038879631_2_alg».proof.Proof.Gen.Pre_finite_inputs
import Idealize.ShloMosaic.Lib.StableHlo.Predicate
import Idealize.ShloMosaic.Lib.ReduceAll
import Idealize.ShloMosaic.Lib.ValueIdx

noncomputable section

namespace Cert.Pre_finite_inputs.Hand

open Cert.Pre_finite_inputs
open Idealize.ShloMosaic Idealize.ShloMosaic.ValueIdx

instance subsingleton_S_ : Subsingleton S_.Idx := ⟨fun a b => funext fun d => d.elim0⟩

theorem toInt_range (w : BitVec 32) (h0 : IntOp.cmpi .sge w (0#32) = 1#1) (h1 : IntOp.cmpi .slt w (65472#32) = 1#1) :
    0 ≤ w.toInt ∧ w.toInt < 65472 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (65472#32 : BitVec 32).toInt = 65472 := by decide
  rw [e0] at h0
  rw [e1] at h1
  exact ⟨h0, h1⟩

theorem toNat_lt (w : BitVec 32) (h0 : IntOp.cmpi .sge w (0#32) = 1#1) (h1 : IntOp.cmpi .slt w (65472#32) = 1#1) :
    w.toNat < 65472 := by
  obtain ⟨g0, g1⟩ := toInt_range w h0 h1
  have h32 := w.isLt
  unfold BitVec.toInt at g0 g1
  split at g1 <;> omega

variable {F : FTy → Type} [FloatOps F] [Facts]

theorem ids_cmp (a0 : FVec F S65472x256 .f32) (a1 : FVec F S256x256 .f32) (a2 : FVec F S256 .f32)
    (a3 : FVec F S256x256 .f32) (a4 : FVec F S256 .f32) (a5 : IVec S1023x64 32)
    (h : fn a0 a1 a2 a3 a4 a5 = (fun _ => 1#1)) (i : S1023x64.Idx) :
    IntOp.cmpi .sge (a5 i) (0#32) = 1#1 ∧ IntOp.cmpi .slt (a5 i) (65472#32) = 1#1 := by
  have e := congrFun h ix0
  dsimp only [fn, fn_part1] at e
  have e29 := (IntOp.andi_eq_one.1 e).2
  have e28 := Host.reduce_andi_all _ _ _ _ _ e29 i
  exact IntOp.andi_eq_one.1 e28

theorem ids_lt (a0 : FVec F S65472x256 .f32) (a1 : FVec F S256x256 .f32) (a2 : FVec F S256 .f32)
    (a3 : FVec F S256x256 .f32) (a4 : FVec F S256 .f32) (a5 : IVec S1023x64 32)
    (h : fn a0 a1 a2 a3 a4 a5 = (fun _ => 1#1)) : ∀ i : S1023x64.Idx, (a5 i).toNat < 65472 := fun i =>
  toNat_lt (a5 i) (ids_cmp a0 a1 a2 a3 a4 a5 h i).1 (ids_cmp a0 a1 a2 a3 a4 a5 h i).2

theorem ids_toInt (a0 : FVec F S65472x256 .f32) (a1 : FVec F S256x256 .f32) (a2 : FVec F S256 .f32)
    (a3 : FVec F S256x256 .f32) (a4 : FVec F S256 .f32) (a5 : IVec S1023x64 32)
    (h : fn a0 a1 a2 a3 a4 a5 = (fun _ => 1#1)) : ∀ i : S1023x64.Idx, 0 ≤ (a5 i).toInt ∧ (a5 i).toInt < 65472 := fun i =>
  toInt_range (a5 i) (ids_cmp a0 a1 a2 a3 a4 a5 h i).1 (ids_cmp a0 a1 a2 a3 a4 a5 h i).2

end Cert.Pre_finite_inputs.Hand

end
-- ==== Proof.Ref.Run.lean ====
import proofs.«418389_j13280038879631_2_alg».proof.Proof.Gen.ReferenceIdeal
import Idealize.ShloMosaic.Lib.StableHlo.Run
import Idealize.ShloMosaic.Lib.Pipeline.Frame
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsLin : List (HloOp τ sig (Elt F)) :=
  [ StableHlo.nullary main_c (fun i => lit0 (S1023.rowMajor i)),
    StableHlo.nullary main_c_0 (constantI S1023 1 0#1),
    StableHlo.nullary main_c_1 (constantI S_ 32 0#32),
    StableHlo.unary main_c_1 main_v0 (broadcastInDim S1023x64 ![] bcast_S_S1023x64),
    StableHlo.binary main_arg5 main_v0 main_v1 (cmpi .slt),
    StableHlo.nullary main_c_2 (constantI S_ 32 65472#32),
    StableHlo.unary main_c_2 main_v2 (broadcastInDim S1023x64 ![] bcast_S_S1023x64),
    StableHlo.binary main_arg5 main_v2 main_v3 addi,
    StableHlo.ternary main_v1 main_v3 main_arg5 main_v4 select,
    StableHlo.unary main_v4 main_v5 (broadcastInDim S1023x64x1 ![0, 1] bcast_S1023x64_S1023x64x1_0_1),
    StableHlo.binary main_arg0 main_v5 main_v6 (Host.gather gather_S65472x256_S1023x64x1_S1023x64x256_2_0_n_n_0_2_1256),
    StableHlo.binary main_v6 main_arg1 main_v7 (Host.dotGeneral dot_S1023x64x256_S256x256_S1023x64x256_2_1_01_0_n_n none),
    StableHlo.unary main_arg2 main_v8 (broadcastInDim S1x1x256 ![2] bcast_S256_S1x1x256_2),
    StableHlo.unary main_v8 main_v9 (broadcastInDim S1023x64x256 ![0, 1, 2] bcast_S1x1x256_S1023x64x256_0_1_2),
    StableHlo.binary main_v7 main_v9 main_v10 addf ]

abbrev opsLvl1 : List (HloOp τ sig (Elt F)) :=
  [ StableHlo.unary main_v10 main_v11 (extractStridedSlice S512x64x256 ![511, 0, 0] · slices_S1023x64x256_S512x64x256_511_0_0),
    StableHlo.binary main_v11 main_arg3 main_v12 (Host.dotGeneral dot_S512x64x256_S256x256_S512x64x256_2_1_01_0_n_n none),
    StableHlo.unary main_arg4 main_v13 (broadcastInDim S1x1x256 ![2] bcast_S256_S1x1x256_2),
    StableHlo.unary main_v13 main_v14 (broadcastInDim S512x64x256 ![0, 1, 2] bcast_S1x1x256_S512x64x256_0_1_2),
    StableHlo.binary main_v12 main_v14 main_v15 addf,
    StableHlo.reshape main_v15 main_v16 rfl shapeCasts_S512x64x256_S256x2x64x256,
    StableHlo.nullary main_cst (constant S_ .f32 0x00000000#32),
    StableHlo.binary main_v16 main_cst main_v17 (fun x v => Host.reduceAdd x v reducesTo_S256x2x64x256_S256x64x256_d1 h_S_),
    StableHlo.nullary main_c_3 (constantI S_ 32 255#32),
    StableHlo.unary main_c_3 main_v18 (broadcastInDim S1 ![] bcast_S_S1),
    StableHlo.ternary main_v10 main_v18 main_v17 main_v19 (Host.scatter scatter_S1023x64x256_S1_S256x64x256_012_n_0_0 FloatOps.addf) ]

abbrev opsLvl2 : List (HloOp τ sig (Elt F)) :=
  [ StableHlo.unary main_v19 main_v20 (extractStridedSlice S256x64x256 ![255, 0, 0] · slices_S1023x64x256_S256x64x256_255_0_0),
    StableHlo.binary main_v20 main_arg3 main_v21 (Host.dotGeneral dot_S256x64x256_S256x256_S256x64x256_2_1_01_0_n_n none),
    StableHlo.unary main_arg4 main_v22 (broadcastInDim S1x1x256 ![2] bcast_S256_S1x1x256_2),
    StableHlo.unary main_v22 main_v23 (broadcastInDim S256x64x256 ![0, 1, 2] bcast_S1x1x256_S256x64x256_0_1_2),
    StableHlo.binary main_v21 main_v23 main_v24 addf,
    StableHlo.reshape main_v24 main_v25 rfl shapeCasts_S256x64x256_S128x2x64x256,
    StableHlo.nullary main_cst_4 (constant S_ .f32 0x00000000#32),
    StableHlo.binary main_v25 main_cst_4 main_v26 (fun x v => Host.reduceAdd x v reducesTo_S128x2x64x256_S128x64x256_d1 h_S_),
    StableHlo.nullary main_c_5 (constantI S_ 32 127#32),
    StableHlo.unary main_c_5 main_v27 (broadcastInDim S1 ![] bcast_S_S1),
    StableHlo.ternary main_v19 main_v27 main_v26 main_v28 (Host.scatter scatter_S1023x64x256_S1_S128x64x256_012_n_0_0 FloatOps.addf) ]

abbrev opsLvl3 : List (HloOp τ sig (Elt F)) :=
  [ StableHlo.unary main_v28 main_v29 (extractStridedSlice S128x64x256 ![127, 0, 0] · slices_S1023x64x256_S128x64x256_127_0_0),
    StableHlo.binary main_v29 main_arg3 main_v30 (Host.dotGeneral dot_S128x64x256_S256x256_S128x64x256_2_1_01_0_n_n none),
    StableHlo.unary main_arg4 main_v31 (broadcastInDim S1x1x256 ![2] bcast_S256_S1x1x256_2),
    StableHlo.unary main_v31 main_v32 (broadcastInDim S128x64x256 ![0, 1, 2] bcast_S1x1x256_S128x64x256_0_1_2),
    StableHlo.binary main_v30 main_v32 main_v33 addf,
    StableHlo.reshape main_v33 main_v34 rfl shapeCasts_S128x64x256_S64x2x64x256,
    StableHlo.nullary main_cst_6 (constant S_ .f32 0x00000000#32),
    StableHlo.binary main_v34 main_cst_6 main_v35 (fun x v => Host.reduceAdd x v reducesTo_S64x2x64x256_S64x64x256_d1 h_S_),
    StableHlo.nullary main_c_7 (constantI S_ 32 63#32),
    StableHlo.unary main_c_7 main_v36 (broadcastInDim S1 ![] bcast_S_S1),
    StableHlo.ternary main_v28 main_v36 main_v35 main_v37 (Host.scatter scatter_S1023x64x256_S1_S64x64x256_012_n_0_0 FloatOps.addf) ]

abbrev opsLvl4 : List (HloOp τ sig (Elt F)) :=
  [ StableHlo.unary main_v37 main_v38 (extractStridedSlice S64x64x256 ![63, 0, 0] · slices_S1023x64x256_S64x64x256_63_0_0),
    StableHlo.binary main_v38 main_arg3 main_v39 (Host.dotGeneral dot_S64x64x256_S256x256_S64x64x256_2_1_01_0_n_n none),
    StableHlo.unary main_arg4 main_v40 (broadcastInDim S1x1x256 ![2] bcast_S256_S1x1x256_2),
    StableHlo.unary main_v40 main_v41 (broadcastInDim S64x64x256 ![0, 1, 2] bcast_S1x1x256_S64x64x256_0_1_2),
    StableHlo.binary main_v39 main_v41 main_v42 addf,
    StableHlo.reshape main_v42 main_v43 rfl shapeCasts_S64x64x256_S32x2x64x256,
    StableHlo.nullary main_cst_8 (constant S_ .f32 0x00000000#32),
    StableHlo.binary main_v43 main_cst_8 main_v44 (fun x v => Host.reduceAdd x v reducesTo_S32x2x64x256_S32x64x256_d1 h_S_),
    StableHlo.nullary main_c_9 (constantI S_ 32 31#32),
    StableHlo.unary main_c_9 main_v45 (broadcastInDim S1 ![] bcast_S_S1),
    StableHlo.ternary main_v37 main_v45 main_v44 main_v46 (Host.scatter scatter_S1023x64x256_S1_S32x64x256_012_n_0_0 FloatOps.addf) ]

abbrev opsLvl5 : List (HloOp τ sig (Elt F)) :=
  [ StableHlo.unary main_v46 main_v47 (extractStridedSlice S32x64x256 ![31, 0, 0] · slices_S1023x64x256_S32x64x256_31_0_0),
    StableHlo.binary main_v47 main_arg3 main_v48 (Host.dotGeneral dot_S32x64x256_S256x256_S32x64x256_2_1_01_0_n_n none),
    StableHlo.unary main_arg4 main_v49 (broadcastInDim S1x1x256 ![2] bcast_S256_S1x1x256_2),
    StableHlo.unary main_v49 main_v50 (broadcastInDim S32x64x256 ![0, 1, 2] bcast_S1x1x256_S32x64x256_0_1_2),
    StableHlo.binary main_v48 main_v50 main_v51 addf,
    StableHlo.reshape main_v51 main_v52 rfl shapeCasts_S32x64x256_S16x2x64x256,
    StableHlo.nullary main_cst_10 (constant S_ .f32 0x00000000#32),
    StableHlo.binary main_v52 main_cst_10 main_v53 (fun x v => Host.reduceAdd x v reducesTo_S16x2x64x256_S16x64x256_d1 h_S_),
    StableHlo.nullary main_c_11 (constantI S_ 32 15#32),
    StableHlo.unary main_c_11 main_v54 (broadcastInDim S1 ![] bcast_S_S1),
    StableHlo.ternary main_v46 main_v54 main_v53 main_v55 (Host.scatter scatter_S1023x64x256_S1_S16x64x256_012_n_0_0 FloatOps.addf) ]

abbrev opsLvl6 : List (HloOp τ sig (Elt F)) :=
  [ StableHlo.unary main_v55 main_v56 (extractStridedSlice S16x64x256 ![15, 0, 0] · slices_S1023x64x256_S16x64x256_15_0_0),
    StableHlo.binary main_v56 main_arg3 main_v57 (Host.dotGeneral dot_S16x64x256_S256x256_S16x64x256_2_1_01_0_n_n none),
    StableHlo.unary main_arg4 main_v58 (broadcastInDim S1x1x256 ![2] bcast_S256_S1x1x256_2),
    StableHlo.unary main_v58 main_v59 (broadcastInDim S16x64x256 ![0, 1, 2] bcast_S1x1x256_S16x64x256_0_1_2),
    StableHlo.binary main_v57 main_v59 main_v60 addf,
    StableHlo.reshape main_v60 main_v61 rfl shapeCasts_S16x64x256_S8x2x64x256,
    StableHlo.nullary main_cst_12 (constant S_ .f32 0x00000000#32),
    StableHlo.binary main_v61 main_cst_12 main_v62 (fun x v => Host.reduceAdd x v reducesTo_S8x2x64x256_S8x64x256_d1 h_S_),
    StableHlo.nullary main_c_13 (constantI S_ 32 7#32),
    StableHlo.unary main_c_13 main_v63 (broadcastInDim S1 ![] bcast_S_S1),
    StableHlo.ternary main_v55 main_v63 main_v62 main_v64 (Host.scatter scatter_S1023x64x256_S1_S8x64x256_012_n_0_0 FloatOps.addf) ]

abbrev opsLvl7 : List (HloOp τ sig (Elt F)) :=
  [ StableHlo.unary main_v64 main_v65 (extractStridedSlice S8x64x256 ![7, 0, 0] · slices_S1023x64x256_S8x64x256_7_0_0),
    StableHlo.binary main_v65 main_arg3 main_v66 (Host.dotGeneral dot_S8x64x256_S256x256_S8x64x256_2_1_01_0_n_n none),
    StableHlo.unary main_arg4 main_v67 (broadcastInDim S1x1x256 ![2] bcast_S256_S1x1x256_2),
    StableHlo.unary main_v67 main_v68 (broadcastInDim S8x64x256 ![0, 1, 2] bcast_S1x1x256_S8x64x256_0_1_2),
    StableHlo.binary main_v66 main_v68 main_v69 addf,
    StableHlo.reshape main_v69 main_v70 rfl shapeCasts_S8x64x256_S4x2x64x256,
    StableHlo.nullary main_cst_14 (constant S_ .f32 0x00000000#32),
    StableHlo.binary main_v70 main_cst_14 main_v71 (fun x v => Host.reduceAdd x v reducesTo_S4x2x64x256_S4x64x256_d1 h_S_),
    StableHlo.nullary main_c_15 (constantI S_ 32 3#32),
    StableHlo.unary main_c_15 main_v72 (broadcastInDim S1 ![] bcast_S_S1),
    StableHlo.ternary main_v64 main_v72 main_v71 main_v73 (Host.scatter scatter_S1023x64x256_S1_S4x64x256_012_n_0_0 FloatOps.addf) ]

abbrev opsLvl8 : List (HloOp τ sig (Elt F)) :=
  [ StableHlo.unary main_v73 main_v74 (extractStridedSlice S4x64x256 ![3, 0, 0] · slices_S1023x64x256_S4x64x256_3_0_0),
    StableHlo.binary main_v74 main_arg3 main_v75 (Host.dotGeneral dot_S4x64x256_S256x256_S4x64x256_2_1_01_0_n_n none),
    StableHlo.unary main_arg4 main_v76 (broadcastInDim S1x1x256 ![2] bcast_S256_S1x1x256_2),
    StableHlo.unary main_v76 main_v77 (broadcastInDim S4x64x256 ![0, 1, 2] bcast_S1x1x256_S4x64x256_0_1_2),
    StableHlo.binary main_v75 main_v77 main_v78 addf,
    StableHlo.reshape main_v78 main_v79 rfl shapeCasts_S4x64x256_S2x2x64x256,
    StableHlo.nullary main_cst_16 (constant S_ .f32 0x00000000#32),
    StableHlo.binary main_v79 main_cst_16 main_v80 (fun x v => Host.reduceAdd x v reducesTo_S2x2x64x256_S2x64x256_d1 h_S_),
    StableHlo.nullary main_c_17 (constantI S_ 32 1#32),
    StableHlo.unary main_c_17 main_v81 (broadcastInDim S1 ![] bcast_S_S1),
    StableHlo.ternary main_v73 main_v81 main_v80 main_v82 (Host.scatter scatter_S1023x64x256_S1_S2x64x256_012_n_0_0 FloatOps.addf) ]

abbrev opsLvl9 : List (HloOp τ sig (Elt F)) :=
  [ StableHlo.unary main_v82 main_v83 (extractStridedSlice S2x64x256 ![1, 0, 0] · slices_S1023x64x256_S2x64x256_1_0_0),
    StableHlo.binary main_v83 main_arg3 main_v84 (Host.dotGeneral dot_S2x64x256_S256x256_S2x64x256_2_1_01_0_n_n none),
    StableHlo.unary main_arg4 main_v85 (broadcastInDim S1x1x256 ![2] bcast_S256_S1x1x256_2),
    StableHlo.unary main_v85 main_v86 (broadcastInDim S2x64x256 ![0, 1, 2] bcast_S1x1x256_S2x64x256_0_1_2),
    StableHlo.binary main_v84 main_v86 main_v87 addf,
    StableHlo.reshape main_v87 main_v88 rfl shapeCasts_S2x64x256_S1x2x64x256,
    StableHlo.nullary main_cst_18 (constant S_ .f32 0x00000000#32),
    StableHlo.binary main_v88 main_cst_18 main_v89 (fun x v => Host.reduceAdd x v reducesTo_S1x2x64x256_S1x64x256_d1 h_S_),
    StableHlo.nullary main_c_19 (constantI S_ 32 0#32),
    StableHlo.unary main_c_19 main_v90 (broadcastInDim S1 ![] bcast_S_S1),
    StableHlo.ternary main_v82 main_v90 main_v89 main_v91 (Host.scatter scatter_S1023x64x256_S1_S1x64x256_012_n_0_0 FloatOps.addf) ]

abbrev opsFin : List (HloOp τ sig (Elt F)) :=
  [ StableHlo.nullary main_c_20 (constantI S_ 32 1023#32),
    StableHlo.unary main_c_20 main_v92 (broadcastInDim S1023 ![] bcast_S_S1023),
    StableHlo.binary main_c main_v92 main_v93 addi,
    StableHlo.ternary main_c_0 main_v93 main_c main_v94 select,
    StableHlo.unary main_v94 main_v95 (broadcastInDim S1023x1 ![0] bcast_S1023_S1023x1_0),
    StableHlo.binary main_v91 main_v95 main_v96 (Host.gather gather_S1023x64x256_S1023x1_S1023x64x256_12_0_n_n_0_1_164256),
    StableHlo.TRef.nullary main_call0.cst (constant S_ .f32 0x00000000#32),
    StableHlo.TRef.unary main_call0.cst main_call0.v0 (broadcastInDim S1023x64x256 ![] bcast_S_S1023x64x256),
    StableHlo.TRef.binary (.of main_v96 : StableHlo.TRef sig ⟨S1023x64x256, .f32⟩) main_call0.v0 main_call0.v1 maximumf,
    StableHlo.nullary main_cst_21 (constant S_ .f32 0xFF800000#32),
    StableHlo.binary main_v97 main_cst_21 main_v98 (fun x v => Host.reduce FloatOps.maximumf x v reducesTo_S1023x64x256_S64x256_d0 h_S_) ]

abbrev ops : List (HloOp τ sig (Elt F)) :=
  opsLin ++ (opsLvl1 ++ (opsLvl2 ++ (opsLvl3 ++ (opsLvl4 ++ (opsLvl5 ++ (opsLvl6 ++ (opsLvl7 ++ (opsLvl8 ++ (opsLvl9 ++ (opsFin))))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append, List.Forall, nullary_bufs_sub, unary_bufs_sub, binary_bufs_sub, ternary_bufs_sub, reshape_bufs_sub, and_self]

theorem ops_fresh : ∀ op ∈ (ops : List (HloOp τ sig (Elt F))), op.fresh = ∅ := by
  simp only [ops, List.forall_mem_append]
  refine ⟨?_, ?_, ?_, ?_, ?_, ?_, ?_, ?_, ?_, ?_, ?_⟩ <;> (intro _ h; (repeat (cases h with | head => rfl | tail _ h => ?_)); exact nomatch h)

theorem run (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, ∀ b : Ref sig .tc, ¬ (Proc.devRef .tc b : DevRef τ sig).isScoped →
        r.2.mem ((c.tc : Thread nD τ).loc b) = after ops (fun b => m (c, b)) (Proc.devRef .tc b)) :=
  (θ_run defs _ _).mono (fun _ h c b _ => h c b)
    (run_seq scopedRefs_eq scopedSems_eq defs main (fun _ => ops) main_eq (fun _ => ops_sub) m ρ (fun _ => ops_fresh))

def tbl : (⟨S1023, .i32⟩ : BufTy).Contents (Elt F) := fun i => lit0 (S1023.rowMajor i)

def msk : (⟨S1023, .i1⟩ : BufTy).Contents (Elt F) := constantI S1023 1 0#1

section Terms

variable (a0 : (⟨S65472x256, .f32⟩ : BufTy).Contents (Elt F)) (a1 : (⟨S256x256, .f32⟩ : BufTy).Contents (Elt F)) (a2 : (⟨S256, .f32⟩ : BufTy).Contents (Elt F))
  (h : (⟨S1023x64x256, .f32⟩ : BufTy).Contents (Elt F)) (a3 : (⟨S256x256, .f32⟩ : BufTy).Contents (Elt F)) (a4 : (⟨S256, .f32⟩ : BufTy).Contents (Elt F)) (a5 : (⟨S1023x64, .i32⟩ : BufTy).Contents (Elt F))

def lin : (⟨S1023x64x256, .f32⟩ : BufTy).Contents (Elt F) :=
  addf (Host.dotGeneral dot_S1023x64x256_S256x256_S1023x64x256_2_1_01_0_n_n none
      (Host.gather gather_S65472x256_S1023x64x1_S1023x64x256_2_0_n_n_0_2_1256 a0 (broadcastInDim S1023x64x1 ![0, 1] bcast_S1023x64_S1023x64x1_0_1
        (select (cmpi .slt a5 (broadcastInDim S1023x64 ![] bcast_S_S1023x64 (constantI S_ 32 0#32)))
          (addi a5 (broadcastInDim S1023x64 ![] bcast_S_S1023x64 (constantI S_ 32 65472#32))) a5))) a1)
    (broadcastInDim S1023x64x256 ![0, 1, 2] bcast_S1x1x256_S1023x64x256_0_1_2 (broadcastInDim S1x1x256 ![2] bcast_S256_S1x1x256_2 a2))

def lvl1 : (⟨S1023x64x256, .f32⟩ : BufTy).Contents (Elt F) :=
  Host.scatter scatter_S1023x64x256_S1_S256x64x256_012_n_0_0 FloatOps.addf h (broadcastInDim S1 ![] bcast_S_S1 (constantI S_ 32 255#32))
    (Host.reduceAdd (shapeCast S256x2x64x256 (addf (Host.dotGeneral dot_S512x64x256_S256x256_S512x64x256_2_1_01_0_n_n none
      (extractStridedSlice S512x64x256 ![511, 0, 0] h slices_S1023x64x256_S512x64x256_511_0_0) a3)
      (broadcastInDim S512x64x256 ![0, 1, 2] bcast_S1x1x256_S512x64x256_0_1_2 (broadcastInDim S1x1x256 ![2] bcast_S256_S1x1x256_2 a4)))
      shapeCasts_S512x64x256_S256x2x64x256) (constant S_ .f32 0x00000000#32) reducesTo_S256x2x64x256_S256x64x256_d1 h_S_)

def lvl2 : (⟨S1023x64x256, .f32⟩ : BufTy).Contents (Elt F) :=
  Host.scatter scatter_S1023x64x256_S1_S128x64x256_012_n_0_0 FloatOps.addf h (broadcastInDim S1 ![] bcast_S_S1 (constantI S_ 32 127#32))
    (Host.reduceAdd (shapeCast S128x2x64x256 (addf (Host.dotGeneral dot_S256x64x256_S256x256_S256x64x256_2_1_01_0_n_n none
      (extractStridedSlice S256x64x256 ![255, 0, 0] h slices_S1023x64x256_S256x64x256_255_0_0) a3)
      (broadcastInDim S256x64x256 ![0, 1, 2] bcast_S1x1x256_S256x64x256_0_1_2 (broadcastInDim S1x1x256 ![2] bcast_S256_S1x1x256_2 a4)))
      shapeCasts_S256x64x256_S128x2x64x256) (constant S_ .f32 0x00000000#32) reducesTo_S128x2x64x256_S128x64x256_d1 h_S_)

def lvl3 : (⟨S1023x64x256, .f32⟩ : BufTy).Contents (Elt F) :=
  Host.scatter scatter_S1023x64x256_S1_S64x64x256_012_n_0_0 FloatOps.addf h (broadcastInDim S1 ![] bcast_S_S1 (constantI S_ 32 63#32))
    (Host.reduceAdd (shapeCast S64x2x64x256 (addf (Host.dotGeneral dot_S128x64x256_S256x256_S128x64x256_2_1_01_0_n_n none
      (extractStridedSlice S128x64x256 ![127, 0, 0] h slices_S1023x64x256_S128x64x256_127_0_0) a3)
      (broadcastInDim S128x64x256 ![0, 1, 2] bcast_S1x1x256_S128x64x256_0_1_2 (broadcastInDim S1x1x256 ![2] bcast_S256_S1x1x256_2 a4)))
      shapeCasts_S128x64x256_S64x2x64x256) (constant S_ .f32 0x00000000#32) reducesTo_S64x2x64x256_S64x64x256_d1 h_S_)

def lvl4 : (⟨S1023x64x256, .f32⟩ : BufTy).Contents (Elt F) :=
  Host.scatter scatter_S1023x64x256_S1_S32x64x256_012_n_0_0 FloatOps.addf h (broadcastInDim S1 ![] bcast_S_S1 (constantI S_ 32 31#32))
    (Host.reduceAdd (shapeCast S32x2x64x256 (addf (Host.dotGeneral dot_S64x64x256_S256x256_S64x64x256_2_1_01_0_n_n none
      (extractStridedSlice S64x64x256 ![63, 0, 0] h slices_S1023x64x256_S64x64x256_63_0_0) a3)
      (broadcastInDim S64x64x256 ![0, 1, 2] bcast_S1x1x256_S64x64x256_0_1_2 (broadcastInDim S1x1x256 ![2] bcast_S256_S1x1x256_2 a4)))
      shapeCasts_S64x64x256_S32x2x64x256) (constant S_ .f32 0x00000000#32) reducesTo_S32x2x64x256_S32x64x256_d1 h_S_)

def lvl5 : (⟨S1023x64x256, .f32⟩ : BufTy).Contents (Elt F) :=
  Host.scatter scatter_S1023x64x256_S1_S16x64x256_012_n_0_0 FloatOps.addf h (broadcastInDim S1 ![] bcast_S_S1 (constantI S_ 32 15#32))
    (Host.reduceAdd (shapeCast S16x2x64x256 (addf (Host.dotGeneral dot_S32x64x256_S256x256_S32x64x256_2_1_01_0_n_n none
      (extractStridedSlice S32x64x256 ![31, 0, 0] h slices_S1023x64x256_S32x64x256_31_0_0) a3)
      (broadcastInDim S32x64x256 ![0, 1, 2] bcast_S1x1x256_S32x64x256_0_1_2 (broadcastInDim S1x1x256 ![2] bcast_S256_S1x1x256_2 a4)))
      shapeCasts_S32x64x256_S16x2x64x256) (constant S_ .f32 0x00000000#32) reducesTo_S16x2x64x256_S16x64x256_d1 h_S_)

def lvl6 : (⟨S1023x64x256, .f32⟩ : BufTy).Contents (Elt F) :=
  Host.scatter scatter_S1023x64x256_S1_S8x64x256_012_n_0_0 FloatOps.addf h (broadcastInDim S1 ![] bcast_S_S1 (constantI S_ 32 7#32))
    (Host.reduceAdd (shapeCast S8x2x64x256 (addf (Host.dotGeneral dot_S16x64x256_S256x256_S16x64x256_2_1_01_0_n_n none
      (extractStridedSlice S16x64x256 ![15, 0, 0] h slices_S1023x64x256_S16x64x256_15_0_0) a3)
      (broadcastInDim S16x64x256 ![0, 1, 2] bcast_S1x1x256_S16x64x256_0_1_2 (broadcastInDim S1x1x256 ![2] bcast_S256_S1x1x256_2 a4)))
      shapeCasts_S16x64x256_S8x2x64x256) (constant S_ .f32 0x00000000#32) reducesTo_S8x2x64x256_S8x64x256_d1 h_S_)

def lvl7 : (⟨S1023x64x256, .f32⟩ : BufTy).Contents (Elt F) :=
  Host.scatter scatter_S1023x64x256_S1_S4x64x256_012_n_0_0 FloatOps.addf h (broadcastInDim S1 ![] bcast_S_S1 (constantI S_ 32 3#32))
    (Host.reduceAdd (shapeCast S4x2x64x256 (addf (Host.dotGeneral dot_S8x64x256_S256x256_S8x64x256_2_1_01_0_n_n none
      (extractStridedSlice S8x64x256 ![7, 0, 0] h slices_S1023x64x256_S8x64x256_7_0_0) a3)
      (broadcastInDim S8x64x256 ![0, 1, 2] bcast_S1x1x256_S8x64x256_0_1_2 (broadcastInDim S1x1x256 ![2] bcast_S256_S1x1x256_2 a4)))
      shapeCasts_S8x64x256_S4x2x64x256) (constant S_ .f32 0x00000000#32) reducesTo_S4x2x64x256_S4x64x256_d1 h_S_)

def lvl8 : (⟨S1023x64x256, .f32⟩ : BufTy).Contents (Elt F) :=
  Host.scatter scatter_S1023x64x256_S1_S2x64x256_012_n_0_0 FloatOps.addf h (broadcastInDim S1 ![] bcast_S_S1 (constantI S_ 32 1#32))
    (Host.reduceAdd (shapeCast S2x2x64x256 (addf (Host.dotGeneral dot_S4x64x256_S256x256_S4x64x256_2_1_01_0_n_n none
      (extractStridedSlice S4x64x256 ![3, 0, 0] h slices_S1023x64x256_S4x64x256_3_0_0) a3)
      (broadcastInDim S4x64x256 ![0, 1, 2] bcast_S1x1x256_S4x64x256_0_1_2 (broadcastInDim S1x1x256 ![2] bcast_S256_S1x1x256_2 a4)))
      shapeCasts_S4x64x256_S2x2x64x256) (constant S_ .f32 0x00000000#32) reducesTo_S2x2x64x256_S2x64x256_d1 h_S_)

def lvl9 : (⟨S1023x64x256, .f32⟩ : BufTy).Contents (Elt F) :=
  Host.scatter scatter_S1023x64x256_S1_S1x64x256_012_n_0_0 FloatOps.addf h (broadcastInDim S1 ![] bcast_S_S1 (constantI S_ 32 0#32))
    (Host.reduceAdd (shapeCast S1x2x64x256 (addf (Host.dotGeneral dot_S2x64x256_S256x256_S2x64x256_2_1_01_0_n_n none
      (extractStridedSlice S2x64x256 ![1, 0, 0] h slices_S1023x64x256_S2x64x256_1_0_0) a3)
      (broadcastInDim S2x64x256 ![0, 1, 2] bcast_S1x1x256_S2x64x256_0_1_2 (broadcastInDim S1x1x256 ![2] bcast_S256_S1x1x256_2 a4)))
      shapeCasts_S2x64x256_S1x2x64x256) (constant S_ .f32 0x00000000#32) reducesTo_S1x2x64x256_S1x64x256_d1 h_S_)

def finOf (tbl : (⟨S1023, .i32⟩ : BufTy).Contents (Elt F)) (msk : (⟨S1023, .i1⟩ : BufTy).Contents (Elt F)) : (⟨S1023x64x256, .f32⟩ : BufTy).Contents (Elt F) :=
  maximumf (Host.gather gather_S1023x64x256_S1023x1_S1023x64x256_12_0_n_n_0_1_164256 h (broadcastInDim S1023x1 ![0] bcast_S1023_S1023x1_0
      (select msk (addi tbl (broadcastInDim S1023 ![] bcast_S_S1023 (constantI S_ 32 1023#32))) tbl)))
    (broadcastInDim S1023x64x256 ![] bcast_S_S1023x64x256 (constant S_ .f32 0x00000000#32))

def fin : (⟨S1023x64x256, .f32⟩ : BufTy).Contents (Elt F) := finOf h tbl msk

def rowMax : (⟨S64x256, .f32⟩ : BufTy).Contents (Elt F) :=
  Host.reduce FloatOps.maximumf h (constant S_ .f32 0xFF800000#32) reducesTo_S1023x64x256_S64x256_d0 h_S_

def h9 : (⟨S1023x64x256, .f32⟩ : BufTy).Contents (Elt F) :=
  lvl9 (lvl8 (lvl7 (lvl6 (lvl5 (lvl4 (lvl3 (lvl2 (lvl1 (lin a0 a1 a2 a5) a3 a4) a3 a4) a3 a4) a3 a4) a3 a4) a3 a4) a3 a4) a3 a4) a3 a4

def res97 : (⟨S1023x64x256, .f32⟩ : BufTy).Contents (Elt F) := fin (h9 a0 a1 a2 a3 a4 a5)

def res98 : (⟨S64x256, .f32⟩ : BufTy).Contents (Elt F) := rowMax (res97 a0 a1 a2 a3 a4 a5)

end Terms

abbrev WritesIn (W : List (Ref sig .tc)) (l : List (HloOp τ sig (Elt F))) : Prop :=
  l.Forall fun op => op.writes ⊆ (W.map (Proc.devRef (τ := τ) .tc)).toFinset

theorem writes_in {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

-- A reference outside a list holding every reference a line writes keeps its contents along the line.
theorem keep {W : List (Ref sig .tc)} {l : List (HloOp τ sig (Elt F))} (hW : WritesIn W l) (V : Valuation τ sig (Elt F)) {r : Ref sig .tc} (h : r ∉ W) :
    after l V (no_index (Proc.devRef .tc r)) = V (Proc.devRef .tc r) := after_of_writes_sub l V hW h

abbrev W0 : List (Ref sig .tc) :=
  [main_c, main_c_0, main_c_1, main_v0, main_v1, main_c_2, main_v2, main_v3, main_v4, main_v5, main_v6, main_v7, main_v8, main_v9, main_v10]

abbrev W1 : List (Ref sig .tc) :=
  [main_v11, main_v12, main_v13, main_v14, main_v15, main_v16, main_cst, main_v17, main_c_3, main_v18, main_v19, main_v20, main_v21, main_v22, main_v23,
    main_v24, main_v25, main_cst_4, main_v26, main_c_5, main_v27, main_v28, main_v29, main_v30, main_v31, main_v32, main_v33, main_v34, main_cst_6,
    main_v35, main_c_7, main_v36, main_v37, main_v38, main_v39, main_v40, main_v41, main_v42, main_v43, main_cst_8, main_v44, main_c_9, main_v45,
    main_v46, main_v47, main_v48, main_v49, main_v50, main_v51, main_v52, main_cst_10, main_v53, main_c_11, main_v54, main_v55, main_v56, main_v57,
    main_v58, main_v59, main_v60, main_v61, main_cst_12, main_v62, main_c_13, main_v63, main_v64, main_v65, main_v66, main_v67, main_v68, main_v69,
    main_v70, main_cst_14, main_v71, main_c_15, main_v72, main_v73, main_v74, main_v75, main_v76, main_v77, main_v78, main_v79, main_cst_16, main_v80,
    main_c_17, main_v81, main_v82, main_v83, main_v84, main_v85, main_v86, main_v87, main_v88, main_cst_18, main_v89, main_c_19, main_v90, main_v91,
    main_c_20, main_v92, main_v93, main_v94, main_v95, main_v96, main_call0_cst, main_call0_v0, main_v97, main_cst_21, main_v98]

theorem wLin : WritesIn W0 (opsLin (F := F)) := by refine ⟨?_, ?_, ?_, ?_, ?_, ?_, ?_, ?_, ?_, ?_, ?_, ?_, ?_, ?_, ?_⟩ <;> exact writes_in (by decide)
theorem w1 : WritesIn W1 (opsLvl1 (F := F)) := by refine ⟨?_, ?_, ?_, ?_, ?_, ?_, ?_, ?_, ?_, ?_, ?_⟩ <;> exact writes_in (by decide)
theorem w2 : WritesIn W1 (opsLvl2 (F := F)) := by refine ⟨?_, ?_, ?_, ?_, ?_, ?_, ?_, ?_, ?_, ?_, ?_⟩ <;> exact writes_in (by decide)
theorem w3 : WritesIn W1 (opsLvl3 (F := F)) := by refine ⟨?_, ?_, ?_, ?_, ?_, ?_, ?_, ?_, ?_, ?_, ?_⟩ <;> exact writes_in (by decide)
theorem w4 : WritesIn W1 (opsLvl4 (F := F)) := by refine ⟨?_, ?_, ?_, ?_, ?_, ?_, ?_, ?_, ?_, ?_, ?_⟩ <;> exact writes_in (by decide)
theorem w5 : WritesIn W1 (opsLvl5 (F := F)) := by refine ⟨?_, ?_, ?_, ?_, ?_, ?_, ?_, ?_, ?_, ?_, ?_⟩ <;> exact writes_in (by decide)
theorem w6 : WritesIn W1 (opsLvl6 (F := F)) := by refine ⟨?_, ?_, ?_, ?_, ?_, ?_, ?_, ?_, ?_, ?_, ?_⟩ <;> exact writes_in (by decide)
theorem w7 : WritesIn W1 (opsLvl7 (F := F)) := by refine ⟨?_, ?_, ?_, ?_, ?_, ?_, ?_, ?_, ?_, ?_, ?_⟩ <;> exact writes_in (by decide)
theorem w8 : WritesIn W1 (opsLvl8 (F := F)) := by refine ⟨?_, ?_, ?_, ?_, ?_, ?_, ?_, ?_, ?_, ?_, ?_⟩ <;> exact writes_in (by decide)
theorem w9 : WritesIn W1 (opsLvl9 (F := F)) := by refine ⟨?_, ?_, ?_, ?_, ?_, ?_, ?_, ?_, ?_, ?_, ?_⟩ <;> exact writes_in (by decide)
theorem wFin : WritesIn W1 (opsFin (F := F)) := by refine ⟨?_, ?_, ?_, ?_, ?_, ?_, ?_, ?_, ?_, ?_, ?_⟩ <;> exact writes_in (by decide)

theorem lin_tbl (V : Valuation τ sig (Elt F)) : after opsLin V (no_index (Proc.devRef .tc main_c)) = tbl := by
  simp only [opsLin]; after_results_simp; rfl
theorem lin_msk (V : Valuation τ sig (Elt F)) : after opsLin V (no_index (Proc.devRef .tc main_c_0)) = msk := by
  simp only [opsLin]; after_results_simp; rfl
theorem lin_run (V : Valuation τ sig (Elt F)) : after opsLin V (no_index (Proc.devRef .tc main_v10)) = lin (V (Proc.devRef .tc main_arg0)) (V (Proc.devRef .tc main_arg1)) (V (Proc.devRef .tc main_arg2)) (V (Proc.devRef .tc main_arg5)) := by
  simp only [opsLin]; after_results_simp; rfl
theorem lvl1_run (V : Valuation τ sig (Elt F)) : after opsLvl1 V (no_index (Proc.devRef .tc main_v19)) = lvl1 (V (Proc.devRef .tc main_v10)) (V (Proc.devRef .tc main_arg3)) (V (Proc.devRef .tc main_arg4)) := by
  simp only [opsLvl1]; after_results_simp; rfl
theorem lvl2_run (V : Valuation τ sig (Elt F)) : after opsLvl2 V (no_index (Proc.devRef .tc main_v28)) = lvl2 (V (Proc.devRef .tc main_v19)) (V (Proc.devRef .tc main_arg3)) (V (Proc.devRef .tc main_arg4)) := by
  simp only [opsLvl2]; after_results_simp; rfl
theorem lvl3_run (V : Valuation τ sig (Elt F)) : after opsLvl3 V (no_index (Proc.devRef .tc main_v37)) = lvl3 (V (Proc.devRef .tc main_v28)) (V (Proc.devRef .tc main_arg3)) (V (Proc.devRef .tc main_arg4)) := by
  simp only [opsLvl3]; after_results_simp; rfl
theorem lvl4_run (V : Valuation τ sig (Elt F)) : after opsLvl4 V (no_index (Proc.devRef .tc main_v46)) = lvl4 (V (Proc.devRef .tc main_v37)) (V (Proc.devRef .tc main_arg3)) (V (Proc.devRef .tc main_arg4)) := by
  simp only [opsLvl4]; after_results_simp; rfl
theorem lvl5_run (V : Valuation τ sig (Elt F)) : after opsLvl5 V (no_index (Proc.devRef .tc main_v55)) = lvl5 (V (Proc.devRef .tc main_v46)) (V (Proc.devRef .tc main_arg3)) (V (Proc.devRef .tc main_arg4)) := by
  simp only [opsLvl5]; after_results_simp; rfl
theorem lvl6_run (V : Valuation τ sig (Elt F)) : after opsLvl6 V (no_index (Proc.devRef .tc main_v64)) = lvl6 (V (Proc.devRef .tc main_v55)) (V (Proc.devRef .tc main_arg3)) (V (Proc.devRef .tc main_arg4)) := by
  simp only [opsLvl6]; after_results_simp; rfl
theorem lvl7_run (V : Valuation τ sig (Elt F)) : after opsLvl7 V (no_index (Proc.devRef .tc main_v73)) = lvl7 (V (Proc.devRef .tc main_v64)) (V (Proc.devRef .tc main_arg3)) (V (Proc.devRef .tc main_arg4)) := by
  simp only [opsLvl7]; after_results_simp; rfl
theorem lvl8_run (V : Valuation τ sig (Elt F)) : after opsLvl8 V (no_index (Proc.devRef .tc main_v82)) = lvl8 (V (Proc.devRef .tc main_v73)) (V (Proc.devRef .tc main_arg3)) (V (Proc.devRef .tc main_arg4)) := by
  simp only [opsLvl8]; after_results_simp; rfl
theorem lvl9_run (V : Valuation τ sig (Elt F)) : after opsLvl9 V (no_index (Proc.devRef .tc main_v91)) = lvl9 (V (Proc.devRef .tc main_v82)) (V (Proc.devRef .tc main_arg3)) (V (Proc.devRef .tc main_arg4)) := by
  simp only [opsLvl9]; after_results_simp; rfl
theorem fin_run (V : Valuation τ sig (Elt F)) : after opsFin V (no_index (Proc.devRef .tc main_v97)) = finOf (V (Proc.devRef .tc main_v91)) (V (Proc.devRef .tc main_c)) (V (Proc.devRef .tc main_c_0)) := by
  simp only [opsFin]; after_results_simp; rfl
theorem max_run (V : Valuation τ sig (Elt F)) : after opsFin V (no_index (Proc.devRef .tc main_v98)) = rowMax (finOf (V (Proc.devRef .tc main_v91)) (V (Proc.devRef .tc main_c)) (V (Proc.devRef .tc main_c_0))) := by
  simp only [opsFin]; after_results_simp; rfl

theorem res_eq (V : Valuation τ sig (Elt F)) : after ops V (Proc.devRef .tc main_v97) = res97 (V (Proc.devRef .tc main_arg0)) (V (Proc.devRef .tc main_arg1)) (V (Proc.devRef .tc main_arg2)) (V (Proc.devRef .tc main_arg3)) (V (Proc.devRef .tc main_arg4)) (V (Proc.devRef .tc main_arg5)) ∧ after ops V (Proc.devRef .tc main_v98) = res98 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp (disch := decide) only [ops, after_append, fin_run, max_run, lvl9_run, lvl8_run, lvl7_run, lvl6_run, lvl5_run, lvl4_run, lvl3_run, lvl2_run, lvl1_run,
    lin_run, lin_tbl, lin_msk, keep w9, keep w8, keep w7, keep w6, keep w5, keep w4, keep w3, keep w2, keep w1, keep wLin]
  exact ⟨rfl, rfl⟩
-- No operation writes an argument.
theorem arg_eq (V : Valuation τ sig (Elt F)) {r : Ref sig .tc} (h0 : r ∉ W0) (h1 : r ∉ W1) : after ops V (Proc.devRef .tc r) = V (Proc.devRef .tc r) := by
  simp only [ops, after_append, keep wFin _ h1, keep w9 _ h1, keep w8 _ h1, keep w7 _ h1, keep w6 _ h1, keep w5 _ h1, keep w4 _ h1, keep w3 _ h1,
    keep w2 _ h1, keep w1 _ h1, keep wLin _ h0]

theorem run_results (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v97) = res97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v98) = res98 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v97).trans (res_eq _).1, (h c main_v98).trans (res_eq _).2,
      (h c main_arg0).trans (arg_eq _ (by decide) (by decide)), (h c main_arg1).trans (arg_eq _ (by decide) (by decide)),
      (h c main_arg2).trans (arg_eq _ (by decide) (by decide)), (h c main_arg3).trans (arg_eq _ (by decide) (by decide)),
      (h c main_arg4).trans (arg_eq _ (by decide) (by decide)), (h c main_arg5).trans (arg_eq _ (by decide) (by decide))⟩)
    (run_seq scopedRefs_eq scopedSems_eq defs main (fun _ => ops) main_eq (fun _ => ops_sub) m ρ (fun _ => ops_fresh))

theorem frame_ref (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2.2) (run_results m ρ)

end Cert.ReferenceIdeal.Hand

end
-- ==== Proof.KI.Path1.lean ====
import proofs.«418389_j13280038879631_2_alg».proof.Proof.KI.Val2
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

theorem keep1_w (c : Dev nD) : Wen2 m hO c (Proc.devRef .tc main_v2) = Wen0 m c (Proc.devRef .tc main_v2) :=
  (Wen2_keep m hO c main_v2 (by decide)).trans
    ((Wex1_of_ne m hO c main_v2 (by decide)).trans (Wex0_of_ne m hO c main_v2 (by decide)))

theorem keep1_b (c : Dev nD) : Wen2 m hO c (Proc.devRef .tc main_arg4) = Wen0 m c (Proc.devRef .tc main_arg4) :=
  (Wen2_keep m hO c main_arg4 (by decide)).trans
    ((Wex1_of_ne m hO c main_arg4 (by decide)).trans (Wex0_of_ne m hO c main_arg4 (by decide)))

theorem b0 (c : Dev nD) : Wen0 m c (Proc.devRef .tc main_arg4) = m (c, Proc.devRef .tc main_arg4) :=
  Wen0_keep m c main_arg4 (by decide)

theorem w0 (c : Dev nD) :
    Wen0 m c (Proc.devRef .tc main_v2)
      = (transpose S256x256 [1, 0] (m (c, Proc.devRef .tc main_arg3)) transposes_S256x256_S256x256_1_0 : Vec F S256x256 .f32) := by
  show StableHlo.after hostOps0 (W0 m c) (Proc.devRef .tc main_v2) = _
  after_results

end Cert.KernelIdeal.Hand

end
-- ==== Proof.KI.Reg2Value.lean ====
import proofs.«418389_j13280038879631_2_alg».proof.Proof.KI.Reg2
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (64 : ℕ)
local notation "parRows" => (32 : ℕ)
local notation "kidAll" => (512 : ℕ)
local notation "parAll" => (256 : ℕ)
local notation "nPts" => (8 : ℕ)

variable (V : (c : Dev nD) → (b : Ref sig .tc) → Buf (Elt F) ((c : Thread nD τ).loc b))

theorem kidRow2_lt (r j : ℕ) (hr : r < parAll) (hj : j < kidRows) : r / parRows * kidRows + j < kidAll := by omega

theorem parRow2_lt (r j : ℕ) (hr : r < parAll) (hj : j < parRows) : r / parRows * parRows + j < parAll := by omega

def treeOut2 (kids : Vec F S512x64x256 .f32) (par : Vec F S256x64x256 .f32) (w : Vec F S256x256 .f32) (b : Vec F S256 .f32) :
    Vec F S256x64x256 .f32 := fun i =>
  k2_pay1
    (fun j => kids (ValueIdx.ix3 ⟨(i 0).val / parRows * kidRows + (j 0).val, kidRow2_lt _ _ (i 0).isLt (j 0).isLt⟩ (j 1) (j 2)))
    w b
    (fun j => par (ValueIdx.ix3 ⟨(i 0).val / parRows * parRows + (j 0).val, parRow2_lt _ _ (i 0).isLt (j 0).isLt⟩ (j 1) (j 2)))
    (ValueIdx.ix3 ⟨(i 0).val % parRows, Nat.mod_lt _ (by decide)⟩ (i 1) (i 2))

theorem idx_facts2 : ∀ t : Fin cfg2.N,
    win2_4.index t (0 : Fin 3) = t.val ∧ win2_4.index t (1 : Fin 3) = 0 ∧ win2_4.index t (2 : Fin 3) = 0
    ∧ win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ (∀ a, win2_2.index t a = 0) ∧ ∀ a, win2_3.index t a = 0 :=
  (by decide +kernel : ∀ t : Fin grid2.N, _)

-- Row y of block t is row t * parRows + y of the output; its children and parents are block t of their arrays.
theorem flushed2_eq (c : Dev nD) (t : Fin cfg2.N) :
    (dat2 V c).flushed 4 t = ((cfg2.win 4).blk t).view.read (Elt F) (treeOut2 (V c main_v7) (V c main_v8) (V c main_v2) (V c main_arg4)) := by
  show (cfg2.win 4).cut (grid2.coords t) ((dat2 V c).after 4 t) = _
  rw [after2_4, out2_4_eq]
  obtain ⟨o0, o1, o2, k0, k1, k2, p0, p1, p2, w0, b0⟩ := idx_facts2 t
  funext y
  rw [View.read_apply]
  unfold treeOut2
  have hy0 : (y 0).val < parRows := (y 0).isLt
  show k2_pay1 _ _ _ _ _ = k2_pay1 _ _ _ _ _
  refine congr (congr (congr (congr (congrArg k2_pay1 ?_) ?_) ?_) ?_) ?_
  · funext j
    refine congrArg (V c main_v7) (funext fun a => Fin.ext ?_)
    match a with
    | ⟨0, _⟩ => show win2_0.index t (0 : Fin 3) * kidRows + 1 * (j 0).val = (win2_4.index t (0 : Fin 3) * parRows + 1 * (y 0).val) / parRows * kidRows + (j 0).val; omega
    | ⟨1, _⟩ => exact win2_0.rect_emb_val_of_index_zero t 1 k1 j
    | ⟨2, _⟩ => exact win2_0.rect_emb_val_of_index_zero t 2 k2 j
  · exact funext fun j => congrArg (V c main_v2) (funext fun a => Fin.ext (win2_2.rect_emb_val_of_index_zero t a (w0 a) j))
  · exact funext fun j => congrArg (V c main_arg4) (funext fun a => Fin.ext (win2_3.rect_emb_val_of_index_zero t a (b0 a) j))
  · funext j
    refine congrArg (V c main_v8) (funext fun a => Fin.ext ?_)
    match a with
    | ⟨0, _⟩ => show win2_1.index t (0 : Fin 3) * parRows + 1 * (j 0).val = (win2_4.index t (0 : Fin 3) * parRows + 1 * (y 0).val) / parRows * parRows + (j 0).val; omega
    | ⟨1, _⟩ => exact win2_1.rect_emb_val_of_index_zero t 1 p1 j
    | ⟨2, _⟩ => exact win2_1.rect_emb_val_of_index_zero t 2 p2 j
  · funext a; apply Fin.ext
    match a with
    | ⟨0, _⟩ => show (y 0).val = (win2_4.index t (0 : Fin 3) * parRows + 1 * (y 0).val) % parRows; omega
    | ⟨1, _⟩ => exact (win2_4.rect_emb_val_of_index_zero t 1 o1 y).symm
    | ⟨2, _⟩ => exact (win2_4.rect_emb_val_of_index_zero t 2 o2 y).symm

-- Row r of the output lies in block r / parRows, at row r % parRows.
theorem mem_blk2 (t : Fin cfg2.N) (i : S256x64x256.Idx) (h : (i 0).val / parRows = t.val) : i ∈ ((cfg2.win 4).blk t).view.set := by
  obtain ⟨o0, o1, o2, -⟩ := idx_facts2 t
  have e : ((cfg2.win 4).blk t).view.emb (ValueIdx.ix3 ⟨(i 0).val % parRows, Nat.mod_lt _ (by decide)⟩ (i 1) (i 2)) = i := by
    funext a; apply Fin.ext
    match a with
    | ⟨0, _⟩ => show win2_4.index t (0 : Fin 3) * parRows + 1 * ((i 0).val % parRows) = (i 0).val; omega
    | ⟨1, _⟩ => exact win2_4.rect_emb_val_of_index_zero t 1 o1 _
    | ⟨2, _⟩ => exact win2_4.rect_emb_val_of_index_zero t 2 o2 _
  rw [← e]; exact View.emb_mem_set _ _

theorem final2 (c : Dev nD) :
    (dat2 V c).arrAt 4 cfg2.N = treeOut2 (V c main_v7) (V c main_v8) (V c main_v2) (V c main_arg4) :=
  (dat2 V c).arrAt_eq_of_cover 4 _ (fun t _ => flushed2_eq V c t) fun (i : S256x64x256.Idx) =>
    have hi0 : (i 0).val < parAll := (i 0).isLt
    have hN : cfg2.N = nPts := N_2
    ⟨⟨(i 0).val / parRows, by omega⟩, flush2_4 _, mem_blk2 _ i rfl⟩

end Cert.KernelIdeal.Hand

end
-- ==== Proof.KI.Path2.lean ====
import proofs.«418389_j13280038879631_2_alg».proof.Proof.KI.Val3
import proofs.«418389_j13280038879631_2_alg».proof.Proof.KI.Reg2Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start2 : Fin 3 → Int := fun k => ((![255#32, 0#32, 0#32] : Fin 3 → BitVec 32) k).toInt

-- After the level the node array is the old one with the level's output written over the parents' rows.
theorem host3_node (X : Valuation τ sig (Elt F)) :
    StableHlo.after hostOps3 X (Proc.devRef .tc main_v10)
      = Host.dynamicUpdateSlice (X (Proc.devRef .tc main_v6)) (X (Proc.devRef .tc main_v9)) start2 updateFits_S1023x64x256_S256x64x256 := by
  after_results
  refine congrArg (fun s => Host.dynamicUpdateSlice _ _ s _) (funext fun k => ?_)
  fin_cases k <;> rfl

-- The children's and the parents' rows the level reads are slices of the node array it is entered with.
theorem host2_kids (c : Dev nD) : Ven2 m hO c main_v7
    = extractStridedSlice S512x64x256 ![511, 0, 0] (Ven2 m hO c main_v6) slices_S1023x64x256_S512x64x256_511_0_0 := by
  unfold Ven2 Wen2; after_results

theorem host2_pars (c : Dev nD) : Ven2 m hO c main_v8
    = extractStridedSlice S256x64x256 ![255, 0, 0] (Ven2 m hO c main_v6) slices_S1023x64x256_S256x64x256_255_0_0 := by
  unfold Ven2 Wen2; after_results

def klevel2 (h : Vec F S1023x64x256 .f32) (w : Vec F S256x256 .f32) (b : Vec F S256 .f32) : Vec F S1023x64x256 .f32 :=
  Host.dynamicUpdateSlice h
    (treeOut2 (extractStridedSlice S512x64x256 ![511, 0, 0] h slices_S1023x64x256_S512x64x256_511_0_0)
      (extractStridedSlice S256x64x256 ![255, 0, 0] h slices_S1023x64x256_S256x64x256_255_0_0) w b)
    start2 updateFits_S1023x64x256_S256x64x256

theorem path2 (c : Dev nD) :
    Wen3 m hO c (Proc.devRef .tc main_v10)
      = klevel2 (Wen2 m hO c (Proc.devRef .tc main_v6)) (Wen2 m hO c (Proc.devRef .tc main_v2)) (Wen2 m hO c (Proc.devRef .tc main_arg4)) := by
  refine (host3_node (Wex2 m hO c)).trans ?_
  rw [Wex2_of_ne m hO c main_v6 (by decide),
    ((Wex2_arr m hO c 4).trans (final2 (Ven2 m hO) c) : Wex2 m hO c (Proc.devRef .tc main_v9) = _), host2_kids, host2_pars]
  rfl

theorem keep2_w (c : Dev nD) : Wen3 m hO c (Proc.devRef .tc main_v2) = Wen2 m hO c (Proc.devRef .tc main_v2) :=
  (Wen3_keep m hO c main_v2 (by decide)).trans (Wex2_in m hO c 2 rfl)

theorem keep2_b (c : Dev nD) : Wen3 m hO c (Proc.devRef .tc main_arg4) = Wen2 m hO c (Proc.devRef .tc main_arg4) :=
  (Wen3_keep m hO c main_arg4 (by decide)).trans (Wex2_in m hO c 3 rfl)

end Cert.KernelIdeal.Hand

end
-- ==== Proof.KI.Reg3Value.lean ====
import proofs.«418389_j13280038879631_2_alg».proof.Proof.KI.Reg3
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (64 : ℕ)
local notation "parRows" => (32 : ℕ)
local notation "kidAll" => (256 : ℕ)
local notation "parAll" => (128 : ℕ)
local notation "nPts" => (4 : ℕ)

variable (V : (c : Dev nD) → (b : Ref sig .tc) → Buf (Elt F) ((c : Thread nD τ).loc b))

theorem kidRow3_lt (r j : ℕ) (hr : r < parAll) (hj : j < kidRows) : r / parRows * kidRows + j < kidAll := by omega

theorem parRow3_lt (r j : ℕ) (hr : r < parAll) (hj : j < parRows) : r / parRows * parRows + j < parAll := by omega

def treeOut3 (kids : Vec F S256x64x256 .f32) (par : Vec F S128x64x256 .f32) (w : Vec F S256x256 .f32) (b : Vec F S256 .f32) :
    Vec F S128x64x256 .f32 := fun i =>
  k3_pay1
    (fun j => kids (ValueIdx.ix3 ⟨(i 0).val / parRows * kidRows + (j 0).val, kidRow3_lt _ _ (i 0).isLt (j 0).isLt⟩ (j 1) (j 2)))
    w b
    (fun j => par (ValueIdx.ix3 ⟨(i 0).val / parRows * parRows + (j 0).val, parRow3_lt _ _ (i 0).isLt (j 0).isLt⟩ (j 1) (j 2)))
    (ValueIdx.ix3 ⟨(i 0).val % parRows, Nat.mod_lt _ (by decide)⟩ (i 1) (i 2))

theorem idx_facts3 : ∀ t : Fin cfg3.N,
    win3_4.index t (0 : Fin 3) = t.val ∧ win3_4.index t (1 : Fin 3) = 0 ∧ win3_4.index t (2 : Fin 3) = 0
    ∧ win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ (∀ a, win3_2.index t a = 0) ∧ ∀ a, win3_3.index t a = 0 :=
  (by decide +kernel : ∀ t : Fin grid3.N, _)

-- Row y of block t is row t * parRows + y of the output; its children and parents are block t of their arrays.
theorem flushed3_eq (c : Dev nD) (t : Fin cfg3.N) :
    (dat3 V c).flushed 4 t = ((cfg3.win 4).blk t).view.read (Elt F) (treeOut3 (V c main_v11) (V c main_v12) (V c main_v2) (V c main_arg4)) := by
  show (cfg3.win 4).cut (grid3.coords t) ((dat3 V c).after 4 t) = _
  rw [after3_4, out3_4_eq]
  obtain ⟨o0, o1, o2, k0, k1, k2, p0, p1, p2, w0, b0⟩ := idx_facts3 t
  funext y
  rw [View.read_apply]
  unfold treeOut3
  have hy0 : (y 0).val < parRows := (y 0).isLt
  show k3_pay1 _ _ _ _ _ = k3_pay1 _ _ _ _ _
  refine congr (congr (congr (congr (congrArg k3_pay1 ?_) ?_) ?_) ?_) ?_
  · funext j
    refine congrArg (V c main_v11) (funext fun a => Fin.ext ?_)
    match a with
    | ⟨0, _⟩ => show win3_0.index t (0 : Fin 3) * kidRows + 1 * (j 0).val = (win3_4.index t (0 : Fin 3) * parRows + 1 * (y 0).val) / parRows * kidRows + (j 0).val; omega
    | ⟨1, _⟩ => exact win3_0.rect_emb_val_of_index_zero t 1 k1 j
    | ⟨2, _⟩ => exact win3_0.rect_emb_val_of_index_zero t 2 k2 j
  · exact funext fun j => congrArg (V c main_v2) (funext fun a => Fin.ext (win3_2.rect_emb_val_of_index_zero t a (w0 a) j))
  · exact funext fun j => congrArg (V c main_arg4) (funext fun a => Fin.ext (win3_3.rect_emb_val_of_index_zero t a (b0 a) j))
  · funext j
    refine congrArg (V c main_v12) (funext fun a => Fin.ext ?_)
    match a with
    | ⟨0, _⟩ => show win3_1.index t (0 : Fin 3) * parRows + 1 * (j 0).val = (win3_4.index t (0 : Fin 3) * parRows + 1 * (y 0).val) / parRows * parRows + (j 0).val; omega
    | ⟨1, _⟩ => exact win3_1.rect_emb_val_of_index_zero t 1 p1 j
    | ⟨2, _⟩ => exact win3_1.rect_emb_val_of_index_zero t 2 p2 j
  · funext a; apply Fin.ext
    match a with
    | ⟨0, _⟩ => show (y 0).val = (win3_4.index t (0 : Fin 3) * parRows + 1 * (y 0).val) % parRows; omega
    | ⟨1, _⟩ => exact (win3_4.rect_emb_val_of_index_zero t 1 o1 y).symm
    | ⟨2, _⟩ => exact (win3_4.rect_emb_val_of_index_zero t 2 o2 y).symm

-- Row r of the output lies in block r / parRows, at row r % parRows.
theorem mem_blk3 (t : Fin cfg3.N) (i : S128x64x256.Idx) (h : (i 0).val / parRows = t.val) : i ∈ ((cfg3.win 4).blk t).view.set := by
  obtain ⟨o0, o1, o2, -⟩ := idx_facts3 t
  have e : ((cfg3.win 4).blk t).view.emb (ValueIdx.ix3 ⟨(i 0).val % parRows, Nat.mod_lt _ (by decide)⟩ (i 1) (i 2)) = i := by
    funext a; apply Fin.ext
    match a with
    | ⟨0, _⟩ => show win3_4.index t (0 : Fin 3) * parRows + 1 * ((i 0).val % parRows) = (i 0).val; omega
    | ⟨1, _⟩ => exact win3_4.rect_emb_val_of_index_zero t 1 o1 _
    | ⟨2, _⟩ => exact win3_4.rect_emb_val_of_index_zero t 2 o2 _
  rw [← e]; exact View.emb_mem_set _ _

theorem final3 (c : Dev nD) :
    (dat3 V c).arrAt 4 cfg3.N = treeOut3 (V c main_v11) (V c main_v12) (V c main_v2) (V c main_arg4) :=
  (dat3 V c).arrAt_eq_of_cover 4 _ (fun t _ => flushed3_eq V c t) fun (i : S128x64x256.Idx) =>
    have hi0 : (i 0).val < parAll := (i 0).isLt
    have hN : cfg3.N = nPts := N_3
    ⟨⟨(i 0).val / parRows, by omega⟩, flush3_4 _, mem_blk3 _ i rfl⟩

end Cert.KernelIdeal.Hand

end
-- ==== Proof.KI.Path3.lean ====
import proofs.«418389_j13280038879631_2_alg».proof.Proof.KI.Val4
import proofs.«418389_j13280038879631_2_alg».proof.Proof.KI.Reg3Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start3 : Fin 3 → Int := fun k => ((![127#32, 0#32, 0#32] : Fin 3 → BitVec 32) k).toInt

-- After the level the node array is the old one with the level's output written over the parents' rows.
theorem host4_node (X : Valuation τ sig (Elt F)) :
    StableHlo.after hostOps4 X (Proc.devRef .tc main_v14)
      = Host.dynamicUpdateSlice (X (Proc.devRef .tc main_v10)) (X (Proc.devRef .tc main_v13)) start3 updateFits_S1023x64x256_S128x64x256 := by
  after_results
  refine congrArg (fun s => Host.dynamicUpdateSlice _ _ s _) (funext fun k => ?_)
  fin_cases k <;> rfl

-- The children's and the parents' rows the level reads are slices of the node array it is entered with.
theorem host3_kids (c : Dev nD) : Ven3 m hO c main_v11
    = extractStridedSlice S256x64x256 ![255, 0, 0] (Ven3 m hO c main_v10) slices_S1023x64x256_S256x64x256_255_0_0 := by
  unfold Ven3 Wen3; after_results

theorem host3_pars (c : Dev nD) : Ven3 m hO c main_v12
    = extractStridedSlice S128x64x256 ![127, 0, 0] (Ven3 m hO c main_v10) slices_S1023x64x256_S128x64x256_127_0_0 := by
  unfold Ven3 Wen3; after_results

def klevel3 (h : Vec F S1023x64x256 .f32) (w : Vec F S256x256 .f32) (b : Vec F S256 .f32) : Vec F S1023x64x256 .f32 :=
  Host.dynamicUpdateSlice h
    (treeOut3 (extractStridedSlice S256x64x256 ![255, 0, 0] h slices_S1023x64x256_S256x64x256_255_0_0)
      (extractStridedSlice S128x64x256 ![127, 0, 0] h slices_S1023x64x256_S128x64x256_127_0_0) w b)
    start3 updateFits_S1023x64x256_S128x64x256

theorem path3 (c : Dev nD) :
    Wen4 m hO c (Proc.devRef .tc main_v14)
      = klevel3 (Wen3 m hO c (Proc.devRef .tc main_v10)) (Wen3 m hO c (Proc.devRef .tc main_v2)) (Wen3 m hO c (Proc.devRef .tc main_arg4)) := by
  refine (host4_node (Wex3 m hO c)).trans ?_
  rw [Wex3_of_ne m hO c main_v10 (by decide),
    ((Wex3_arr m hO c 4).trans (final3 (Ven3 m hO) c) : Wex3 m hO c (Proc.devRef .tc main_v13) = _), host3_kids, host3_pars]
  rfl

theorem keep3_w (c : Dev nD) : Wen4 m hO c (Proc.devRef .tc main_v2) = Wen3 m hO c (Proc.devRef .tc main_v2) :=
  (Wen4_keep m hO c main_v2 (by decide)).trans (Wex3_in m hO c 2 rfl)

theorem keep3_b (c : Dev nD) : Wen4 m hO c (Proc.devRef .tc main_arg4) = Wen3 m hO c (Proc.devRef .tc main_arg4) :=
  (Wen4_keep m hO c main_arg4 (by decide)).trans (Wex3_in m hO c 3 rfl)

end Cert.KernelIdeal.Hand

end
-- ==== Proof.KI.Reg4Value.lean ====
import proofs.«418389_j13280038879631_2_alg».proof.Proof.KI.Reg4
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (64 : ℕ)
local notation "parRows" => (32 : ℕ)
local notation "kidAll" => (128 : ℕ)
local notation "parAll" => (64 : ℕ)
local notation "nPts" => (2 : ℕ)

variable (V : (c : Dev nD) → (b : Ref sig .tc) → Buf (Elt F) ((c : Thread nD τ).loc b))

theorem kidRow4_lt (r j : ℕ) (hr : r < parAll) (hj : j < kidRows) : r / parRows * kidRows + j < kidAll := by omega

theorem parRow4_lt (r j : ℕ) (hr : r < parAll) (hj : j < parRows) : r / parRows * parRows + j < parAll := by omega

def treeOut4 (kids : Vec F S128x64x256 .f32) (par : Vec F S64x64x256 .f32) (w : Vec F S256x256 .f32) (b : Vec F S256 .f32) :
    Vec F S64x64x256 .f32 := fun i =>
  k4_pay1
    (fun j => kids (ValueIdx.ix3 ⟨(i 0).val / parRows * kidRows + (j 0).val, kidRow4_lt _ _ (i 0).isLt (j 0).isLt⟩ (j 1) (j 2)))
    w b
    (fun j => par (ValueIdx.ix3 ⟨(i 0).val / parRows * parRows + (j 0).val, parRow4_lt _ _ (i 0).isLt (j 0).isLt⟩ (j 1) (j 2)))
    (ValueIdx.ix3 ⟨(i 0).val % parRows, Nat.mod_lt _ (by decide)⟩ (i 1) (i 2))

theorem idx_facts4 : ∀ t : Fin cfg4.N,
    win4_4.index t (0 : Fin 3) = t.val ∧ win4_4.index t (1 : Fin 3) = 0 ∧ win4_4.index t (2 : Fin 3) = 0
    ∧ win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ (∀ a, win4_2.index t a = 0) ∧ ∀ a, win4_3.index t a = 0 :=
  (by decide +kernel : ∀ t : Fin grid4.N, _)

-- Row y of block t is row t * parRows + y of the output; its children and parents are block t of their arrays.
theorem flushed4_eq (c : Dev nD) (t : Fin cfg4.N) :
    (dat4 V c).flushed 4 t = ((cfg4.win 4).blk t).view.read (Elt F) (treeOut4 (V c main_v15) (V c main_v16) (V c main_v2) (V c main_arg4)) := by
  show (cfg4.win 4).cut (grid4.coords t) ((dat4 V c).after 4 t) = _
  rw [after4_4, out4_4_eq]
  obtain ⟨o0, o1, o2, k0, k1, k2, p0, p1, p2, w0, b0⟩ := idx_facts4 t
  funext y
  rw [View.read_apply]
  unfold treeOut4
  have hy0 : (y 0).val < parRows := (y 0).isLt
  show k4_pay1 _ _ _ _ _ = k4_pay1 _ _ _ _ _
  refine congr (congr (congr (congr (congrArg k4_pay1 ?_) ?_) ?_) ?_) ?_
  · funext j
    refine congrArg (V c main_v15) (funext fun a => Fin.ext ?_)
    match a with
    | ⟨0, _⟩ => show win4_0.index t (0 : Fin 3) * kidRows + 1 * (j 0).val = (win4_4.index t (0 : Fin 3) * parRows + 1 * (y 0).val) / parRows * kidRows + (j 0).val; omega
    | ⟨1, _⟩ => exact win4_0.rect_emb_val_of_index_zero t 1 k1 j
    | ⟨2, _⟩ => exact win4_0.rect_emb_val_of_index_zero t 2 k2 j
  · exact funext fun j => congrArg (V c main_v2) (funext fun a => Fin.ext (win4_2.rect_emb_val_of_index_zero t a (w0 a) j))
  · exact funext fun j => congrArg (V c main_arg4) (funext fun a => Fin.ext (win4_3.rect_emb_val_of_index_zero t a (b0 a) j))
  · funext j
    refine congrArg (V c main_v16) (funext fun a => Fin.ext ?_)
    match a with
    | ⟨0, _⟩ => show win4_1.index t (0 : Fin 3) * parRows + 1 * (j 0).val = (win4_4.index t (0 : Fin 3) * parRows + 1 * (y 0).val) / parRows * parRows + (j 0).val; omega
    | ⟨1, _⟩ => exact win4_1.rect_emb_val_of_index_zero t 1 p1 j
    | ⟨2, _⟩ => exact win4_1.rect_emb_val_of_index_zero t 2 p2 j
  · funext a; apply Fin.ext
    match a with
    | ⟨0, _⟩ => show (y 0).val = (win4_4.index t (0 : Fin 3) * parRows + 1 * (y 0).val) % parRows; omega
    | ⟨1, _⟩ => exact (win4_4.rect_emb_val_of_index_zero t 1 o1 y).symm
    | ⟨2, _⟩ => exact (win4_4.rect_emb_val_of_index_zero t 2 o2 y).symm

-- Row r of the output lies in block r / parRows, at row r % parRows.
theorem mem_blk4 (t : Fin cfg4.N) (i : S64x64x256.Idx) (h : (i 0).val / parRows = t.val) : i ∈ ((cfg4.win 4).blk t).view.set := by
  obtain ⟨o0, o1, o2, -⟩ := idx_facts4 t
  have e : ((cfg4.win 4).blk t).view.emb (ValueIdx.ix3 ⟨(i 0).val % parRows, Nat.mod_lt _ (by decide)⟩ (i 1) (i 2)) = i := by
    funext a; apply Fin.ext
    match a with
    | ⟨0, _⟩ => show win4_4.index t (0 : Fin 3) * parRows + 1 * ((i 0).val % parRows) = (i 0).val; omega
    | ⟨1, _⟩ => exact win4_4.rect_emb_val_of_index_zero t 1 o1 _
    | ⟨2, _⟩ => exact win4_4.rect_emb_val_of_index_zero t 2 o2 _
  rw [← e]; exact View.emb_mem_set _ _

theorem final4 (c : Dev nD) :
    (dat4 V c).arrAt 4 cfg4.N = treeOut4 (V c main_v15) (V c main_v16) (V c main_v2) (V c main_arg4) :=
  (dat4 V c).arrAt_eq_of_cover 4 _ (fun t _ => flushed4_eq V c t) fun (i : S64x64x256.Idx) =>
    have hi0 : (i 0).val < parAll := (i 0).isLt
    have hN : cfg4.N = nPts := N_4
    ⟨⟨(i 0).val / parRows, by omega⟩, flush4_4 _, mem_blk4 _ i rfl⟩

end Cert.KernelIdeal.Hand

end
-- ==== Proof.KI.Path4.lean ====
import proofs.«418389_j13280038879631_2_alg».proof.Proof.KI.Val5
import proofs.«418389_j13280038879631_2_alg».proof.Proof.KI.Reg4Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start4 : Fin 3 → Int := fun k => ((![63#32, 0#32, 0#32] : Fin 3 → BitVec 32) k).toInt

-- After the level the node array is the old one with the level's output written over the parents' rows.
theorem host5_node (X : Valuation τ sig (Elt F)) :
    StableHlo.after hostOps5 X (Proc.devRef .tc main_v18)
      = Host.dynamicUpdateSlice (X (Proc.devRef .tc main_v14)) (X (Proc.devRef .tc main_v17)) start4 updateFits_S1023x64x256_S64x64x256 := by
  after_results
  refine congrArg (fun s => Host.dynamicUpdateSlice _ _ s _) (funext fun k => ?_)
  fin_cases k <;> rfl

-- The children's and the parents' rows the level reads are slices of the node array it is entered with.
theorem host4_kids (c : Dev nD) : Ven4 m hO c main_v15
    = extractStridedSlice S128x64x256 ![127, 0, 0] (Ven4 m hO c main_v14) slices_S1023x64x256_S128x64x256_127_0_0 := by
  unfold Ven4 Wen4; after_results

theorem host4_pars (c : Dev nD) : Ven4 m hO c main_v16
    = extractStridedSlice S64x64x256 ![63, 0, 0] (Ven4 m hO c main_v14) slices_S1023x64x256_S64x64x256_63_0_0 := by
  unfold Ven4 Wen4; after_results

def klevel4 (h : Vec F S1023x64x256 .f32) (w : Vec F S256x256 .f32) (b : Vec F S256 .f32) : Vec F S1023x64x256 .f32 :=
  Host.dynamicUpdateSlice h
    (treeOut4 (extractStridedSlice S128x64x256 ![127, 0, 0] h slices_S1023x64x256_S128x64x256_127_0_0)
      (extractStridedSlice S64x64x256 ![63, 0, 0] h slices_S1023x64x256_S64x64x256_63_0_0) w b)
    start4 updateFits_S1023x64x256_S64x64x256

theorem path4 (c : Dev nD) :
    Wen5 m hO c (Proc.devRef .tc main_v18)
      = klevel4 (Wen4 m hO c (Proc.devRef .tc main_v14)) (Wen4 m hO c (Proc.devRef .tc main_v2)) (Wen4 m hO c (Proc.devRef .tc main_arg4)) := by
  refine (host5_node (Wex4 m hO c)).trans ?_
  rw [Wex4_of_ne m hO c main_v14 (by decide),
    ((Wex4_arr m hO c 4).trans (final4 (Ven4 m hO) c) : Wex4 m hO c (Proc.devRef .tc main_v17) = _), host4_kids, host4_pars]
  rfl

theorem keep4_w (c : Dev nD) : Wen5 m hO c (Proc.devRef .tc main_v2) = Wen4 m hO c (Proc.devRef .tc main_v2) :=
  (Wen5_keep m hO c main_v2 (by decide)).trans (Wex4_in m hO c 2 rfl)

theorem keep4_b (c : Dev nD) : Wen5 m hO c (Proc.devRef .tc main_arg4) = Wen4 m hO c (Proc.devRef .tc main_arg4) :=
  (Wen5_keep m hO c main_arg4 (by decide)).trans (Wex4_in m hO c 3 rfl)

end Cert.KernelIdeal.Hand

end
-- ==== Proof.KI.Reg5Value.lean ====
import proofs.«418389_j13280038879631_2_alg».proof.Proof.KI.Reg5
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (64 : ℕ)
local notation "parRows" => (32 : ℕ)
local notation "kidAll" => (64 : ℕ)
local notation "parAll" => (32 : ℕ)
local notation "nPts" => (1 : ℕ)

variable (V : (c : Dev nD) → (b : Ref sig .tc) → Buf (Elt F) ((c : Thread nD τ).loc b))

theorem kidRow5_lt (r j : ℕ) (hr : r < parAll) (hj : j < kidRows) : r / parRows * kidRows + j < kidAll := by omega

theorem parRow5_lt (r j : ℕ) (hr : r < parAll) (hj : j < parRows) : r / parRows * parRows + j < parAll := by omega

def treeOut5 (kids : Vec F S64x64x256 .f32) (par : Vec F S32x64x256 .f32) (w : Vec F S256x256 .f32) (b : Vec F S256 .f32) :
    Vec F S32x64x256 .f32 := fun i =>
  k5_pay1
    (fun j => kids (ValueIdx.ix3 ⟨(i 0).val / parRows * kidRows + (j 0).val, kidRow5_lt _ _ (i 0).isLt (j 0).isLt⟩ (j 1) (j 2)))
    w b
    (fun j => par (ValueIdx.ix3 ⟨(i 0).val / parRows * parRows + (j 0).val, parRow5_lt _ _ (i 0).isLt (j 0).isLt⟩ (j 1) (j 2)))
    (ValueIdx.ix3 ⟨(i 0).val % parRows, Nat.mod_lt _ (by decide)⟩ (i 1) (i 2))

theorem idx_facts5 : ∀ t : Fin cfg5.N,
    win5_4.index t (0 : Fin 3) = t.val ∧ win5_4.index t (1 : Fin 3) = 0 ∧ win5_4.index t (2 : Fin 3) = 0
    ∧ win5_0.index t (0 : Fin 3) = t.val ∧ win5_0.index t (1 : Fin 3) = 0 ∧ win5_0.index t (2 : Fin 3) = 0
    ∧ win5_1.index t (0 : Fin 3) = t.val ∧ win5_1.index t (1 : Fin 3) = 0 ∧ win5_1.index t (2 : Fin 3) = 0
    ∧ (∀ a, win5_2.index t a = 0) ∧ ∀ a, win5_3.index t a = 0 :=
  (by decide +kernel : ∀ t : Fin grid5.N, _)

-- Row y of block t is row t * parRows + y of the output; its children and parents are block t of their arrays.
theorem flushed5_eq (c : Dev nD) (t : Fin cfg5.N) :
    (dat5 V c).flushed 4 t = ((cfg5.win 4).blk t).view.read (Elt F) (treeOut5 (V c main_v19) (V c main_v20) (V c main_v2) (V c main_arg4)) := by
  show (cfg5.win 4).cut (grid5.coords t) ((dat5 V c).after 4 t) = _
  rw [after5_4, out5_4_eq]
  obtain ⟨o0, o1, o2, k0, k1, k2, p0, p1, p2, w0, b0⟩ := idx_facts5 t
  funext y
  rw [View.read_apply]
  unfold treeOut5
  have hy0 : (y 0).val < parRows := (y 0).isLt
  show k5_pay1 _ _ _ _ _ = k5_pay1 _ _ _ _ _
  refine congr (congr (congr (congr (congrArg k5_pay1 ?_) ?_) ?_) ?_) ?_
  · funext j
    refine congrArg (V c main_v19) (funext fun a => Fin.ext ?_)
    match a with
    | ⟨0, _⟩ => show win5_0.index t (0 : Fin 3) * kidRows + 1 * (j 0).val = (win5_4.index t (0 : Fin 3) * parRows + 1 * (y 0).val) / parRows * kidRows + (j 0).val; omega
    | ⟨1, _⟩ => exact win5_0.rect_emb_val_of_index_zero t 1 k1 j
    | ⟨2, _⟩ => exact win5_0.rect_emb_val_of_index_zero t 2 k2 j
  · exact funext fun j => congrArg (V c main_v2) (funext fun a => Fin.ext (win5_2.rect_emb_val_of_index_zero t a (w0 a) j))
  · exact funext fun j => congrArg (V c main_arg4) (funext fun a => Fin.ext (win5_3.rect_emb_val_of_index_zero t a (b0 a) j))
  · funext j
    refine congrArg (V c main_v20) (funext fun a => Fin.ext ?_)
    match a with
    | ⟨0, _⟩ => show win5_1.index t (0 : Fin 3) * parRows + 1 * (j 0).val = (win5_4.index t (0 : Fin 3) * parRows + 1 * (y 0).val) / parRows * parRows + (j 0).val; omega
    | ⟨1, _⟩ => exact win5_1.rect_emb_val_of_index_zero t 1 p1 j
    | ⟨2, _⟩ => exact win5_1.rect_emb_val_of_index_zero t 2 p2 j
  · funext a; apply Fin.ext
    match a with
    | ⟨0, _⟩ => show (y 0).val = (win5_4.index t (0 : Fin 3) * parRows + 1 * (y 0).val) % parRows; omega
    | ⟨1, _⟩ => exact (win5_4.rect_emb_val_of_index_zero t 1 o1 y).symm
    | ⟨2, _⟩ => exact (win5_4.rect_emb_val_of_index_zero t 2 o2 y).symm

-- Row r of the output lies in block r / parRows, at row r % parRows.
theorem mem_blk5 (t : Fin cfg5.N) (i : S32x64x256.Idx) (h : (i 0).val / parRows = t.val) : i ∈ ((cfg5.win 4).blk t).view.set := by
  obtain ⟨o0, o1, o2, -⟩ := idx_facts5 t
  have e : ((cfg5.win 4).blk t).view.emb (ValueIdx.ix3 ⟨(i 0).val % parRows, Nat.mod_lt _ (by decide)⟩ (i 1) (i 2)) = i := by
    funext a; apply Fin.ext
    match a with
    | ⟨0, _⟩ => show win5_4.index t (0 : Fin 3) * parRows + 1 * ((i 0).val % parRows) = (i 0).val; omega
    | ⟨1, _⟩ => exact win5_4.rect_emb_val_of_index_zero t 1 o1 _
    | ⟨2, _⟩ => exact win5_4.rect_emb_val_of_index_zero t 2 o2 _
  rw [← e]; exact View.emb_mem_set _ _

theorem final5 (c : Dev nD) :
    (dat5 V c).arrAt 4 cfg5.N = treeOut5 (V c main_v19) (V c main_v20) (V c main_v2) (V c main_arg4) :=
  (dat5 V c).arrAt_eq_of_cover 4 _ (fun t _ => flushed5_eq V c t) fun (i : S32x64x256.Idx) =>
    have hi0 : (i 0).val < parAll := (i 0).isLt
    have hN : cfg5.N = nPts := N_5
    ⟨⟨(i 0).val / parRows, by omega⟩, flush5_4 _, mem_blk5 _ i rfl⟩

end Cert.KernelIdeal.Hand

end
-- ==== Proof.KI.Path5.lean ====
import proofs.«418389_j13280038879631_2_alg».proof.Proof.KI.Val6
import proofs.«418389_j13280038879631_2_alg».proof.Proof.KI.Reg5Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start5 : Fin 3 → Int := fun k => ((![31#32, 0#32, 0#32] : Fin 3 → BitVec 32) k).toInt

-- After the level the node array is the old one with the level's output written over the parents' rows.
theorem host6_node (X : Valuation τ sig (Elt F)) :
    StableHlo.after hostOps6 X (Proc.devRef .tc main_v22)
      = Host.dynamicUpdateSlice (X (Proc.devRef .tc main_v18)) (X (Proc.devRef .tc main_v21)) start5 updateFits_S1023x64x256_S32x64x256 := by
  after_results
  refine congrArg (fun s => Host.dynamicUpdateSlice _ _ s _) (funext fun k => ?_)
  fin_cases k <;> rfl

-- The children's and the parents' rows the level reads are slices of the node array it is entered with.
theorem host5_kids (c : Dev nD) : Ven5 m hO c main_v19
    = extractStridedSlice S64x64x256 ![63, 0, 0] (Ven5 m hO c main_v18) slices_S1023x64x256_S64x64x256_63_0_0 := by
  unfold Ven5 Wen5; after_results

theorem host5_pars (c : Dev nD) : Ven5 m hO c main_v20
    = extractStridedSlice S32x64x256 ![31, 0, 0] (Ven5 m hO c main_v18) slices_S1023x64x256_S32x64x256_31_0_0 := by
  unfold Ven5 Wen5; after_results

def klevel5 (h : Vec F S1023x64x256 .f32) (w : Vec F S256x256 .f32) (b : Vec F S256 .f32) : Vec F S1023x64x256 .f32 :=
  Host.dynamicUpdateSlice h
    (treeOut5 (extractStridedSlice S64x64x256 ![63, 0, 0] h slices_S1023x64x256_S64x64x256_63_0_0)
      (extractStridedSlice S32x64x256 ![31, 0, 0] h slices_S1023x64x256_S32x64x256_31_0_0) w b)
    start5 updateFits_S1023x64x256_S32x64x256

theorem path5 (c : Dev nD) :
    Wen6 m hO c (Proc.devRef .tc main_v22)
      = klevel5 (Wen5 m hO c (Proc.devRef .tc main_v18)) (Wen5 m hO c (Proc.devRef .tc main_v2)) (Wen5 m hO c (Proc.devRef .tc main_arg4)) := by
  refine (host6_node (Wex5 m hO c)).trans ?_
  rw [Wex5_of_ne m hO c main_v18 (by decide),
    ((Wex5_arr m hO c 4).trans (final5 (Ven5 m hO) c) : Wex5 m hO c (Proc.devRef .tc main_v21) = _), host5_kids, host5_pars]
  rfl

theorem keep5_w (c : Dev nD) : Wen6 m hO c (Proc.devRef .tc main_v2) = Wen5 m hO c (Proc.devRef .tc main_v2) :=
  (Wen6_keep m hO c main_v2 (by decide)).trans (Wex5_in m hO c 2 rfl)

theorem keep5_b (c : Dev nD) : Wen6 m hO c (Proc.devRef .tc main_arg4) = Wen5 m hO c (Proc.devRef .tc main_arg4) :=
  (Wen6_keep m hO c main_arg4 (by decide)).trans (Wex5_in m hO c 3 rfl)

end Cert.KernelIdeal.Hand

end
-- ==== Proof.KI.Reg6Value.lean ====
import proofs.«418389_j13280038879631_2_alg».proof.Proof.KI.Reg6
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (32 : ℕ)
local notation "parRows" => (16 : ℕ)
local notation "kidAll" => (32 : ℕ)
local notation "parAll" => (16 : ℕ)
local notation "nPts" => (1 : ℕ)

variable (V : (c : Dev nD) → (b : Ref sig .tc) → Buf (Elt F) ((c : Thread nD τ).loc b))

theorem kidRow6_lt (r j : ℕ) (hr : r < parAll) (hj : j < kidRows) : r / parRows * kidRows + j < kidAll := by omega

theorem parRow6_lt (r j : ℕ) (hr : r < parAll) (hj : j < parRows) : r / parRows * parRows + j < parAll := by omega

def treeOut6 (kids : Vec F S32x64x256 .f32) (par : Vec F S16x64x256 .f32) (w : Vec F S256x256 .f32) (b : Vec F S256 .f32) :
    Vec F S16x64x256 .f32 := fun i =>
  k6_pay1
    (fun j => kids (ValueIdx.ix3 ⟨(i 0).val / parRows * kidRows + (j 0).val, kidRow6_lt _ _ (i 0).isLt (j 0).isLt⟩ (j 1) (j 2)))
    w b
    (fun j => par (ValueIdx.ix3 ⟨(i 0).val / parRows * parRows + (j 0).val, parRow6_lt _ _ (i 0).isLt (j 0).isLt⟩ (j 1) (j 2)))
    (ValueIdx.ix3 ⟨(i 0).val % parRows, Nat.mod_lt _ (by decide)⟩ (i 1) (i 2))

theorem idx_facts6 : ∀ t : Fin cfg6.N,
    win6_4.index t (0 : Fin 3) = t.val ∧ win6_4.index t (1 : Fin 3) = 0 ∧ win6_4.index t (2 : Fin 3) = 0
    ∧ win6_0.index t (0 : Fin 3) = t.val ∧ win6_0.index t (1 : Fin 3) = 0 ∧ win6_0.index t (2 : Fin 3) = 0
    ∧ win6_1.index t (0 : Fin 3) = t.val ∧ win6_1.index t (1 : Fin 3) = 0 ∧ win6_1.index t (2 : Fin 3) = 0
    ∧ (∀ a, win6_2.index t a = 0) ∧ ∀ a, win6_3.index t a = 0 :=
  (by decide +kernel : ∀ t : Fin grid6.N, _)

-- Row y of block t is row t * parRows + y of the output; its children and parents are block t of their arrays.
theorem flushed6_eq (c : Dev nD) (t : Fin cfg6.N) :
    (dat6 V c).flushed 4 t = ((cfg6.win 4).blk t).view.read (Elt F) (treeOut6 (V c main_v23) (V c main_v24) (V c main_v2) (V c main_arg4)) := by
  show (cfg6.win 4).cut (grid6.coords t) ((dat6 V c).after 4 t) = _
  rw [after6_4, out6_4_eq]
  obtain ⟨o0, o1, o2, k0, k1, k2, p0, p1, p2, w0, b0⟩ := idx_facts6 t
  funext y
  rw [View.read_apply]
  unfold treeOut6
  have hy0 : (y 0).val < parRows := (y 0).isLt
  show k6_pay1 _ _ _ _ _ = k6_pay1 _ _ _ _ _
  refine congr (congr (congr (congr (congrArg k6_pay1 ?_) ?_) ?_) ?_) ?_
  · funext j
    refine congrArg (V c main_v23) (funext fun a => Fin.ext ?_)
    match a with
    | ⟨0, _⟩ => show win6_0.index t (0 : Fin 3) * kidRows + 1 * (j 0).val = (win6_4.index t (0 : Fin 3) * parRows + 1 * (y 0).val) / parRows * kidRows + (j 0).val; omega
    | ⟨1, _⟩ => exact win6_0.rect_emb_val_of_index_zero t 1 k1 j
    | ⟨2, _⟩ => exact win6_0.rect_emb_val_of_index_zero t 2 k2 j
  · exact funext fun j => congrArg (V c main_v2) (funext fun a => Fin.ext (win6_2.rect_emb_val_of_index_zero t a (w0 a) j))
  · exact funext fun j => congrArg (V c main_arg4) (funext fun a => Fin.ext (win6_3.rect_emb_val_of_index_zero t a (b0 a) j))
  · funext j
    refine congrArg (V c main_v24) (funext fun a => Fin.ext ?_)
    match a with
    | ⟨0, _⟩ => show win6_1.index t (0 : Fin 3) * parRows + 1 * (j 0).val = (win6_4.index t (0 : Fin 3) * parRows + 1 * (y 0).val) / parRows * parRows + (j 0).val; omega
    | ⟨1, _⟩ => exact win6_1.rect_emb_val_of_index_zero t 1 p1 j
    | ⟨2, _⟩ => exact win6_1.rect_emb_val_of_index_zero t 2 p2 j
  · funext a; apply Fin.ext
    match a with
    | ⟨0, _⟩ => show (y 0).val = (win6_4.index t (0 : Fin 3) * parRows + 1 * (y 0).val) % parRows; omega
    | ⟨1, _⟩ => exact (win6_4.rect_emb_val_of_index_zero t 1 o1 y).symm
    | ⟨2, _⟩ => exact (win6_4.rect_emb_val_of_index_zero t 2 o2 y).symm

-- Row r of the output lies in block r / parRows, at row r % parRows.
theorem mem_blk6 (t : Fin cfg6.N) (i : S16x64x256.Idx) (h : (i 0).val / parRows = t.val) : i ∈ ((cfg6.win 4).blk t).view.set := by
  obtain ⟨o0, o1, o2, -⟩ := idx_facts6 t
  have e : ((cfg6.win 4).blk t).view.emb (ValueIdx.ix3 ⟨(i 0).val % parRows, Nat.mod_lt _ (by decide)⟩ (i 1) (i 2)) = i := by
    funext a; apply Fin.ext
    match a with
    | ⟨0, _⟩ => show win6_4.index t (0 : Fin 3) * parRows + 1 * ((i 0).val % parRows) = (i 0).val; omega
    | ⟨1, _⟩ => exact win6_4.rect_emb_val_of_index_zero t 1 o1 _
    | ⟨2, _⟩ => exact win6_4.rect_emb_val_of_index_zero t 2 o2 _
  rw [← e]; exact View.emb_mem_set _ _

theorem final6 (c : Dev nD) :
    (dat6 V c).arrAt 4 cfg6.N = treeOut6 (V c main_v23) (V c main_v24) (V c main_v2) (V c main_arg4) :=
  (dat6 V c).arrAt_eq_of_cover 4 _ (fun t _ => flushed6_eq V c t) fun (i : S16x64x256.Idx) =>
    have hi0 : (i 0).val < parAll := (i 0).isLt
    have hN : cfg6.N = nPts := N_6
    ⟨⟨(i 0).val / parRows, by omega⟩, flush6_4 _, mem_blk6 _ i rfl⟩

end Cert.KernelIdeal.Hand

end
-- ==== Proof.KI.Path6.lean ====
import proofs.«418389_j13280038879631_2_alg».proof.Proof.KI.Val7
import proofs.«418389_j13280038879631_2_alg».proof.Proof.KI.Reg6Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start6 : Fin 3 → Int := fun k => ((![15#32, 0#32, 0#32] : Fin 3 → BitVec 32) k).toInt

-- After the level the node array is the old one with the level's output written over the parents' rows.
theorem host7_node (X : Valuation τ sig (Elt F)) :
    StableHlo.after hostOps7 X (Proc.devRef .tc main_v26)
      = Host.dynamicUpdateSlice (X (Proc.devRef .tc main_v22)) (X (Proc.devRef .tc main_v25)) start6 updateFits_S1023x64x256_S16x64x256 := by
  after_results
  refine congrArg (fun s => Host.dynamicUpdateSlice _ _ s _) (funext fun k => ?_)
  fin_cases k <;> rfl

-- The children's and the parents' rows the level reads are slices of the node array it is entered with.
theorem host6_kids (c : Dev nD) : Ven6 m hO c main_v23
    = extractStridedSlice S32x64x256 ![31, 0, 0] (Ven6 m hO c main_v22) slices_S1023x64x256_S32x64x256_31_0_0 := by
  unfold Ven6 Wen6; after_results

theorem host6_pars (c : Dev nD) : Ven6 m hO c main_v24
    = extractStridedSlice S16x64x256 ![15, 0, 0] (Ven6 m hO c main_v22) slices_S1023x64x256_S16x64x256_15_0_0 := by
  unfold Ven6 Wen6; after_results

def klevel6 (h : Vec F S1023x64x256 .f32) (w : Vec F S256x256 .f32) (b : Vec F S256 .f32) : Vec F S1023x64x256 .f32 :=
  Host.dynamicUpdateSlice h
    (treeOut6 (extractStridedSlice S32x64x256 ![31, 0, 0] h slices_S1023x64x256_S32x64x256_31_0_0)
      (extractStridedSlice S16x64x256 ![15, 0, 0] h slices_S1023x64x256_S16x64x256_15_0_0) w b)
    start6 updateFits_S1023x64x256_S16x64x256

theorem path6 (c : Dev nD) :
    Wen7 m hO c (Proc.devRef .tc main_v26)
      = klevel6 (Wen6 m hO c (Proc.devRef .tc main_v22)) (Wen6 m hO c (Proc.devRef .tc main_v2)) (Wen6 m hO c (Proc.devRef .tc main_arg4)) := by
  refine (host7_node (Wex6 m hO c)).trans ?_
  rw [Wex6_of_ne m hO c main_v22 (by decide),
    ((Wex6_arr m hO c 4).trans (final6 (Ven6 m hO) c) : Wex6 m hO c (Proc.devRef .tc main_v25) = _), host6_kids, host6_pars]
  rfl

theorem keep6_w (c : Dev nD) : Wen7 m hO c (Proc.devRef .tc main_v2) = Wen6 m hO c (Proc.devRef .tc main_v2) :=
  (Wen7_keep m hO c main_v2 (by decide)).trans (Wex6_in m hO c 2 rfl)

theorem keep6_b (c : Dev nD) : Wen7 m hO c (Proc.devRef .tc main_arg4) = Wen6 m hO c (Proc.devRef .tc main_arg4) :=
  (Wen7_keep m hO c main_arg4 (by decide)).trans (Wex6_in m hO c 3 rfl)

end Cert.KernelIdeal.Hand

end
-- ==== Proof.KI.Reg7Value.lean ====
import proofs.«418389_j13280038879631_2_alg».proof.Proof.KI.Reg7
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (16 : ℕ)
local notation "parRows" => (8 : ℕ)
local notation "kidAll" => (16 : ℕ)
local notation "parAll" => (8 : ℕ)
local notation "nPts" => (1 : ℕ)

variable (V : (c : Dev nD) → (b : Ref sig .tc) → Buf (Elt F) ((c : Thread nD τ).loc b))

theorem kidRow7_lt (r j : ℕ) (hr : r < parAll) (hj : j < kidRows) : r / parRows * kidRows + j < kidAll := by omega

theorem parRow7_lt (r j : ℕ) (hr : r < parAll) (hj : j < parRows) : r / parRows * parRows + j < parAll := by omega

def treeOut7 (kids : Vec F S16x64x256 .f32) (par : Vec F S8x64x256 .f32) (w : Vec F S256x256 .f32) (b : Vec F S256 .f32) :
    Vec F S8x64x256 .f32 := fun i =>
  k7_pay1
    (fun j => kids (ValueIdx.ix3 ⟨(i 0).val / parRows * kidRows + (j 0).val, kidRow7_lt _ _ (i 0).isLt (j 0).isLt⟩ (j 1) (j 2)))
    w b
    (fun j => par (ValueIdx.ix3 ⟨(i 0).val / parRows * parRows + (j 0).val, parRow7_lt _ _ (i 0).isLt (j 0).isLt⟩ (j 1) (j 2)))
    (ValueIdx.ix3 ⟨(i 0).val % parRows, Nat.mod_lt _ (by decide)⟩ (i 1) (i 2))

theorem idx_facts7 : ∀ t : Fin cfg7.N,
    win7_4.index t (0 : Fin 3) = t.val ∧ win7_4.index t (1 : Fin 3) = 0 ∧ win7_4.index t (2 : Fin 3) = 0
    ∧ win7_0.index t (0 : Fin 3) = t.val ∧ win7_0.index t (1 : Fin 3) = 0 ∧ win7_0.index t (2 : Fin 3) = 0
    ∧ win7_1.index t (0 : Fin 3) = t.val ∧ win7_1.index t (1 : Fin 3) = 0 ∧ win7_1.index t (2 : Fin 3) = 0
    ∧ (∀ a, win7_2.index t a = 0) ∧ ∀ a, win7_3.index t a = 0 :=
  (by decide +kernel : ∀ t : Fin grid7.N, _)

-- Row y of block t is row t * parRows + y of the output; its children and parents are block t of their arrays.
theorem flushed7_eq (c : Dev nD) (t : Fin cfg7.N) :
    (dat7 V c).flushed 4 t = ((cfg7.win 4).blk t).view.read (Elt F) (treeOut7 (V c main_v27) (V c main_v28) (V c main_v2) (V c main_arg4)) := by
  show (cfg7.win 4).cut (grid7.coords t) ((dat7 V c).after 4 t) = _
  rw [after7_4, out7_4_eq]
  obtain ⟨o0, o1, o2, k0, k1, k2, p0, p1, p2, w0, b0⟩ := idx_facts7 t
  funext y
  rw [View.read_apply]
  unfold treeOut7
  have hy0 : (y 0).val < parRows := (y 0).isLt
  show k7_pay1 _ _ _ _ _ = k7_pay1 _ _ _ _ _
  refine congr (congr (congr (congr (congrArg k7_pay1 ?_) ?_) ?_) ?_) ?_
  · funext j
    refine congrArg (V c main_v27) (funext fun a => Fin.ext ?_)
    match a with
    | ⟨0, _⟩ => show win7_0.index t (0 : Fin 3) * kidRows + 1 * (j 0).val = (win7_4.index t (0 : Fin 3) * parRows + 1 * (y 0).val) / parRows * kidRows + (j 0).val; omega
    | ⟨1, _⟩ => exact win7_0.rect_emb_val_of_index_zero t 1 k1 j
    | ⟨2, _⟩ => exact win7_0.rect_emb_val_of_index_zero t 2 k2 j
  · exact funext fun j => congrArg (V c main_v2) (funext fun a => Fin.ext (win7_2.rect_emb_val_of_index_zero t a (w0 a) j))
  · exact funext fun j => congrArg (V c main_arg4) (funext fun a => Fin.ext (win7_3.rect_emb_val_of_index_zero t a (b0 a) j))
  · funext j
    refine congrArg (V c main_v28) (funext fun a => Fin.ext ?_)
    match a with
    | ⟨0, _⟩ => show win7_1.index t (0 : Fin 3) * parRows + 1 * (j 0).val = (win7_4.index t (0 : Fin 3) * parRows + 1 * (y 0).val) / parRows * parRows + (j 0).val; omega
    | ⟨1, _⟩ => exact win7_1.rect_emb_val_of_index_zero t 1 p1 j
    | ⟨2, _⟩ => exact win7_1.rect_emb_val_of_index_zero t 2 p2 j
  · funext a; apply Fin.ext
    match a with
    | ⟨0, _⟩ => show (y 0).val = (win7_4.index t (0 : Fin 3) * parRows + 1 * (y 0).val) % parRows; omega
    | ⟨1, _⟩ => exact (win7_4.rect_emb_val_of_index_zero t 1 o1 y).symm
    | ⟨2, _⟩ => exact (win7_4.rect_emb_val_of_index_zero t 2 o2 y).symm

-- Row r of the output lies in block r / parRows, at row r % parRows.
theorem mem_blk7 (t : Fin cfg7.N) (i : S8x64x256.Idx) (h : (i 0).val / parRows = t.val) : i ∈ ((cfg7.win 4).blk t).view.set := by
  obtain ⟨o0, o1, o2, -⟩ := idx_facts7 t
  have e : ((cfg7.win 4).blk t).view.emb (ValueIdx.ix3 ⟨(i 0).val % parRows, Nat.mod_lt _ (by decide)⟩ (i 1) (i 2)) = i := by
    funext a; apply Fin.ext
    match a with
    | ⟨0, _⟩ => show win7_4.index t (0 : Fin 3) * parRows + 1 * ((i 0).val % parRows) = (i 0).val; omega
    | ⟨1, _⟩ => exact win7_4.rect_emb_val_of_index_zero t 1 o1 _
    | ⟨2, _⟩ => exact win7_4.rect_emb_val_of_index_zero t 2 o2 _
  rw [← e]; exact View.emb_mem_set _ _

theorem final7 (c : Dev nD) :
    (dat7 V c).arrAt 4 cfg7.N = treeOut7 (V c main_v27) (V c main_v28) (V c main_v2) (V c main_arg4) :=
  (dat7 V c).arrAt_eq_of_cover 4 _ (fun t _ => flushed7_eq V c t) fun (i : S8x64x256.Idx) =>
    have hi0 : (i 0).val < parAll := (i 0).isLt
    have hN : cfg7.N = nPts := N_7
    ⟨⟨(i 0).val / parRows, by omega⟩, flush7_4 _, mem_blk7 _ i rfl⟩

end Cert.KernelIdeal.Hand

end
-- ==== Proof.KI.Path7.lean ====
import proofs.«418389_j13280038879631_2_alg».proof.Proof.KI.Val8
import proofs.«418389_j13280038879631_2_alg».proof.Proof.KI.Reg7Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start7 : Fin 3 → Int := fun k => ((![7#32, 0#32, 0#32] : Fin 3 → BitVec 32) k).toInt

-- After the level the node array is the old one with the level's output written over the parents' rows.
theorem host8_node (X : Valuation τ sig (Elt F)) :
    StableHlo.after hostOps8 X (Proc.devRef .tc main_v30)
      = Host.dynamicUpdateSlice (X (Proc.devRef .tc main_v26)) (X (Proc.devRef .tc main_v29)) start7 updateFits_S1023x64x256_S8x64x256 := by
  after_results
  refine congrArg (fun s => Host.dynamicUpdateSlice _ _ s _) (funext fun k => ?_)
  fin_cases k <;> rfl

-- The children's and the parents' rows the level reads are slices of the node array it is entered with.
theorem host7_kids (c : Dev nD) : Ven7 m hO c main_v27
    = extractStridedSlice S16x64x256 ![15, 0, 0] (Ven7 m hO c main_v26) slices_S1023x64x256_S16x64x256_15_0_0 := by
  unfold Ven7 Wen7; after_results

theorem host7_pars (c : Dev nD) : Ven7 m hO c main_v28
    = extractStridedSlice S8x64x256 ![7, 0, 0] (Ven7 m hO c main_v26) slices_S1023x64x256_S8x64x256_7_0_0 := by
  unfold Ven7 Wen7; after_results

def klevel7 (h : Vec F S1023x64x256 .f32) (w : Vec F S256x256 .f32) (b : Vec F S256 .f32) : Vec F S1023x64x256 .f32 :=
  Host.dynamicUpdateSlice h
    (treeOut7 (extractStridedSlice S16x64x256 ![15, 0, 0] h slices_S1023x64x256_S16x64x256_15_0_0)
      (extractStridedSlice S8x64x256 ![7, 0, 0] h slices_S1023x64x256_S8x64x256_7_0_0) w b)
    start7 updateFits_S1023x64x256_S8x64x256

theorem path7 (c : Dev nD) :
    Wen8 m hO c (Proc.devRef .tc main_v30)
      = klevel7 (Wen7 m hO c (Proc.devRef .tc main_v26)) (Wen7 m hO c (Proc.devRef .tc main_v2)) (Wen7 m hO c (Proc.devRef .tc main_arg4)) := by
  refine (host8_node (Wex7 m hO c)).trans ?_
  rw [Wex7_of_ne m hO c main_v26 (by decide),
    ((Wex7_arr m hO c 4).trans (final7 (Ven7 m hO) c) : Wex7 m hO c (Proc.devRef .tc main_v29) = _), host7_kids, host7_pars]
  rfl

theorem keep7_w (c : Dev nD) : Wen8 m hO c (Proc.devRef .tc main_v2) = Wen7 m hO c (Proc.devRef .tc main_v2) :=
  (Wen8_keep m hO c main_v2 (by decide)).trans (Wex7_in m hO c 2 rfl)

theorem keep7_b (c : Dev nD) : Wen8 m hO c (Proc.devRef .tc main_arg4) = Wen7 m hO c (Proc.devRef .tc main_arg4) :=
  (Wen8_keep m hO c main_arg4 (by decide)).trans (Wex7_in m hO c 3 rfl)

end Cert.KernelIdeal.Hand

end
-- ==== Proof.KI.Reg8Value.lean ====
import proofs.«418389_j13280038879631_2_alg».proof.Proof.KI.Reg8
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (8 : ℕ)
local notation "parRows" => (4 : ℕ)
local notation "kidAll" => (8 : ℕ)
local notation "parAll" => (4 : ℕ)
local notation "nPts" => (1 : ℕ)

variable (V : (c : Dev nD) → (b : Ref sig .tc) → Buf (Elt F) ((c : Thread nD τ).loc b))

theorem kidRow8_lt (r j : ℕ) (hr : r < parAll) (hj : j < kidRows) : r / parRows * kidRows + j < kidAll := by omega

theorem parRow8_lt (r j : ℕ) (hr : r < parAll) (hj : j < parRows) : r / parRows * parRows + j < parAll := by omega

def treeOut8 (kids : Vec F S8x64x256 .f32) (par : Vec F S4x64x256 .f32) (w : Vec F S256x256 .f32) (b : Vec F S256 .f32) :
    Vec F S4x64x256 .f32 := fun i =>
  k8_pay1
    (fun j => kids (ValueIdx.ix3 ⟨(i 0).val / parRows * kidRows + (j 0).val, kidRow8_lt _ _ (i 0).isLt (j 0).isLt⟩ (j 1) (j 2)))
    w b
    (fun j => par (ValueIdx.ix3 ⟨(i 0).val / parRows * parRows + (j 0).val, parRow8_lt _ _ (i 0).isLt (j 0).isLt⟩ (j 1) (j 2)))
    (ValueIdx.ix3 ⟨(i 0).val % parRows, Nat.mod_lt _ (by decide)⟩ (i 1) (i 2))

theorem idx_facts8 : ∀ t : Fin cfg8.N,
    win8_4.index t (0 : Fin 3) = t.val ∧ win8_4.index t (1 : Fin 3) = 0 ∧ win8_4.index t (2 : Fin 3) = 0
    ∧ win8_0.index t (0 : Fin 3) = t.val ∧ win8_0.index t (1 : Fin 3) = 0 ∧ win8_0.index t (2 : Fin 3) = 0
    ∧ win8_1.index t (0 : Fin 3) = t.val ∧ win8_1.index t (1 : Fin 3) = 0 ∧ win8_1.index t (2 : Fin 3) = 0
    ∧ (∀ a, win8_2.index t a = 0) ∧ ∀ a, win8_3.index t a = 0 :=
  (by decide +kernel : ∀ t : Fin grid8.N, _)

-- Row y of block t is row t * parRows + y of the output; its children and parents are block t of their arrays.
theorem flushed8_eq (c : Dev nD) (t : Fin cfg8.N) :
    (dat8 V c).flushed 4 t = ((cfg8.win 4).blk t).view.read (Elt F) (treeOut8 (V c main_v31) (V c main_v32) (V c main_v2) (V c main_arg4)) := by
  show (cfg8.win 4).cut (grid8.coords t) ((dat8 V c).after 4 t) = _
  rw [after8_4, out8_4_eq]
  obtain ⟨o0, o1, o2, k0, k1, k2, p0, p1, p2, w0, b0⟩ := idx_facts8 t
  funext y
  rw [View.read_apply]
  unfold treeOut8
  have hy0 : (y 0).val < parRows := (y 0).isLt
  show k8_pay1 _ _ _ _ _ = k8_pay1 _ _ _ _ _
  refine congr (congr (congr (congr (congrArg k8_pay1 ?_) ?_) ?_) ?_) ?_
  · funext j
    refine congrArg (V c main_v31) (funext fun a => Fin.ext ?_)
    match a with
    | ⟨0, _⟩ => show win8_0.index t (0 : Fin 3) * kidRows + 1 * (j 0).val = (win8_4.index t (0 : Fin 3) * parRows + 1 * (y 0).val) / parRows * kidRows + (j 0).val; omega
    | ⟨1, _⟩ => exact win8_0.rect_emb_val_of_index_zero t 1 k1 j
    | ⟨2, _⟩ => exact win8_0.rect_emb_val_of_index_zero t 2 k2 j
  · exact funext fun j => congrArg (V c main_v2) (funext fun a => Fin.ext (win8_2.rect_emb_val_of_index_zero t a (w0 a) j))
  · exact funext fun j => congrArg (V c main_arg4) (funext fun a => Fin.ext (win8_3.rect_emb_val_of_index_zero t a (b0 a) j))
  · funext j
    refine congrArg (V c main_v32) (funext fun a => Fin.ext ?_)
    match a with
    | ⟨0, _⟩ => show win8_1.index t (0 : Fin 3) * parRows + 1 * (j 0).val = (win8_4.index t (0 : Fin 3) * parRows + 1 * (y 0).val) / parRows * parRows + (j 0).val; omega
    | ⟨1, _⟩ => exact win8_1.rect_emb_val_of_index_zero t 1 p1 j
    | ⟨2, _⟩ => exact win8_1.rect_emb_val_of_index_zero t 2 p2 j
  · funext a; apply Fin.ext
    match a with
    | ⟨0, _⟩ => show (y 0).val = (win8_4.index t (0 : Fin 3) * parRows + 1 * (y 0).val) % parRows; omega
    | ⟨1, _⟩ => exact (win8_4.rect_emb_val_of_index_zero t 1 o1 y).symm
    | ⟨2, _⟩ => exact (win8_4.rect_emb_val_of_index_zero t 2 o2 y).symm

-- Row r of the output lies in block r / parRows, at row r % parRows.
theorem mem_blk8 (t : Fin cfg8.N) (i : S4x64x256.Idx) (h : (i 0).val / parRows = t.val) : i ∈ ((cfg8.win 4).blk t).view.set := by
  obtain ⟨o0, o1, o2, -⟩ := idx_facts8 t
  have e : ((cfg8.win 4).blk t).view.emb (ValueIdx.ix3 ⟨(i 0).val % parRows, Nat.mod_lt _ (by decide)⟩ (i 1) (i 2)) = i := by
    funext a; apply Fin.ext
    match a with
    | ⟨0, _⟩ => show win8_4.index t (0 : Fin 3) * parRows + 1 * ((i 0).val % parRows) = (i 0).val; omega
    | ⟨1, _⟩ => exact win8_4.rect_emb_val_of_index_zero t 1 o1 _
    | ⟨2, _⟩ => exact win8_4.rect_emb_val_of_index_zero t 2 o2 _
  rw [← e]; exact View.emb_mem_set _ _

theorem final8 (c : Dev nD) :
    (dat8 V c).arrAt 4 cfg8.N = treeOut8 (V c main_v31) (V c main_v32) (V c main_v2) (V c main_arg4) :=
  (dat8 V c).arrAt_eq_of_cover 4 _ (fun t _ => flushed8_eq V c t) fun (i : S4x64x256.Idx) =>
    have hi0 : (i 0).val < parAll := (i 0).isLt
    have hN : cfg8.N = nPts := N_8
    ⟨⟨(i 0).val / parRows, by omega⟩, flush8_4 _, mem_blk8 _ i rfl⟩

end Cert.KernelIdeal.Hand

end
-- ==== Proof.KI.Path8.lean ====
import proofs.«418389_j13280038879631_2_alg».proof.Proof.KI.Val9
import proofs.«418389_j13280038879631_2_alg».proof.Proof.KI.Reg8Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start8 : Fin 3 → Int := fun k => ((![3#32, 0#32, 0#32] : Fin 3 → BitVec 32) k).toInt

-- After the level the node array is the old one with the level's output written over the parents' rows.
theorem host9_node (X : Valuation τ sig (Elt F)) :
    StableHlo.after hostOps9 X (Proc.devRef .tc main_v34)
      = Host.dynamicUpdateSlice (X (Proc.devRef .tc main_v30)) (X (Proc.devRef .tc main_v33)) start8 updateFits_S1023x64x256_S4x64x256 := by
  after_results
  refine congrArg (fun s => Host.dynamicUpdateSlice _ _ s _) (funext fun k => ?_)
  fin_cases k <;> rfl

-- The children's and the parents' rows the level reads are slices of the node array it is entered with.
theorem host8_kids (c : Dev nD) : Ven8 m hO c main_v31
    = extractStridedSlice S8x64x256 ![7, 0, 0] (Ven8 m hO c main_v30) slices_S1023x64x256_S8x64x256_7_0_0 := by
  unfold Ven8 Wen8; after_results

theorem host8_pars (c : Dev nD) : Ven8 m hO c main_v32
    = extractStridedSlice S4x64x256 ![3, 0, 0] (Ven8 m hO c main_v30) slices_S1023x64x256_S4x64x256_3_0_0 := by
  unfold Ven8 Wen8; after_results

def klevel8 (h : Vec F S1023x64x256 .f32) (w : Vec F S256x256 .f32) (b : Vec F S256 .f32) : Vec F S1023x64x256 .f32 :=
  Host.dynamicUpdateSlice h
    (treeOut8 (extractStridedSlice S8x64x256 ![7, 0, 0] h slices_S1023x64x256_S8x64x256_7_0_0)
      (extractStridedSlice S4x64x256 ![3, 0, 0] h slices_S1023x64x256_S4x64x256_3_0_0) w b)
    start8 updateFits_S1023x64x256_S4x64x256

theorem path8 (c : Dev nD) :
    Wen9 m hO c (Proc.devRef .tc main_v34)
      = klevel8 (Wen8 m hO c (Proc.devRef .tc main_v30)) (Wen8 m hO c (Proc.devRef .tc main_v2)) (Wen8 m hO c (Proc.devRef .tc main_arg4)) := by
  refine (host9_node (Wex8 m hO c)).trans ?_
  rw [Wex8_of_ne m hO c main_v30 (by decide),
    ((Wex8_arr m hO c 4).trans (final8 (Ven8 m hO) c) : Wex8 m hO c (Proc.devRef .tc main_v33) = _), host8_kids, host8_pars]
  rfl

theorem keep8_w (c : Dev nD) : Wen9 m hO c (Proc.devRef .tc main_v2) = Wen8 m hO c (Proc.devRef .tc main_v2) :=
  (Wen9_keep m hO c main_v2 (by decide)).trans (Wex8_in m hO c 2 rfl)

theorem keep8_b (c : Dev nD) : Wen9 m hO c (Proc.devRef .tc main_arg4) = Wen8 m hO c (Proc.devRef .tc main_arg4) :=
  (Wen9_keep m hO c main_arg4 (by decide)).trans (Wex8_in m hO c 3 rfl)

end Cert.KernelIdeal.Hand

end
-- ==== Proof.KI.Reg9Value.lean ====
import proofs.«418389_j13280038879631_2_alg».proof.Proof.KI.Reg9
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (4 : ℕ)
local notation "parRows" => (2 : ℕ)
local notation "kidAll" => (4 : ℕ)
local notation "parAll" => (2 : ℕ)
local notation "nPts" => (1 : ℕ)

variable (V : (c : Dev nD) → (b : Ref sig .tc) → Buf (Elt F) ((c : Thread nD τ).loc b))

theorem kidRow9_lt (r j : ℕ) (hr : r < parAll) (hj : j < kidRows) : r / parRows * kidRows + j < kidAll := by omega

theorem parRow9_lt (r j : ℕ) (hr : r < parAll) (hj : j < parRows) : r / parRows * parRows + j < parAll := by omega

def treeOut9 (kids : Vec F S4x64x256 .f32) (par : Vec F S2x64x256 .f32) (w : Vec F S256x256 .f32) (b : Vec F S256 .f32) :
    Vec F S2x64x256 .f32 := fun i =>
  k9_pay1
    (fun j => kids (ValueIdx.ix3 ⟨(i 0).val / parRows * kidRows + (j 0).val, kidRow9_lt _ _ (i 0).isLt (j 0).isLt⟩ (j 1) (j 2)))
    w b
    (fun j => par (ValueIdx.ix3 ⟨(i 0).val / parRows * parRows + (j 0).val, parRow9_lt _ _ (i 0).isLt (j 0).isLt⟩ (j 1) (j 2)))
    (ValueIdx.ix3 ⟨(i 0).val % parRows, Nat.mod_lt _ (by decide)⟩ (i 1) (i 2))

theorem idx_facts9 : ∀ t : Fin cfg9.N,
    win9_4.index t (0 : Fin 3) = t.val ∧ win9_4.index t (1 : Fin 3) = 0 ∧ win9_4.index t (2 : Fin 3) = 0
    ∧ win9_0.index t (0 : Fin 3) = t.val ∧ win9_0.index t (1 : Fin 3) = 0 ∧ win9_0.index t (2 : Fin 3) = 0
    ∧ win9_1.index t (0 : Fin 3) = t.val ∧ win9_1.index t (1 : Fin 3) = 0 ∧ win9_1.index t (2 : Fin 3) = 0
    ∧ (∀ a, win9_2.index t a = 0) ∧ ∀ a, win9_3.index t a = 0 :=
  (by decide +kernel : ∀ t : Fin grid9.N, _)

-- Row y of block t is row t * parRows + y of the output; its children and parents are block t of their arrays.
theorem flushed9_eq (c : Dev nD) (t : Fin cfg9.N) :
    (dat9 V c).flushed 4 t = ((cfg9.win 4).blk t).view.read (Elt F) (treeOut9 (V c main_v35) (V c main_v36) (V c main_v2) (V c main_arg4)) := by
  show (cfg9.win 4).cut (grid9.coords t) ((dat9 V c).after 4 t) = _
  rw [after9_4, out9_4_eq]
  obtain ⟨o0, o1, o2, k0, k1, k2, p0, p1, p2, w0, b0⟩ := idx_facts9 t
  funext y
  rw [View.read_apply]
  unfold treeOut9
  have hy0 : (y 0).val < parRows := (y 0).isLt
  show k9_pay1 _ _ _ _ _ = k9_pay1 _ _ _ _ _
  refine congr (congr (congr (congr (congrArg k9_pay1 ?_) ?_) ?_) ?_) ?_
  · funext j
    refine congrArg (V c main_v35) (funext fun a => Fin.ext ?_)
    match a with
    | ⟨0, _⟩ => show win9_0.index t (0 : Fin 3) * kidRows + 1 * (j 0).val = (win9_4.index t (0 : Fin 3) * parRows + 1 * (y 0).val) / parRows * kidRows + (j 0).val; omega
    | ⟨1, _⟩ => exact win9_0.rect_emb_val_of_index_zero t 1 k1 j
    | ⟨2, _⟩ => exact win9_0.rect_emb_val_of_index_zero t 2 k2 j
  · exact funext fun j => congrArg (V c main_v2) (funext fun a => Fin.ext (win9_2.rect_emb_val_of_index_zero t a (w0 a) j))
  · exact funext fun j => congrArg (V c main_arg4) (funext fun a => Fin.ext (win9_3.rect_emb_val_of_index_zero t a (b0 a) j))
  · funext j
    refine congrArg (V c main_v36) (funext fun a => Fin.ext ?_)
    match a with
    | ⟨0, _⟩ => show win9_1.index t (0 : Fin 3) * parRows + 1 * (j 0).val = (win9_4.index t (0 : Fin 3) * parRows + 1 * (y 0).val) / parRows * parRows + (j 0).val; omega
    | ⟨1, _⟩ => exact win9_1.rect_emb_val_of_index_zero t 1 p1 j
    | ⟨2, _⟩ => exact win9_1.rect_emb_val_of_index_zero t 2 p2 j
  · funext a; apply Fin.ext
    match a with
    | ⟨0, _⟩ => show (y 0).val = (win9_4.index t (0 : Fin 3) * parRows + 1 * (y 0).val) % parRows; omega
    | ⟨1, _⟩ => exact (win9_4.rect_emb_val_of_index_zero t 1 o1 y).symm
    | ⟨2, _⟩ => exact (win9_4.rect_emb_val_of_index_zero t 2 o2 y).symm

-- Row r of the output lies in block r / parRows, at row r % parRows.
theorem mem_blk9 (t : Fin cfg9.N) (i : S2x64x256.Idx) (h : (i 0).val / parRows = t.val) : i ∈ ((cfg9.win 4).blk t).view.set := by
  obtain ⟨o0, o1, o2, -⟩ := idx_facts9 t
  have e : ((cfg9.win 4).blk t).view.emb (ValueIdx.ix3 ⟨(i 0).val % parRows, Nat.mod_lt _ (by decide)⟩ (i 1) (i 2)) = i := by
    funext a; apply Fin.ext
    match a with
    | ⟨0, _⟩ => show win9_4.index t (0 : Fin 3) * parRows + 1 * ((i 0).val % parRows) = (i 0).val; omega
    | ⟨1, _⟩ => exact win9_4.rect_emb_val_of_index_zero t 1 o1 _
    | ⟨2, _⟩ => exact win9_4.rect_emb_val_of_index_zero t 2 o2 _
  rw [← e]; exact View.emb_mem_set _ _

theorem final9 (c : Dev nD) :
    (dat9 V c).arrAt 4 cfg9.N = treeOut9 (V c main_v35) (V c main_v36) (V c main_v2) (V c main_arg4) :=
  (dat9 V c).arrAt_eq_of_cover 4 _ (fun t _ => flushed9_eq V c t) fun (i : S2x64x256.Idx) =>
    have hi0 : (i 0).val < parAll := (i 0).isLt
    have hN : cfg9.N = nPts := N_9
    ⟨⟨(i 0).val / parRows, by omega⟩, flush9_4 _, mem_blk9 _ i rfl⟩

end Cert.KernelIdeal.Hand

end
-- ==== Proof.KI.Path9.lean ====
import proofs.«418389_j13280038879631_2_alg».proof.Proof.KI.Val10
import proofs.«418389_j13280038879631_2_alg».proof.Proof.KI.Reg9Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start9 : Fin 3 → Int := fun k => ((![1#32, 0#32, 0#32] : Fin 3 → BitVec 32) k).toInt

-- After the level the node array is the old one with the level's output written over the parents' rows.
theorem host10_node (X : Valuation τ sig (Elt F)) :
    StableHlo.after hostOps10 X (Proc.devRef .tc main_v38)
      = Host.dynamicUpdateSlice (X (Proc.devRef .tc main_v34)) (X (Proc.devRef .tc main_v37)) start9 updateFits_S1023x64x256_S2x64x256 := by
  after_results
  refine congrArg (fun s => Host.dynamicUpdateSlice _ _ s _) (funext fun k => ?_)
  fin_cases k <;> rfl

-- The children's and the parents' rows the level reads are slices of the node array it is entered with.
theorem host9_kids (c : Dev nD) : Ven9 m hO c main_v35
    = extractStridedSlice S4x64x256 ![3, 0, 0] (Ven9 m hO c main_v34) slices_S1023x64x256_S4x64x256_3_0_0 := by
  unfold Ven9 Wen9; after_results

theorem host9_pars (c : Dev nD) : Ven9 m hO c main_v36
    = extractStridedSlice S2x64x256 ![1, 0, 0] (Ven9 m hO c main_v34) slices_S1023x64x256_S2x64x256_1_0_0 := by
  unfold Ven9 Wen9; after_results

def klevel9 (h : Vec F S1023x64x256 .f32) (w : Vec F S256x256 .f32) (b : Vec F S256 .f32) : Vec F S1023x64x256 .f32 :=
  Host.dynamicUpdateSlice h
    (treeOut9 (extractStridedSlice S4x64x256 ![3, 0, 0] h slices_S1023x64x256_S4x64x256_3_0_0)
      (extractStridedSlice S2x64x256 ![1, 0, 0] h slices_S1023x64x256_S2x64x256_1_0_0) w b)
    start9 updateFits_S1023x64x256_S2x64x256

theorem path9 (c : Dev nD) :
    Wen10 m hO c (Proc.devRef .tc main_v38)
      = klevel9 (Wen9 m hO c (Proc.devRef .tc main_v34)) (Wen9 m hO c (Proc.devRef .tc main_v2)) (Wen9 m hO c (Proc.devRef .tc main_arg4)) := by
  refine (host10_node (Wex9 m hO c)).trans ?_
  rw [Wex9_of_ne m hO c main_v34 (by decide),
    ((Wex9_arr m hO c 4).trans (final9 (Ven9 m hO) c) : Wex9 m hO c (Proc.devRef .tc main_v37) = _), host9_kids, host9_pars]
  rfl

theorem keep9_w (c : Dev nD) : Wen10 m hO c (Proc.devRef .tc main_v2) = Wen9 m hO c (Proc.devRef .tc main_v2) :=
  (Wen10_keep m hO c main_v2 (by decide)).trans (Wex9_in m hO c 2 rfl)

theorem keep9_b (c : Dev nD) : Wen10 m hO c (Proc.devRef .tc main_arg4) = Wen9 m hO c (Proc.devRef .tc main_arg4) :=
  (Wen10_keep m hO c main_arg4 (by decide)).trans (Wex9_in m hO c 3 rfl)

end Cert.KernelIdeal.Hand

end
-- ==== Proof.KI.Reg10Value.lean ====
import proofs.«418389_j13280038879631_2_alg».proof.Proof.KI.Reg10
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

local notation "kidRows" => (2 : ℕ)
local notation "parRows" => (1 : ℕ)
local notation "kidAll" => (2 : ℕ)
local notation "parAll" => (1 : ℕ)
local notation "nPts" => (1 : ℕ)

variable (V : (c : Dev nD) → (b : Ref sig .tc) → Buf (Elt F) ((c : Thread nD τ).loc b))

theorem kidRow10_lt (r j : ℕ) (hr : r < parAll) (hj : j < kidRows) : r / parRows * kidRows + j < kidAll := by omega

theorem parRow10_lt (r j : ℕ) (hr : r < parAll) (hj : j < parRows) : r / parRows * parRows + j < parAll := by omega

def treeOut10 (kids : Vec F S2x64x256 .f32) (par : Vec F S1x64x256 .f32) (w : Vec F S256x256 .f32) (b : Vec F S256 .f32) :
    Vec F S1x64x256 .f32 := fun i =>
  k10_pay1
    (fun j => kids (ValueIdx.ix3 ⟨(i 0).val / parRows * kidRows + (j 0).val, kidRow10_lt _ _ (i 0).isLt (j 0).isLt⟩ (j 1) (j 2)))
    w b
    (fun j => par (ValueIdx.ix3 ⟨(i 0).val / parRows * parRows + (j 0).val, parRow10_lt _ _ (i 0).isLt (j 0).isLt⟩ (j 1) (j 2)))
    (ValueIdx.ix3 ⟨(i 0).val % parRows, Nat.mod_lt _ (by decide)⟩ (i 1) (i 2))

theorem idx_facts10 : ∀ t : Fin cfg10.N,
    win10_4.index t (0 : Fin 3) = t.val ∧ win10_4.index t (1 : Fin 3) = 0 ∧ win10_4.index t (2 : Fin 3) = 0
    ∧ win10_0.index t (0 : Fin 3) = t.val ∧ win10_0.index t (1 : Fin 3) = 0 ∧ win10_0.index t (2 : Fin 3) = 0
    ∧ win10_1.index t (0 : Fin 3) = t.val ∧ win10_1.index t (1 : Fin 3) = 0 ∧ win10_1.index t (2 : Fin 3) = 0
    ∧ (∀ a, win10_2.index t a = 0) ∧ ∀ a, win10_3.index t a = 0 :=
  (by decide +kernel : ∀ t : Fin grid10.N, _)

-- Row y of block t is row t * parRows + y of the output; its children and parents are block t of their arrays.
theorem flushed10_eq (c : Dev nD) (t : Fin cfg10.N) :
    (dat10 V c).flushed 4 t = ((cfg10.win 4).blk t).view.read (Elt F) (treeOut10 (V c main_v39) (V c main_v40) (V c main_v2) (V c main_arg4)) := by
  show (cfg10.win 4).cut (grid10.coords t) ((dat10 V c).after 4 t) = _
  rw [after10_4, out10_4_eq]
  obtain ⟨o0, o1, o2, k0, k1, k2, p0, p1, p2, w0, b0⟩ := idx_facts10 t
  funext y
  rw [View.read_apply]
  unfold treeOut10
  have hy0 : (y 0).val < parRows := (y 0).isLt
  show k10_pay1 _ _ _ _ _ = k10_pay1 _ _ _ _ _
  refine congr (congr (congr (congr (congrArg k10_pay1 ?_) ?_) ?_) ?_) ?_
  · funext j
    refine congrArg (V c main_v39) (funext fun a => Fin.ext ?_)
    match a with
    | ⟨0, _⟩ => show win10_0.index t (0 : Fin 3) * kidRows + 1 * (j 0).val = (win10_4.index t (0 : Fin 3) * parRows + 1 * (y 0).val) / parRows * kidRows + (j 0).val; omega
    | ⟨1, _⟩ => exact win10_0.rect_emb_val_of_index_zero t 1 k1 j
    | ⟨2, _⟩ => exact win10_0.rect_emb_val_of_index_zero t 2 k2 j
  · exact funext fun j => congrArg (V c main_v2) (funext fun a => Fin.ext (win10_2.rect_emb_val_of_index_zero t a (w0 a) j))
  · exact funext fun j => congrArg (V c main_arg4) (funext fun a => Fin.ext (win10_3.rect_emb_val_of_index_zero t a (b0 a) j))
  · funext j
    refine congrArg (V c main_v40) (funext fun a => Fin.ext ?_)
    match a with
    | ⟨0, _⟩ => show win10_1.index t (0 : Fin 3) * parRows + 1 * (j 0).val = (win10_4.index t (0 : Fin 3) * parRows + 1 * (y 0).val) / parRows * parRows + (j 0).val; omega
    | ⟨1, _⟩ => exact win10_1.rect_emb_val_of_index_zero t 1 p1 j
    | ⟨2, _⟩ => exact win10_1.rect_emb_val_of_index_zero t 2 p2 j
  · funext a; apply Fin.ext
    match a with
    | ⟨0, _⟩ => show (y 0).val = (win10_4.index t (0 : Fin 3) * parRows + 1 * (y 0).val) % parRows; omega
    | ⟨1, _⟩ => exact (win10_4.rect_emb_val_of_index_zero t 1 o1 y).symm
    | ⟨2, _⟩ => exact (win10_4.rect_emb_val_of_index_zero t 2 o2 y).symm

-- Row r of the output lies in block r / parRows, at row r % parRows.
theorem mem_blk10 (t : Fin cfg10.N) (i : S1x64x256.Idx) (h : (i 0).val / parRows = t.val) : i ∈ ((cfg10.win 4).blk t).view.set := by
  obtain ⟨o0, o1, o2, -⟩ := idx_facts10 t
  have e : ((cfg10.win 4).blk t).view.emb (ValueIdx.ix3 ⟨(i 0).val % parRows, Nat.mod_lt _ (by decide)⟩ (i 1) (i 2)) = i := by
    funext a; apply Fin.ext
    match a with
    | ⟨0, _⟩ => show win10_4.index t (0 : Fin 3) * parRows + 1 * ((i 0).val % parRows) = (i 0).val; omega
    | ⟨1, _⟩ => exact win10_4.rect_emb_val_of_index_zero t 1 o1 _
    | ⟨2, _⟩ => exact win10_4.rect_emb_val_of_index_zero t 2 o2 _
  rw [← e]; exact View.emb_mem_set _ _

theorem final10 (c : Dev nD) :
    (dat10 V c).arrAt 4 cfg10.N = treeOut10 (V c main_v39) (V c main_v40) (V c main_v2) (V c main_arg4) :=
  (dat10 V c).arrAt_eq_of_cover 4 _ (fun t _ => flushed10_eq V c t) fun (i : S1x64x256.Idx) =>
    have hi0 : (i 0).val < parAll := (i 0).isLt
    have hN : cfg10.N = nPts := N_10
    ⟨⟨(i 0).val / parRows, by omega⟩, flush10_4 _, mem_blk10 _ i rfl⟩

end Cert.KernelIdeal.Hand

end
-- ==== Proof.KI.Path10.lean ====
import proofs.«418389_j13280038879631_2_alg».proof.Proof.KI.Val11
import proofs.«418389_j13280038879631_2_alg».proof.Proof.KI.Reg10Value
import Idealize.ShloMosaic.Lib.StableHlo.Run

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def start10 : Fin 3 → Int := fun k => ((![0#32, 0#32, 0#32] : Fin 3 → BitVec 32) k).toInt

-- After the level the node array is the old one with the level's output written over the parents' rows.
theorem host11_node (X : Valuation τ sig (Elt F)) :
    StableHlo.after hostOps11 X (Proc.devRef .tc main_v42)
      = Host.dynamicUpdateSlice (X (Proc.devRef .tc main_v38)) (X (Proc.devRef .tc main_v41)) start10 updateFits_S1023x64x256_S1x64x256 := by
  after_results
  refine congrArg (fun s => Host.dynamicUpdateSlice _ _ s _) (funext fun k => ?_)
  fin_cases k <;> rfl

-- The children's and the parents' rows the level reads are slices of the node array it is entered with.
theorem host10_kids (c : Dev nD) : Ven10 m hO c main_v39
    = extractStridedSlice S2x64x256 ![1, 0, 0] (Ven10 m hO c main_v38) slices_S1023x64x256_S2x64x256_1_0_0 := by
  unfold Ven10 Wen10; after_results

theorem host10_pars (c : Dev nD) : Ven10 m hO c main_v40
    = extractStridedSlice S1x64x256 ![0, 0, 0] (Ven10 m hO c main_v38) slices_S1023x64x256_S1x64x256_0_0_0 := by
  unfold Ven10 Wen10; after_results

def klevel10 (h : Vec F S1023x64x256 .f32) (w : Vec F S256x256 .f32) (b : Vec F S256 .f32) : Vec F S1023x64x256 .f32 :=
  Host.dynamicUpdateSlice h
    (treeOut10 (extractStridedSlice S2x64x256 ![1, 0, 0] h slices_S1023x64x256_S2x64x256_1_0_0)
      (extractStridedSlice S1x64x256 ![0, 0, 0] h slices_S1023x64x256_S1x64x256_0_0_0) w b)
    start10 updateFits_S1023x64x256_S1x64x256

theorem path10 (c : Dev nD) :
    Wen11 m hO c (Proc.devRef .tc main_v42)
      = klevel10 (Wen10 m hO c (Proc.devRef .tc main_v38)) (Wen10 m hO c (Proc.devRef .tc main_v2)) (Wen10 m hO c (Proc.devRef .tc main_arg4)) := by
  refine (host11_node (Wex10 m hO c)).trans ?_
  rw [Wex10_of_ne m hO c main_v38 (by decide),
    ((Wex10_arr m hO c 4).trans (final10 (Ven10 m hO) c) : Wex10 m hO c (Proc.devRef .tc main_v41) = _), host10_kids, host10_pars]
  rfl

theorem keep10_w (c : Dev nD) : Wen11 m hO c (Proc.devRef .tc main_v2) = Wen10 m hO c (Proc.devRef .tc main_v2) :=
  (Wen11_keep m hO c main_v2 (by decide)).trans (Wex10_in m hO c 2 rfl)

theorem keep10_b (c : Dev nD) : Wen11 m hO c (Proc.devRef .tc main_arg4) = Wen10 m hO c (Proc.devRef .tc main_arg4) :=
  (Wen11_keep m hO c main_arg4 (by decide)).trans (Wex10_in m hO c 3 rfl)

end Cert.KernelIdeal.Hand

end
-- ==== Proof.KI.Path11.lean ====
import proofs.«418389_j13280038879631_2_alg».proof.Proof.KI.Path1
import proofs.«418389_j13280038879631_2_alg».proof.Proof.KI.Path2
import proofs.«418389_j13280038879631_2_alg».proof.Proof.KI.Path3
import proofs.«418389_j13280038879631_2_alg».proof.Proof.KI.Path4
import proofs.«418389_j13280038879631_2_alg».proof.Proof.KI.Path5
import proofs.«418389_j13280038879631_2_alg».proof.Proof.KI.Path6
import proofs.«418389_j13280038879631_2_alg».proof.Proof.KI.Path7
import proofs.«418389_j13280038879631_2_alg».proof.Proof.KI.Path8
import proofs.«418389_j13280038879631_2_alg».proof.Proof.KI.Path9
import proofs.«418389_j13280038879631_2_alg».proof.Proof.KI.Path10

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

variable (m : (ℓ : Loc nD τ sig) → Buf (Elt F) ℓ) (hO : Ok0 m)

def ktree (h : Vec F S1023x64x256 .f32) (w : Vec F S256x256 .f32) (b : Vec F S256 .f32) : Vec F S1023x64x256 .f32 :=
  klevel10 (klevel9 (klevel8 (klevel7 (klevel6 (klevel5 (klevel4 (klevel3 (klevel2 h w b) w b) w b) w b) w b) w b) w b) w b) w b

-- Each level's step, with the weight and the bias carried back level by level to the first level's.
theorem path_tree (c : Dev nD) :
    Wen11 m hO c (Proc.devRef .tc main_v42)
      = ktree (Wen2 m hO c (Proc.devRef .tc main_v6)) (Wen2 m hO c (Proc.devRef .tc main_v2)) (Wen2 m hO c (Proc.devRef .tc main_arg4)) := by
  unfold ktree
  rw [path10, path9, keep9_w, keep9_b, path8, keep8_w, keep8_b, path7, keep7_w, keep7_b, path6, keep6_w, keep6_b,
    path5, keep5_w, keep5_b, path4, keep4_w, keep4_b, path3, keep3_w, keep3_b, path2, keep2_w, keep2_b]

end Cert.KernelIdeal.Hand

end
-- ==== Proof.KI.PayValue.lean ====
import proofs.«418389_j13280038879631_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.KernelIdeal.HandValue

open Idealize.ShloMosaic Idealize.SL.Sem Cert.KernelIdeal Cert.KernelIdeal.Gen Idealize.ShloMosaic.ValueIdx
open scoped BigOperators

theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem shapeCast_abc_nc_apply {α : Type} {a b c n : ℕ} (x : (⟨3, ![a, b, c]⟩ : Shape).Idx → α)
    (h : (⟨3, ![a, b, c]⟩ : Shape).ShapeCasts ⟨2, ![n, c]⟩) (i : Fin a) (j : Fin b) (k : Fin c) (m : Fin n)
    (hm : m.val = i.val * b + j.val) :
    shapeCast ⟨2, ![n, c]⟩ x h (ix2 m k) = x (ix3 i j k) :=
  shapeCast_apply x h _ _ (by
    rw [Shape.rowMajor_val_three, Shape.rowMajor_val_two]
    show (i.val * b + j.val) * c + k.val = m.val * c + k.val
    rw [hm])

theorem shapeCast_nc_atbc_apply {α : Type} {a t b c n : ℕ} (x : (⟨2, ![n, c]⟩ : Shape).Idx → α)
    (h : (⟨2, ![n, c]⟩ : Shape).ShapeCasts ⟨4, ![a, t, b, c]⟩) (i : Fin a) (u : Fin t) (j : Fin b) (k : Fin c) (m : Fin n)
    (hm : m.val = (i.val * t + u.val) * b + j.val) :
    shapeCast ⟨4, ![a, t, b, c]⟩ x h (ix4 i u j k) = x (ix2 m k) :=
  shapeCast_apply x h _ _ (by
    rw [Shape.rowMajor_val_four, Shape.rowMajor_val_two]
    show m.val * c + k.val = ((i.val * t + u.val) * b + j.val) * c + k.val
    rw [hm])

theorem shapeCast_a1bc_abc_apply {α : Type} {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

-- A product accumulated onto zero, read at (m, e): the row m against the column e.
theorem matmul_plain_apply {n : ℕ} (A : FVec Ideal ⟨2, ![n, 256]⟩ .bf16) (B : FVec Ideal ⟨2, ![256, 256]⟩ .bf16) (m : Fin n) (e : Fin 256) :
    matmul (DotDims.plain n 256 256) none A B (constant (F := Ideal) ⟨2, ![n, 256]⟩ .f32 0x00000000#32) (ix2 m e)
      = ∑ k : Fin 256, A (ix2 m k) * B (ix2 k e) := by
  rw [matmul_zero_eq_dotGeneral]; exact StackMember.dotGeneral_plain_apply none A B m e

-- The children's rows flattened, multiplied and biased, read at the flattened row m = i * 64 + q.
theorem linear_apply {c r : ℕ} (d : DotDims ⟨2, ![r, 256]⟩ ⟨2, ![256, 256]⟩ ⟨2, ![r, 256]⟩) (hd : d = DotDims.plain r 256 256)
    (x : Vec Ideal ⟨3, ![c, 64, 256]⟩ .f32) (w : Vec Ideal ⟨2, ![256, 256]⟩ .f32) (b : Vec Ideal ⟨1, ![256]⟩ .f32)
    (h1 : (⟨3, ![c, 64, 256]⟩ : Shape).ShapeCasts ⟨3, ![c, 64, 256]⟩) (h2 : (⟨3, ![c, 64, 256]⟩ : Shape).ShapeCasts ⟨2, ![r, 256]⟩)
    (h3 : (⟨2, ![256, 256]⟩ : Shape).ShapeCasts ⟨2, ![256, 256]⟩) (h4 : (⟨1, ![256]⟩ : Shape).ShapeCasts ⟨2, ![1, 256]⟩) (h5 : (⟨2, ![1, 256]⟩ : Shape).Broadcasts ⟨2, ![r, 256]⟩)
    (i : Fin c) (q : Fin 64) (e : Fin 256) (m : Fin r) (hm : m.val = i.val * 64 + q.val) :
    addf (matmul d none (truncf .bf16 (shapeCast ⟨2, ![r, 256]⟩ (shapeCast ⟨3, ![c, 64, 256]⟩ x h1) h2) bitsLt_bf16_f32)
        (truncf .bf16 (shapeCast ⟨2, ![256, 256]⟩ w h3) bitsLt_bf16_f32) (constant (F := Ideal) ⟨2, ![r, 256]⟩ .f32 0x00000000#32))
      (broadcastTo ⟨2, ![r, 256]⟩ (shapeCast ⟨2, ![1, 256]⟩ b h4) h5) (ix2 m e)
      = (∑ k : Fin 256, x (ix3 i q k) * w (ix2 k e)) + b (ix1 e) := by
  subst hd
  rw [addf_apply, matmul_plain_apply, broadcastTo_1b_ab_apply, shapeCast_a_1a_apply]
  simp only [truncf_apply, shapeCast_abc_nc_apply _ _ i q _ m hm, shapeCast_self]

-- Rows (i, q) flattened to m = i * 64 + q, split in pairs and the pairs added onto the parents: at (p, q, e) the parent plus rows 2 p and 2 p + 1.
theorem pair_apply {c r n : ℕ} (L : FVec Ideal ⟨2, ![r, 256]⟩ .f32) (par : Vec Ideal ⟨3, ![n, 64, 256]⟩ .f32)
    (h6 : (⟨2, ![r, 256]⟩ : Shape).ShapeCasts ⟨4, ![n, 2, 64, 256]⟩) (h7 : (⟨4, ![n, 2, 64, 256]⟩ : Shape).Slices ![0, 0, 0, 0] ⟨4, ![n, 1, 64, 256]⟩)
    (h8 : (⟨4, ![n, 2, 64, 256]⟩ : Shape).Slices ![0, 1, 0, 0] ⟨4, ![n, 1, 64, 256]⟩) (h9 : (⟨4, ![n, 1, 64, 256]⟩ : Shape).ShapeCasts ⟨3, ![n, 64, 256]⟩)
    (h10 : (⟨3, ![n, 64, 256]⟩ : Shape).ShapeCasts ⟨3, ![n, 64, 256]⟩) (f : Fin c → Fin 64 → Fin 256 → EReal)
    (hL : ∀ (i : Fin c) (q : Fin 64) (e : Fin 256) (m : Fin r), m.val = i.val * 64 + q.val → L (ix2 m e) = f i q e)
    (hc : c = 2 * n) (hr : r = c * 64) (p : Fin n) (q : Fin 64) (e : Fin 256) :
    addf (shapeCast ⟨3, ![n, 64, 256]⟩ par h10)
      (addf (shapeCast ⟨3, ![n, 64, 256]⟩ (extractStridedSlice ⟨4, ![n, 1, 64, 256]⟩ ![0, 0, 0, 0] (shapeCast ⟨4, ![n, 2, 64, 256]⟩ L h6) h7) h9)
        (shapeCast ⟨3, ![n, 64, 256]⟩ (extractStridedSlice ⟨4, ![n, 1, 64, 256]⟩ ![0, 1, 0, 0] (shapeCast ⟨4, ![n, 2, 64, 256]⟩ L h6) h8) h9)) (ix3 p q e)
      = par (ix3 p q e) + (f ⟨2 * p.val, by omega⟩ q e + f ⟨2 * p.val + 1, by omega⟩ q e) := by
  rw [addf_apply, addf_apply, shapeCast_self par, shapeCast_a1bc_abc_apply, shapeCast_a1bc_abc_apply,
    slice4_axis1_apply 0 _ _ p (0 : Fin 1) q e (0 : Fin 2) rfl, slice4_axis1_apply 1 _ _ p (0 : Fin 1) q e (1 : Fin 2) rfl,
    shapeCast_nc_atbc_apply _ _ p (0 : Fin 2) q e ⟨(2 * p.val) * 64 + q.val, by omega⟩
      (by show (2 * p.val) * 64 + q.val = (p.val * 2 + 0) * 64 + q.val; omega),
    shapeCast_nc_atbc_apply _ _ p (1 : Fin 2) q e ⟨(2 * p.val + 1) * 64 + q.val, by omega⟩
      (by show (2 * p.val + 1) * 64 + q.val = (p.val * 2 + 1) * 64 + q.val; omega),
    hL ⟨2 * p.val, by omega⟩ q e _ rfl, hL ⟨2 * p.val + 1, by omega⟩ q e _ rfl]

theorem k1_pay1_apply (x : Vec Ideal S2112x1x256 .f32) (w : Vec Ideal S256x256 .f32) (b : Vec Ideal S256 .f32)
    (r : Fin 2112) (e : Fin 256) :
    k1_pay1 (F := Ideal) x w b (ix3 r 0 e) = (∑ k : Fin 256, x (ix3 r 0 k) * w (ix2 k e)) + b (ix1 e) := by
  unfold k1_pay1
  rw [shapeCast_ab_a1b_apply, addf_apply, show dot_S2112x256_S256x256_S2112x256_1_0_0_1_n_n = DotDims.plain 2112 256 256 from rfl,
    matmul_plain_apply, broadcastTo_1b_ab_apply, shapeCast_a_1a_apply]
  simp only [truncf_apply, shapeCast_a1b_ab_apply, shapeCast_self]

theorem k2_pay1_apply (x : Vec Ideal S64x64x256 .f32) (w : Vec Ideal S256x256 .f32) (b : Vec Ideal S256 .f32)
    (par : Vec Ideal S32x64x256 .f32) (p : Fin 32) (q : Fin 64) (e : Fin 256) :
    k2_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  unfold k2_pay1
  exact pair_apply _ par _ _ _ _ _ _ (linear_apply _ rfl x w b _ _ _ _ _) (by omega) (by omega) p q e

theorem ofBits_neg_inf_f32 : Ideal.ofBits .f32 0xFF800000#32 = (⊥ : EReal) := by simp [Ideal.ofBits, Ideal.ieee]

theorem k11_pay1_apply (i : S1x64x256.Idx) : k11_pay1 (F := Ideal) i = (⊥ : EReal) := by
  unfold k11_pay1
  rw [shapeCast_self]
  exact ofBits_neg_inf_f32

theorem k11_pay2_apply (x : Vec Ideal S1x64x256 .f32) (i : S1x64x256.Idx) :
    k11_pay2 (F := Ideal) x i = max (x i) 0 := by
  unfold k11_pay2
  rw [maximumf_apply, shapeCast_self]
  exact congrArg (max (x i)) Ideal.ofBits_zero_f32

theorem k11_pay3_apply (x acc : Vec Ideal S1x64x256 .f32) (i : S1x64x256.Idx) :
    k11_pay3 (F := Ideal) x acc i = max (acc i) (max (x i) 0) := by
  unfold k11_pay3
  rw [shapeCast_self, maximumf_apply, k11_pay2_apply]

theorem k11_pay4_apply (acc : Vec Ideal S1x64x256 .f32) (q : Fin 64) (e : Fin 256) :
    k11_pay4 (F := Ideal) acc (ix2 q e) = acc (ix3 0 q e) := by
  unfold k11_pay4
  exact shapeCast_1ab_ab_apply acc _ q e

end Cert.KernelIdeal.HandValue

end
-- ==== Proof.KI.Reg0Value.lean ====
import proofs.«418389_j13280038879631_2_alg».proof.Proof.KI.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

variable (V : (c : Dev nD) → (b : Ref sig .tc) → Buf (Elt F) ((c : Thread nD τ).loc b))

theorem hz0 : (![0, 0, 0] : Fin 3 → Nat) = fun _ => 0 := funext fun a => by fin_cases a <;> rfl

theorem k0_pay1_eq (x0 : Vec F S1x1x256 .f32) : k0_pay1 x0 = x0 := by
  unfold k0_pay1
  exact shapeCast_self x0 _

theorem out0_1_eq (x0 : Vec F S1x1x256 .f32) : out0_1 x0 = k0_pay1 x0 := by
  unfold out0_1
  rw [View.canon_unit_zero hz0]
  rw [View.ld_unit_zero (S := S1x1x256) hz0]

theorem lt_of_point (t : Fin grid0.N) : t.val < 65472 := Nat.lt_of_lt_of_eq t.isLt N_0

theorem coords0_val (t : Fin grid0.N) : (grid0.coords t 0).val = t.val := by
  have ht := lt_of_point t
  show t.val / grid0.stride 0 % grid0.bound 0 = t.val
  rw [show grid0.stride 0 = 1 from by decide, show grid0.bound 0 = 65472 from rfl]
  omega

theorem toNat_ofNat_row (n : Nat) (h : n < 65472) : (BitVec.ofNat 32 n).toNat = n := by
  rw [BitVec.toNat_ofNat]; exact Nat.mod_eq_of_lt (by omega)

def srcRow (pf : pre0.Contents (Elt F)) (r : Fin 65472) : Nat := (pf 0 (ValueIdx.ix1 r) : BitVec 32).toNat

theorem index1_eq (a : (pcfg0 (F := F)).Adm) (t : Fin (cfg0 a).N) : ((cfg0 a).win 1).index t = ![t.val, 0, 0] := by
  show ![(BitVec.ofNat 32 (grid0.coords t 0).val).toNat, 0, 0] = _
  rw [coords0_val, toNat_ofNat_row _ (lt_of_point t)]

theorem index0_eq (a : (pcfg0 (F := F)).Adm) (t : Fin (cfg0 a).N) : ((cfg0 a).win 0).index t = ![srcRow a.1 ⟨t.val, lt_of_point t⟩, 0, 0] := by
  show ![(a.1.at 0 (Rect.unit (s := S65472) (k0_off1 (grid0.coords t)) S1.size (k0_off1_inb (grid0.coords t))) numel1_S1 : BitVec 32).toNat, 0, 0] = _
  have e : (Rect.unit (s := S65472) (k0_off1 (grid0.coords t)) S1.size (k0_off1_inb (grid0.coords t))).emb (Shape.Idx.first (numel1_S1.symm ▸ Nat.one_pos)) = ValueIdx.ix1 ⟨t.val, lt_of_point t⟩ := by
    funext d
    match d with
    | ⟨0, _⟩ =>
      apply Fin.ext
      show k0_off1 (grid0.coords t) 0 + 1 * 0 = t.val
      rw [k0_off1_eq]
      show (grid0.coords t 0).val + 1 * 0 = t.val
      rw [coords0_val]; omega
  show ![(a.1 0 ((Rect.unit (s := S65472) (k0_off1 (grid0.coords t)) S1.size (k0_off1_inb (grid0.coords t))).emb (Shape.Idx.first (numel1_S1.symm ▸ Nat.one_pos))) : BitVec 32).toNat, 0, 0] = _
  rw [e]
  rfl

theorem srcRow_lt (a : (pcfg0 (F := F)).Adm) (r : Fin 65472) : srcRow a.1 r < 65472 := by
  have hr : r.val < grid0.N := Nat.lt_of_lt_of_eq r.isLt N_0.symm
  obtain ⟨h, -⟩ := a.2 (grid0.coords ⟨r.val, hr⟩)
  have h0 := h 0
  have e : cc0_transform_0 k0_off1_inb numel1_S1 a.1 (grid0.coords ⟨r.val, hr⟩) = ![srcRow a.1 r, 0, 0] := index0_eq a ⟨r.val, hr⟩
  rw [e] at h0
  have h1 : (srcRow a.1 r + 1) * 1 ≤ 65472 := h0
  omega

theorem flush0_1 (a : (pcfg0 (F := F)).Adm) (t : Fin (cfg0 a).N) : ((cfg0 a).win 1).flush t = true := by
  unfold Pipeline.Window.flush
  rw [show ((cfg0 a).win 1).isOut = true from rfl, Bool.true_and, Bool.or_eq_true, decide_eq_true_eq, decide_eq_true_eq]
  by_cases hl : t.val + 1 = grid0.N
  · exact .inl hl
  · have ht : t.val + 1 < grid0.N := by have hlt : t.val < grid0.N := t.isLt; omega
    refine .inr ⟨ht, ?_⟩
    rw [index1_eq, index1_eq]
    intro e
    have e0 : t.val + 1 = t.val := congrFun e 0
    omega

theorem mem_blk1 (a : (pcfg0 (F := F)).Adm) (t : Fin (cfg0 a).N) (i : S65472x1x256.Idx) :
    i ∈ (((cfg0 a).win 1).blk t).view.set ↔ ∀ ax : Fin 3, ((cfg0 a).win 1).index t ax * S1x1x256.size ax ≤ (i ax).val ∧ (i ax).val < ((cfg0 a).win 1).index t ax * S1x1x256.size ax + S1x1x256.size ax := by
  have hs : (((cfg0 a).win 1).blk t).view.set = (((cfg0 a).win 1).rect t).set := View.set_slice_whole main_v4 _
  rw [hs]
  exact Rect.mem_set_unit

def srcIdx (a : (pcfg0 (F := F)).Adm) (i : S65472x1x256.Idx) : S65472x1x256.Idx :=
  ValueIdx.ix3 ⟨srcRow a.1 (i 0), srcRow_lt a (i 0)⟩ (i 1) (i 2)

def G0 (a : (pcfg0 (F := F)).Adm) (c : Dev nD) : S65472x1x256.Idx → Elt F .f32 :=
  fun i => (V c (Pipeline.arrRef spec0 0) : S65472x1x256.Idx → Elt F .f32) (srcIdx a i)

abbrev iemb (a : (pcfg0 (F := F)).Adm) (t : Fin (cfg0 a).N) (y : S1x1x256.Idx) : S65472x1x256.Idx := (((cfg0 a).win 0).blk t).view.emb y
abbrev oemb (a : (pcfg0 (F := F)).Adm) (t : Fin (cfg0 a).N) (y : S1x1x256.Idx) : S65472x1x256.Idx := (((cfg0 a).win 1).blk t).view.emb y

theorem emb0_eq (a : (pcfg0 (F := F)).Adm) (t : Fin (cfg0 a).N) (y : S1x1x256.Idx) :
    iemb a t y = srcIdx a (oemb a t y) := by
  have hy0 : (y 0).val = 0 := by have h : (y 0).val < 1 := (y 0).isLt; omega
  have hr : oemb a t y 0 = ⟨t.val, lt_of_point t⟩ := by
    apply Fin.ext
    show ((cfg0 a).win 1).index t (0 : Fin 3) * 1 + 1 * (y 0).val = t.val
    rw [index1_eq]
    show t.val * 1 + 1 * (y 0).val = t.val
    omega
  funext ax; apply Fin.ext
  match ax with
  | ⟨0, _⟩ =>
    show ((cfg0 a).win 0).index t (0 : Fin 3) * 1 + 1 * (y 0).val = srcRow a.1 (oemb a t y 0)
    rw [hr, index0_eq]
    show srcRow a.1 ⟨t.val, lt_of_point t⟩ * 1 + 1 * (y 0).val = srcRow a.1 ⟨t.val, lt_of_point t⟩
    omega
  | ⟨1, _⟩ =>
    show ((cfg0 a).win 0).index t (1 : Fin 3) * 1 + 1 * (y 1).val = ((cfg0 a).win 1).index t (1 : Fin 3) * 1 + 1 * (y 1).val
    rw [index0_eq, index1_eq]
    rfl
  | ⟨2, _⟩ =>
    show ((cfg0 a).win 0).index t (2 : Fin 3) * 256 + 1 * (y 2).val = ((cfg0 a).win 1).index t (2 : Fin 3) * 256 + 1 * (y 2).val
    rw [index0_eq, index1_eq]
    rfl

theorem flushed0_eq (a : (pcfg0 (F := F)).Adm) (c : Dev nD) (t : Fin (cfg0 a).N) :
    (dat0 V a c).flushed 1 t = (((cfg0 a).win 1).blk t).view.read (Elt F) (G0 V a c) := by
  have e1 : out0_1 (iblk0 V a c 0 t) = iblk0 V a c 0 t := (out0_1_eq _).trans (k0_pay1_eq _)
  show ((cfg0 a).win 1).cut (grid0.coords t) ((dat0 V a c).after 1 t) = _
  rw [after0_1]
  refine (congrArg (((cfg0 a).win 1).cut (grid0.coords t)) e1).trans ?_
  funext y
  show (V c (Pipeline.arrRef spec0 0) : S65472x1x256.Idx → Elt F .f32) (iemb a t y) = (V c (Pipeline.arrRef spec0 0) : S65472x1x256.Idx → Elt F .f32) (srcIdx a (oemb a t y))
  rw [emb0_eq a t y]

theorem cover0 (a : (pcfg0 (F := F)).Adm) (i : S65472x1x256.Idx) :
    ∃ t : Fin (cfg0 a).N, ((cfg0 a).win 1).flush t = true ∧ i ∈ (((cfg0 a).win 1).blk t).view.set := by
  have hi0 : (i 0).val < 65472 := (i 0).isLt
  have hi1 : (i 1).val < 1 := (i 1).isLt
  have hi2 : (i 2).val < 256 := (i 2).isLt
  refine ⟨⟨(i 0).val, Nat.lt_of_lt_of_eq hi0 N_0.symm⟩, flush0_1 a _, ?_⟩
  rw [mem_blk1, index1_eq]
  intro ax
  match ax with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 256 ≤ (i 2).val ∧ (i 2).val < 0 * 256 + 256; omega

theorem final0 (a : (pcfg0 (F := F)).Adm) (c : Dev nD) : (dat0 V a c).arrAt 1 (cfg0 a).N = G0 V a c :=
  (dat0 V a c).arrAt_eq_of_cover 1 (G0 V a c) (fun t _ => flushed0_eq V a c t) (cover0 a)

theorem srcRow_eq (pf : pre0.Contents (Elt F)) (r : Fin 65472) : srcRow pf r = (pf 0 (ValueIdx.ix1 r) : BitVec 32).toNat := rfl
theorem srcIdx_0 (a : (pcfg0 (F := F)).Adm) (i : S65472x1x256.Idx) : (srcIdx a i 0).val = srcRow a.1 (i 0) := rfl
theorem srcIdx_1 (a : (pcfg0 (F := F)).Adm) (i : S65472x1x256.Idx) : srcIdx a i 1 = i 1 := rfl
theorem srcIdx_2 (a : (pcfg0 (F := F)).Adm) (i : S65472x1x256.Idx) : srcIdx a i 2 = i 2 := rfl
theorem G0_apply (a : (pcfg0 (F := F)).Adm) (c : Dev nD) (i : S65472x1x256.Idx) :
    G0 V a c i = (V c (Pipeline.arrRef spec0 0) : S65472x1x256.Idx → Elt F .f32) (srcIdx a i) := rfl

end Cert.KernelIdeal.Hand

end
-- ==== Proof.KI.Reg1Value.lean ====
import proofs.«418389_j13280038879631_2_alg».proof.Proof.KI.Reg1
import Idealize.ShloMosaic.Lib.ValueIdx

noncomputable section

namespace Cert.KernelIdeal.Hand

open Cert.KernelIdeal Cert.KernelIdeal.Gen
open Idealize.ShloMosaic Idealize.ShloMosaic.TcCoe Idealize.SL.Sem

variable {F : FTy → Type} [FloatOps F]

variable (V : (c : Dev nD) → (b : Ref sig .tc) → Buf (Elt F) ((c : Thread nD τ).loc b))

theorem idx_facts1 : ∀ t : Fin cfg1.N,
    (∀ a, win1_1.index t a = 0) ∧ (∀ a, win1_2.index t a = 0)
    ∧ win1_0.index t (0 : Fin 3) = t.val ∧ win1_0.index t (1 : Fin 3) = 0 ∧ win1_0.index t (2 : Fin 3) = 0
    ∧ win1_3.index t (0 : Fin 3) = t.val ∧ win1_3.index t (1 : Fin 3) = 0 ∧ win1_3.index t (2 : Fin 3) = 0 :=
  (by decide +kernel : ∀ t : Fin grid1.N, _)

theorem iblk1_1_eq (c : Dev nD) (t : Fin cfg1.N) : iblk1 V c 1 t = V c main_v1 :=
  funext fun y => congrArg (V c main_v1) (funext fun a => Fin.ext (win1_1.rect_emb_val_of_index_zero t a ((idx_facts1 t).1 a) y))

theorem iblk1_2_eq (c : Dev nD) (t : Fin cfg1.N) : iblk1 V c 2 t = V c main_arg2 :=
  funext fun y => congrArg (V c main_arg2) (funext fun a => Fin.ext (win1_2.rect_emb_val_of_index_zero t a ((idx_facts1 t).2.1 a) y))

theorem iblk1_0_apply (c : Dev nD) (t : Fin cfg1.N) (j : S2112x1x256.Idx) (i : S65472x1x256.Idx)
    (h0 : (i 0).val = t.val * 2112 + (j 0).val) (h1 : (i 1).val = (j 1).val) (h2 : (i 2).val = (j 2).val) :
    iblk1 V c 0 t j = V c main_v4 i := by
  obtain ⟨-, -, e0, e1, e2, -⟩ := idx_facts1 t
  refine congrArg (V c main_v4) (funext fun a => Fin.ext ?_)
  match a with
  | ⟨0, _⟩ => show win1_0.index t (0 : Fin 3) * 2112 + 1 * (j 0).val = (i 0).val; omega
  | ⟨1, _⟩ => show win1_0.index t (1 : Fin 3) * 1 + 1 * (j 1).val = (i 1).val; omega
  | ⟨2, _⟩ => show win1_0.index t (2 : Fin 3) * 256 + 1 * (j 2).val = (i 2).val; omega

def rowPt1 (i : S65472x1x256.Idx) : Fin cfg1.N := ⟨(i 0).val / 2112, by
  have h : (i 0).val < 65472 := (i 0).isLt
  have hN : cfg1.N = 31 := N_1
  omega⟩

def inBlk1 (i : S65472x1x256.Idx) : S2112x1x256.Idx :=
  ValueIdx.ix3 (n0 := 2112) (n1 := 1) (n2 := 256) ⟨(i 0).val % 2112, Nat.mod_lt _ (by decide)⟩ (i 1) (i 2)

def lin1 (c : Dev nD) : S65472x1x256.Idx → Elt F .f32 := fun i =>
  k1_pay1 (iblk1 V c 0 (rowPt1 i)) (V c main_v1) (V c main_arg2) (inBlk1 i)

-- Row t * 2112 + j of the output is row j of block t.
theorem lin1_at (c : Dev nD) (t : Fin cfg1.N) (i : S65472x1x256.Idx) (j : S2112x1x256.Idx)
    (h0 : (i 0).val = t.val * 2112 + (j 0).val) (h1 : (i 1).val = (j 1).val) (h2 : (i 2).val = (j 2).val) :
    lin1 V c i = k1_pay1 (iblk1 V c 0 t) (V c main_v1) (V c main_arg2) j := by
  have hj : (j 0).val < 2112 := (j 0).isLt
  have ht : rowPt1 i = t := Fin.ext (by show (i 0).val / 2112 = t.val; omega)
  have hb : inBlk1 i = j := by
    funext a; apply Fin.ext
    match a with
    | ⟨0, _⟩ => show (i 0).val % 2112 = (j 0).val; omega
    | ⟨1, _⟩ => exact h1
    | ⟨2, _⟩ => exact h2
  unfold lin1; rw [ht, hb]

theorem flushed1_3_eq (c : Dev nD) (t : Fin cfg1.N) :
    (dat1 V c).flushed 3 t = ((cfg1.win 3).blk t).view.read (Elt F) (lin1 V c) := by
  show (cfg1.win 3).cut (grid1.coords t) ((dat1 V c).after 3 t) = _
  rw [after1_3, out1_3_eq, iblk1_1_eq, iblk1_2_eq]
  obtain ⟨-, -, -, -, -, e6, e7, e8⟩ := idx_facts1 t
  funext j
  refine (lin1_at V c t (((cfg1.win 3).blk t).view.emb j) j ?_ (win1_3.rect_emb_val_of_index_zero t 1 e7 j) (win1_3.rect_emb_val_of_index_zero t 2 e8 j)).symm
  show win1_3.index t (0 : Fin 3) * 2112 + 1 * (j 0).val = t.val * 2112 + (j 0).val; omega

-- Row r of the output lies in block r / 2112, at row r % 2112.
theorem mem_blk1_3 (t : Fin cfg1.N) (i : S65472x1x256.Idx) (h : (i 0).val / 2112 = t.val) : i ∈ ((cfg1.win 3).blk t).view.set := by
  obtain ⟨-, -, -, -, -, e6, e7, e8⟩ := idx_facts1 t
  have e : ((cfg1.win 3).blk t).view.emb (inBlk1 i) = i := by
    funext a; apply Fin.ext
    match a with
    | ⟨0, _⟩ => show win1_3.index t (0 : Fin 3) * 2112 + 1 * ((i 0).val % 2112) = (i 0).val; omega
    | ⟨1, _⟩ => exact win1_3.rect_emb_val_of_index_zero t 1 e7 _
    | ⟨2, _⟩ => exact win1_3.rect_emb_val_of_index_zero t 2 e8 _
  rw [← e]; exact View.emb_mem_set _ _

theorem final1 (c : Dev nD) : (dat1 V c).arrAt 3 cfg1.N = lin1 V c :=
  (dat1 V c).arrAt_eq_of_cover 3 (lin1 V c) (fun t _ => flushed1_3_eq V c t)
    fun (i : S65472x1x256.Idx) => ⟨rowPt1 i, flush1_3 _, mem_blk1_3 _ i rfl⟩

theorem final1_apply (c : Dev nD) (i : S65472x1x256.Idx) :
    (dat1 V c).arrAt 3 cfg1.N i = k1_pay1 (iblk1 V c 0 (rowPt1 i)) (V c main_v1) (V c main_arg2) (inBlk1 i) := by
  rw [final1]; rfl

end Cert.KernelIdeal.Hand

end
-- ==== Proof.KI.LinValue.lean ====
import proofs.«418389_j13280038879631_2_alg».proof.Proof.KI.Val2
import proofs.«418389_j13280038879631_2_alg».proof.Proof.KI.TableFacts
import proofs.«418389_j13280038879631_2_alg».proof.Proof.KI.PayValue
import proofs.«418389_j13280038879631_2_alg».proof.Proof.KI.Reg0Value
import proofs.«418389_j13280038879631_2_alg».proof.Proof.KI.Reg1Value
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open scoped BigOperators

theorem hostOps2_v6 (W : Valuation τ sig (Elt Ideal)) (p : Fin 1023) (q : Fin 64) (e : Fin 256) :
    StableHlo.after hostOps2 W (Proc.devRef .tc main_v6) (ix3 (n0 := 1023) (n1 := 64) (n2 := 256) p q e)
      = W (Proc.devRef .tc main_v5) (ix3 (n0 := 65472) (n1 := 1) (n2 := 256) ⟨p.val * 64 + q.val, by omega⟩ 0 e) := by
  have h : StableHlo.after hostOps2 W (Proc.devRef .tc main_v6)
      = shapeCast S1023x64x256 (W (Proc.devRef .tc main_v5)) Facts₀.shapeCasts_S65472x1x256_S1023x64x256 := by
    after_results
    rfl
  rw [h]
  refine shapeCast_apply (s := S65472x1x256) (t := S1023x64x256) _ _ _ _ ?_
  rw [Shape.rowMajor_val_three, Shape.rowMajor_val_three]
  show ((p.val * 64 + q.val) * 1 + 0) * 256 + e.val = (p.val * 64 + q.val) * 256 + e.val
  omega

theorem hostOps0_v1 (W : Valuation τ sig (Elt Ideal)) (k e : Fin 256) :
    StableHlo.after hostOps0 W (Proc.devRef .tc main_v1) (ix2 (n0 := 256) (n1 := 256) k e)
      = W (Proc.devRef .tc main_arg1) (ix2 (n0 := 256) (n1 := 256) e k) := by
  have h : StableHlo.after hostOps0 W (Proc.devRef .tc main_v1)
      = transpose S256x256 [1, 0] (W (Proc.devRef .tc main_arg1)) Facts₀.transposes_S256x256_S256x256_1_0 := by
    after_results
  rw [h]
  exact transpose_ix2_apply _ _ k e

theorem hostOps0_v3 (W : Valuation τ sig (Elt Ideal)) (n : Fin 65472) (u : Fin 1) (k : Fin 256) :
    StableHlo.after hostOps0 W (Proc.devRef .tc main_v3) (ix3 (n0 := 65472) (n1 := 1) (n2 := 256) n u k)
      = W (Proc.devRef .tc main_arg0) (ix2 (n0 := 65472) (n1 := 256) n k) := by
  have h : StableHlo.after hostOps0 W (Proc.devRef .tc main_v3)
      = shapeCast S65472x1x256 (W (Proc.devRef .tc main_arg0)) Facts₀.shapeCasts_S65472x256_S65472x1x256 := by
    after_results
    rfl
  rw [h]
  exact shapeCast_ab_a1b_apply _ _ n u k

variable (m : (ℓ : Loc nD τ sig) → Buf (Elt Ideal) ℓ) (hO : Ok0 m)

theorem ven1_bias (c : Dev nD) : Ven1 m hO c main_arg2 = m (c, Proc.devRef .tc main_arg2) :=
  (Wex0_of_ne m hO c main_arg2 (by decide)).trans (Wen0_keep m c main_arg2 (by decide))

theorem ven1_weight (c : Dev nD) (k e : Fin 256) :
    Ven1 m hO c main_v1 (ix2 (n0 := 256) (n1 := 256) k e) = m (c, Proc.devRef .tc main_arg1) (ix2 (n0 := 256) (n1 := 256) e k) := by
  rw [show Ven1 m hO c main_v1 = Wen0 m c (Proc.devRef .tc main_v1) from Wex0_of_ne m hO c main_v1 (by decide)]
  exact hostOps0_v1 _ k e

theorem tbl0_apply (n : Fin 65472) :
    tbl0 m 0 (ix1 (n := 65472) n) = m ((0 : Dev nD), Proc.devRef .tc main_arg5)
      (ix2 (n0 := 1023) (n1 := 64) ⟨n.val / 64, by omega⟩ ⟨n.val % 64, Nat.mod_lt _ (by omega)⟩) :=
  hostOps0_v0 (W0 m 0) (ix1 (n := 65472) n)

theorem tbl0_at (p : Fin 1023) (q : Fin 64) (n : Fin 65472) (hn : n.val = p.val * 64 + q.val) :
    tbl0 m 0 (ix1 (n := 65472) n) = m ((0 : Dev nD), Proc.devRef .tc main_arg5) (ix2 (n0 := 1023) (n1 := 64) p q) := by
  rw [tbl0_apply]
  refine congrArg _ ?_
  funext a; apply Fin.ext
  match a with
  | ⟨0, _⟩ => show n.val / 64 = p.val; omega
  | ⟨1, _⟩ => show n.val % 64 = q.val; omega

def GatherLeaves : Prop :=
  ∀ (c : Dev nD) (i i' : S65472x1x256.Idx), (i' 0).val = (tbl0 m 0 (ix1 (n := 65472) (i 0))).toNat → (i' 1).val = (i 1).val → (i' 2).val = (i 2).val →
    (dat0 (Ven0 m) (adm0 m hO) c).arrAt 1 (cfg0 (adm0 m hO)).N i = Ven0 m c main_v3 i'

theorem ven1_rows (hg : GatherLeaves m hO) (c : Dev nD) (hlt : ∀ i, (m (c, Proc.devRef .tc main_arg5) i).toNat < 65472)
    (p : Fin 1023) (q : Fin 64) (n : Fin 65472) (hn : n.val = p.val * 64 + q.val) (k : Fin 256) :
    Ven1 m hO c main_v4 (ix3 (n0 := 65472) (n1 := 1) (n2 := 256) n 0 k)
      = m (c, Proc.devRef .tc main_arg0) (ix2 (n0 := 65472) (n1 := 256)
          ⟨(m (c, Proc.devRef .tc main_arg5) (ix2 (n0 := 1023) (n1 := 64) p q)).toNat, hlt _⟩ k) := by
  obtain rfl : c = 0 := Subsingleton.elim _ _
  have h1 : Ven1 m hO 0 main_v4 = (dat0 (Ven0 m) (adm0 m hO) 0).arrAt 1 (cfg0 (adm0 m hO)).N := Wex0_arr m hO 0 1
  have hw : (tbl0 m 0 (ix1 (n := 65472) n)).toNat = (m ((0 : Dev nD), Proc.devRef .tc main_arg5) (ix2 (n0 := 1023) (n1 := 64) p q)).toNat :=
    congrArg BitVec.toNat (tbl0_at m p q n hn)
  refine (congrFun h1 _).trans ((hg 0 (ix3 (n0 := 65472) (n1 := 1) (n2 := 256) n 0 k)
    (ix3 (n0 := 65472) (n1 := 1) (n2 := 256) ⟨_, hlt (ix2 (n0 := 1023) (n1 := 64) p q)⟩ 0 k) hw.symm rfl rfl).trans ?_)
  exact hostOps0_v3 (W0 m 0) _ 0 k

theorem gatherLeaves : GatherLeaves m hO := by
  intro c i i' h0 h1 h2
  rw [final0, G0_apply]
  show Ven0 m c main_v3 (srcIdx (adm0 m hO) i) = Ven0 m c main_v3 i'
  refine congrArg _ ?_
  funext a; apply Fin.ext
  match a with
  | ⟨0, _⟩ => exact ((srcIdx_0 (adm0 m hO) i).trans (srcRow_eq _ _)).trans h0.symm
  | ⟨1, _⟩ => exact (congrArg Fin.val (srcIdx_1 (adm0 m hO) i)).trans h1.symm
  | ⟨2, _⟩ => exact (congrArg Fin.val (srcIdx_2 (adm0 m hO) i)).trans h2.symm

def linRow (enc : Vec Ideal S65472x256 .f32) (w : Vec Ideal S256x256 .f32) (b : Vec Ideal S256 .f32) (n : Fin 65472) (e : Fin 256) : EReal :=
  (∑ k : Fin 256, enc (ix2 (n0 := 65472) (n1 := 256) n k) * w (ix2 (n0 := 256) (n1 := 256) e k)) + b (ix1 (n := 256) e)

theorem linRow_eq (enc : Vec Ideal S65472x256 .f32) (w : Vec Ideal S256x256 .f32) (b : Vec Ideal S256 .f32) (n : Fin 65472) (e : Fin 256) :
    linRow enc w b n e = (∑ k : Fin 256, enc (ix2 (n0 := 65472) (n1 := 256) n k) * w (ix2 (n0 := 256) (n1 := 256) e k)) + b (ix1 (n := 256) e) := rfl

theorem kh0_apply (c : Dev nD) (hlt : ∀ i, (m (c, Proc.devRef .tc main_arg5) i).toNat < 65472)
    (p : Fin 1023) (q : Fin 64) (e : Fin 256) :
    Wen2 m hO c (Proc.devRef .tc main_v6) (ix3 (n0 := 1023) (n1 := 64) (n2 := 256) p q e)
      = linRow (m (c, Proc.devRef .tc main_arg0)) (m (c, Proc.devRef .tc main_arg1)) (m (c, Proc.devRef .tc main_arg2))
          ⟨(m (c, Proc.devRef .tc main_arg5) (ix2 (n0 := 1023) (n1 := 64) p q)).toNat, hlt _⟩ e := by
  have hpq : p.val * 64 + q.val < 65472 := by omega
  let n : Fin 65472 := ⟨p.val * 64 + q.val, hpq⟩
  let r : Fin 2112 := ⟨n.val % 2112, Nat.mod_lt _ (by decide)⟩
  have s1 : Wen2 m hO c (Proc.devRef .tc main_v6) (ix3 (n0 := 1023) (n1 := 64) (n2 := 256) p q e)
      = Wex1 m hO c (Proc.devRef .tc main_v5) (ix3 (n0 := 65472) (n1 := 1) (n2 := 256) n 0 e) := hostOps2_v6 (Wex1 m hO c) p q e
  have s2 : Wex1 m hO c (Proc.devRef .tc main_v5) = (dat1 (Ven1 m hO) c).arrAt 3 cfg1.N := Wex1_arr m hO c 3
  have hb : inBlk1 (ix3 (n0 := 65472) (n1 := 1) (n2 := 256) n 0 e) = ix3 (n0 := 2112) (n1 := 1) (n2 := 256) r 0 e := by
    funext a
    match a with
    | ⟨0, _⟩ => rfl
    | ⟨1, _⟩ => rfl
    | ⟨2, _⟩ => rfl
  have hx : ∀ k : Fin 256, iblk1 (Ven1 m hO) c 0 (rowPt1 (ix3 (n0 := 65472) (n1 := 1) (n2 := 256) n 0 e)) (ix3 (n0 := 2112) (n1 := 1) (n2 := 256) r 0 k)
      = m (c, Proc.devRef .tc main_arg0) (ix2 (n0 := 65472) (n1 := 256)
          ⟨(m (c, Proc.devRef .tc main_arg5) (ix2 (n0 := 1023) (n1 := 64) p q)).toNat, hlt _⟩ k) := fun k => by
    rw [iblk1_0_apply (Ven1 m hO) c (rowPt1 (ix3 (n0 := 65472) (n1 := 1) (n2 := 256) n 0 e)) (ix3 (n0 := 2112) (n1 := 1) (n2 := 256) r 0 k)
        (ix3 (n0 := 65472) (n1 := 1) (n2 := 256) n 0 k)
        (by show n.val = n.val / 2112 * 2112 + n.val % 2112; omega) rfl rfl]
    exact ven1_rows m hO (gatherLeaves m hO) c hlt p q n rfl k
  have hw : ∀ k : Fin 256, Ven1 m hO c main_v1 (ix2 (n0 := 256) (n1 := 256) k e)
      = m (c, Proc.devRef .tc main_arg1) (ix2 (n0 := 256) (n1 := 256) e k) := fun k => ven1_weight m hO c k e
  rw [s1, congrFun s2 _, final1_apply, hb, k1_pay1_apply, ven1_bias, linRow_eq]
  simp only [hx, hw]

end Cert.KernelIdeal.HandValue

end
-- ==== Proof.Ref.LinValue.lean ====
import proofs.«418389_j13280038879631_2_alg».proof.Proof.Ref.Run
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.HandValue

open Gen Hand Idealize.ShloMosaic ValueIdx

abbrev gRowsD := gather_S65472x256_S1023x64x1_S1023x64x256_2_0_n_n_0_2_1256
abbrev dLinD := dot_S1023x64x256_S256x256_S1023x64x256_2_1_01_0_n_n

theorem gatherRows_siIdx (p : Fin 1023) (q : Fin 64) (e : Fin 256) (c) : gRowsD.siIdx (ix3 p q e) c = ix3 p q (0 : Fin 1) := by
  funext b; refine Fin.ext ?_
  match b with
  | ⟨0, _⟩ | ⟨1, _⟩ => rfl
  | ⟨2, _⟩ =>
    show c.val = 0
    have hc : c.val < 1 := c.isLt
    omega

-- the row axis reads the start index, signed and clamped; the column axis keeps the result's own coordinate
theorem gatherRows_apply {α : Type} {w : Nat} (x : S65472x256.Idx → α) (idx : IVec S1023x64x1 w) (p : Fin 1023) (q : Fin 64) (e : Fin 256) :
    Host.gather gRowsD x idx (ix3 p q e) = x (ix2 ⟨min (idx (ix3 p q (0 : Fin 1))).toInt.toNat (65472 - 1), by omega⟩ e) := by
  unfold Host.gather
  refine congrArg x (funext fun a => Fin.ext ?_)
  match a with
  | ⟨0, _⟩ =>
    show gRowsD.start _ idx (0 : Fin 2) + gRowsD.batchCoord _ (0 : Fin 2) + gRowsD.offCoord _ (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gRowsD.startIndexMap from List.mem_singleton.mpr rfl), gatherRows_siIdx]
    rfl
  | ⟨1, _⟩ =>
    show gRowsD.start _ idx (1 : Fin 2) + gRowsD.batchCoord _ (1 : Fin 2) + gRowsD.offCoord _ (1 : Fin 2) = e.val
    rw [GatherDims.batchCoord_eq_zero _ _ _ List.not_mem_nil]
    unfold GatherDims.start
    rw [dif_neg (show (1 : Fin 2) ∉ gRowsD.startIndexMap from by decide)]
    simp only [Nat.add_zero, Nat.zero_add]
    rfl

-- the contraction index is its one coordinate; each operand index is read off coordinate by coordinate
theorem dotLin_apply (l : FVec Ideal S1023x64x256 .f32) (r : FVec Ideal S256x256 .f32) (p : Fin 1023) (q : Fin 64) (e : Fin 256) :
    Host.dotGeneral (F := Ideal) dLinD none l r (ix3 p q e) = ∑ k : Fin 256, l (ix3 p q k) * r (ix2 e k) := by
  refine (Ideal.dotGeneral_apply _ _ _ _ _ _).trans ?_
  rw [← (contrEquiv1 dLinD 256 rfl rfl).symm.sum_comp]
  refine Finset.sum_congr rfl fun k _ => ?_
  have hk := contrEquiv1_symm_val dLinD 256 rfl rfl k
  congr 1
  · refine congrArg l (funext fun a => Fin.ext ?_)
    match a with
    | ⟨0, _⟩ | ⟨1, _⟩ => rfl
    | ⟨2, _⟩ => exact hk
  · refine congrArg r (funext fun a => Fin.ext ?_)
    match a with
    | ⟨0, _⟩ => rfl
    | ⟨1, _⟩ => exact hk

theorem cmpi_slt_zero_of_nonneg (x : BitVec 32) (h : 0 ≤ x.toInt) : IntOp.cmpi .slt x 0#32 = 0#1 := by
  show BitVec.ofBool (x.slt 0#32) = 0#1
  have hs : x.slt 0#32 = false := by
    simp only [BitVec.slt, BitVec.toInt_zero, decide_eq_false_iff_not]
    omega
  rw [hs]; rfl

theorem toNat_of_row (x : BitVec 32) (h0 : 0 ≤ x.toInt) (h1 : x.toInt < 65472) : x.toInt.toNat = x.toNat ∧ x.toNat < 65472 := by
  have hx := BitVec.toInt_eq_toNat_cond x
  have hlt : x.toNat < 2 ^ 32 := x.isLt
  split at hx <;> omega

-- a row number in range is not negative, so the fix-up of negative indices keeps it
theorem fixup_apply (ids : IVec S1023x64 32) (hlt : ∀ i, 0 ≤ (ids i).toInt ∧ (ids i).toInt < 65472) (j : S1023x64.Idx) :
    select (cmpi .slt ids (broadcastInDim S1023x64 ![] bcast_S_S1023x64 (constantI S_ 32 0#32)))
      (addi ids (broadcastInDim S1023x64 ![] bcast_S_S1023x64 (constantI S_ 32 65472#32))) ids j = ids j := by
  show Scalar.select (IntOp.cmpi .slt (ids j) (broadcastInDim S1023x64 ![] bcast_S_S1023x64 (constantI S_ 32 0#32) j)) _ _ = _
  rw [broadcastInDim_scalar_apply]
  show Scalar.select (IntOp.cmpi .slt (ids j) 0#32) _ _ = _
  rw [cmpi_slt_zero_of_nonneg _ (hlt j).1, select_zero]

theorem idsRow_lt (a5 : IVec S1023x64 32) (hlt : ∀ i, 0 ≤ (a5 i).toInt ∧ (a5 i).toInt < 65472) (p : Fin 1023) (q : Fin 64) :
    (a5 (ix2 p q)).toNat < 65472 := (toNat_of_row _ (hlt _).1 (hlt _).2).2

theorem lin_apply (a0 : Vec Ideal S65472x256 .f32) (a1 : Vec Ideal S256x256 .f32) (a2 : Vec Ideal S256 .f32) (a5 : IVec S1023x64 32)
    (hlt : ∀ i, 0 ≤ (a5 i).toInt ∧ (a5 i).toInt < 65472) (p : Fin 1023) (q : Fin 64) (e : Fin 256) :
    lin (F := Ideal) a0 a1 a2 a5 (ix3 p q e)
      = (∑ k : Fin 256, a0 (ix2 ⟨(a5 (ix2 p q)).toNat, idsRow_lt a5 hlt p q⟩ k) * a1 (ix2 e k)) + a2 (ix1 e) := by
  unfold lin
  beta_reduce
  rw [addf_apply, dotLin_apply]
  refine congrArg₂ (· + ·) (Finset.sum_congr rfl fun k _ => ?_) ?_
  · rw [gatherRows_apply]
    refine congrArg (· * a1 (ix2 e k)) (congrArg a0 (funext fun a => Fin.ext ?_))
    match a with
    | ⟨0, _⟩ =>
      show min (BitVec.toInt (_ : BitVec 32)).toNat _ = (a5 (ix2 p q)).toNat
      rw [broadcastInDim_apply ![0, 1] bcast_S1023x64_S1023x64x1_0_1 _ (ix3 p q (0 : Fin 1)) (ix2 p q)
        (fun a => by match a with | ⟨0, _⟩ | ⟨1, _⟩ => rfl), fixup_apply a5 hlt]
      have h := toNat_of_row _ (hlt (ix2 p q)).1 (hlt (ix2 p q)).2
      omega
    | ⟨1, _⟩ => rfl
  · rw [broadcastInDim_apply ![0, 1, 2] bcast_S1x1x256_S1023x64x256_0_1_2 _ (ix3 p q e) (ix3 (0 : Fin 1) (0 : Fin 1) e)
        (fun a => by match a with | ⟨0, _⟩ | ⟨1, _⟩ | ⟨2, _⟩ => rfl),
      broadcastInDim_apply ![2] bcast_S256_S1x1x256_2 a2 (ix3 (0 : Fin 1) (0 : Fin 1) e) (ix1 e)
        (fun a => by match a with | ⟨0, _⟩ => rfl)]

end Cert.ReferenceIdeal.HandValue

end
-- ==== Proof.Bridge.Lin.lean ====
import proofs.«418389_j13280038879631_2_alg».proof.Proof.KI.LinValue
import proofs.«418389_j13280038879631_2_alg».proof.Proof.Ref.LinValue
import proofs.«418389_j13280038879631_2_alg».proof.Proof.Ref.Run

noncomputable section

namespace Cert.Bridge

open Idealize.ShloMosaic Idealize.ShloMosaic.TcCoe Idealize.ShloMosaic.ValueIdx Idealize.SL.Sem
open scoped BigOperators

theorem lin_eq
    (m : (ℓ : Loc Cert.KernelIdeal.nD Cert.KernelIdeal.τ Cert.KernelIdeal.sig) → Buf (Elt Ideal) ℓ)
    (hO : Cert.KernelIdeal.Hand.Ok0 m) (c : Dev Cert.KernelIdeal.nD)
    (hlt : ∀ i, (m (c, Proc.devRef .tc Cert.KernelIdeal.main_arg5) i).toNat < 65472)
    (hint : ∀ i, 0 ≤ (m (c, Proc.devRef .tc Cert.KernelIdeal.main_arg5) i).toInt
      ∧ (m (c, Proc.devRef .tc Cert.KernelIdeal.main_arg5) i).toInt < 65472) :
    Cert.KernelIdeal.Hand.Wen2 m hO c (Proc.devRef .tc Cert.KernelIdeal.main_v6)
      = Cert.ReferenceIdeal.Hand.lin (F := Ideal) (m (c, Proc.devRef .tc Cert.KernelIdeal.main_arg0))
          (m (c, Proc.devRef .tc Cert.KernelIdeal.main_arg1)) (m (c, Proc.devRef .tc Cert.KernelIdeal.main_arg2))
          (m (c, Proc.devRef .tc Cert.KernelIdeal.main_arg5)) := by
  funext i
  have hi : i = ix3 (n0 := 1023) (n1 := 64) (n2 := 256) (i 0) (i 1) (i 2) := eq_ix3 i
  refine (congrArg (Cert.KernelIdeal.Hand.Wen2 m hO c (Proc.devRef .tc Cert.KernelIdeal.main_v6)) hi).trans ?_
  refine (Cert.KernelIdeal.HandValue.kh0_apply m hO c hlt (i 0) (i 1) (i 2)).trans ?_
  refine (Cert.KernelIdeal.HandValue.linRow_eq _ _ _ _ _).trans ?_
  refine Eq.trans ?_ (congrArg (Cert.ReferenceIdeal.Hand.lin (F := Ideal) (m (c, Proc.devRef .tc Cert.KernelIdeal.main_arg0))
          (m (c, Proc.devRef .tc Cert.KernelIdeal.main_arg1)) (m (c, Proc.devRef .tc Cert.KernelIdeal.main_arg2))
          (m (c, Proc.devRef .tc Cert.KernelIdeal.main_arg5))) hi).symm
  exact (Cert.ReferenceIdeal.HandValue.lin_apply _ _ _ _ hint (i 0) (i 1) (i 2)).symm

end Cert.Bridge

end
-- ==== Proof.KI.LevelLaw.lean ====
import Idealize.ShloMosaic.PureOps.Ideal
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx
open scoped BigOperators

theorem slice3_axis0_apply {α : Type} {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (c : Fin n1) (e : Fin n2) (k : Fin n0) (hk : k.val = o + j.val) :
    extractStridedSlice ⟨3, ![m, n1, n2]⟩ ![o, 0, 0] X h (ix3 j c e) = X (ix3 k c e) :=
  extractStridedSlice_apply _ _ _ _ _ (fun ax => by
    match ax with
    | ⟨0, _⟩ => exact hk
    | ⟨1, _⟩ => exact (Nat.zero_add _).symm
    | ⟨2, _⟩ => exact (Nat.zero_add _).symm)

theorem updateSlice3_axis0_apply_in {α : Type} {n0 n1 n2 m : ℕ} (o : ℕ) (x : (⟨3, ![n0, n1, n2]⟩ : Shape).Idx → α)
    (upd : (⟨3, ![m, n1, n2]⟩ : Shape).Idx → α) (h : (⟨3, ![n0, n1, n2]⟩ : Shape).Slices ![o, 0, 0] ⟨3, ![m, n1, n2]⟩)
    (p : Fin n0) (q : Fin n1) (e : Fin n2) (i : Fin m) (hi : p.val = o + i.val) :
    updateSlice x upd ![o, 0, 0] h (ix3 p q e) = upd (ix3 i q e) := by
  unfold updateSlice
  rw [dif_pos (fun a => by
    match a with
    | ⟨0, _⟩ => exact ⟨by show o ≤ p.val; omega, by show p.val < o + m; have := i.isLt; omega⟩
    | ⟨1, _⟩ => exact ⟨Nat.zero_le _, by show q.val < 0 + n1; have := q.isLt; omega⟩
    | ⟨2, _⟩ => exact ⟨Nat.zero_le _, by show e.val < 0 + n2; have := e.isLt; omega⟩)]
  refine congrArg upd (funext fun a => Fin.ext ?_)
  match a with
  | ⟨0, _⟩ => show p.val - o = i.val; omega
  | ⟨1, _⟩ => rfl
  | ⟨2, _⟩ => rfl

theorem updateSlice3_axis0_apply_out {α : Type} {n0 n1 n2 m : ℕ} (o : ℕ) (x : (⟨3, ![n0, n1, n2]⟩ : Shape).Idx → α)
    (upd : (⟨3, ![m, n1, n2]⟩ : Shape).Idx → α) (h : (⟨3, ![n0, n1, n2]⟩ : Shape).Slices ![o, 0, 0] ⟨3, ![m, n1, n2]⟩)
    (p : Fin n0) (q : Fin n1) (e : Fin n2) (hp : p.val < o ∨ o + m ≤ p.val) :
    updateSlice x upd ![o, 0, 0] h (ix3 p q e) = x (ix3 p q e) := by
  unfold updateSlice
  rw [dif_neg (fun hin => by
    have h0 := hin (0 : Fin 3)
    have h1 : o ≤ p.val ∧ p.val < o + m := h0
    omega)]

-- With o + m ≤ n0 the clamp of the start indices (o, 0, 0) is the identity.
theorem dus3_axis0_eq_updateSlice {α : Type} {n0 n1 n2 m : ℕ} (o : ℕ) (x : (⟨3, ![n0, n1, n2]⟩ : Shape).Idx → α)
    (upd : (⟨3, ![m, n1, n2]⟩ : Shape).Idx → α) (start : Fin 3 → Int)
    (h : (⟨3, ![n0, n1, n2]⟩ : Shape).Slices (fun _ => 0) ⟨3, ![m, n1, n2]⟩)
    (h' : (⟨3, ![n0, n1, n2]⟩ : Shape).Slices ![o, 0, 0] ⟨3, ![m, n1, n2]⟩)
    (h0 : start 0 = (o : Int)) (h1 : start 1 = 0) (h2 : start 2 = 0) :
    Host.dynamicUpdateSlice x upd start h = updateSlice x upd ![o, 0, 0] h' :=
  Host.dynamicUpdateSlice_eq_updateSlice x upd start h ![o, 0, 0] (fun a => by
    have hfit : o + m ≤ n0 := h'.2 (0 : Fin 3)
    match a with
    | ⟨0, _⟩ =>
      show (min (max (start 0) 0) ((n0 - m : ℕ) : Int)).toNat = o
      rw [h0]; omega
    | ⟨1, _⟩ =>
      show (min (max (start 1) 0) ((n1 - n1 : ℕ) : Int)).toNat = 0
      rw [h1]; omega
    | ⟨2, _⟩ =>
      show (min (max (start 2) 0) ((n2 - n2 : ℕ) : Int)).toNat = 0
      rw [h2]; omega) h'

-- Child 2 (p - o) + d of the children's rows from 2 o + 1 is node 2 p + 1 + d.
theorem level_law_in {N B E m mc : ℕ} (o oc : ℕ) (hoc : oc = 2 * o + 1) (hmc : mc = 2 * m)
    (h : (⟨3, ![N, B, E]⟩ : Shape).Idx → EReal) (w : (⟨2, ![E, E]⟩ : Shape).Idx → EReal) (b : (⟨1, ![E]⟩ : Shape).Idx → EReal)
    (T : (⟨3, ![m, B, E]⟩ : Shape).Idx → EReal) (start : Fin 3 → Int)
    (hfits : (⟨3, ![N, B, E]⟩ : Shape).Slices (fun _ => 0) ⟨3, ![m, B, E]⟩)
    (hpar : (⟨3, ![N, B, E]⟩ : Shape).Slices ![o, 0, 0] ⟨3, ![m, B, E]⟩)
    (hkids : (⟨3, ![N, B, E]⟩ : Shape).Slices ![oc, 0, 0] ⟨3, ![mc, B, E]⟩)
    (h0 : start 0 = (o : Int)) (h1 : start 1 = 0) (h2 : start 2 = 0)
    (hT : ∀ (i : Fin m) (q : Fin B) (e : Fin E), T (ix3 i q e)
      = extractStridedSlice ⟨3, ![m, B, E]⟩ ![o, 0, 0] h hpar (ix3 i q e)
        + (((∑ k : Fin E, extractStridedSlice ⟨3, ![mc, B, E]⟩ ![oc, 0, 0] h hkids (ix3 ⟨2 * i.val, by omega⟩ q k) * w (ix2 k e)) + b (ix1 e))
          + ((∑ k : Fin E, extractStridedSlice ⟨3, ![mc, B, E]⟩ ![oc, 0, 0] h hkids (ix3 ⟨2 * i.val + 1, by omega⟩ q k) * w (ix2 k e)) + b (ix1 e))))
    (p : Fin N) (q : Fin B) (e : Fin E) (hp : o ≤ p.val ∧ p.val < o + m)
    (c1 c2 : Fin N) (hc1 : c1.val = 2 * p.val + 1) (hc2 : c2.val = 2 * p.val + 2) :
    Host.dynamicUpdateSlice h T start hfits (ix3 p q e)
      = h (ix3 p q e) + (((∑ k : Fin E, h (ix3 c1 q k) * w (ix2 k e)) + b (ix1 e))
          + ((∑ k : Fin E, h (ix3 c2 q k) * w (ix2 k e)) + b (ix1 e))) := by
  obtain ⟨i, hi⟩ : ∃ i : Fin m, p.val = o + i.val :=
    ⟨⟨p.val - o, by omega⟩, by show p.val = o + (p.val - o); omega⟩
  rw [dus3_axis0_eq_updateSlice o h T start hfits hpar h0 h1 h2, updateSlice3_axis0_apply_in o h T hpar p q e i hi, hT i q e,
    slice3_axis0_apply o h hpar i q e p hi]
  simp only [slice3_axis0_apply oc h hkids ⟨2 * i.val, by omega⟩ q _ c1 (by show c1.val = oc + 2 * i.val; omega),
    slice3_axis0_apply oc h hkids ⟨2 * i.val + 1, by omega⟩ q _ c2 (by show c2.val = oc + (2 * i.val + 1); omega)]

theorem level_law_out {N B E m : ℕ} (o : ℕ) (h : (⟨3, ![N, B, E]⟩ : Shape).Idx → EReal)
    (T : (⟨3, ![m, B, E]⟩ : Shape).Idx → EReal) (start : Fin 3 → Int)
    (hfits : (⟨3, ![N, B, E]⟩ : Shape).Slices (fun _ => 0) ⟨3, ![m, B, E]⟩)
    (hpar : (⟨3, ![N, B, E]⟩ : Shape).Slices ![o, 0, 0] ⟨3, ![m, B, E]⟩)
    (h0 : start 0 = (o : Int)) (h1 : start 1 = 0) (h2 : start 2 = 0)
    (p : Fin N) (q : Fin B) (e : Fin E) (hp : p.val < o ∨ o + m ≤ p.val) :
    Host.dynamicUpdateSlice h T start hfits (ix3 p q e) = h (ix3 p q e) := by
  rw [dus3_axis0_eq_updateSlice o h T start hfits hpar h0 h1 h2]
  exact updateSlice3_axis0_apply_out o h T hpar p q e hp

end Cert.KernelIdeal.HandValue

end
-- ==== Proof.KI.LevelLib.lean ====
import Idealize.ShloMosaic.PureOps.Ideal
import Idealize.ShloMosaic.Lib.ValueIdx
import Idealize.ShloMosaic.Lib.Pipeline.Value

noncomputable section

namespace Cert.KernelIdeal.HandValue

open Idealize.ShloMosaic Idealize.ShloMosaic.ValueIdx
open scoped BigOperators

-- Row i of the parents is row i % R of block i / R, and rows 2 (i % R) + d of that block's children are rows 2 i + d.
theorem treeOut_apply {P K R C B E : ℕ} (hC : C = 2 * R) (hR : 0 < R)
    (pay : ((⟨3, ![C, B, E]⟩ : Shape).Idx → EReal) → ((⟨2, ![E, E]⟩ : Shape).Idx → EReal) → ((⟨1, ![E]⟩ : Shape).Idx → EReal)
      → ((⟨3, ![R, B, E]⟩ : Shape).Idx → EReal) → (⟨3, ![R, B, E]⟩ : Shape).Idx → EReal)
    (hpay : ∀ x w b par (p : Fin R) (q : Fin B) (e : Fin E), pay x w b par (ix3 p q e)
      = par (ix3 p q e) + (((∑ k : Fin E, x (ix3 ⟨2 * p.val, by omega⟩ q k) * w (ix2 k e)) + b (ix1 e))
          + ((∑ k : Fin E, x (ix3 ⟨2 * p.val + 1, by omega⟩ q k) * w (ix2 k e)) + b (ix1 e))))
    (kids : (⟨3, ![K, B, E]⟩ : Shape).Idx → EReal) (par : (⟨3, ![P, B, E]⟩ : Shape).Idx → EReal)
    (w : (⟨2, ![E, E]⟩ : Shape).Idx → EReal) (b : (⟨1, ![E]⟩ : Shape).Idx → EReal) (i : Fin P) (q : Fin B) (e : Fin E)
    (hk : ∀ j, j < C → i.val / R * C + j < K) (hp : ∀ j, j < R → i.val / R * R + j < P)
    (h0 : 2 * i.val < K) (h1 : 2 * i.val + 1 < K) :
    pay (fun j => kids (ix3 ⟨i.val / R * C + (j 0).val, hk _ (j 0).isLt⟩ (j 1) (j 2))) w b
        (fun j => par (ix3 ⟨i.val / R * R + (j 0).val, hp _ (j 0).isLt⟩ (j 1) (j 2))) (ix3 ⟨i.val % R, Nat.mod_lt _ hR⟩ q e)
      = par (ix3 i q e) + (((∑ k : Fin E, kids (ix3 ⟨2 * i.val, h0⟩ q k) * w (ix2 k e)) + b (ix1 e))
          + ((∑ k : Fin E, kids (ix3 ⟨2 * i.val + 1, h1⟩ q k) * w (ix2 k e)) + b (ix1 e))) := by
  subst hC
  have hm := Nat.div_add_mod' i.val R
  have hd : i.val / R * (2 * R) = 2 * (i.val / R * R) := by ring
  have ea : ∀ pf, (⟨i.val / R * R + i.val % R, pf⟩ : Fin P) = i := fun _ => Fin.ext hm
  have e0 : ∀ pf, (⟨i.val / R * (2 * R) + 2 * (i.val % R), pf⟩ : Fin K) = ⟨2 * i.val, h0⟩ :=
    fun _ => Fin.ext (by show i.val / R * (2 * R) + 2 * (i.val % R) = 2 * i.val; omega)
  have e1 : ∀ pf, (⟨i.val / R * (2 * R) + (2 * (i.val % R) + 1), pf⟩ : Fin K) = ⟨2 * i.val + 1, h1⟩ :=
    fun _ => Fin.ext (by show i.val / R * (2 * R) + (2 * (i.val % R) + 1) = 2 * i.val + 1; omega)
  rw [hpay]
  have hr := Nat.mod_lt i.val hR
  show par (ix3 ⟨i.val / R * R + i.val % R, hp _ hr⟩ q e)
      + (((∑ k : Fin E, kids (ix3 ⟨i.val / R * (2 * R) + 2 * (i.val % R), hk _ (by omega)⟩ q k) * w (ix2 k e)) + b (ix1 e))
        + ((∑ k : Fin E, kids (ix3 ⟨i.val / R * (2 * R) + (2 * (i.val % R) + 1), hk _ (by omega)⟩ q k) * w (ix2 k e)) + b (ix1 e))) = _
  simp only [ea, e0, e1]

end Cert.KernelIdeal.HandValue

end
-- ==== Proof.KI.LevelValue2.lean ====
import proofs.«418389_j13280038879631_2_alg».proof.Proof.KI.PayValue
import proofs.«418389_j13280038879631_2_alg».proof.Proof.KI.LevelLaw
import proofs.«418389_j13280038879631_2_alg».proof.Proof.KI.LevelLib
import proofs.«418389_j13280038879631_2_alg».proof.Proof.KI.Reg2Value
import proofs.«418389_j13280038879631_2_alg».proof.Proof.KI.Path2

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (256 : ℕ)
local notation "kidAll" => (512 : ℕ)
local notation "parRows" => (32 : ℕ)
local notation "kidRows" => (64 : ℕ)
local notation "parOff" => (255 : ℕ)
local notation "parEnd" => (511 : ℕ)

theorem treeOut2_apply (kids : Vec Ideal S512x64x256 .f32) (par : Vec Ideal S256x64x256 .f32) (w : Vec Ideal S256x256 .f32)
    (b : Vec Ideal S256 .f32) (i : Fin parAll) (q : Fin 64) (e : Fin 256) :
    treeOut2 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k2_pay1 (F := Ideal)) k2_pay1_apply kids par w b i q e
    (fun _ => kidRow2_lt _ _ i.isLt) (fun _ => parRow2_lt _ _ i.isLt) (by omega) (by omega)

theorem klevel2_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel2 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start2
    updateFits_S1023x64x256_S256x64x256 slices_S1023x64x256_S256x64x256_255_0_0 slices_S1023x64x256_S512x64x256_511_0_0
    (by decide) (by decide) (by decide) (fun i q e => treeOut2_apply _ _ w b i q e) p q e hp _ _ rfl rfl

theorem klevel2_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel2 (F := Ideal) h w b (ix3 p q e) = h (ix3 p q e) :=
  level_law_out (N := 1023) (B := 64) (E := 256) (m := parAll) parOff h _ start2
    updateFits_S1023x64x256_S256x64x256 slices_S1023x64x256_S256x64x256_255_0_0 (by decide) (by decide) (by decide) p q e hp

end Cert.KernelIdeal.HandValue

end
-- ==== Proof.Ref.ScatterFold.lean ====
import Idealize.ShloMosaic.PureOps.ShapeOps
import Idealize.ShloMosaic.Lib.ValueIdx

noncomputable section

namespace Cert.ReferenceIdeal.HandValue

open Idealize.ShloMosaic

variable {α : Type} {s si u : Shape} {w : Nat} (d : ScatterDims s si u) (f : α → α → α) (idx : IVec si w) (upd : u.Idx → α)

def scatterStep (r : s.Idx → α) (n : Fin u.numel) : s.Idx → α :=
  match d.resultIdx? (u.rowMajor.symm n) idx with
  | some i => fun i' => if i' = i then f (r i) (upd (u.rowMajor.symm n)) else r i'
  | none => r

theorem scatter_eq_foldl (x : s.Idx → α) :
    Host.scatter d f x idx upd = (List.finRange u.numel).foldl (scatterStep d f idx upd) x := rfl

theorem scatterStep_of_ne (r : s.Idx → α) (n : Fin u.numel) (i : s.Idx)
    (h : d.resultIdx? (u.rowMajor.symm n) idx ≠ some i) : scatterStep d f idx upd r n i = r i := by
  unfold scatterStep
  generalize d.resultIdx? (u.rowMajor.symm n) idx = o at h
  cases o with
  | none => rfl
  | some k => exact if_neg fun e => h (by rw [e])

theorem scatterStep_of_eq (r : s.Idx → α) (n : Fin u.numel) (i : s.Idx)
    (h : d.resultIdx? (u.rowMajor.symm n) idx = some i) :
    scatterStep d f idx upd r n i = f (r i) (upd (u.rowMajor.symm n)) := by
  unfold scatterStep
  generalize d.resultIdx? (u.rowMajor.symm n) idx = o at h
  subst h
  exact if_pos rfl

theorem foldl_scatterStep_of_not_hit (i : s.Idx) : ∀ (l : List (Fin u.numel)) (r : s.Idx → α),
    (∀ n ∈ l, d.resultIdx? (u.rowMajor.symm n) idx ≠ some i) → (l.foldl (scatterStep d f idx upd) r) i = r i
  | [], r, _ => rfl
  | n :: l, r, h => by
    rw [List.foldl_cons, foldl_scatterStep_of_not_hit i l _ (fun m hm => h m (List.mem_cons_of_mem _ hm))]
    exact scatterStep_of_ne d f idx upd r n i (h n (List.mem_cons_self ..))

theorem foldl_scatterStep_of_hit (i : s.Idx) (n₀ : Fin u.numel) (h₀ : d.resultIdx? (u.rowMajor.symm n₀) idx = some i) :
    ∀ (l : List (Fin u.numel)) (r : s.Idx → α), l.Nodup → n₀ ∈ l →
      (∀ n ∈ l, d.resultIdx? (u.rowMajor.symm n) idx = some i → n = n₀) →
      (l.foldl (scatterStep d f idx upd) r) i = f (r i) (upd (u.rowMajor.symm n₀))
  | [], _, _, hm, _ => absurd hm (List.not_mem_nil)
  | n :: l, r, hnd, hm, huniq => by
    rw [List.foldl_cons]
    by_cases hn : n = n₀
    · subst hn
      have hnot : ∀ m ∈ l, d.resultIdx? (u.rowMajor.symm m) idx ≠ some i := fun m hm' e => by
        have := huniq m (List.mem_cons_of_mem _ hm') e; subst this; exact (List.nodup_cons.mp hnd).1 hm'
      rw [foldl_scatterStep_of_not_hit d f idx upd i l _ hnot, scatterStep_of_eq d f idx upd r n i h₀]
    · have hm' : n₀ ∈ l := (List.mem_cons.mp hm).resolve_left (fun e => hn e.symm)
      rw [foldl_scatterStep_of_hit i n₀ h₀ l _ (List.nodup_cons.mp hnd).2 hm' (fun m hm'' => huniq m (List.mem_cons_of_mem _ hm'')),
        scatterStep_of_ne d f idx upd r n i (fun e => hn (huniq n (List.mem_cons_self ..) e))]

theorem scatter_apply_of_not_hit (x : s.Idx → α) (i : s.Idx) (h : ∀ j : u.Idx, d.resultIdx? j idx ≠ some i) :
    Host.scatter d f x idx upd i = x i :=
  foldl_scatterStep_of_not_hit d f idx upd i _ x (fun n _ => h _)

theorem scatter_apply_of_hit (x : s.Idx → α) (i : s.Idx) (j₀ : u.Idx) (h₀ : d.resultIdx? j₀ idx = some i)
    (huniq : ∀ j, d.resultIdx? j idx = some i → j = j₀) :
    Host.scatter d f x idx upd i = f (x i) (upd j₀) := by
  have key := foldl_scatterStep_of_hit d f idx upd i (u.rowMajor j₀) (by rw [Equiv.symm_apply_apply]; exact h₀)
    (List.finRange u.numel) x (List.nodup_finRange _) (List.mem_finRange _)
    (fun n _ e => by have := huniq _ e; rw [← this, Equiv.apply_symm_apply])
  rw [Equiv.symm_apply_apply] at key
  exact key

end Cert.ReferenceIdeal.HandValue

end
-- ==== Proof.Ref.LevelLib.lean ====
import proofs.«418389_j13280038879631_2_alg».proof.Proof.Ref.ScatterFold

noncomputable section

namespace Cert.ReferenceIdeal.HandValue

open Idealize.ShloMosaic ValueIdx

variable {α : Type} {si : Shape} {w n : ℕ} (lo : ℕ) (d : ScatterDims ⟨3, ![1023, 64, 256]⟩ si ⟨3, ![n, 64, 256]⟩) (f : α → α → α)
  (idx : IVec si w)
  (hs : ∀ (j : (⟨3, ![n, 64, 256]⟩ : Shape).Idx) (p : Fin 1023), p.val = lo + (j 0).val →
    ∀ a, d.start j idx a + d.window j a = ((ix3 p (j 1) (j 2) a).val : ℤ))
  (hn : lo + n ≤ 1023) (x : (⟨3, ![1023, 64, 256]⟩ : Shape).Idx → α) (upd : (⟨3, ![n, 64, 256]⟩ : Shape).Idx → α)
  (p : Fin 1023) (q : Fin 64) (e : Fin 256)

include hs

-- start plus own coordinate is the target's coordinate on every axis, so it is in range and the update lands on the target
theorem scatter_rows_resultIdx (j : (⟨3, ![n, 64, 256]⟩ : Shape).Idx) (p : Fin 1023) (hp : p.val = lo + (j 0).val) :
    d.resultIdx? j idx = some (ix3 p (j 1) (j 2)) := by
  have hs := hs j p hp
  unfold ScatterDims.resultIdx?
  exact (dif_pos fun a => by rw [hs a]; exact ⟨Int.natCast_nonneg _, Int.ofNat_lt.2 (Fin.isLt _)⟩).trans
    (congrArg some (funext fun a => Fin.ext (by show (_ : ℤ).toNat = _; rw [hs a]; rfl)))

include hn

-- update row r lands on row lo + r and keeps its other coordinates, so row p in range gets exactly update row p - lo
theorem scatter_rows_apply_in (h0 : lo ≤ p.val) (h1 : p.val - lo < n) :
    Host.scatter d f x idx upd (ix3 p q e) = f (x (ix3 p q e)) (upd (ix3 ⟨p.val - lo, h1⟩ q e)) := by
  refine scatter_apply_of_hit d f idx upd x _ _ (scatter_rows_resultIdx lo d idx hs _ p (by show p.val = lo + (p.val - lo); omega)) fun j hj => ?_
  have hj0 : (j 0).val < n := (j 0).isLt
  have hj' := Option.some.inj ((scatter_rows_resultIdx lo d idx hs j ⟨_, by omega⟩ rfl).symm.trans hj)
  have e0 : lo + (j 0).val = p.val := congrArg Fin.val (congrFun hj' 0)
  refine (eq_ix3 j).trans ?_
  rw [show j 1 = q from congrFun hj' 1, show j 2 = e from congrFun hj' 2]
  exact congrArg (ix3 · q e) (Fin.ext (by show (j 0).val = p.val - lo; omega))

-- and no update lands on a row outside lo .. lo + n - 1
theorem scatter_rows_apply_out (hp : p.val < lo ∨ lo + n ≤ p.val) : Host.scatter d f x idx upd (ix3 p q e) = x (ix3 p q e) := by
  refine scatter_apply_of_not_hit d f idx upd x _ fun j hj => ?_
  have hj0 : (j 0).val < n := (j 0).isLt
  have e0 : lo + (j 0).val = p.val := congrArg Fin.val (congrFun (Option.some.inj ((scatter_rows_resultIdx lo d idx hs j ⟨_, by omega⟩ rfl).symm.trans hj)) 0)
  omega

end Cert.ReferenceIdeal.HandValue

end
-- ==== Proof.Ref.LevelValue1.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (255 : ℕ)
local notation "hiRow" => (511 : ℕ)
local notation "nPar" => (256 : ℕ)
local notation "nKid" => (512 : ℕ)
local notation "loZ" => (255 : ℤ)

abbrev dL1 := scatter_S1023x64x256_S1_S256x64x256_012_n_0_0
abbrev idxL1 : IVec S1 32 := broadcastInDim S1 ![] bcast_S_S1 (constantI S_ 32 255#32)

-- the one start index is loRow on the row axis and 0 on the others, and an update element keeps its own coordinates
theorem landL1 (j : S256x64x256.Idx) (p : Fin 1023) (hp : p.val = loRow + (j 0).val) (a) :
    dL1.start j idxL1 a + dL1.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL1 := dot_S512x64x256_S256x256_S512x64x256_2_1_01_0_n_n

theorem redL1 : S256x2x64x256.Reduces [1] S256x64x256 := by decide

-- pair coordinate k of parents' row r is row 2r + k of the children's block, which is row hiRow + 2r + k of the node array
theorem kidL1_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S256x2x64x256 (addf (Host.dotGeneral dotL1 none (extractStridedSlice S512x64x256 ![511, 0, 0] h slices_S1023x64x256_S512x64x256_511_0_0) ws)
        (broadcastInDim S512x64x256 ![0, 1, 2] bcast_S1x1x256_S512x64x256_0_1_2 (broadcastInDim S1x1x256 ![2] bcast_S256_S1x1x256_2 bs)))
        shapeCasts_S512x64x256_S256x2x64x256 (redL1.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL1 256 rfl rfl).symm.sum_comp]
    refine Finset.sum_congr rfl fun i _ => ?_
    have hi := contrEquiv1_symm_val dotL1 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl1_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl1 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl1
  beta_reduce
  refine (scatter_rows_apply_in loRow _ _ _ ?_ (by decide) _ _ p q e hp.1 (by omega)).trans ?_
  · exact landL1
  · show h (ix3 p q e) + _ = _
    rw [hostReduceAdd_apply, Ideal.hostReduceAdd_single _ redL1, constant_apply, Ideal.ofBits_zero_f32, zero_add]
    exact congrArg (h (ix3 p q e) + ·) ((Fin.sum_univ_two _).trans (congrArg₂ (· + ·)
      (kidL1_apply h ws bs _ 0 q e _ (by show 2 * p.val + 1 = hiRow + (2 * (p.val - loRow) + 0); omega))
      (kidL1_apply h ws bs _ 1 q e _ (by show 2 * p.val + 2 = hiRow + (2 * (p.val - loRow) + 1); omega))))

theorem lvl1_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl1 (F := Ideal) h ws bs (ix3 p q e) = h (ix3 p q e) := by
  unfold lvl1
  beta_reduce
  exact scatter_rows_apply_out loRow _ _ _ landL1 (by decide) _ _ p q e hp

end Cert.ReferenceIdeal.HandValue

end
-- ==== Proof.Bridge.LevelLaw.lean ====
import Idealize.ShloMosaic.Lib.ValueIdx
import Idealize.ShloMosaic.Lib.Pipeline.Value

noncomputable section

namespace Cert.Bridge

open Idealize.ShloMosaic Idealize.ShloMosaic.ValueIdx
open scoped BigOperators

theorem wT_apply (ws : Vec Ideal (⟨2, ![256, 256]⟩ : Shape) .f32)
    (hT : (⟨2, ![256, 256]⟩ : Shape).Transposes [1, 0] (⟨2, ![256, 256]⟩ : Shape)) (k e : Fin 256) :
    transpose (⟨2, ![256, 256]⟩ : Shape) [1, 0] ws hT (ix2 k e) = ws (ix2 e k) :=
  transpose_apply [1, 0] ws hT (ix2 k e) (ix2 e k) (by intro b; fin_cases b <;> rfl)

theorem level_bridge (lo hi : ℕ) (hhi : hi ≤ 511)
    (h : Vec Ideal (⟨3, ![1023, 64, 256]⟩ : Shape) .f32) (ws wT : Vec Ideal (⟨2, ![256, 256]⟩ : Shape) .f32)
    (bs : Vec Ideal (⟨1, ![256]⟩ : Shape) .f32) (hw : ∀ k e : Fin 256, wT (ix2 k e) = ws (ix2 e k))
    (K R : Vec Ideal (⟨3, ![1023, 64, 256]⟩ : Shape) .f32)
    (hKin : ∀ (p : Fin 1023) (q : Fin 64) (e : Fin 256) (hp : lo ≤ p.val ∧ p.val < hi),
      K (ix3 p q e) = h (ix3 p q e) + (((∑ k : Fin 256, h (ix3 ⟨2 * p.val + 1, by omega⟩ q k) * wT (ix2 k e)) + bs (ix1 e))
          + ((∑ k : Fin 256, h (ix3 ⟨2 * p.val + 2, by omega⟩ q k) * wT (ix2 k e)) + bs (ix1 e))))
    (hKout : ∀ (p : Fin 1023) (q : Fin 64) (e : Fin 256) (hp : p.val < lo ∨ hi ≤ p.val), K (ix3 p q e) = h (ix3 p q e))
    (hRin : ∀ (p : Fin 1023) (q : Fin 64) (e : Fin 256) (hp : lo ≤ p.val ∧ p.val < hi),
      R (ix3 p q e) = h (ix3 p q e) + (((∑ k : Fin 256, h (ix3 ⟨2 * p.val + 1, by omega⟩ q k) * ws (ix2 e k)) + bs (ix1 e))
          + ((∑ k : Fin 256, h (ix3 ⟨2 * p.val + 2, by omega⟩ q k) * ws (ix2 e k)) + bs (ix1 e))))
    (hRout : ∀ (p : Fin 1023) (q : Fin 64) (e : Fin 256) (hp : p.val < lo ∨ hi ≤ p.val), R (ix3 p q e) = h (ix3 p q e)) :
    K = R := by
  funext i
  obtain ⟨p, q, e, rfl⟩ : ∃ (p : Fin 1023) (q : Fin 64) (e : Fin 256), i = ix3 p q e := ⟨i 0, i 1, i 2, eq_ix3 i⟩
  by_cases hp : lo ≤ p.val ∧ p.val < hi
  · rw [hKin p q e hp, hRin p q e hp]
    simp only [hw]
  · have hp' : p.val < lo ∨ hi ≤ p.val := by omega
    rw [hKout p q e hp', hRout p q e hp']

end Cert.Bridge

end
-- ==== Proof.Bridge.Level1.lean ====
import proofs.«418389_j13280038879631_2_alg».proof.Proof.KI.LevelValue2
import proofs.«418389_j13280038879631_2_alg».proof.Proof.Ref.LevelValue1
import proofs.«418389_j13280038879631_2_alg».proof.Proof.Bridge.LevelLaw

noncomputable section

namespace Cert.Bridge

open Idealize.ShloMosaic Idealize.ShloMosaic.ValueIdx

theorem level1_eq (h : Vec Ideal Cert.KernelIdeal.S1023x64x256 .f32) (ws : Vec Ideal Cert.KernelIdeal.S256x256 .f32)
    (bs : Vec Ideal Cert.KernelIdeal.S256 .f32) :
    Cert.KernelIdeal.Hand.klevel2 (F := Ideal) h
        (transpose Cert.KernelIdeal.S256x256 [1, 0] ws Cert.KernelIdeal.Gen.transposes_S256x256_S256x256_1_0) bs
      = Cert.ReferenceIdeal.Hand.lvl1 (F := Ideal) h ws bs :=
  level_bridge 255 511 (by decide) h ws _ bs (wT_apply ws _) _ _
    (Cert.KernelIdeal.HandValue.klevel2_apply_in h _ bs) (Cert.KernelIdeal.HandValue.klevel2_apply_out h _ bs)
    (Cert.ReferenceIdeal.HandValue.lvl1_apply_in h ws bs) (Cert.ReferenceIdeal.HandValue.lvl1_apply_out h ws bs)

end Cert.Bridge

end
-- ==== Proof.KI.PayValue3.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k3_pay1_apply (x : Vec Ideal S64x64x256 .f32) (w : Vec Ideal S256x256 .f32) (b : Vec Ideal S256 .f32)
    (par : Vec Ideal S32x64x256 .f32) (p : Fin 32) (q : Fin 64) (e : Fin 256) :
    k3_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  exact k2_pay1_apply x w b par p q e

end Cert.KernelIdeal.HandValue

end
-- ==== Proof.KI.LevelValue3.lean ====
import proofs.«418389_j13280038879631_2_alg».proof.Proof.KI.PayValue3
import proofs.«418389_j13280038879631_2_alg».proof.Proof.KI.LevelLaw
import proofs.«418389_j13280038879631_2_alg».proof.Proof.KI.LevelLib
import proofs.«418389_j13280038879631_2_alg».proof.Proof.KI.Reg3Value
import proofs.«418389_j13280038879631_2_alg».proof.Proof.KI.Path3

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (128 : ℕ)
local notation "kidAll" => (256 : ℕ)
local notation "parRows" => (32 : ℕ)
local notation "kidRows" => (64 : ℕ)
local notation "parOff" => (127 : ℕ)
local notation "parEnd" => (255 : ℕ)

theorem treeOut3_apply (kids : Vec Ideal S256x64x256 .f32) (par : Vec Ideal S128x64x256 .f32) (w : Vec Ideal S256x256 .f32)
    (b : Vec Ideal S256 .f32) (i : Fin parAll) (q : Fin 64) (e : Fin 256) :
    treeOut3 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k3_pay1 (F := Ideal)) k3_pay1_apply kids par w b i q e
    (fun _ => kidRow3_lt _ _ i.isLt) (fun _ => parRow3_lt _ _ i.isLt) (by omega) (by omega)

theorem klevel3_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel3 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start3
    updateFits_S1023x64x256_S128x64x256 slices_S1023x64x256_S128x64x256_127_0_0 slices_S1023x64x256_S256x64x256_255_0_0
    (by decide) (by decide) (by decide) (fun i q e => treeOut3_apply _ _ w b i q e) p q e hp _ _ rfl rfl

theorem klevel3_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel3 (F := Ideal) h w b (ix3 p q e) = h (ix3 p q e) :=
  level_law_out (N := 1023) (B := 64) (E := 256) (m := parAll) parOff h _ start3
    updateFits_S1023x64x256_S128x64x256 slices_S1023x64x256_S128x64x256_127_0_0 (by decide) (by decide) (by decide) p q e hp

end Cert.KernelIdeal.HandValue

end
-- ==== Proof.Ref.LevelValue2.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (127 : ℕ)
local notation "hiRow" => (255 : ℕ)
local notation "nPar" => (128 : ℕ)
local notation "nKid" => (256 : ℕ)
local notation "loZ" => (127 : ℤ)

abbrev dL2 := scatter_S1023x64x256_S1_S128x64x256_012_n_0_0
abbrev idxL2 : IVec S1 32 := broadcastInDim S1 ![] bcast_S_S1 (constantI S_ 32 127#32)

-- the one start index is loRow on the row axis and 0 on the others, and an update element keeps its own coordinates
theorem landL2 (j : S128x64x256.Idx) (p : Fin 1023) (hp : p.val = loRow + (j 0).val) (a) :
    dL2.start j idxL2 a + dL2.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL2 := dot_S256x64x256_S256x256_S256x64x256_2_1_01_0_n_n

theorem redL2 : S128x2x64x256.Reduces [1] S128x64x256 := by decide

-- pair coordinate k of parents' row r is row 2r + k of the children's block, which is row hiRow + 2r + k of the node array
theorem kidL2_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S128x2x64x256 (addf (Host.dotGeneral dotL2 none (extractStridedSlice S256x64x256 ![255, 0, 0] h slices_S1023x64x256_S256x64x256_255_0_0) ws)
        (broadcastInDim S256x64x256 ![0, 1, 2] bcast_S1x1x256_S256x64x256_0_1_2 (broadcastInDim S1x1x256 ![2] bcast_S256_S1x1x256_2 bs)))
        shapeCasts_S256x64x256_S128x2x64x256 (redL2.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL2 256 rfl rfl).symm.sum_comp]
    refine Finset.sum_congr rfl fun i _ => ?_
    have hi := contrEquiv1_symm_val dotL2 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl2_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl2 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl2
  beta_reduce
  refine (scatter_rows_apply_in loRow _ _ _ ?_ (by decide) _ _ p q e hp.1 (by omega)).trans ?_
  · exact landL2
  · show h (ix3 p q e) + _ = _
    rw [hostReduceAdd_apply, Ideal.hostReduceAdd_single _ redL2, constant_apply, Ideal.ofBits_zero_f32, zero_add]
    exact congrArg (h (ix3 p q e) + ·) ((Fin.sum_univ_two _).trans (congrArg₂ (· + ·)
      (kidL2_apply h ws bs _ 0 q e _ (by show 2 * p.val + 1 = hiRow + (2 * (p.val - loRow) + 0); omega))
      (kidL2_apply h ws bs _ 1 q e _ (by show 2 * p.val + 2 = hiRow + (2 * (p.val - loRow) + 1); omega))))

theorem lvl2_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl2 (F := Ideal) h ws bs (ix3 p q e) = h (ix3 p q e) := by
  unfold lvl2
  beta_reduce
  exact scatter_rows_apply_out loRow _ _ _ landL2 (by decide) _ _ p q e hp

end Cert.ReferenceIdeal.HandValue

end
-- ==== Proof.Bridge.Level2.lean ====
import proofs.«418389_j13280038879631_2_alg».proof.Proof.KI.LevelValue3
import proofs.«418389_j13280038879631_2_alg».proof.Proof.Ref.LevelValue2
import proofs.«418389_j13280038879631_2_alg».proof.Proof.Bridge.LevelLaw

noncomputable section

namespace Cert.Bridge

open Idealize.ShloMosaic Idealize.ShloMosaic.ValueIdx

theorem level2_eq (h : Vec Ideal Cert.KernelIdeal.S1023x64x256 .f32) (ws : Vec Ideal Cert.KernelIdeal.S256x256 .f32)
    (bs : Vec Ideal Cert.KernelIdeal.S256 .f32) :
    Cert.KernelIdeal.Hand.klevel3 (F := Ideal) h
        (transpose Cert.KernelIdeal.S256x256 [1, 0] ws Cert.KernelIdeal.Gen.transposes_S256x256_S256x256_1_0) bs
      = Cert.ReferenceIdeal.Hand.lvl2 (F := Ideal) h ws bs :=
  level_bridge 127 255 (by decide) h ws _ bs (wT_apply ws _) _ _
    (Cert.KernelIdeal.HandValue.klevel3_apply_in h _ bs) (Cert.KernelIdeal.HandValue.klevel3_apply_out h _ bs)
    (Cert.ReferenceIdeal.HandValue.lvl2_apply_in h ws bs) (Cert.ReferenceIdeal.HandValue.lvl2_apply_out h ws bs)

end Cert.Bridge

end
-- ==== Proof.KI.PayValue4.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k4_pay1_apply (x : Vec Ideal S64x64x256 .f32) (w : Vec Ideal S256x256 .f32) (b : Vec Ideal S256 .f32)
    (par : Vec Ideal S32x64x256 .f32) (p : Fin 32) (q : Fin 64) (e : Fin 256) :
    k4_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  exact k2_pay1_apply x w b par p q e

end Cert.KernelIdeal.HandValue

end
-- ==== Proof.KI.LevelValue4.lean ====
import proofs.«418389_j13280038879631_2_alg».proof.Proof.KI.PayValue4
import proofs.«418389_j13280038879631_2_alg».proof.Proof.KI.LevelLaw
import proofs.«418389_j13280038879631_2_alg».proof.Proof.KI.LevelLib
import proofs.«418389_j13280038879631_2_alg».proof.Proof.KI.Reg4Value
import proofs.«418389_j13280038879631_2_alg».proof.Proof.KI.Path4

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (64 : ℕ)
local notation "kidAll" => (128 : ℕ)
local notation "parRows" => (32 : ℕ)
local notation "kidRows" => (64 : ℕ)
local notation "parOff" => (63 : ℕ)
local notation "parEnd" => (127 : ℕ)

theorem treeOut4_apply (kids : Vec Ideal S128x64x256 .f32) (par : Vec Ideal S64x64x256 .f32) (w : Vec Ideal S256x256 .f32)
    (b : Vec Ideal S256 .f32) (i : Fin parAll) (q : Fin 64) (e : Fin 256) :
    treeOut4 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k4_pay1 (F := Ideal)) k4_pay1_apply kids par w b i q e
    (fun _ => kidRow4_lt _ _ i.isLt) (fun _ => parRow4_lt _ _ i.isLt) (by omega) (by omega)

theorem klevel4_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel4 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start4
    updateFits_S1023x64x256_S64x64x256 slices_S1023x64x256_S64x64x256_63_0_0 slices_S1023x64x256_S128x64x256_127_0_0
    (by decide) (by decide) (by decide) (fun i q e => treeOut4_apply _ _ w b i q e) p q e hp _ _ rfl rfl

theorem klevel4_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel4 (F := Ideal) h w b (ix3 p q e) = h (ix3 p q e) :=
  level_law_out (N := 1023) (B := 64) (E := 256) (m := parAll) parOff h _ start4
    updateFits_S1023x64x256_S64x64x256 slices_S1023x64x256_S64x64x256_63_0_0 (by decide) (by decide) (by decide) p q e hp

end Cert.KernelIdeal.HandValue

end
-- ==== Proof.Ref.LevelValue3.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (63 : ℕ)
local notation "hiRow" => (127 : ℕ)
local notation "nPar" => (64 : ℕ)
local notation "nKid" => (128 : ℕ)
local notation "loZ" => (63 : ℤ)

abbrev dL3 := scatter_S1023x64x256_S1_S64x64x256_012_n_0_0
abbrev idxL3 : IVec S1 32 := broadcastInDim S1 ![] bcast_S_S1 (constantI S_ 32 63#32)

-- the one start index is loRow on the row axis and 0 on the others, and an update element keeps its own coordinates
theorem landL3 (j : S64x64x256.Idx) (p : Fin 1023) (hp : p.val = loRow + (j 0).val) (a) :
    dL3.start j idxL3 a + dL3.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL3 := dot_S128x64x256_S256x256_S128x64x256_2_1_01_0_n_n

theorem redL3 : S64x2x64x256.Reduces [1] S64x64x256 := by decide

-- pair coordinate k of parents' row r is row 2r + k of the children's block, which is row hiRow + 2r + k of the node array
theorem kidL3_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S64x2x64x256 (addf (Host.dotGeneral dotL3 none (extractStridedSlice S128x64x256 ![127, 0, 0] h slices_S1023x64x256_S128x64x256_127_0_0) ws)
        (broadcastInDim S128x64x256 ![0, 1, 2] bcast_S1x1x256_S128x64x256_0_1_2 (broadcastInDim S1x1x256 ![2] bcast_S256_S1x1x256_2 bs)))
        shapeCasts_S128x64x256_S64x2x64x256 (redL3.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL3 256 rfl rfl).symm.sum_comp]
    refine Finset.sum_congr rfl fun i _ => ?_
    have hi := contrEquiv1_symm_val dotL3 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl3_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl3 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl3
  beta_reduce
  refine (scatter_rows_apply_in loRow _ _ _ ?_ (by decide) _ _ p q e hp.1 (by omega)).trans ?_
  · exact landL3
  · show h (ix3 p q e) + _ = _
    rw [hostReduceAdd_apply, Ideal.hostReduceAdd_single _ redL3, constant_apply, Ideal.ofBits_zero_f32, zero_add]
    exact congrArg (h (ix3 p q e) + ·) ((Fin.sum_univ_two _).trans (congrArg₂ (· + ·)
      (kidL3_apply h ws bs _ 0 q e _ (by show 2 * p.val + 1 = hiRow + (2 * (p.val - loRow) + 0); omega))
      (kidL3_apply h ws bs _ 1 q e _ (by show 2 * p.val + 2 = hiRow + (2 * (p.val - loRow) + 1); omega))))

theorem lvl3_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl3 (F := Ideal) h ws bs (ix3 p q e) = h (ix3 p q e) := by
  unfold lvl3
  beta_reduce
  exact scatter_rows_apply_out loRow _ _ _ landL3 (by decide) _ _ p q e hp

end Cert.ReferenceIdeal.HandValue

end
-- ==== Proof.Bridge.Level3.lean ====
import proofs.«418389_j13280038879631_2_alg».proof.Proof.KI.LevelValue4
import proofs.«418389_j13280038879631_2_alg».proof.Proof.Ref.LevelValue3
import proofs.«418389_j13280038879631_2_alg».proof.Proof.Bridge.LevelLaw

noncomputable section

namespace Cert.Bridge

open Idealize.ShloMosaic Idealize.ShloMosaic.ValueIdx

theorem level3_eq (h : Vec Ideal Cert.KernelIdeal.S1023x64x256 .f32) (ws : Vec Ideal Cert.KernelIdeal.S256x256 .f32)
    (bs : Vec Ideal Cert.KernelIdeal.S256 .f32) :
    Cert.KernelIdeal.Hand.klevel4 (F := Ideal) h
        (transpose Cert.KernelIdeal.S256x256 [1, 0] ws Cert.KernelIdeal.Gen.transposes_S256x256_S256x256_1_0) bs
      = Cert.ReferenceIdeal.Hand.lvl3 (F := Ideal) h ws bs :=
  level_bridge 63 127 (by decide) h ws _ bs (wT_apply ws _) _ _
    (Cert.KernelIdeal.HandValue.klevel4_apply_in h _ bs) (Cert.KernelIdeal.HandValue.klevel4_apply_out h _ bs)
    (Cert.ReferenceIdeal.HandValue.lvl3_apply_in h ws bs) (Cert.ReferenceIdeal.HandValue.lvl3_apply_out h ws bs)

end Cert.Bridge

end
-- ==== Proof.KI.PayValue5.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k5_pay1_apply (x : Vec Ideal S64x64x256 .f32) (w : Vec Ideal S256x256 .f32) (b : Vec Ideal S256 .f32)
    (par : Vec Ideal S32x64x256 .f32) (p : Fin 32) (q : Fin 64) (e : Fin 256) :
    k5_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  exact k2_pay1_apply x w b par p q e

end Cert.KernelIdeal.HandValue

end
-- ==== Proof.KI.LevelValue5.lean ====
import proofs.«418389_j13280038879631_2_alg».proof.Proof.KI.PayValue5
import proofs.«418389_j13280038879631_2_alg».proof.Proof.KI.LevelLaw
import proofs.«418389_j13280038879631_2_alg».proof.Proof.KI.LevelLib
import proofs.«418389_j13280038879631_2_alg».proof.Proof.KI.Reg5Value
import proofs.«418389_j13280038879631_2_alg».proof.Proof.KI.Path5

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (32 : ℕ)
local notation "kidAll" => (64 : ℕ)
local notation "parRows" => (32 : ℕ)
local notation "kidRows" => (64 : ℕ)
local notation "parOff" => (31 : ℕ)
local notation "parEnd" => (63 : ℕ)

theorem treeOut5_apply (kids : Vec Ideal S64x64x256 .f32) (par : Vec Ideal S32x64x256 .f32) (w : Vec Ideal S256x256 .f32)
    (b : Vec Ideal S256 .f32) (i : Fin parAll) (q : Fin 64) (e : Fin 256) :
    treeOut5 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k5_pay1 (F := Ideal)) k5_pay1_apply kids par w b i q e
    (fun _ => kidRow5_lt _ _ i.isLt) (fun _ => parRow5_lt _ _ i.isLt) (by omega) (by omega)

theorem klevel5_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel5 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start5
    updateFits_S1023x64x256_S32x64x256 slices_S1023x64x256_S32x64x256_31_0_0 slices_S1023x64x256_S64x64x256_63_0_0
    (by decide) (by decide) (by decide) (fun i q e => treeOut5_apply _ _ w b i q e) p q e hp _ _ rfl rfl

theorem klevel5_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel5 (F := Ideal) h w b (ix3 p q e) = h (ix3 p q e) :=
  level_law_out (N := 1023) (B := 64) (E := 256) (m := parAll) parOff h _ start5
    updateFits_S1023x64x256_S32x64x256 slices_S1023x64x256_S32x64x256_31_0_0 (by decide) (by decide) (by decide) p q e hp

end Cert.KernelIdeal.HandValue

end
-- ==== Proof.Ref.LevelValue4.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (31 : ℕ)
local notation "hiRow" => (63 : ℕ)
local notation "nPar" => (32 : ℕ)
local notation "nKid" => (64 : ℕ)
local notation "loZ" => (31 : ℤ)

abbrev dL4 := scatter_S1023x64x256_S1_S32x64x256_012_n_0_0
abbrev idxL4 : IVec S1 32 := broadcastInDim S1 ![] bcast_S_S1 (constantI S_ 32 31#32)

-- the one start index is loRow on the row axis and 0 on the others, and an update element keeps its own coordinates
theorem landL4 (j : S32x64x256.Idx) (p : Fin 1023) (hp : p.val = loRow + (j 0).val) (a) :
    dL4.start j idxL4 a + dL4.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL4 := dot_S64x64x256_S256x256_S64x64x256_2_1_01_0_n_n

theorem redL4 : S32x2x64x256.Reduces [1] S32x64x256 := by decide

-- pair coordinate k of parents' row r is row 2r + k of the children's block, which is row hiRow + 2r + k of the node array
theorem kidL4_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S32x2x64x256 (addf (Host.dotGeneral dotL4 none (extractStridedSlice S64x64x256 ![63, 0, 0] h slices_S1023x64x256_S64x64x256_63_0_0) ws)
        (broadcastInDim S64x64x256 ![0, 1, 2] bcast_S1x1x256_S64x64x256_0_1_2 (broadcastInDim S1x1x256 ![2] bcast_S256_S1x1x256_2 bs)))
        shapeCasts_S64x64x256_S32x2x64x256 (redL4.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL4 256 rfl rfl).symm.sum_comp]
    refine Finset.sum_congr rfl fun i _ => ?_
    have hi := contrEquiv1_symm_val dotL4 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl4_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl4 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl4
  beta_reduce
  refine (scatter_rows_apply_in loRow _ _ _ ?_ (by decide) _ _ p q e hp.1 (by omega)).trans ?_
  · exact landL4
  · show h (ix3 p q e) + _ = _
    rw [hostReduceAdd_apply, Ideal.hostReduceAdd_single _ redL4, constant_apply, Ideal.ofBits_zero_f32, zero_add]
    exact congrArg (h (ix3 p q e) + ·) ((Fin.sum_univ_two _).trans (congrArg₂ (· + ·)
      (kidL4_apply h ws bs _ 0 q e _ (by show 2 * p.val + 1 = hiRow + (2 * (p.val - loRow) + 0); omega))
      (kidL4_apply h ws bs _ 1 q e _ (by show 2 * p.val + 2 = hiRow + (2 * (p.val - loRow) + 1); omega))))

theorem lvl4_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl4 (F := Ideal) h ws bs (ix3 p q e) = h (ix3 p q e) := by
  unfold lvl4
  beta_reduce
  exact scatter_rows_apply_out loRow _ _ _ landL4 (by decide) _ _ p q e hp

end Cert.ReferenceIdeal.HandValue

end
-- ==== Proof.Bridge.Level4.lean ====
import proofs.«418389_j13280038879631_2_alg».proof.Proof.KI.LevelValue5
import proofs.«418389_j13280038879631_2_alg».proof.Proof.Ref.LevelValue4
import proofs.«418389_j13280038879631_2_alg».proof.Proof.Bridge.LevelLaw

noncomputable section

namespace Cert.Bridge

open Idealize.ShloMosaic Idealize.ShloMosaic.ValueIdx

theorem level4_eq (h : Vec Ideal Cert.KernelIdeal.S1023x64x256 .f32) (ws : Vec Ideal Cert.KernelIdeal.S256x256 .f32)
    (bs : Vec Ideal Cert.KernelIdeal.S256 .f32) :
    Cert.KernelIdeal.Hand.klevel5 (F := Ideal) h
        (transpose Cert.KernelIdeal.S256x256 [1, 0] ws Cert.KernelIdeal.Gen.transposes_S256x256_S256x256_1_0) bs
      = Cert.ReferenceIdeal.Hand.lvl4 (F := Ideal) h ws bs :=
  level_bridge 31 63 (by decide) h ws _ bs (wT_apply ws _) _ _
    (Cert.KernelIdeal.HandValue.klevel5_apply_in h _ bs) (Cert.KernelIdeal.HandValue.klevel5_apply_out h _ bs)
    (Cert.ReferenceIdeal.HandValue.lvl4_apply_in h ws bs) (Cert.ReferenceIdeal.HandValue.lvl4_apply_out h ws bs)

end Cert.Bridge

end
-- ==== Proof.KI.PayValue6.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k6_pay1_apply (x : Vec Ideal S32x64x256 .f32) (w : Vec Ideal S256x256 .f32) (b : Vec Ideal S256 .f32)
    (par : Vec Ideal S16x64x256 .f32) (p : Fin 16) (q : Fin 64) (e : Fin 256) :
    k6_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  unfold k6_pay1
  exact pair_apply _ par _ _ _ _ _ _ (linear_apply _ rfl x w b _ _ _ _ _) (by omega) (by omega) p q e

end Cert.KernelIdeal.HandValue

end
-- ==== Proof.KI.LevelValue6.lean ====
import proofs.«418389_j13280038879631_2_alg».proof.Proof.KI.PayValue6
import proofs.«418389_j13280038879631_2_alg».proof.Proof.KI.LevelLaw
import proofs.«418389_j13280038879631_2_alg».proof.Proof.KI.LevelLib
import proofs.«418389_j13280038879631_2_alg».proof.Proof.KI.Reg6Value
import proofs.«418389_j13280038879631_2_alg».proof.Proof.KI.Path6

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (16 : ℕ)
local notation "kidAll" => (32 : ℕ)
local notation "parRows" => (16 : ℕ)
local notation "kidRows" => (32 : ℕ)
local notation "parOff" => (15 : ℕ)
local notation "parEnd" => (31 : ℕ)

theorem treeOut6_apply (kids : Vec Ideal S32x64x256 .f32) (par : Vec Ideal S16x64x256 .f32) (w : Vec Ideal S256x256 .f32)
    (b : Vec Ideal S256 .f32) (i : Fin parAll) (q : Fin 64) (e : Fin 256) :
    treeOut6 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k6_pay1 (F := Ideal)) k6_pay1_apply kids par w b i q e
    (fun _ => kidRow6_lt _ _ i.isLt) (fun _ => parRow6_lt _ _ i.isLt) (by omega) (by omega)

theorem klevel6_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel6 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start6
    updateFits_S1023x64x256_S16x64x256 slices_S1023x64x256_S16x64x256_15_0_0 slices_S1023x64x256_S32x64x256_31_0_0
    (by decide) (by decide) (by decide) (fun i q e => treeOut6_apply _ _ w b i q e) p q e hp _ _ rfl rfl

theorem klevel6_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel6 (F := Ideal) h w b (ix3 p q e) = h (ix3 p q e) :=
  level_law_out (N := 1023) (B := 64) (E := 256) (m := parAll) parOff h _ start6
    updateFits_S1023x64x256_S16x64x256 slices_S1023x64x256_S16x64x256_15_0_0 (by decide) (by decide) (by decide) p q e hp

end Cert.KernelIdeal.HandValue

end
-- ==== Proof.Ref.LevelValue5.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (15 : ℕ)
local notation "hiRow" => (31 : ℕ)
local notation "nPar" => (16 : ℕ)
local notation "nKid" => (32 : ℕ)
local notation "loZ" => (15 : ℤ)

abbrev dL5 := scatter_S1023x64x256_S1_S16x64x256_012_n_0_0
abbrev idxL5 : IVec S1 32 := broadcastInDim S1 ![] bcast_S_S1 (constantI S_ 32 15#32)

-- the one start index is loRow on the row axis and 0 on the others, and an update element keeps its own coordinates
theorem landL5 (j : S16x64x256.Idx) (p : Fin 1023) (hp : p.val = loRow + (j 0).val) (a) :
    dL5.start j idxL5 a + dL5.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL5 := dot_S32x64x256_S256x256_S32x64x256_2_1_01_0_n_n

theorem redL5 : S16x2x64x256.Reduces [1] S16x64x256 := by decide

-- pair coordinate k of parents' row r is row 2r + k of the children's block, which is row hiRow + 2r + k of the node array
theorem kidL5_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S16x2x64x256 (addf (Host.dotGeneral dotL5 none (extractStridedSlice S32x64x256 ![31, 0, 0] h slices_S1023x64x256_S32x64x256_31_0_0) ws)
        (broadcastInDim S32x64x256 ![0, 1, 2] bcast_S1x1x256_S32x64x256_0_1_2 (broadcastInDim S1x1x256 ![2] bcast_S256_S1x1x256_2 bs)))
        shapeCasts_S32x64x256_S16x2x64x256 (redL5.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL5 256 rfl rfl).symm.sum_comp]
    refine Finset.sum_congr rfl fun i _ => ?_
    have hi := contrEquiv1_symm_val dotL5 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl5_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl5 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl5
  beta_reduce
  refine (scatter_rows_apply_in loRow _ _ _ ?_ (by decide) _ _ p q e hp.1 (by omega)).trans ?_
  · exact landL5
  · show h (ix3 p q e) + _ = _
    rw [hostReduceAdd_apply, Ideal.hostReduceAdd_single _ redL5, constant_apply, Ideal.ofBits_zero_f32, zero_add]
    exact congrArg (h (ix3 p q e) + ·) ((Fin.sum_univ_two _).trans (congrArg₂ (· + ·)
      (kidL5_apply h ws bs _ 0 q e _ (by show 2 * p.val + 1 = hiRow + (2 * (p.val - loRow) + 0); omega))
      (kidL5_apply h ws bs _ 1 q e _ (by show 2 * p.val + 2 = hiRow + (2 * (p.val - loRow) + 1); omega))))

theorem lvl5_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl5 (F := Ideal) h ws bs (ix3 p q e) = h (ix3 p q e) := by
  unfold lvl5
  beta_reduce
  exact scatter_rows_apply_out loRow _ _ _ landL5 (by decide) _ _ p q e hp

end Cert.ReferenceIdeal.HandValue

end
-- ==== Proof.Bridge.Level5.lean ====
import proofs.«418389_j13280038879631_2_alg».proof.Proof.KI.LevelValue6
import proofs.«418389_j13280038879631_2_alg».proof.Proof.Ref.LevelValue5
import proofs.«418389_j13280038879631_2_alg».proof.Proof.Bridge.LevelLaw

noncomputable section

namespace Cert.Bridge

open Idealize.ShloMosaic Idealize.ShloMosaic.ValueIdx

theorem level5_eq (h : Vec Ideal Cert.KernelIdeal.S1023x64x256 .f32) (ws : Vec Ideal Cert.KernelIdeal.S256x256 .f32)
    (bs : Vec Ideal Cert.KernelIdeal.S256 .f32) :
    Cert.KernelIdeal.Hand.klevel6 (F := Ideal) h
        (transpose Cert.KernelIdeal.S256x256 [1, 0] ws Cert.KernelIdeal.Gen.transposes_S256x256_S256x256_1_0) bs
      = Cert.ReferenceIdeal.Hand.lvl5 (F := Ideal) h ws bs :=
  level_bridge 15 31 (by decide) h ws _ bs (wT_apply ws _) _ _
    (Cert.KernelIdeal.HandValue.klevel6_apply_in h _ bs) (Cert.KernelIdeal.HandValue.klevel6_apply_out h _ bs)
    (Cert.ReferenceIdeal.HandValue.lvl5_apply_in h ws bs) (Cert.ReferenceIdeal.HandValue.lvl5_apply_out h ws bs)

end Cert.Bridge

end
-- ==== Proof.KI.PayValue7.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k7_pay1_apply (x : Vec Ideal S16x64x256 .f32) (w : Vec Ideal S256x256 .f32) (b : Vec Ideal S256 .f32)
    (par : Vec Ideal S8x64x256 .f32) (p : Fin 8) (q : Fin 64) (e : Fin 256) :
    k7_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  unfold k7_pay1
  exact pair_apply _ par _ _ _ _ _ _ (linear_apply _ rfl x w b _ _ _ _ _) (by omega) (by omega) p q e

end Cert.KernelIdeal.HandValue

end
-- ==== Proof.KI.LevelValue7.lean ====
import proofs.«418389_j13280038879631_2_alg».proof.Proof.KI.PayValue7
import proofs.«418389_j13280038879631_2_alg».proof.Proof.KI.LevelLaw
import proofs.«418389_j13280038879631_2_alg».proof.Proof.KI.LevelLib
import proofs.«418389_j13280038879631_2_alg».proof.Proof.KI.Reg7Value
import proofs.«418389_j13280038879631_2_alg».proof.Proof.KI.Path7

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (8 : ℕ)
local notation "kidAll" => (16 : ℕ)
local notation "parRows" => (8 : ℕ)
local notation "kidRows" => (16 : ℕ)
local notation "parOff" => (7 : ℕ)
local notation "parEnd" => (15 : ℕ)

theorem treeOut7_apply (kids : Vec Ideal S16x64x256 .f32) (par : Vec Ideal S8x64x256 .f32) (w : Vec Ideal S256x256 .f32)
    (b : Vec Ideal S256 .f32) (i : Fin parAll) (q : Fin 64) (e : Fin 256) :
    treeOut7 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k7_pay1 (F := Ideal)) k7_pay1_apply kids par w b i q e
    (fun _ => kidRow7_lt _ _ i.isLt) (fun _ => parRow7_lt _ _ i.isLt) (by omega) (by omega)

theorem klevel7_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel7 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start7
    updateFits_S1023x64x256_S8x64x256 slices_S1023x64x256_S8x64x256_7_0_0 slices_S1023x64x256_S16x64x256_15_0_0
    (by decide) (by decide) (by decide) (fun i q e => treeOut7_apply _ _ w b i q e) p q e hp _ _ rfl rfl

theorem klevel7_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel7 (F := Ideal) h w b (ix3 p q e) = h (ix3 p q e) :=
  level_law_out (N := 1023) (B := 64) (E := 256) (m := parAll) parOff h _ start7
    updateFits_S1023x64x256_S8x64x256 slices_S1023x64x256_S8x64x256_7_0_0 (by decide) (by decide) (by decide) p q e hp

end Cert.KernelIdeal.HandValue

end
-- ==== Proof.Ref.LevelValue6.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (7 : ℕ)
local notation "hiRow" => (15 : ℕ)
local notation "nPar" => (8 : ℕ)
local notation "nKid" => (16 : ℕ)
local notation "loZ" => (7 : ℤ)

abbrev dL6 := scatter_S1023x64x256_S1_S8x64x256_012_n_0_0
abbrev idxL6 : IVec S1 32 := broadcastInDim S1 ![] bcast_S_S1 (constantI S_ 32 7#32)

-- the one start index is loRow on the row axis and 0 on the others, and an update element keeps its own coordinates
theorem landL6 (j : S8x64x256.Idx) (p : Fin 1023) (hp : p.val = loRow + (j 0).val) (a) :
    dL6.start j idxL6 a + dL6.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL6 := dot_S16x64x256_S256x256_S16x64x256_2_1_01_0_n_n

theorem redL6 : S8x2x64x256.Reduces [1] S8x64x256 := by decide

-- pair coordinate k of parents' row r is row 2r + k of the children's block, which is row hiRow + 2r + k of the node array
theorem kidL6_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S8x2x64x256 (addf (Host.dotGeneral dotL6 none (extractStridedSlice S16x64x256 ![15, 0, 0] h slices_S1023x64x256_S16x64x256_15_0_0) ws)
        (broadcastInDim S16x64x256 ![0, 1, 2] bcast_S1x1x256_S16x64x256_0_1_2 (broadcastInDim S1x1x256 ![2] bcast_S256_S1x1x256_2 bs)))
        shapeCasts_S16x64x256_S8x2x64x256 (redL6.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL6 256 rfl rfl).symm.sum_comp]
    refine Finset.sum_congr rfl fun i _ => ?_
    have hi := contrEquiv1_symm_val dotL6 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl6_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl6 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl6
  beta_reduce
  refine (scatter_rows_apply_in loRow _ _ _ ?_ (by decide) _ _ p q e hp.1 (by omega)).trans ?_
  · exact landL6
  · show h (ix3 p q e) + _ = _
    rw [hostReduceAdd_apply, Ideal.hostReduceAdd_single _ redL6, constant_apply, Ideal.ofBits_zero_f32, zero_add]
    exact congrArg (h (ix3 p q e) + ·) ((Fin.sum_univ_two _).trans (congrArg₂ (· + ·)
      (kidL6_apply h ws bs _ 0 q e _ (by show 2 * p.val + 1 = hiRow + (2 * (p.val - loRow) + 0); omega))
      (kidL6_apply h ws bs _ 1 q e _ (by show 2 * p.val + 2 = hiRow + (2 * (p.val - loRow) + 1); omega))))

theorem lvl6_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl6 (F := Ideal) h ws bs (ix3 p q e) = h (ix3 p q e) := by
  unfold lvl6
  beta_reduce
  exact scatter_rows_apply_out loRow _ _ _ landL6 (by decide) _ _ p q e hp

end Cert.ReferenceIdeal.HandValue

end
-- ==== Proof.Bridge.Level6.lean ====
import proofs.«418389_j13280038879631_2_alg».proof.Proof.KI.LevelValue7
import proofs.«418389_j13280038879631_2_alg».proof.Proof.Ref.LevelValue6
import proofs.«418389_j13280038879631_2_alg».proof.Proof.Bridge.LevelLaw

noncomputable section

namespace Cert.Bridge

open Idealize.ShloMosaic Idealize.ShloMosaic.ValueIdx

theorem level6_eq (h : Vec Ideal Cert.KernelIdeal.S1023x64x256 .f32) (ws : Vec Ideal Cert.KernelIdeal.S256x256 .f32)
    (bs : Vec Ideal Cert.KernelIdeal.S256 .f32) :
    Cert.KernelIdeal.Hand.klevel7 (F := Ideal) h
        (transpose Cert.KernelIdeal.S256x256 [1, 0] ws Cert.KernelIdeal.Gen.transposes_S256x256_S256x256_1_0) bs
      = Cert.ReferenceIdeal.Hand.lvl6 (F := Ideal) h ws bs :=
  level_bridge 7 15 (by decide) h ws _ bs (wT_apply ws _) _ _
    (Cert.KernelIdeal.HandValue.klevel7_apply_in h _ bs) (Cert.KernelIdeal.HandValue.klevel7_apply_out h _ bs)
    (Cert.ReferenceIdeal.HandValue.lvl6_apply_in h ws bs) (Cert.ReferenceIdeal.HandValue.lvl6_apply_out h ws bs)

end Cert.Bridge

end
-- ==== Proof.KI.PayValue8.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k8_pay1_apply (x : Vec Ideal S8x64x256 .f32) (w : Vec Ideal S256x256 .f32) (b : Vec Ideal S256 .f32)
    (par : Vec Ideal S4x64x256 .f32) (p : Fin 4) (q : Fin 64) (e : Fin 256) :
    k8_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  unfold k8_pay1
  exact pair_apply _ par _ _ _ _ _ _ (linear_apply _ rfl x w b _ _ _ _ _) (by omega) (by omega) p q e

end Cert.KernelIdeal.HandValue

end
-- ==== Proof.KI.LevelValue8.lean ====
import proofs.«418389_j13280038879631_2_alg».proof.Proof.KI.PayValue8
import proofs.«418389_j13280038879631_2_alg».proof.Proof.KI.LevelLaw
import proofs.«418389_j13280038879631_2_alg».proof.Proof.KI.LevelLib
import proofs.«418389_j13280038879631_2_alg».proof.Proof.KI.Reg8Value
import proofs.«418389_j13280038879631_2_alg».proof.Proof.KI.Path8

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (4 : ℕ)
local notation "kidAll" => (8 : ℕ)
local notation "parRows" => (4 : ℕ)
local notation "kidRows" => (8 : ℕ)
local notation "parOff" => (3 : ℕ)
local notation "parEnd" => (7 : ℕ)

theorem treeOut8_apply (kids : Vec Ideal S8x64x256 .f32) (par : Vec Ideal S4x64x256 .f32) (w : Vec Ideal S256x256 .f32)
    (b : Vec Ideal S256 .f32) (i : Fin parAll) (q : Fin 64) (e : Fin 256) :
    treeOut8 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k8_pay1 (F := Ideal)) k8_pay1_apply kids par w b i q e
    (fun _ => kidRow8_lt _ _ i.isLt) (fun _ => parRow8_lt _ _ i.isLt) (by omega) (by omega)

theorem klevel8_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel8 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start8
    updateFits_S1023x64x256_S4x64x256 slices_S1023x64x256_S4x64x256_3_0_0 slices_S1023x64x256_S8x64x256_7_0_0
    (by decide) (by decide) (by decide) (fun i q e => treeOut8_apply _ _ w b i q e) p q e hp _ _ rfl rfl

theorem klevel8_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel8 (F := Ideal) h w b (ix3 p q e) = h (ix3 p q e) :=
  level_law_out (N := 1023) (B := 64) (E := 256) (m := parAll) parOff h _ start8
    updateFits_S1023x64x256_S4x64x256 slices_S1023x64x256_S4x64x256_3_0_0 (by decide) (by decide) (by decide) p q e hp

end Cert.KernelIdeal.HandValue

end
-- ==== Proof.Ref.LevelValue7.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (3 : ℕ)
local notation "hiRow" => (7 : ℕ)
local notation "nPar" => (4 : ℕ)
local notation "nKid" => (8 : ℕ)
local notation "loZ" => (3 : ℤ)

abbrev dL7 := scatter_S1023x64x256_S1_S4x64x256_012_n_0_0
abbrev idxL7 : IVec S1 32 := broadcastInDim S1 ![] bcast_S_S1 (constantI S_ 32 3#32)

-- the one start index is loRow on the row axis and 0 on the others, and an update element keeps its own coordinates
theorem landL7 (j : S4x64x256.Idx) (p : Fin 1023) (hp : p.val = loRow + (j 0).val) (a) :
    dL7.start j idxL7 a + dL7.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL7 := dot_S8x64x256_S256x256_S8x64x256_2_1_01_0_n_n

theorem redL7 : S4x2x64x256.Reduces [1] S4x64x256 := by decide

-- pair coordinate k of parents' row r is row 2r + k of the children's block, which is row hiRow + 2r + k of the node array
theorem kidL7_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S4x2x64x256 (addf (Host.dotGeneral dotL7 none (extractStridedSlice S8x64x256 ![7, 0, 0] h slices_S1023x64x256_S8x64x256_7_0_0) ws)
        (broadcastInDim S8x64x256 ![0, 1, 2] bcast_S1x1x256_S8x64x256_0_1_2 (broadcastInDim S1x1x256 ![2] bcast_S256_S1x1x256_2 bs)))
        shapeCasts_S8x64x256_S4x2x64x256 (redL7.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL7 256 rfl rfl).symm.sum_comp]
    refine Finset.sum_congr rfl fun i _ => ?_
    have hi := contrEquiv1_symm_val dotL7 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl7_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl7 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl7
  beta_reduce
  refine (scatter_rows_apply_in loRow _ _ _ ?_ (by decide) _ _ p q e hp.1 (by omega)).trans ?_
  · exact landL7
  · show h (ix3 p q e) + _ = _
    rw [hostReduceAdd_apply, Ideal.hostReduceAdd_single _ redL7, constant_apply, Ideal.ofBits_zero_f32, zero_add]
    exact congrArg (h (ix3 p q e) + ·) ((Fin.sum_univ_two _).trans (congrArg₂ (· + ·)
      (kidL7_apply h ws bs _ 0 q e _ (by show 2 * p.val + 1 = hiRow + (2 * (p.val - loRow) + 0); omega))
      (kidL7_apply h ws bs _ 1 q e _ (by show 2 * p.val + 2 = hiRow + (2 * (p.val - loRow) + 1); omega))))

theorem lvl7_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl7 (F := Ideal) h ws bs (ix3 p q e) = h (ix3 p q e) := by
  unfold lvl7
  beta_reduce
  exact scatter_rows_apply_out loRow _ _ _ landL7 (by decide) _ _ p q e hp

end Cert.ReferenceIdeal.HandValue

end
-- ==== Proof.Bridge.Level7.lean ====
import proofs.«418389_j13280038879631_2_alg».proof.Proof.KI.LevelValue8
import proofs.«418389_j13280038879631_2_alg».proof.Proof.Ref.LevelValue7
import proofs.«418389_j13280038879631_2_alg».proof.Proof.Bridge.LevelLaw

noncomputable section

namespace Cert.Bridge

open Idealize.ShloMosaic Idealize.ShloMosaic.ValueIdx

theorem level7_eq (h : Vec Ideal Cert.KernelIdeal.S1023x64x256 .f32) (ws : Vec Ideal Cert.KernelIdeal.S256x256 .f32)
    (bs : Vec Ideal Cert.KernelIdeal.S256 .f32) :
    Cert.KernelIdeal.Hand.klevel8 (F := Ideal) h
        (transpose Cert.KernelIdeal.S256x256 [1, 0] ws Cert.KernelIdeal.Gen.transposes_S256x256_S256x256_1_0) bs
      = Cert.ReferenceIdeal.Hand.lvl7 (F := Ideal) h ws bs :=
  level_bridge 3 7 (by decide) h ws _ bs (wT_apply ws _) _ _
    (Cert.KernelIdeal.HandValue.klevel8_apply_in h _ bs) (Cert.KernelIdeal.HandValue.klevel8_apply_out h _ bs)
    (Cert.ReferenceIdeal.HandValue.lvl7_apply_in h ws bs) (Cert.ReferenceIdeal.HandValue.lvl7_apply_out h ws bs)

end Cert.Bridge

end
-- ==== Proof.KI.PayValue9.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k9_pay1_apply (x : Vec Ideal S4x64x256 .f32) (w : Vec Ideal S256x256 .f32) (b : Vec Ideal S256 .f32)
    (par : Vec Ideal S2x64x256 .f32) (p : Fin 2) (q : Fin 64) (e : Fin 256) :
    k9_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  unfold k9_pay1
  exact pair_apply _ par _ _ _ _ _ _ (linear_apply _ rfl x w b _ _ _ _ _) (by omega) (by omega) p q e

end Cert.KernelIdeal.HandValue

end
-- ==== Proof.KI.LevelValue9.lean ====
import proofs.«418389_j13280038879631_2_alg».proof.Proof.KI.PayValue9
import proofs.«418389_j13280038879631_2_alg».proof.Proof.KI.LevelLaw
import proofs.«418389_j13280038879631_2_alg».proof.Proof.KI.LevelLib
import proofs.«418389_j13280038879631_2_alg».proof.Proof.KI.Reg9Value
import proofs.«418389_j13280038879631_2_alg».proof.Proof.KI.Path9

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (2 : ℕ)
local notation "kidAll" => (4 : ℕ)
local notation "parRows" => (2 : ℕ)
local notation "kidRows" => (4 : ℕ)
local notation "parOff" => (1 : ℕ)
local notation "parEnd" => (3 : ℕ)

theorem treeOut9_apply (kids : Vec Ideal S4x64x256 .f32) (par : Vec Ideal S2x64x256 .f32) (w : Vec Ideal S256x256 .f32)
    (b : Vec Ideal S256 .f32) (i : Fin parAll) (q : Fin 64) (e : Fin 256) :
    treeOut9 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k9_pay1 (F := Ideal)) k9_pay1_apply kids par w b i q e
    (fun _ => kidRow9_lt _ _ i.isLt) (fun _ => parRow9_lt _ _ i.isLt) (by omega) (by omega)

theorem klevel9_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel9 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start9
    updateFits_S1023x64x256_S2x64x256 slices_S1023x64x256_S2x64x256_1_0_0 slices_S1023x64x256_S4x64x256_3_0_0
    (by decide) (by decide) (by decide) (fun i q e => treeOut9_apply _ _ w b i q e) p q e hp _ _ rfl rfl

theorem klevel9_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel9 (F := Ideal) h w b (ix3 p q e) = h (ix3 p q e) :=
  level_law_out (N := 1023) (B := 64) (E := 256) (m := parAll) parOff h _ start9
    updateFits_S1023x64x256_S2x64x256 slices_S1023x64x256_S2x64x256_1_0_0 (by decide) (by decide) (by decide) p q e hp

end Cert.KernelIdeal.HandValue

end
-- ==== Proof.Ref.LevelValue8.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (1 : ℕ)
local notation "hiRow" => (3 : ℕ)
local notation "nPar" => (2 : ℕ)
local notation "nKid" => (4 : ℕ)
local notation "loZ" => (1 : ℤ)

abbrev dL8 := scatter_S1023x64x256_S1_S2x64x256_012_n_0_0
abbrev idxL8 : IVec S1 32 := broadcastInDim S1 ![] bcast_S_S1 (constantI S_ 32 1#32)

-- the one start index is loRow on the row axis and 0 on the others, and an update element keeps its own coordinates
theorem landL8 (j : S2x64x256.Idx) (p : Fin 1023) (hp : p.val = loRow + (j 0).val) (a) :
    dL8.start j idxL8 a + dL8.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL8 := dot_S4x64x256_S256x256_S4x64x256_2_1_01_0_n_n

theorem redL8 : S2x2x64x256.Reduces [1] S2x64x256 := by decide

-- pair coordinate k of parents' row r is row 2r + k of the children's block, which is row hiRow + 2r + k of the node array
theorem kidL8_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S2x2x64x256 (addf (Host.dotGeneral dotL8 none (extractStridedSlice S4x64x256 ![3, 0, 0] h slices_S1023x64x256_S4x64x256_3_0_0) ws)
        (broadcastInDim S4x64x256 ![0, 1, 2] bcast_S1x1x256_S4x64x256_0_1_2 (broadcastInDim S1x1x256 ![2] bcast_S256_S1x1x256_2 bs)))
        shapeCasts_S4x64x256_S2x2x64x256 (redL8.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL8 256 rfl rfl).symm.sum_comp]
    refine Finset.sum_congr rfl fun i _ => ?_
    have hi := contrEquiv1_symm_val dotL8 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl8_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl8 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl8
  beta_reduce
  refine (scatter_rows_apply_in loRow _ _ _ ?_ (by decide) _ _ p q e hp.1 (by omega)).trans ?_
  · exact landL8
  · show h (ix3 p q e) + _ = _
    rw [hostReduceAdd_apply, Ideal.hostReduceAdd_single _ redL8, constant_apply, Ideal.ofBits_zero_f32, zero_add]
    exact congrArg (h (ix3 p q e) + ·) ((Fin.sum_univ_two _).trans (congrArg₂ (· + ·)
      (kidL8_apply h ws bs _ 0 q e _ (by show 2 * p.val + 1 = hiRow + (2 * (p.val - loRow) + 0); omega))
      (kidL8_apply h ws bs _ 1 q e _ (by show 2 * p.val + 2 = hiRow + (2 * (p.val - loRow) + 1); omega))))

theorem lvl8_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl8 (F := Ideal) h ws bs (ix3 p q e) = h (ix3 p q e) := by
  unfold lvl8
  beta_reduce
  exact scatter_rows_apply_out loRow _ _ _ landL8 (by decide) _ _ p q e hp

end Cert.ReferenceIdeal.HandValue

end
-- ==== Proof.Bridge.Level8.lean ====
import proofs.«418389_j13280038879631_2_alg».proof.Proof.KI.LevelValue9
import proofs.«418389_j13280038879631_2_alg».proof.Proof.Ref.LevelValue8
import proofs.«418389_j13280038879631_2_alg».proof.Proof.Bridge.LevelLaw

noncomputable section

namespace Cert.Bridge

open Idealize.ShloMosaic Idealize.ShloMosaic.ValueIdx

theorem level8_eq (h : Vec Ideal Cert.KernelIdeal.S1023x64x256 .f32) (ws : Vec Ideal Cert.KernelIdeal.S256x256 .f32)
    (bs : Vec Ideal Cert.KernelIdeal.S256 .f32) :
    Cert.KernelIdeal.Hand.klevel9 (F := Ideal) h
        (transpose Cert.KernelIdeal.S256x256 [1, 0] ws Cert.KernelIdeal.Gen.transposes_S256x256_S256x256_1_0) bs
      = Cert.ReferenceIdeal.Hand.lvl8 (F := Ideal) h ws bs :=
  level_bridge 1 3 (by decide) h ws _ bs (wT_apply ws _) _ _
    (Cert.KernelIdeal.HandValue.klevel9_apply_in h _ bs) (Cert.KernelIdeal.HandValue.klevel9_apply_out h _ bs)
    (Cert.ReferenceIdeal.HandValue.lvl8_apply_in h ws bs) (Cert.ReferenceIdeal.HandValue.lvl8_apply_out h ws bs)

end Cert.Bridge

end
-- ==== Proof.KI.PayValue10.lean ====
import proofs.«418389_j13280038879631_2_alg».proof.Proof.KI.PayValue

noncomputable section

namespace Cert.KernelIdeal.HandValue

open Idealize.ShloMosaic Idealize.SL.Sem Cert.KernelIdeal Cert.KernelIdeal.Gen Idealize.ShloMosaic.ValueIdx
open scoped BigOperators

theorem k10_pay1_apply (x : Vec Ideal S2x64x256 .f32) (w : Vec Ideal S256x256 .f32) (b : Vec Ideal S256 .f32)
    (par : Vec Ideal S1x64x256 .f32) (p : Fin 1) (q : Fin 64) (e : Fin 256) :
    k10_pay1 (F := Ideal) x w b par (ix3 p q e)
      = par (ix3 p q e) + (((∑ k : Fin 256, x (ix3 ⟨2 * p.val, by omega⟩ q k) * w (ix2 k e)) + b (ix1 e))
          + ((∑ k : Fin 256, x (ix3 ⟨2 * p.val + 1, by omega⟩ q k) * w (ix2 k e)) + b (ix1 e))) := by
  unfold k10_pay1
  exact pair_apply _ par _ _ _ _ _ _ (linear_apply _ rfl x w b _ _ _ _ _) (by omega) (by omega) p q e

end Cert.KernelIdeal.HandValue

end
-- ==== Proof.KI.LevelValue10.lean ====
import proofs.«418389_j13280038879631_2_alg».proof.Proof.KI.PayValue10
import proofs.«418389_j13280038879631_2_alg».proof.Proof.KI.LevelLaw
import proofs.«418389_j13280038879631_2_alg».proof.Proof.KI.LevelLib
import proofs.«418389_j13280038879631_2_alg».proof.Proof.KI.Reg10Value
import proofs.«418389_j13280038879631_2_alg».proof.Proof.KI.Path10

noncomputable section

namespace Cert.KernelIdeal.HandValue

open Idealize.ShloMosaic Idealize.SL.Sem Cert.KernelIdeal Cert.KernelIdeal.Gen Cert.KernelIdeal.Hand Idealize.ShloMosaic.ValueIdx
open scoped BigOperators

local notation "parAll" => (1 : ℕ)
local notation "kidAll" => (2 : ℕ)
local notation "parRows" => (1 : ℕ)
local notation "kidRows" => (2 : ℕ)
local notation "parOff" => (0 : ℕ)
local notation "parEnd" => (1 : ℕ)

theorem treeOut10_apply (kids : Vec Ideal S2x64x256 .f32) (par : Vec Ideal S1x64x256 .f32) (w : Vec Ideal S256x256 .f32)
    (b : Vec Ideal S256 .f32) (i : Fin parAll) (q : Fin 64) (e : Fin 256) :
    treeOut10 (F := Ideal) kids par w b (ix3 i q e)
      = par (ix3 i q e) + (((∑ k : Fin 256, kids (ix3 ⟨2 * i.val, by omega⟩ q k) * w (ix2 k e)) + b (ix1 e))
          + ((∑ k : Fin 256, kids (ix3 ⟨2 * i.val + 1, by omega⟩ q k) * w (ix2 k e)) + b (ix1 e))) :=
  treeOut_apply (R := parRows) (C := kidRows) rfl (by decide) (k10_pay1 (F := Ideal)) k10_pay1_apply kids par w b i q e
    (fun _ => kidRow10_lt _ _ i.isLt) (fun _ => parRow10_lt _ _ i.isLt) (by omega) (by omega)

theorem klevel10_apply_in (h : Vec Ideal S1023x64x256 .f32) (w : Vec Ideal S256x256 .f32) (b : Vec Ideal S256 .f32)
    (p : Fin 1023) (q : Fin 64) (e : Fin 256) (hp : parOff ≤ p.val ∧ p.val < parEnd) :
    klevel10 (F := Ideal) h w b (ix3 p q e)
      = h (ix3 p q e) + (((∑ k : Fin 256, h (ix3 ⟨2 * p.val + 1, by omega⟩ q k) * w (ix2 k e)) + b (ix1 e))
          + ((∑ k : Fin 256, h (ix3 ⟨2 * p.val + 2, by omega⟩ q k) * w (ix2 k e)) + b (ix1 e))) :=
  level_law_in (N := 1023) (B := 64) (E := 256) (m := parAll) (mc := kidAll) parOff parEnd rfl rfl h w b _ start10
    updateFits_S1023x64x256_S1x64x256 slices_S1023x64x256_S1x64x256_0_0_0 slices_S1023x64x256_S2x64x256_1_0_0
    (by decide) (by decide) (by decide) (fun i q e => treeOut10_apply _ _ w b i q e) p q e hp _ _ rfl rfl

theorem klevel10_apply_out (h : Vec Ideal S1023x64x256 .f32) (w : Vec Ideal S256x256 .f32) (b : Vec Ideal S256 .f32)
    (p : Fin 1023) (q : Fin 64) (e : Fin 256) (hp : p.val < parOff ∨ parEnd ≤ p.val) :
    klevel10 (F := Ideal) h w b (ix3 p q e) = h (ix3 p q e) :=
  level_law_out (N := 1023) (B := 64) (E := 256) (m := parAll) parOff h _ start10
    updateFits_S1023x64x256_S1x64x256 slices_S1023x64x256_S1x64x256_0_0_0 (by decide) (by decide) (by decide) p q e hp

end Cert.KernelIdeal.HandValue

end
-- ==== Proof.Ref.LevelValue9.lean ====
import proofs.«418389_j13280038879631_2_alg».proof.Proof.Ref.Run
import proofs.«418389_j13280038879631_2_alg».proof.Proof.Ref.LevelLib
import Idealize.ShloMosaic.PureOps.Ideal.Laws
import Idealize.ShloMosaic.Lib.Pipeline.Value
import Idealize.ShloMosaic.Lib.IdealHost

set_option maxRecDepth 16384

noncomputable section

namespace Cert.ReferenceIdeal.HandValue

open Gen Hand Idealize.ShloMosaic ValueIdx

local notation "loRow" => (0 : ℕ)
local notation "hiRow" => (1 : ℕ)
local notation "nPar" => (1 : ℕ)
local notation "nKid" => (2 : ℕ)
local notation "loZ" => (0 : ℤ)

abbrev dL9 := scatter_S1023x64x256_S1_S1x64x256_012_n_0_0
abbrev idxL9 : IVec S1 32 := broadcastInDim S1 ![] bcast_S_S1 (constantI S_ 32 0#32)

-- the one start index is loRow on the row axis and 0 on the others, and an update element keeps its own coordinates
theorem landL9 (j : S1x64x256.Idx) (p : Fin 1023) (hp : p.val = loRow + (j 0).val) (a) :
    dL9.start j idxL9 a + dL9.window j a = ((ix3 p (j 1) (j 2) a).val : ℤ) := by
  match a with
  | ⟨0, _⟩ => show loZ + ((j 0).val : ℤ) = (p.val : ℤ); omega
  | ⟨1, _⟩ | ⟨2, _⟩ => exact Int.zero_add _

abbrev dotL9 := dot_S2x64x256_S256x256_S2x64x256_2_1_01_0_n_n

theorem redL9 : S1x2x64x256.Reduces [1] S1x64x256 := by decide

-- pair coordinate k of parents' row r is row 2r + k of the children's block, which is row hiRow + 2r + k of the node array
theorem kidL9_apply (h : FVec Ideal S1023x64x256 .f32) (ws : FVec Ideal S256x256 .f32) (bs : FVec Ideal S256 .f32)
    (r : Fin nPar) (k : Fin 2) (q : Fin 64) (e : Fin 256) (c : Fin 1023) (hc : c.val = hiRow + (2 * r.val + k.val)) :
    shapeCast S1x2x64x256 (addf (Host.dotGeneral dotL9 none (extractStridedSlice S2x64x256 ![1, 0, 0] h slices_S1023x64x256_S2x64x256_1_0_0) ws)
        (broadcastInDim S2x64x256 ![0, 1, 2] bcast_S1x1x256_S2x64x256_0_1_2 (broadcastInDim S1x1x256 ![2] bcast_S256_S1x1x256_2 bs)))
        shapeCasts_S2x64x256_S1x2x64x256 (redL9.lift (ix3 r q e) k)
      = (∑ i : Fin 256, h (ix3 c q i) * ws (ix2 e i)) + bs (ix1 e) := by
  have hr := r.isLt
  have hk := k.isLt
  rw [shapeCast_apply _ _ _ (ix3 (⟨2 * r.val + k.val, by omega⟩ : Fin nKid) q e) (by
    rw [Shape.rowMajor_val_three, Shape.rowMajor_val_four]
    show ((2 * r.val + k.val) * 64 + q.val) * 256 + e.val = ((r.val * 2 + k.val) * 64 + q.val) * 256 + e.val
    omega), addf_apply]
  congr 1
  · refine (Ideal.dotGeneral_apply _ _ _ _ _ _).trans ?_
    rw [← (contrEquiv1 dotL9 256 rfl rfl).symm.sum_comp]
    refine Finset.sum_congr rfl fun i _ => ?_
    have hi := contrEquiv1_symm_val dotL9 256 rfl rfl i
    congr 1
    · refine extractStridedSlice_apply _ h _ _ (ix3 c q i) (fun a => ?_)
      match a with
      | ⟨0, _⟩ => exact hc
      | ⟨1, _⟩ => exact (Nat.zero_add _).symm
      | ⟨2, _⟩ => exact hi.symm.trans (Nat.zero_add _).symm
    · refine congrArg ws (funext fun a => Fin.ext ?_)
      match a with
      | ⟨0, _⟩ => rfl
      | ⟨1, _⟩ => exact hi
  · refine (broadcastInDim_apply _ _ _ _ (ix3 (0 : Fin 1) (0 : Fin 1) e) (fun a => ?_)).trans
      (broadcastInDim_apply _ _ _ _ (ix1 e) (fun a => match a with | ⟨0, _⟩ => rfl))
    match a with
    | ⟨0, _⟩ | ⟨1, _⟩ | ⟨2, _⟩ => rfl

theorem lvl9_apply_in (h : Vec Ideal S1023x64x256 .f32) (ws : Vec Ideal S256x256 .f32) (bs : Vec Ideal S256 .f32)
    (p : Fin 1023) (q : Fin 64) (e : Fin 256) (hp : loRow ≤ p.val ∧ p.val < hiRow) :
    lvl9 (F := Ideal) h ws bs (ix3 p q e) = h (ix3 p q e)
      + (((∑ k : Fin 256, h (ix3 ⟨2 * p.val + 1, by omega⟩ q k) * ws (ix2 e k)) + bs (ix1 e))
        + ((∑ k : Fin 256, h (ix3 ⟨2 * p.val + 2, by omega⟩ q k) * ws (ix2 e k)) + bs (ix1 e))) := by
  unfold lvl9
  beta_reduce
  refine (scatter_rows_apply_in loRow _ _ _ ?_ (by decide) _ _ p q e hp.1 (by omega)).trans ?_
  · exact landL9
  · show h (ix3 p q e) + _ = _
    rw [hostReduceAdd_apply, Ideal.hostReduceAdd_single _ redL9, constant_apply, Ideal.ofBits_zero_f32, zero_add]
    exact congrArg (h (ix3 p q e) + ·) ((Fin.sum_univ_two _).trans (congrArg₂ (· + ·)
      (kidL9_apply h ws bs _ 0 q e _ (by show 2 * p.val + 1 = hiRow + (2 * (p.val - loRow) + 0); omega))
      (kidL9_apply h ws bs _ 1 q e _ (by show 2 * p.val + 2 = hiRow + (2 * (p.val - loRow) + 1); omega))))

theorem lvl9_apply_out (h : Vec Ideal S1023x64x256 .f32) (ws : Vec Ideal S256x256 .f32) (bs : Vec Ideal S256 .f32)
    (p : Fin 1023) (q : Fin 64) (e : Fin 256) (hp : p.val < loRow ∨ hiRow ≤ p.val) :
    lvl9 (F := Ideal) h ws bs (ix3 p q e) = h (ix3 p q e) := by
  unfold lvl9
  beta_reduce
  exact scatter_rows_apply_out loRow _ _ _ landL9 (by decide) _ _ p q e hp

end Cert.ReferenceIdeal.HandValue

end
-- ==== Proof.Bridge.Level9.lean ====
import proofs.«418389_j13280038879631_2_alg».proof.Proof.KI.LevelValue10
import proofs.«418389_j13280038879631_2_alg».proof.Proof.Ref.LevelValue9
import proofs.«418389_j13280038879631_2_alg».proof.Proof.Bridge.LevelLaw

noncomputable section

namespace Cert.Bridge

open Idealize.ShloMosaic Idealize.ShloMosaic.ValueIdx

theorem level9_eq (h : Vec Ideal Cert.KernelIdeal.S1023x64x256 .f32) (ws : Vec Ideal Cert.KernelIdeal.S256x256 .f32)
    (bs : Vec Ideal Cert.KernelIdeal.S256 .f32) :
    Cert.KernelIdeal.Hand.klevel10 (F := Ideal) h
        (transpose Cert.KernelIdeal.S256x256 [1, 0] ws Cert.KernelIdeal.Gen.transposes_S256x256_S256x256_1_0) bs
      = Cert.ReferenceIdeal.Hand.lvl9 (F := Ideal) h ws bs :=
  level_bridge 0 1 (by decide) h ws _ bs (wT_apply ws _) _ _
    (Cert.KernelIdeal.HandValue.klevel10_apply_in h _ bs) (Cert.KernelIdeal.HandValue.klevel10_apply_out h _ bs)
    (Cert.ReferenceIdeal.HandValue.lvl9_apply_in h ws bs) (Cert.ReferenceIdeal.HandValue.lvl9_apply_out h ws bs)

end Cert.Bridge

end
-- ==== Proof.Bridge.Tree.lean ====
import proofs.«418389_j13280038879631_2_alg».proof.Proof.KI.Path11
import proofs.«418389_j13280038879631_2_alg».proof.Proof.Bridge.Lin
import proofs.«418389_j13280038879631_2_alg».proof.Proof.Bridge.Level1
import proofs.«418389_j13280038879631_2_alg».proof.Proof.Bridge.Level2
import proofs.«418389_j13280038879631_2_alg».proof.Proof.Bridge.Level3
import proofs.«418389_j13280038879631_2_alg».proof.Proof.Bridge.Level4
import proofs.«418389_j13280038879631_2_alg».proof.Proof.Bridge.Level5
import proofs.«418389_j13280038879631_2_alg».proof.Proof.Bridge.Level6
import proofs.«418389_j13280038879631_2_alg».proof.Proof.Bridge.Level7
import proofs.«418389_j13280038879631_2_alg».proof.Proof.Bridge.Level8
import proofs.«418389_j13280038879631_2_alg».proof.Proof.Bridge.Level9
import proofs.«418389_j13280038879631_2_alg».proof.Proof.Ref.Run

noncomputable section

namespace Cert.Bridge

open Idealize.ShloMosaic Idealize.ShloMosaic.TcCoe Idealize.ShloMosaic.ValueIdx Idealize.SL.Sem
open Cert.KernelIdeal.Hand

variable (m : (ℓ : Loc Cert.KernelIdeal.nD Cert.KernelIdeal.τ Cert.KernelIdeal.sig) → Buf (Elt Ideal) ℓ) (hO : Ok0 m)

theorem tree_eq (c : Dev Cert.KernelIdeal.nD)
    (hlt : ∀ i, (m (c, Proc.devRef .tc Cert.KernelIdeal.main_arg5) i).toNat < 65472)
    (hint : ∀ i, 0 ≤ (m (c, Proc.devRef .tc Cert.KernelIdeal.main_arg5) i).toInt
      ∧ (m (c, Proc.devRef .tc Cert.KernelIdeal.main_arg5) i).toInt < 65472) :
    Wen11 m hO c (Proc.devRef .tc Cert.KernelIdeal.main_v42)
      = Cert.ReferenceIdeal.Hand.h9 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) := by
  rw [path_tree, keep1_w, w0, keep1_b, b0, lin_eq m hO c hlt hint]
  unfold ktree
  rw [level1_eq, level2_eq, level3_eq, level4_eq, level5_eq, level6_eq, level7_eq, level8_eq, level9_eq]
  rfl

end Cert.Bridge

end
-- ==== Proof.KI.Reg11Value.lean ====
import proofs.«418389_j13280038879631_2_alg».proof.Proof.KI.Reg11
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Window)

variable {F : FTy → Type} [FloatOps F]

variable (a : (pcfg11 (F := F)).Adm)

variable (V : (c : Dev nD) → (b : Ref sig .tc) → Buf (Elt F) ((c : Thread nD τ).loc b))

open Idealize.ShloMosaic.ValueIdx

theorem index11_1 (t : Fin (cfg11 a).N) : ((cfg11 a).win 1).index t = ![t.val, 0, 0] :=
  (by decide +kernel : ∀ t : Fin grid11.N, cc11_transform_1 (grid11.coords t) = ![t.val, 0, 0]) t

theorem index11_2 (t : Fin (cfg11 a).N) : ((cfg11 a).win 2).index t = ![0, 0] :=
  (by decide +kernel : ∀ t : Fin grid11.N, cc11_transform_2 (grid11.coords t) = ![0, 0]) t

theorem flush11_1 (t : Fin (cfg11 a).N) : ((cfg11 a).win 1).flush t = true := by
  unfold Window.flush
  rw [show ((cfg11 a).win 1).isOut = true from rfl, Bool.true_and, Bool.or_eq_true, decide_eq_true_eq, decide_eq_true_eq]
  by_cases h : t.val + 1 = (cfg11 a).grid.N
  · exact .inl h
  · have hlt : t.val < (cfg11 a).grid.N := t.isLt
    refine .inr ⟨by omega, fun e => ?_⟩
    have e' : (![t.val + 1, 0, 0] : Fin 3 → ℕ) = ![t.val, 0, 0] := (index11_1 a _).symm.trans (e.trans (index11_1 a t))
    exact absurd (congrFun e' 0) (Nat.succ_ne_self _)

theorem flush11_2 (t : Fin (cfg11 a).N) : ((cfg11 a).win 2).flush t = true ↔ t.val + 1 = (cfg11 a).grid.N := by
  unfold Window.flush
  rw [show ((cfg11 a).win 2).isOut = true from rfl, Bool.true_and, Bool.or_eq_true, decide_eq_true_eq, decide_eq_true_eq]
  constructor
  · rintro (h | ⟨h, hne⟩)
    · exact h
    · exact absurd ((index11_2 a _).trans (index11_2 a _).symm) hne
  · exact .inl

theorem blk_emb11_2 (t : Fin (cfg11 a).N) (j : S64x256.Idx) : (((cfg11 a).win 2).blk t).view.emb j = j := by
  have q0 : ((cfg11 a).win 2).index t (0 : Fin 2) = 0 := congrFun (index11_2 a t) (0 : Fin 2)
  have q1 : ((cfg11 a).win 2).index t (1 : Fin 2) = 0 := congrFun (index11_2 a t) (1 : Fin 2)
  funext d; apply Fin.ext
  match d with
  | ⟨0, _⟩ => show ((cfg11 a).win 2).index t (0 : Fin 2) * 64 + 1 * (j 0).val = (j 0).val; omega
  | ⟨1, _⟩ => show ((cfg11 a).win 2).index t (1 : Fin 2) * 256 + 1 * (j 1).val = (j 1).val; omega

def tlast11 : Fin (cfg11 a).N := ⟨1022, lt_of_lt_of_eq (by decide : 1022 < 1023) N_11.symm⟩

theorem flushed11_2 (c : Dev nD) (t : Fin (cfg11 a).N) (hf : ((cfg11 a).win 2).flush t = true) :
    (dat11 a V c).flushed 2 t = (((cfg11 a).win 2).blk t).view.read (Elt F) (k11_pay4 (acc11 a V c 1022)) := by
  show ((cfg11 a).win 2).cut (grid11.coords t) ((dat11 a V c).after 2 t) = _
  rw [after11_2]
  have hN : (cfg11 a).grid.N = 1023 := N_11
  have ht : t.val = 1022 := by have := (flush11_2 a t).mp hf; omega
  rw [ht]
  apply funext; intro (j : S64x256.Idx)
  exact congrArg (k11_pay4 (acc11 a V c 1022)) (blk_emb11_2 a t j).symm

theorem final11_2 (c : Dev nD) : (dat11 a V c).arrAt 2 (cfg11 a).N = k11_pay4 (acc11 a V c 1022) :=
  (dat11 a V c).arrAt_eq_of_cover 2 (k11_pay4 (acc11 a V c 1022)) (fun t hf => flushed11_2 a V c t hf) fun (i : S64x256.Idx) =>
    ⟨tlast11 a, (flush11_2 a _).mpr (by show 1022 + 1 = (cfg11 a).grid.N; exact N_11.symm),
      blk_emb11_2 a (tlast11 a) i ▸ (((cfg11 a).win 2).blk (tlast11 a)).view.emb_mem_set i⟩

def G11_1 (c : Dev nD) : S1023x64x256.Idx → Elt F .f32 :=
  fun i => k11_pay2 (x11 a V c (i 0).val) (ix3 (0 : Fin 1) (i 1 : Fin 64) (i 2 : Fin 256) : S1x64x256.Idx)

theorem blk_emb11_1 (t : Fin (cfg11 a).N) (j : S1x64x256.Idx) :
    (((cfg11 a).win 1).blk t).view.emb j
      = (ix3 (⟨t.val, lt_of_lt_of_eq t.isLt N_11⟩ : Fin 1023) (j 1 : Fin 64) (j 2 : Fin 256) : S1023x64x256.Idx) := by
  have q0 : ((cfg11 a).win 1).index t (0 : Fin 3) = t.val := congrFun (index11_1 a t) (0 : Fin 3)
  have q1 : ((cfg11 a).win 1).index t (1 : Fin 3) = 0 := congrFun (index11_1 a t) (1 : Fin 3)
  have q2 : ((cfg11 a).win 1).index t (2 : Fin 3) = 0 := congrFun (index11_1 a t) (2 : Fin 3)
  have hj0 : (j 0).val < 1 := (j 0).isLt
  funext d; apply Fin.ext
  match d with
  | ⟨0, _⟩ => show ((cfg11 a).win 1).index t (0 : Fin 3) * 1 + 1 * (j 0).val = t.val; omega
  | ⟨1, _⟩ => show ((cfg11 a).win 1).index t (1 : Fin 3) * 64 + 1 * (j 1).val = (j 1).val; omega
  | ⟨2, _⟩ => show ((cfg11 a).win 1).index t (2 : Fin 3) * 256 + 1 * (j 2).val = (j 2).val; omega

theorem flushed11_1 (c : Dev nD) (t : Fin (cfg11 a).N) :
    (dat11 a V c).flushed 1 t = (((cfg11 a).win 1).blk t).view.read (Elt F) (G11_1 a V c) := by
  show ((cfg11 a).win 1).cut (grid11.coords t) ((dat11 a V c).after 1 t) = _
  rw [after11_1]
  apply funext; intro (j : S1x64x256.Idx)
  refine Eq.trans ?_ (congrArg (G11_1 a V c) (blk_emb11_1 a t j).symm)
  show k11_pay2 (iblk11 a V c 0 t) j = k11_pay2 (x11 a V c t.val) (ix3 (0 : Fin 1) (j 1 : Fin 64) (j 2 : Fin 256) : S1x64x256.Idx)
  rw [x11_val a V c t]
  refine congrArg (k11_pay2 (iblk11 a V c 0 t)) ?_
  exact (eq_ix3 j).trans (congrArg (fun z : Fin 1 => (ix3 z (j 1 : Fin 64) (j 2 : Fin 256) : S1x64x256.Idx)) (Subsingleton.elim _ _))

theorem cover11_1 (i : S1023x64x256.Idx) :
    ∃ t : Fin (cfg11 a).N, ((cfg11 a).win 1).flush t = true ∧ i ∈ (((cfg11 a).win 1).blk t).view.set := by
  have hi0 : (i 0).val < 1023 := (i 0).isLt
  refine ⟨⟨(i 0).val, lt_of_lt_of_eq hi0 N_11.symm⟩, flush11_1 a _, ?_⟩
  have h := (((cfg11 a).win 1).blk ⟨(i 0).val, lt_of_lt_of_eq hi0 N_11.symm⟩).view.emb_mem_set
    (ix3 (0 : Fin 1) (i 1 : Fin 64) (i 2 : Fin 256) : S1x64x256.Idx)
  refine Eq.mp (congrArg (fun z => z ∈ (((cfg11 a).win 1).blk ⟨(i 0).val, lt_of_lt_of_eq hi0 N_11.symm⟩).view.set) ?_) h
  exact (blk_emb11_1 a ⟨(i 0).val, lt_of_lt_of_eq hi0 N_11.symm⟩ _).trans (eq_ix3 i).symm

theorem final11_1 (c : Dev nD) : (dat11 a V c).arrAt 1 (cfg11 a).N = G11_1 a V c :=
  (dat11 a V c).arrAt_eq_of_cover 1 (G11_1 a V c) (fun t _ => flushed11_1 a V c t) (cover11_1 a)

end Cert.KernelIdeal.Hand

end
-- ==== Proof.KI.Fin11Value.lean ====
import proofs.«418389_j13280038879631_2_alg».proof.Proof.KI.Reg11Value
import proofs.«418389_j13280038879631_2_alg».proof.Proof.KI.PayValue
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem Cert.KernelIdeal Cert.KernelIdeal.Gen Cert.KernelIdeal.Hand
open Idealize.ShloMosaic.ValueIdx
open Idealize.ShloMosaic.Pipeline (Dat Cfg Window)

variable (a : (pcfg11 (F := Ideal)).Adm)

variable (V : (c : Dev nD) → (b : Ref sig .tc) → Buf (Elt Ideal) ((c : Thread nD τ).loc b))

abbrev harr11 (c : Dev nD) : Vec Ideal S1023x64x256 .f32 := V c main_v42

abbrev tbl11 : Vec Ideal S1023 .i32 := a.1 0

theorem off11 : ∀ t : Fin grid11.N, (Scalar.indexCast (BitVec.ofNat 32 ((grid11.coords t) 0).val)).toNat = t.val := by
  decide +kernel

theorem index11_0 (t : Fin (cfg11 a).N) :
    ((cfg11 a).win 0).index t = ![(tbl11 a (ix1 (⟨t.val, lt_of_lt_of_eq t.isLt N_11⟩ : Fin 1023))).toNat, 0, 0] := by
  show cc11_transform_0 k11_off1_inb numel1_S1 a.1 (grid11.coords t) = _
  unfold cc11_transform_0
  dsimp only
  refine congrArg (fun k : ℕ => (![k, 0, 0] : Fin 3 → ℕ)) ?_
  refine congrArg BitVec.toNat ?_
  show a.1 0 _ = a.1 0 _
  refine congrArg (a.1 0) ?_
  funext d; apply Fin.ext
  match d with
  | ⟨0, _⟩ =>
    show (Scalar.indexCast (BitVec.ofNat 32 ((grid11.coords t) 0).val)).toNat + 1 * 0 = t.val
    rw [Nat.mul_zero, Nat.add_zero]; exact off11 t

theorem row11_lt (i : Fin 1023) : (tbl11 a (ix1 i)).toNat < 1023 := by
  let t : Fin (cfg11 a).N := ⟨i.val, lt_of_lt_of_eq i.isLt N_11.symm⟩
  have h := hinb11 a.1 a.2 0 (grid11.coords t) (0 : Fin 3)
  have e := congrFun (index11_0 a t) (0 : Fin 3)
  have h' : (((cfg11 a).win 0).index t (0 : Fin 3) + 1) * 1 ≤ 1023 := h
  rw [e] at h'
  have h'' : ((tbl11 a (ix1 i)).toNat + 1) * 1 ≤ 1023 := h'
  omega

def row11 (i : Fin 1023) : Fin 1023 := ⟨(tbl11 a (ix1 i)).toNat, row11_lt a i⟩

theorem x11_apply (c : Dev nD) (i : Fin 1023) (q : Fin 64) (e : Fin 256) :
    x11 a V c i.val (ix3 (0 : Fin 1) q e) = harr11 V c (ix3 (row11 a i) q e) := by
  let t : Fin (cfg11 a).N := ⟨i.val, lt_of_lt_of_eq i.isLt N_11.symm⟩
  have q0 := congrFun (index11_0 a t) (0 : Fin 3)
  have q1 := congrFun (index11_0 a t) (1 : Fin 3)
  have q2 := congrFun (index11_0 a t) (2 : Fin 3)
  refine (congrFun (x11_val a V c t) (ix3 (0 : Fin 1) q e)).trans ?_
  show V c main_v42 ((((cfg11 a).win 0).blk t).view.emb (ix3 (0 : Fin 1) q e)) = V c main_v42 (ix3 (row11 a i) q e)
  refine congrArg (V c main_v42) ?_
  funext d; apply Fin.ext
  match d with
  | ⟨0, _⟩ =>
    show ((cfg11 a).win 0).index t (0 : Fin 3) * 1 + 1 * 0 = (tbl11 a (ix1 i)).toNat
    rw [q0]; show (tbl11 a (ix1 i)).toNat * 1 + 1 * 0 = _; omega
  | ⟨1, _⟩ =>
    show ((cfg11 a).win 0).index t (1 : Fin 3) * 64 + 1 * q.val = q.val
    rw [q1]; show 0 * 64 + 1 * q.val = q.val; omega
  | ⟨2, _⟩ =>
    show ((cfg11 a).win 0).index t (2 : Fin 3) * 256 + 1 * e.val = e.val
    rw [q2]; show 0 * 256 + 1 * e.val = e.val; omega

theorem kres0_apply (c : Dev nD) (i : Fin 1023) (q : Fin 64) (e : Fin 256) :
    (dat11 a V c).arrAt 1 (cfg11 a).N (ix3 i q e) = max (harr11 V c (ix3 (row11 a i) q e)) 0 := by
  rw [final11_1]
  show k11_pay2 (F := Ideal) (x11 a V c i.val) (ix3 (0 : Fin 1) q e) = _
  rw [k11_pay2_apply]
  exact congrArg (fun z : EReal => max z 0) (x11_apply a V c i q e)

def relu11 (c : Dev nD) (q : Fin 64) (e : Fin 256) (i : Fin 1023) : EReal :=
  max (harr11 V c (ix3 (row11 a i) q e)) 0

theorem x11_relu (c : Dev nD) (q : Fin 64) (e : Fin 256) (n : ℕ) (hn : n < 1023) :
    max (x11 a V c n (ix3 (0 : Fin 1) q e)) 0 = relu11 a V c q e ⟨n, hn⟩ :=
  congrArg (fun z : EReal => max z 0) (x11_apply a V c ⟨n, hn⟩ q e)

def upto11 (n : ℕ) : Finset (Fin 1023) := Finset.univ.filter fun i => i.val ≤ n

theorem upto11_zero : upto11 0 = {(⟨0, by decide⟩ : Fin 1023)} := by
  ext i; simp only [upto11, Finset.mem_filter, Finset.mem_univ, true_and, Finset.mem_singleton, Fin.ext_iff]; omega

theorem upto11_succ (n : ℕ) (hn : n + 1 < 1023) : upto11 (n + 1) = insert (⟨n + 1, hn⟩ : Fin 1023) (upto11 n) := by
  ext i; simp only [upto11, Finset.mem_filter, Finset.mem_univ, true_and, Finset.mem_insert, Fin.ext_iff]; omega

theorem upto11_last : upto11 1022 = Finset.univ := by
  ext i; simp only [upto11, Finset.mem_filter, Finset.mem_univ, true_and, iff_true]; have := i.isLt; omega

theorem acc11_apply (c : Dev nD) (q : Fin 64) (e : Fin 256) :
    ∀ (n : ℕ) (hn : n < 1023), acc11 a V c n (ix3 (0 : Fin 1) q e) = (upto11 n).sup (relu11 a V c q e)
  | 0, hn => by
    rw [acc11_zero, k11_pay3_apply, k11_pay1_apply, x11_relu a V c q e 0 hn, upto11_zero, Finset.sup_singleton]
    exact max_bot_left _
  | n + 1, hn => by
    rw [acc11_succ, k11_pay3_apply, x11_relu a V c q e (n + 1) hn, acc11_apply c q e n (by omega), upto11_succ n hn,
      Finset.sup_insert]
    exact max_comm _ _

theorem kres1_apply (c : Dev nD) (q : Fin 64) (e : Fin 256) :
    (dat11 a V c).arrAt 2 (cfg11 a).N (ix2 q e)
      = Finset.univ.sup (fun i : Fin 1023 => max (harr11 V c (ix3 (row11 a i) q e)) 0) := by
  rw [final11_2, k11_pay4_apply, acc11_apply a V c q e 1022 (by decide), upto11_last]
  rfl

end Cert.KernelIdeal.HandValue

end
-- ==== Proof.Bridge.Lit.lean ====
import proofs.«418389_j13280038879631_2_alg».proof.Proof.Gen.KernelIdeal
import proofs.«418389_j13280038879631_2_alg».proof.Proof.Gen.ReferenceIdeal

namespace Cert.Bridge

theorem lit0_eq : ∀ i : Fin 1023, Cert.KernelIdeal.lit0 i = Cert.ReferenceIdeal.lit0 i := by decide

end Cert.Bridge
-- ==== Proof.Ref.FinValue.lean ====
import proofs.«418389_j13280038879631_2_alg».proof.Proof.Ref.Run
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.HandValue

open Gen Hand Idealize.ShloMosaic ValueIdx

abbrev gPostD := gather_S1023x64x256_S1023x1_S1023x64x256_12_0_n_n_0_1_164256

theorem gatherPost_siIdx (i : Fin 1023) (q : Fin 64) (e : Fin 256) (c) : gPostD.siIdx (ix3 i q e) c = ix2 i (0 : Fin 1) := by
  funext b; refine Fin.ext ?_
  match b with
  | ⟨0, _⟩ => rfl
  | ⟨1, _⟩ =>
    show c.val = 0
    have hc : c.val < 1 := c.isLt
    omega

-- the row axis reads the start index, signed and clamped; the two other axes keep the result's own coordinates
theorem gatherPost_apply {α : Type} {w : Nat} (x : S1023x64x256.Idx → α) (idx : IVec S1023x1 w) (i : Fin 1023) (q : Fin 64) (e : Fin 256) :
    Host.gather gPostD x idx (ix3 i q e) = x (ix3 ⟨min (idx (ix2 i (0 : Fin 1))).toInt.toNat (1023 - 1), by omega⟩ q e) := by
  unfold Host.gather
  have hn : ∀ a : Fin 3, a.val ≠ 0 → a ∉ gPostD.startIndexMap := by decide
  refine congrArg x (funext fun a => Fin.ext ?_)
  match a with
  | ⟨0, _⟩ =>
    show gPostD.start _ idx (0 : Fin 3) + gPostD.batchCoord _ (0 : Fin 3) + gPostD.offCoord _ (0 : Fin 3) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gPostD.startIndexMap from List.mem_singleton.mpr rfl), gatherPost_siIdx]
    rfl
  | ⟨1, _⟩ | ⟨2, _⟩ =>
    show gPostD.start _ idx _ + gPostD.batchCoord _ _ + gPostD.offCoord _ _ = _
    rw [GatherDims.batchCoord_eq_zero _ _ _ List.not_mem_nil]
    unfold GatherDims.start
    rw [dif_neg]
    · simp only [Nat.add_zero, Nat.zero_add]
      rfl
    · exact hn _ (Nat.succ_ne_zero _)

theorem lit0_lt : ∀ i : Fin 1023, (lit0 i).toNat < 1023 := by decide +kernel

-- the mask is all false, so the fix-up of negative indices keeps the table's word
theorem postIdx_apply (i : Fin 1023) :
    broadcastInDim S1023x1 ![0] bcast_S1023_S1023x1_0
      (select (msk (F := Ideal)) (addi (tbl (F := Ideal)) (broadcastInDim S1023 ![] bcast_S_S1023 (constantI S_ 32 1023#32))) (tbl (F := Ideal)))
      (ix2 i (0 : Fin 1)) = lit0 i := by
  rw [broadcastInDim_apply ![0] bcast_S1023_S1023x1_0 _ (ix2 i (0 : Fin 1)) (ix1 i)
    (fun a => by match a with | ⟨0, _⟩ => rfl)]
  show Scalar.select (msk (F := Ideal) (ix1 i)) _ (tbl (F := Ideal) (ix1 i)) = lit0 i
  rw [show msk (F := Ideal) (ix1 i) = 0#1 from rfl, select_zero]
  show lit0 (S1023.rowMajor (ix1 i)) = lit0 i
  refine congrArg lit0 (Fin.ext ?_)
  rw [Shape.rowMajor_val_one]

theorem fin_apply (h : Vec Ideal S1023x64x256 .f32) (i : Fin 1023) (q : Fin 64) (e : Fin 256) :
    fin (F := Ideal) h (ix3 i q e) = max (h (ix3 ⟨(lit0 i).toNat, lit0_lt i⟩ q e)) 0 := by
  unfold fin finOf
  beta_reduce
  rw [maximumf_apply]
  refine congrArg₂ max ?_ ?_
  · rw [gatherPost_apply]
    refine congrArg h (funext fun a => Fin.ext ?_)
    match a with
    | ⟨0, _⟩ =>
      show min (BitVec.toInt (_ : BitVec 32)).toNat _ = (lit0 i).toNat
      rw [postIdx_apply]
      have hw := lit0_lt i
      generalize lit0 i = w at hw ⊢
      have hx := BitVec.toInt_eq_toNat_cond w
      split at hx <;> omega
    | ⟨1, _⟩ | ⟨2, _⟩ => rfl
  · rw [broadcastInDim_scalar_apply, constant_apply, Ideal.ofBits_zero_f32]

theorem reduces_rows : S1023x64x256.Reduces [0] S64x256 := by decide

theorem ofBits_neg_inf_f32 : Ideal.ofBits .f32 0xFF800000#32 = ⊥ := by simp [Ideal.ofBits, Ideal.ieee]

-- the supremum of a finite family is by definition the fold of the binary supremum from the bottom element
theorem fold_max_bot_eq_sup {ι : Type} (s : Finset ι) (f : ι → EReal) : s.fold max ⊥ f = s.sup f := rfl

theorem rowMax_apply (h : Vec Ideal S1023x64x256 .f32) (q : Fin 64) (e : Fin 256) :
    rowMax (F := Ideal) h (ix2 q e) = Finset.univ.sup (fun i : Fin 1023 => h (ix3 i q e)) := by
  unfold rowMax
  beta_reduce
  refine (Host.reduce_eq_fold_single (FloatOps.maximumf (F := Ideal) (φ := .f32)) h (constant (F := Ideal) S_ .f32 0xFF800000#32)
    reducesTo_S1023x64x256_S64x256_d0 reduces_rows h_S_ (ix2 q e)).trans ?_
  rw [constant_apply, ofBits_neg_inf_f32]
  have hl : (h ∘ reduces_rows.lift (ix2 q e)) = fun i : Fin 1023 => h (ix3 i q e) :=
    funext fun k => congrArg h (funext fun a => Fin.ext (by match a with | ⟨0, _⟩ | ⟨1, _⟩ | ⟨2, _⟩ => rfl))
  rw [hl]
  exact fold_max_bot_eq_sup _ _

end Cert.ReferenceIdeal.HandValue

end
-- ==== Proof.Bridge.Fin.lean ====
import proofs.«418389_j13280038879631_2_alg».proof.Proof.KI.Fin11Value
import proofs.«418389_j13280038879631_2_alg».proof.Proof.KI.Oks
import proofs.«418389_j13280038879631_2_alg».proof.Proof.Bridge.Lit
import proofs.«418389_j13280038879631_2_alg».proof.Proof.Ref.Run
import proofs.«418389_j13280038879631_2_alg».proof.Proof.Ref.FinValue
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem
open Idealize.ShloMosaic.ValueIdx
open Cert.KernelIdeal (nD τ sig)
open Cert.KernelIdeal.Hand (Wex11 Wen11 Ven11 adm11 Ok0 Ok11 Wex11_arr tbl11_eq dat11)
open Cert.KernelIdeal.HandValue (row11 harr11 kres0_apply kres1_apply)

theorem row11_val_of (a : (Cert.KernelIdeal.pcfg11 (F := Ideal)).Adm) (i : Fin 1023) :
    (row11 a i).val = (a.1 0 (ix1 i)).toNat := rfl

theorem rowMajor_ix1_1023 (i : Fin 1023) : Cert.KernelIdeal.S1023.rowMajor (ix1 i) = i :=
  Fin.ext (Shape.rowMajor_val_one (ix1 i))

variable (m : (ℓ : Loc nD τ sig) → Buf (Elt Ideal) ℓ) (hO : Ok0 m) (h11 : Ok11 m hO)

theorem row11_val (i : Fin 1023) :
    (row11 (adm11 m hO h11) i).val = (Cert.ReferenceIdeal.lit0 i).toNat := by
  have h2 : (adm11 m hO h11).1 0 = fun i => Cert.KernelIdeal.lit0 (Cert.KernelIdeal.S1023.rowMajor i) := tbl11_eq m hO
  rw [row11_val_of, h2]
  show (Cert.KernelIdeal.lit0 (Cert.KernelIdeal.S1023.rowMajor (ix1 i))).toNat = _
  rw [rowMajor_ix1_1023 i, lit0_eq i]

section Results

abbrev FinReads (lit0R_lt : ∀ i : Fin 1023, (Cert.ReferenceIdeal.lit0 i).toNat < 1023) : Prop :=
  ∀ (h : (⟨Cert.ReferenceIdeal.S1023x64x256, .f32⟩ : BufTy).Contents (Elt Ideal)) (i : Fin 1023) (q : Fin 64) (e : Fin 256),
    Cert.ReferenceIdeal.Hand.fin (F := Ideal) h (ix3 i q e) = max (h (ix3 ⟨(Cert.ReferenceIdeal.lit0 i).toNat, lit0R_lt i⟩ q e)) 0

abbrev RowMaxReads : Prop :=
  ∀ (x : (⟨Cert.ReferenceIdeal.S1023x64x256, .f32⟩ : BufTy).Contents (Elt Ideal)) (q : Fin 64) (e : Fin 256),
    Cert.ReferenceIdeal.Hand.rowMax (F := Ideal) x (ix2 q e) = Finset.univ.sup (fun i : Fin 1023 => x (ix3 i q e))

theorem ext_ix3 {α : Type} {n0 n1 n2 : ℕ} (f g : (⟨3, ![n0, n1, n2]⟩ : Shape).Idx → α)
    (h : ∀ i q e, f (ix3 i q e) = g (ix3 i q e)) : f = g :=
  funext fun j => by rw [eq_ix3 j]; exact h _ _ _

theorem ext_ix2 {α : Type} {n0 n1 : ℕ} (f g : (⟨2, ![n0, n1]⟩ : Shape).Idx → α)
    (h : ∀ q e, f (ix2 q e) = g (ix2 q e)) : f = g :=
  funext fun j => by rw [eq_ix2 j]; exact h _ _

abbrev hnode (c : Dev nD) : (⟨Cert.ReferenceIdeal.S1023x64x256, .f32⟩ : BufTy).Contents (Elt Ideal) :=
  Wen11 m hO c (Proc.devRef .tc Cert.KernelIdeal.main_v42)

theorem relu_eq {lit0R_lt : ∀ i : Fin 1023, (Cert.ReferenceIdeal.lit0 i).toNat < 1023} (fin_apply : FinReads lit0R_lt)
    (c : Dev nD) (i : Fin 1023) (q : Fin 64) (e : Fin 256) :
    max (harr11 (Ven11 m hO) c (ix3 (row11 (adm11 m hO h11) i) q e)) 0
      = Cert.ReferenceIdeal.Hand.fin (F := Ideal) (hnode m hO c) (ix3 i q e) := by
  rw [fin_apply]
  refine congrArg (fun z : EReal => max z 0) ?_
  exact congrArg (fun r : Fin 1023 => hnode m hO c (ix3 r q e)) (Fin.ext (row11_val m hO h11 i))

theorem fin0_eq_of {lit0R_lt : ∀ i : Fin 1023, (Cert.ReferenceIdeal.lit0 i).toNat < 1023} (fin_apply : FinReads lit0R_lt)
    (c : Dev nD) :
    Wex11 m hO h11 c (Proc.devRef .tc Cert.KernelIdeal.main_v43_0)
      = Cert.ReferenceIdeal.Hand.fin (Wen11 m hO c (Proc.devRef .tc Cert.KernelIdeal.main_v42)) := by
  refine (Wex11_arr m hO h11 c 1).trans ?_
  refine ext_ix3 (α := EReal) (n0 := 1023) (n1 := 64) (n2 := 256) _ _ fun i q e => ?_
  exact Eq.trans (α := EReal) (kres0_apply (adm11 m hO h11) (Ven11 m hO) c i q e) (relu_eq m hO h11 fin_apply c i q e)

theorem fin1_eq_of {lit0R_lt : ∀ i : Fin 1023, (Cert.ReferenceIdeal.lit0 i).toNat < 1023} (fin_apply : FinReads lit0R_lt)
    (rowMax_apply : RowMaxReads) (c : Dev nD) :
    Wex11 m hO h11 c (Proc.devRef .tc Cert.KernelIdeal.main_v43_1)
      = Cert.ReferenceIdeal.Hand.rowMax (Cert.ReferenceIdeal.Hand.fin (Wen11 m hO c (Proc.devRef .tc Cert.KernelIdeal.main_v42))) := by
  refine (Wex11_arr m hO h11 c 2).trans ?_
  refine ext_ix2 (α := EReal) (n0 := 64) (n1 := 256) _ _ fun q e => ?_
  refine Eq.trans (α := EReal) (kres1_apply (adm11 m hO h11) (Ven11 m hO) c q e) ?_
  refine Eq.trans (α := EReal) ?_ (rowMax_apply _ q e).symm
  exact Finset.sup_congr rfl fun i _ => relu_eq m hO h11 fin_apply c i q e

theorem fin0_eq (c : Dev nD) :
    Wex11 m hO h11 c (Proc.devRef .tc Cert.KernelIdeal.main_v43_0)
      = Cert.ReferenceIdeal.Hand.fin (Wen11 m hO c (Proc.devRef .tc Cert.KernelIdeal.main_v42)) :=
  fin0_eq_of m hO h11 (lit0R_lt := Cert.ReferenceIdeal.HandValue.lit0_lt) Cert.ReferenceIdeal.HandValue.fin_apply c

theorem fin1_eq (c : Dev nD) :
    Wex11 m hO h11 c (Proc.devRef .tc Cert.KernelIdeal.main_v43_1)
      = Cert.ReferenceIdeal.Hand.rowMax (Cert.ReferenceIdeal.Hand.fin (Wen11 m hO c (Proc.devRef .tc Cert.KernelIdeal.main_v42))) :=
  fin1_eq_of m hO h11 (lit0R_lt := Cert.ReferenceIdeal.HandValue.lit0_lt) Cert.ReferenceIdeal.HandValue.fin_apply
    Cert.ReferenceIdeal.HandValue.rowMax_apply c

end Results

end Cert.Bridge

end
-- ==== Proof.Bridge.Results.lean ====
import proofs.«418389_j13280038879631_2_alg».proof.Proof.Bridge.Tree
import proofs.«418389_j13280038879631_2_alg».proof.Proof.Bridge.Fin
import proofs.«418389_j13280038879631_2_alg».proof.Proof.KI.Oks

noncomputable section

namespace Cert.Bridge

open Idealize.ShloMosaic Idealize.ShloMosaic.TcCoe Idealize.ShloMosaic.ValueIdx Idealize.SL.Sem
open Cert.KernelIdeal.Hand

variable (m : (ℓ : Loc Cert.KernelIdeal.nD Cert.KernelIdeal.τ Cert.KernelIdeal.sig) → Buf (Elt Ideal) ℓ) (hO : Ok0 m) (h11 : Ok11 m hO)

theorem result0_eq (c : Dev Cert.KernelIdeal.nD)
    (hlt : ∀ i, (m (c, Proc.devRef .tc Cert.KernelIdeal.main_arg5) i).toNat < 65472)
    (hint : ∀ i, 0 ≤ (m (c, Proc.devRef .tc Cert.KernelIdeal.main_arg5) i).toInt
      ∧ (m (c, Proc.devRef .tc Cert.KernelIdeal.main_arg5) i).toInt < 65472) :
    Wex11 m hO h11 c (Proc.devRef .tc Cert.KernelIdeal.main_v43_0)
      = Cert.ReferenceIdeal.Hand.res97 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) := by
  rw [fin0_eq m hO h11 c, tree_eq m hO c hlt hint]
  rfl

theorem result1_eq (c : Dev Cert.KernelIdeal.nD)
    (hlt : ∀ i, (m (c, Proc.devRef .tc Cert.KernelIdeal.main_arg5) i).toNat < 65472)
    (hint : ∀ i, 0 ≤ (m (c, Proc.devRef .tc Cert.KernelIdeal.main_arg5) i).toInt
      ∧ (m (c, Proc.devRef .tc Cert.KernelIdeal.main_arg5) i).toInt < 65472) :
    Wex11 m hO h11 c (Proc.devRef .tc Cert.KernelIdeal.main_v43_1)
      = Cert.ReferenceIdeal.Hand.res98 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) := by
  rw [fin1_eq m hO h11 c, tree_eq m hO c hlt hint]
  rfl

end Cert.Bridge

end
-- ==== Proof.lean ====
import proofs.«418389_j13280038879631_2_alg».proof.Defs
import proofs.«418389_j13280038879631_2_alg».proof.Proof.Gen.Kernel
import proofs.«418389_j13280038879631_2_alg».proof.Proof.Gen.KernelIdeal
import proofs.«418389_j13280038879631_2_alg».proof.Proof.Gen.ReferenceIdeal
import proofs.«418389_j13280038879631_2_alg».proof.Proof.Gen.Pre_finite_inputs
import proofs.«418389_j13280038879631_2_alg».proof.Proof.K.Frame
import proofs.«418389_j13280038879631_2_alg».proof.Proof.KI.Frame
import proofs.«418389_j13280038879631_2_alg».proof.Proof.KI.IdsRange
import proofs.«418389_j13280038879631_2_alg».proof.Proof.Ref.Run
import proofs.«418389_j13280038879631_2_alg».proof.Proof.Bridge.Results
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ hpre =>
  Cert.Kernel.Hand.frame_of_ids m ρ (fun i => Cert.Pre_finite_inputs.Hand.ids_lt _ _ _ _ _ _ (hpre 0) i)

theorem frame_ki : Cert.frame_KernelIdeal := fun m ρ hpre =>
  Cert.KernelIdeal.Hand.frame_of_ids m ρ (fun i => Cert.Pre_finite_inputs.Hand.ids_lt _ _ _ _ _ _ (hpre 0) i)

theorem frame_r : Cert.frame_ReferenceIdeal := fun m ρ _ => Cert.ReferenceIdeal.Hand.frame_ref m ρ

theorem algebraic : Cert.algebraic_KernelIdeal_ReferenceIdeal := by
  intro m ρ m' ρ' hpre hagree
  have hlt : ∀ i, (m ((0 : Dev Cert.KernelIdeal.nD), Proc.devRef .tc Cert.KernelIdeal.main_arg5) i).toNat < 65472 :=
    fun i => Cert.Pre_finite_inputs.Hand.ids_lt _ _ _ _ _ _ (hpre 0) i
  have hint : ∀ i, 0 ≤ (m ((0 : Dev Cert.KernelIdeal.nD), Proc.devRef .tc Cert.KernelIdeal.main_arg5) i).toInt
      ∧ (m ((0 : Dev Cert.KernelIdeal.nD), Proc.devRef .tc Cert.KernelIdeal.main_arg5) i).toInt < 65472 :=
    fun i => Cert.Pre_finite_inputs.Hand.ids_toInt _ _ _ _ _ _ (hpre 0) i
  have hO := Cert.KernelIdeal.Hand.ok0_of_ids m hlt
  have h11 := Cert.KernelIdeal.Hand.ok11_holds m hO
  refine ⟨fun c => Cert.KernelIdeal.Hand.Wex11 m hO h11 c (Proc.devRef .tc Cert.KernelIdeal.main_v43_0),
    fun c => Cert.KernelIdeal.Hand.Wex11 m hO h11 c (Proc.devRef .tc Cert.KernelIdeal.main_v43_1),
    Cert.KernelIdeal.Hand.run_vals m ρ hlt, ?_⟩
  refine (θ_run Cert.ReferenceIdeal.defs _ _).mono (fun r h c => ?_) (Cert.ReferenceIdeal.Hand.run_results (F := Ideal) m' ρ')
  obtain rfl : c = 0 := Subsingleton.elim _ _
  obtain ⟨e0, e1, e2, e3, e4, e5⟩ := hagree 0
  refine ⟨(h 0).1.trans ?_, (h 0).2.1.trans ?_, (h 0).2.2⟩
  · rw [e0, e1, e2, e3, e4, e5]
    exact (Cert.Bridge.result0_eq m hO h11 0 hlt hint).symm
  · rw [e0, e1, e2, e3, e4, e5]
    exact (Cert.Bridge.result1_eq m hO h11 0 hlt hint).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
